-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v199) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v269) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S118x16 : Shape := ⟨2, ![118, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S100000 : Shape := ⟨1, ![100000]⟩
abbrev S2x3200000 : Shape := ⟨2, ![2, 3200000]⟩
abbrev S_ : Shape := ⟨0, ![]⟩
abbrev S1x3200000 : Shape := ⟨2, ![1, 3200000]⟩
abbrev S3200000 : Shape := ⟨1, ![3200000]⟩
abbrev S3200000x1 : Shape := ⟨2, ![3200000, 1]⟩
abbrev S3200000x3 : Shape := ⟨2, ![3200000, 3]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S118x16 : S_.BroadcastsInDim S118x16 (![] : Fin 0 → Fin S118x16.rank)
  reducesTo_S118x16_S_d0_1 : S118x16.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_
  bcast_S_S2x3200000 : S_.BroadcastsInDim S2x3200000 (![] : Fin 0 → Fin S2x3200000.rank)
  reducesTo_S2x3200000_S_d0_1 : S2x3200000.ReducesTo [0, 1] S_
  slices_S2x3200000_S1x3200000_0_0 : S2x3200000.Slices ![0, 0] S1x3200000
  shapeCasts_S1x3200000_S3200000 : S1x3200000.ShapeCasts S3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S2x3200000_S1x3200000_1_0 : S2x3200000.Slices ![1, 0] S1x3200000
  reducesTo_S3200000x3_S3200000_d1 : S3200000x3.ReducesTo [1] S3200000
  reducesTo_S3200000_S_d0 : S3200000.ReducesTo [0] S_
  gather_S100000x3_S3200000x1_S3200000x3_1_0_n_n_0_1_13_wf : GatherDims.WF S100000x3 S3200000x1 S3200000x3 [1] [0] [] [0] [] 1 ![1, 3]

variable [Facts]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def fn_part6 {F : FTy → Type} [FloatOps F] (main_v79 : IVec S_ 1) (main_v103 : IVec S_ 1) : IVec S_ 1 :=
  let main_v104 : IVec S_ 1 := andi main_v79 main_v103
  main_v104

def fn_part5 {F : FTy → Type} [FloatOps F] (main_arg0 : FVec F S100000x3 .f32) (main_arg13 : IVec S2x3200000 32) (main_v79 : IVec S_ 1) (main_v81 : IVec S3200000 32) (main_v83 : IVec S3200000 1) (main_v84 : IVec S3200000 32) : IVec S_ 1 :=
  let main_v85 : IVec S3200000 32 := addi main_v81 main_v84
  let main_v86 : IVec S3200000 32 := select main_v83 main_v85 main_v81
  let main_v87 : IVec S3200000x1 32 := broadcastInDim S3200000x1 ![0] bcast_S3200000_S3200000x1_0 main_v86
  let main_v88 : FVec F S3200000x3 .f32 := (fun x i => Host.gather gather_S100000x3_S3200000x1_S3200000x3_1_0_n_n_0_1_13 x i) main_arg0 main_v87
  let main_v89 : IVec S1x3200000 32 := (extractStridedSlice S1x3200000 ![1, 0] · slices_S2x3200000_S1x3200000_1_0) main_arg13
  let main_v90 : IVec S3200000 32 := shapeCast S3200000 main_v89 shapeCasts_S1x3200000_S3200000
  let main_c_33 : IVec S_ 32 := constantI S_ 32 0#32
  let main_v91 : IVec S3200000 32 := broadcastInDim S3200000 ![] bcast_S_S3200000 main_c_33
  let main_v92 : IVec S3200000 1 := cmpi .slt main_v90 main_v91
  let main_c_34 : IVec S_ 32 := constantI S_ 32 100000#32
  let main_v93 : IVec S3200000 32 := broadcastInDim S3200000 ![] bcast_S_S3200000 main_c_34
  let main_v94 : IVec S3200000 32 := addi main_v90 main_v93
  let main_v95 : IVec S3200000 32 := select main_v92 main_v94 main_v90
  let main_v96 : IVec S3200000x1 32 := broadcastInDim S3200000x1 ![0] bcast_S3200000_S3200000x1_0 main_v95
  let main_v97 : FVec F S3200000x3 .f32 := (fun x i => Host.gather gather_S100000x3_S3200000x1_S3200000x3_1_0_n_n_0_1_13 x i) main_arg0 main_v96
  let main_v98 : FVec F S3200000x3 .f32 := subf main_v88 main_v97
  let main_v99 : FVec F S3200000x3 .f32 := mulf main_v98 main_v98
  let main_cst_35 : FVec F S_ .f32 := constant S_ .f32 0x00000000#32
  let main_v100 : FVec F S3200000 .f32 := (fun x v => Host.reduceAdd x v reducesTo_S3200000x3_S3200000_d1 h_S_) main_v99 main_cst_35
  let main_cst_36 : FVec F S_ .f32 := constant S_ .f32 0x00000000#32
  let main_v101 : FVec F S3200000 .f32 := broadcastInDim S3200000 ![] bcast_S_S3200000 main_cst_36
  let main_v102 : IVec S3200000 1 := cmpf .ogt main_v100 main_v101
  let main_c_37 : IVec S_ 1 := constantI S_ 1 1#1
  let main_v103 : IVec S_ 1 := (fun x v => Host.reduce IntOp.andi x v reducesTo_S3200000_S_d0 h_S_) main_v102 main_c_37
  fn_part6 (F := F) main_v79 main_v103

def fn_part4 {F : FTy → Type} [FloatOps F] (main_arg0 : FVec F S100000x3 .f32) (main_arg13 : IVec S2x3200000 32) (main_arg14 : IVec S100000 32) (main_v65 : IVec S_ 1) (main_v67 : IVec S2x3200000 1) : IVec S_ 1 :=
  let main_c_26 : IVec S_ 32 := constantI S_ 32 100000#32
  let main_v68 : IVec S2x3200000 32 := broadcastInDim S2x3200000 ![] bcast_S_S2x3200000 main_c_26
  let main_v69 : IVec S2x3200000 1 := cmpi .slt main_arg13 main_v68
  let main_v70 : IVec S2x3200000 1 := andi main_v67 main_v69
  let main_c_27 : IVec S_ 1 := constantI S_ 1 1#1
  let main_v71 : IVec S_ 1 := (fun x v => Host.reduce IntOp.andi x v reducesTo_S2x3200000_S_d0_1 h_S_) main_v70 main_c_27
  let main_v72 : IVec S_ 1 := andi main_v65 main_v71
  let main_c_28 : IVec S_ 32 := constantI S_ 32 0#32
  let main_v73 : IVec S100000 32 := broadcastInDim S100000 ![] bcast_S_S100000 main_c_28
  let main_v74 : IVec S100000 1 := cmpi .sge main_arg14 main_v73
  let main_c_29 : IVec S_ 32 := constantI S_ 32 512#32
  let main_v75 : IVec S100000 32 := broadcastInDim S100000 ![] bcast_S_S100000 main_c_29
  let main_v76 : IVec S100000 1 := cmpi .slt main_arg14 main_v75
  let main_v77 : IVec S100000 1 := andi main_v74 main_v76
  let main_c_30 : IVec S_ 1 := constantI S_ 1 1#1
  let main_v78 : IVec S_ 1 := (fun x v => Host.reduce IntOp.andi x v reducesTo_S100000_S_d0 h_S_) main_v77 main_c_30
  let main_v79 : IVec S_ 1 := andi main_v72 main_v78
  let main_v80 : IVec S1x3200000 32 := (extractStridedSlice S1x3200000 ![0, 0] · slices_S2x3200000_S1x3200000_0_0) main_arg13
  let main_v81 : IVec S3200000 32 := shapeCast S3200000 main_v80 shapeCasts_S1x3200000_S3200000
  let main_c_31 : IVec S_ 32 := constantI S_ 32 0#32
  let main_v82 : IVec S3200000 32 := broadcastInDim S3200000 ![] bcast_S_S3200000 main_c_31
  let main_v83 : IVec S3200000 1 := cmpi .slt main_v81 main_v82
  let main_c_32 : IVec S_ 32 := constantI S_ 32 100000#32
  let main_v84 : IVec S3200000 32 := broadcastInDim S3200000 ![] bcast_S_S3200000 main_c_32
  fn_part5 (F := F) main_arg0 main_arg13 main_v79 main_v81 main_v83 main_v84

def fn_part3 {F : FTy → Type} [FloatOps F] (main_arg0 : FVec F S100000x3 .f32) (main_arg11 : FVec F S1 .f32) (main_arg12 : IVec S100000 32) (main_arg13 : IVec S2x3200000 32) (main_arg14 : IVec S100000 32) (main_v48 : IVec S_ 1) (main_v49 : FVec F S4x1 .f32) (main_v50 : FVec F S4x1 .f32) : IVec S_ 1 :=
  let main_v51 : IVec S4x1 1 := cmpf .olt main_v49 main_v50
  let main_c_19 : IVec S_ 1 := constantI S_ 1 1#1
  let main_v52 : IVec S_ 1 := (fun x v => Host.reduce IntOp.andi x v reducesTo_S4x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S100000 32 := broadcastInDim S100000 ![] bcast_S_S100000 main_c_22
  let main_v60 : IVec S100000 1 := cmpi .sge main_arg12 main_v59
  let main_c_23 : IVec S_ 32 := constantI S_ 32 118#32
  let main_v61 : IVec S100000 32 := broadcastInDim S100000 ![] bcast_S_S100000 main_c_23
  let main_v62 : IVec S100000 1 := cmpi .slt main_arg12 main_v61
  let main_v63 : IVec S100000 1 := andi main_v60 main_v62
  let main_c_24 : IVec S_ 1 := constantI S_ 1 1#1
  let main_v64 : IVec S_ 1 := (fun x v => Host.reduce IntOp.andi x v reducesTo_S100000_S_d0 h_S_) main_v63 main_c_24
  let main_v65 : IVec S_ 1 := andi main_v58 main_v64
  let main_c_25 : IVec S_ 32 := constantI S_ 32 0#32
  let main_v66 : IVec S2x3200000 32 := broadcastInDim S2x3200000 ![] bcast_S_S2x3200000 main_c_25
  let main_v67 : IVec S2x3200000 1 := cmpi .sge main_arg13 main_v66
  fn_part4 (F := F) main_arg0 main_arg13 main_arg14 main_v65 main_v67

def fn_part2 {F : FTy → Type} [FloatOps F] (main_arg0 : FVec F S100000x3 .f32) (main_arg7 : FVec F S16 .f32) (main_arg8 : FVec F S16x4 .f32) (main_arg9 : FVec F S4 .f32) (main_arg10 : FVec F S4x1 .f32) (main_arg11 : FVec F S1 .f32) (main_arg12 : IVec S100000 32) (main_arg13 : IVec S2x3200000 32) (main_arg14 : IVec S100000 32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x4 .f32 := Host.absf main_arg8
  let main_cst_14 : FVec F S_ .f32 := constant S_ .f32 0x7F800000#32
  let main_v40 : FVec F S16x4 .f32 := broadcastInDim S16x4 ![] bcast_S_S16x4 main_cst_14
  let main_v41 : IVec S16x4 1 := cmpf .olt main_v39 main_v40
  let main_c_15 : IVec S_ 1 := constantI S_ 1 1#1
  let main_v42 : IVec S_ 1 := (fun x v => Host.reduce IntOp.andi x v reducesTo_S16x4_S_d0_1 h_S_) main_v41 main_c_15
  let main_v43 : IVec S_ 1 := andi main_v38 main_v42
  let main_v44 : FVec F S4 .f32 := Host.absf main_arg9
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4x1 .f32 := Host.absf main_arg10
  let main_cst_18 : FVec F S_ .f32 := constant S_ .f32 0x7F800000#32
  let main_v50 : FVec F S4x1 .f32 := broadcastInDim S4x1 ![] bcast_S_S4x1 main_cst_18
  fn_part3 (F := F) main_arg0 main_arg11 main_arg12 main_arg13 main_arg14 main_v48 main_v49 main_v50

def fn_part1 {F : FTy → Type} [FloatOps F] (main_arg0 : FVec F S100000x3 .f32) (main_arg4 : FVec F S16x16 .f32) (main_arg5 : FVec F S16 .f32) (main_arg6 : FVec F S16x16 .f32) (main_arg7 : FVec F S16 .f32) (main_arg8 : FVec F S16x4 .f32) (main_arg9 : FVec F S4 .f32) (main_arg10 : FVec F S4x1 .f32) (main_arg11 : FVec F S1 .f32) (main_arg12 : IVec S100000 32) (main_arg13 : IVec S2x3200000 32) (main_arg14 : IVec S100000 32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg0 main_arg7 main_arg8 main_arg9 main_arg10 main_arg11 main_arg12 main_arg13 main_arg14 main_v33

def fn {F : FTy → Type} [FloatOps F] (main_arg0 : FVec F S100000x3 .f32) (main_arg1 : FVec F S118x16 .f32) (main_arg2 : FVec F S16x16 .f32) (main_arg3 : FVec F S16 .f32) (main_arg4 : FVec F S16x16 .f32) (main_arg5 : FVec F S16 .f32) (main_arg6 : FVec F S16x16 .f32) (main_arg7 : FVec F S16 .f32) (main_arg8 : FVec F S16x4 .f32) (main_arg9 : FVec F S4 .f32) (main_arg10 : FVec F S4x1 .f32) (main_arg11 : FVec F S1 .f32) (main_arg12 : IVec S100000 32) (main_arg13 : IVec S2x3200000 32) (main_arg14 : IVec S100000 32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S118x16 .f32 := Host.absf main_arg1
  let main_cst_0 : FVec F S_ .f32 := constant S_ .f32 0x7F800000#32
  let main_v5 : FVec F S118x16 .f32 := broadcastInDim S118x16 ![] bcast_S_S118x16 main_cst_0
  let main_v6 : IVec S118x16 1 := cmpf .olt main_v4 main_v5
  let main_c_1 : IVec S_ 1 := constantI S_ 1 1#1
  let main_v7 : IVec S_ 1 := (fun x v => Host.reduce IntOp.andi x v reducesTo_S118x16_S_d0_1 h_S_) main_v6 main_c_1
  let main_v8 : IVec S_ 1 := andi main_v3 main_v7
  let main_v9 : FVec F S16x16 .f32 := Host.absf main_arg2
  let main_cst_2 : FVec F S_ .f32 := constant S_ .f32 0x7F800000#32
  let main_v10 : FVec F S16x16 .f32 := broadcastInDim S16x16 ![] bcast_S_S16x16 main_cst_2
  let main_v11 : IVec S16x16 1 := cmpf .olt main_v9 main_v10
  let main_c_3 : IVec S_ 1 := constantI S_ 1 1#1
  let main_v12 : IVec S_ 1 := (fun x v => Host.reduce IntOp.andi x v reducesTo_S16x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg0 main_arg4 main_arg5 main_arg6 main_arg7 main_arg8 main_arg9 main_arg10 main_arg11 main_arg12 main_arg13 main_arg14 main_v13 main_v16
-- ==== Kernel.lean ====
abbrev S100000x3 : Shape := ⟨2, ![100000, 3]⟩
abbrev S118x16 : Shape := ⟨2, ![118, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S100000 : Shape := ⟨1, ![100000]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S3300000 : Shape := ⟨1, ![3300000]⟩
abbrev S3300000x1 : Shape := ⟨2, ![3300000, 1]⟩
abbrev S128x16 : Shape := ⟨2, ![128, 16]⟩
abbrev S100000x1 : Shape := ⟨2, ![100000, 1]⟩
abbrev S100000x16 : Shape := ⟨2, ![100000, 16]⟩
abbrev S4000x1 : Shape := ⟨2, ![4000, 1]⟩
abbrev S4000x16 : Shape := ⟨2, ![4000, 16]⟩
abbrev S4000x128 : Shape := ⟨2, ![4000, 128]⟩
abbrev S3300000x16 : Shape := ⟨2, ![3300000, 16]⟩
abbrev S1x16 : Shape := ⟨2, ![1, 16]⟩
abbrev S4x16 : Shape := ⟨2, ![4, 16]⟩
abbrev S1x4 : Shape := ⟨2, ![1, 4]⟩
abbrev S1x1 : Shape := ⟨2, ![1, 1]⟩
abbrev S4000x4 : Shape := ⟨2, ![4000, 4]⟩
abbrev S512x1 : Shape := ⟨2, ![512, 1]⟩

abbrev nBuf : Space → Nat
  | .hbm => 271
  | .vmem => 40
  | .smem => 0
  | _ => 0

abbrev hbmTy0_0 (i : Nat) : BufTy := match i % 128 with
  | 0 => ⟨S100000x3, .f32⟩
  | 1 => ⟨S118x16, .f32⟩
  | 2 => ⟨S16x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x4, .f32⟩
  | 9 => ⟨S4, .f32⟩
  | 10 => ⟨S4x1, .f32⟩
  | 11 => ⟨S1, .f32⟩
  | 12 => ⟨S100000, .i32⟩
  | 13 => ⟨S2x3200000, .i32⟩
  | 14 => ⟨S100000, .i32⟩
  | 15 => ⟨S1x3200000, .i32⟩
  | 16 => ⟨S3200000, .i32⟩
  | 17 => ⟨S1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x3, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x3, .f32⟩
  | 37 => ⟨S3200000x3, .f32⟩
  | 38 => ⟨S3200000x3, .f32⟩
  | 39 => ⟨S_, .f32⟩
  | 40 => ⟨S3200000, .f32⟩
  | 41 => ⟨S3200000, .f32⟩
  | 42 => ⟨S100000, .i32⟩
  | 43 => ⟨S3300000, .i32⟩
  | 44 => ⟨S3300000, .i32⟩
  | 45 => ⟨S_, .f32⟩
  | 46 => ⟨S100000, .f32⟩
  | 47 => ⟨S3300000, .f32⟩
  | 48 => ⟨S_, .f32⟩
  | 49 => ⟨S100000, .f32⟩
  | 50 => ⟨S3300000x1, .i32⟩
  | 51 => ⟨S100000, .f32⟩
  | 52 => ⟨S_, .f32⟩
  | 53 => ⟨S100000, .f32⟩
  | 54 => ⟨S100000, .i1⟩
  | 55 => ⟨S100000, .f32⟩
  | 56 => ⟨S_, .f32⟩
  | 57 => ⟨S_, .f32⟩
  | 58 => ⟨S100000, .f32⟩
  | 59 => ⟨S100000, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000, .f32⟩
  | 69 => ⟨S3300000, .f32⟩
  | 70 => ⟨S_, .i32⟩
  | 71 => ⟨S3300000, .i32⟩
  | 72 => ⟨S3300000, .i1⟩
  | 73 => ⟨S_, .i32⟩
  | 74 => ⟨S3300000, .i32⟩
  | 75 => ⟨S3300000, .i32⟩
  | 76 => ⟨S3300000, .i32⟩
  | 77 => ⟨S3300000x1, .i32⟩
  | 78 => ⟨S3300000, .f32⟩
  | 79 => ⟨S3300000, .f32⟩
  | 80 => ⟨S118x16, .f32⟩
  | 81 => ⟨S_, .i32⟩
  | 82 => ⟨S_, .f32⟩
  | 83 => ⟨S128x16, .f32⟩
  | 84 => ⟨S100000x1, .i32⟩
  | 85 => ⟨S100000x16, .f32⟩
  | 86 => ⟨S_, .i32⟩
  | 87 => ⟨S3300000, .i32⟩
  | 88 => ⟨S3300000, .i1⟩
  | 89 => ⟨S_, .i32⟩
  | 90 => ⟨S3300000, .i32⟩
  | 91 => ⟨S3300000, .i32⟩
  | 92 => ⟨S3300000, .i32⟩
  | 93 => ⟨S3300000x1, .i32⟩
  | 94 => ⟨S3300000x16, .f32⟩
  | 95 => ⟨S3300000x1, .f32⟩
  | 96 => ⟨S3300000x16, .f32⟩
  | 97 => ⟨S3300000x16, .f32⟩
  | 98 => ⟨S_, .f32⟩
  | 99 => ⟨S100000x16, .f32⟩
  | 100 => ⟨S3300000x1, .i32⟩
  | 101 => ⟨S100000x16, .f32⟩
  | 102 => ⟨S1x16, .f32⟩
  | 103 => ⟨S1x16, .f32⟩
  | 104 => ⟨S100000x16, .f32⟩
  | 105 => ⟨S100000x16, .f32⟩
  | 106 => ⟨S100000x16, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x16, .f32⟩
  | 116 => ⟨S3300000x1, .f32⟩
  | 117 => ⟨S3300000x16, .f32⟩
  | 118 => ⟨S3300000x16, .f32⟩
  | 119 => ⟨S_, .f32⟩
  | 120 => ⟨S100000x16, .f32⟩
  | 121 => ⟨S3300000x1, .i32⟩
  | 122 => ⟨S100000x16, .f32⟩
  | 123 => ⟨S4x16, .f32⟩
  | 124 => ⟨S1x4, .f32⟩
  | 125 => ⟨S1x16, .f32⟩
  | 126 => ⟨S1x4, .f32⟩
  | 127 => ⟨S1x1, .f32⟩
  | _ => ⟨S100000x3, .f32⟩

abbrev hbmTy0_1 (i : Nat) : BufTy := match i % 128 with
  | 0 => ⟨S100000x16, .f32⟩
  | 1 => ⟨S100000x1, .f32⟩
  | 2 => ⟨S_, .f32⟩
  | 3 => ⟨S512x1, .f32⟩
  | 4 => ⟨S100000x1, .i32⟩
  | 5 => ⟨S512x1, .f32⟩
  | 6 => ⟨S_, .i32⟩
  | 7 => ⟨S3300000, .i32⟩
  | 8 => ⟨S3300000, .i1⟩
  | 9 => ⟨S_, .i32⟩
  | 10 => ⟨S3300000, .i32⟩
  | 11 => ⟨S3300000, .i32⟩
  | 12 => ⟨S3300000, .i32⟩
  | 13 => ⟨S3300000x1, .i32⟩
  | 14 => ⟨S3300000x16, .f32⟩
  | 15 => ⟨S3300000x1, .f32⟩
  | 16 => ⟨S3300000x16, .f32⟩
  | 17 => ⟨S3300000x16, .f32⟩
  | 18 => ⟨S_, .f32⟩
  | 19 => ⟨S100000x16, .f32⟩
  | 20 => ⟨S3300000x1, .i32⟩
  | 21 => ⟨S100000x16, .f32⟩
  | 22 => ⟨S3300000x16, .f32⟩
  | 23 => ⟨S_, .f32⟩
  | 24 => ⟨S3300000, .f32⟩
  | 25 => ⟨S16x16, .f32⟩
  | 26 => ⟨S16x16, .f32⟩
  | 27 => ⟨S100000x16, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000x16, .f32⟩
  | 37 => ⟨S3300000x16, .f32⟩
  | 38 => ⟨S_, .f32⟩
  | 39 => ⟨S3300000, .f32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S_, .i32⟩
  | 52 => ⟨S3300000, .i32⟩
  | 53 => ⟨S3300000, .i1⟩
  | 54 => ⟨S_, .i32⟩
  | 55 => ⟨S3300000, .i32⟩
  | 56 => ⟨S3300000, .i32⟩
  | 57 => ⟨S3300000, .i32⟩
  | 58 => ⟨S3300000x1, .i32⟩
  | 59 => ⟨S3300000, .f32⟩
  | 60 => ⟨S3300000, .f32⟩
  | 61 => ⟨S3300000, .f32⟩
  | 62 => ⟨S_, .i32⟩
  | 63 => ⟨S3300000, .i32⟩
  | 64 => ⟨S3300000, .i1⟩
  | 65 => ⟨S_, .i32⟩
  | 66 => ⟨S3300000, .i32⟩
  | 67 => ⟨S3300000, .i32⟩
  | 68 => ⟨S3300000, .i32⟩
  | 69 => ⟨S3300000x1, .i32⟩
  | 70 => ⟨S3300000, .f32⟩
  | 71 => ⟨S3300000, .f32⟩
  | 72 => ⟨S3300000, .f32⟩
  | 73 => ⟨S_, .i32⟩
  | 74 => ⟨S3300000, .i32⟩
  | 75 => ⟨S3300000, .i1⟩
  | 76 => ⟨S_, .i32⟩
  | 77 => ⟨S3300000, .i32⟩
  | 78 => ⟨S3300000, .i32⟩
  | 79 => ⟨S3300000, .i32⟩
  | 80 => ⟨S3300000x1, .i32⟩
  | 81 => ⟨S3300000, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S3300000x1, .i32⟩
  | 90 => ⟨S100000, .f32⟩
  | 91 => ⟨S100000, .f32⟩
  | 92 => ⟨S_, .f32⟩
  | 93 => ⟨S100000, .f32⟩
  | 94 => ⟨S100000, .i1⟩
  | 95 => ⟨S_, .f32⟩
  | 96 => ⟨S100000, .f32⟩
  | 97 => ⟨S100000, .f32⟩
  | 98 => ⟨S100000, .f32⟩
  | 99 => ⟨S_, .f32⟩
  | 100 => ⟨S_, .f32⟩
  | 101 => ⟨S100000, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S3200000, .f32⟩
  | 115 => ⟨S3200000x1, .f32⟩
  | 116 => ⟨S3200000x3, .f32⟩
  | 117 => ⟨S3200000x3, .f32⟩
  | 118 => ⟨S3200000x1, .f32⟩
  | 119 => ⟨S3200000x3, .f32⟩
  | 120 => ⟨S3200000x3, .f32⟩
  | 121 => ⟨S_, .f32⟩
  | 122 => ⟨S100000x3, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x3, .f32⟩

abbrev hbmTy0_2 (i : Nat) : BufTy := match i % 128 with
  | 0 => ⟨S3200000, .i32⟩
  | 1 => ⟨S3200000, .i32⟩
  | 2 => ⟨S3200000x1, .i32⟩
  | 3 => ⟨S100000x3, .f32⟩
  | 4 => ⟨S3200000x3, .f32⟩
  | 5 => ⟨S_, .i32⟩
  | 6 => ⟨S3200000, .i32⟩
  | 7 => ⟨S3200000, .i1⟩
  | 8 => ⟨S_, .i32⟩
  | 9 => ⟨S3200000, .i32⟩
  | 10 => ⟨S3200000, .i32⟩
  | 11 => ⟨S3200000, .i32⟩
  | 12 => ⟨S3200000x1, .i32⟩
  | 13 => ⟨S100000x3, .f32⟩
  | 14 => ⟨S100000x3, .f32⟩
  | _ => ⟨S100000x3, .f32⟩

abbrev hbmTy (i : Nat) : BufTy := match i / 128 with
  | 0 => hbmTy0_0 i
  | 1 => hbmTy0_1 i
  | 2 => hbmTy0_2 i
  | _ => ⟨S100000x3, .f32⟩

abbrev bufTy : (tb : Table) → Fin (tcTables nBuf tb) → BufTy
  | .hbm, ⟨i, _⟩ => hbmTy i
  | .local _ .vmem, ⟨0, _⟩ => ⟨S4000x1, .i32⟩
  | .local _ .vmem, ⟨1, _⟩ => ⟨S4000x1, .i32⟩
  | .local _ .vmem, ⟨2, _⟩ => ⟨S128x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S16x16, .f32⟩
  | .local _ .vmem, ⟨9, _⟩ => ⟨S1x16, .f32⟩
  | .local _ .vmem, ⟨10, _⟩ => ⟨S16x16, .f32⟩
  | .local _ .vmem, ⟨11, _⟩ => ⟨S4000x16, .f32⟩
  | .local _ .vmem, ⟨12, _⟩ => ⟨S4000x16, .f32⟩
  | .local _ .vmem, ⟨13, _⟩ => ⟨S4000x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S4000x16, .f32⟩
  | .local _ .vmem, ⟨18, _⟩ => ⟨S4000x16, .f32⟩
  | .local _ .vmem, ⟨19, _⟩ => ⟨S1x16, .f32⟩
  | .local _ .vmem, ⟨20, _⟩ => ⟨S16x4, .f32⟩
  | .local _ .vmem, ⟨21, _⟩ => ⟨S1x4, .f32⟩
  | .local _ .vmem, ⟨22, _⟩ => ⟨S4x1, .f32⟩
  | .local _ .vmem, ⟨23, _⟩ => ⟨S1x1, .f32⟩
  | .local _ .vmem, ⟨24, _⟩ => ⟨S4x16, .f32⟩
  | .local _ .vmem, ⟨25, _⟩ => ⟨S1x4, .f32⟩
  | .local _ .vmem, ⟨26, _⟩ => ⟨S4000x16, .f32⟩
  | .local _ .vmem, ⟨27, _⟩ => ⟨S4000x16, .f32⟩
  | .local _ .vmem, ⟨28, _⟩ => ⟨S4000x1, .f32⟩
  | .local _ .vmem, ⟨29, _⟩ => ⟨S4000x1, .f32⟩
  | .local _ .vmem, ⟨30, _⟩ => ⟨S4000x16, .f32⟩
  | .local _ .vmem, ⟨31, _⟩ => ⟨S4000x16, .f32⟩
  | .local _ .vmem, ⟨32, _⟩ => ⟨S4000x16, .f32⟩
  | .local _ .vmem, ⟨33, _⟩ => ⟨S4000x16, .f32⟩
  | .local _ .vmem, ⟨34, _⟩ => ⟨S4000x16, .f32⟩
  | .local _ .vmem, ⟨35, _⟩ => ⟨S4000x16, .f32⟩
  | .local _ .vmem, ⟨36, _⟩ => ⟨S16x16, .f32⟩
  | .local _ .vmem, ⟨37, _⟩ => ⟨S16x16, .f32⟩
  | .local _ .vmem, ⟨38, _⟩ => ⟨S4000x16, .f32⟩
  | .local _ .vmem, ⟨39, _⟩ => ⟨S4000x16, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_5 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_c_8 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_9 : Ref sig .tc := ⟨.hbm, 70, rfl⟩
abbrev main_v42 : Ref sig .tc := ⟨.hbm, 71, rfl⟩
abbrev main_v43 : Ref sig .tc := ⟨.hbm, 72, rfl⟩
abbrev main_c_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_11 : Ref sig .tc := ⟨.hbm, 81, rfl⟩
abbrev main_call1_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_12 : Ref sig .tc := ⟨.hbm, 86, rfl⟩
abbrev main_v54 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69_0 : Ref sig .tc := ⟨.hbm, 104, rfl⟩
abbrev main_v69_1 : Ref sig .tc := ⟨.hbm, 105, rfl⟩
abbrev main_v69_2 : Ref sig .tc := ⟨.hbm, 106, rfl⟩
abbrev main_c_15 : Ref sig .tc := ⟨.hbm, 107, rfl⟩
abbrev main_v70 : Ref sig .tc := ⟨.hbm, 108, rfl⟩
abbrev main_v71 : Ref sig .tc := ⟨.hbm, 109, rfl⟩
abbrev main_c_16 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_17 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88_0 : Ref sig .tc := ⟨.hbm, 128, rfl⟩
abbrev main_v88_1 : Ref sig .tc := ⟨.hbm, 129, rfl⟩
abbrev main_cst_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_c_19 : Ref sig .tc := ⟨.hbm, 134, rfl⟩
abbrev main_v92 : Ref sig .tc := ⟨.hbm, 135, rfl⟩
abbrev main_v93 : Ref sig .tc := ⟨.hbm, 136, rfl⟩
abbrev main_c_20 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_21 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_23 : Ref sig .tc := ⟨.hbm, 156, rfl⟩
abbrev main_v110 : Ref sig .tc := ⟨.hbm, 157, rfl⟩
abbrev main_v111 : Ref sig .tc := ⟨.hbm, 158, rfl⟩
abbrev main_c_24 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_c_26 : Ref sig .tc := ⟨.hbm, 169, rfl⟩
abbrev main_v120 : Ref sig .tc := ⟨.hbm, 170, rfl⟩
abbrev main_v121 : Ref sig .tc := ⟨.hbm, 171, rfl⟩
abbrev main_c_27 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_28 : Ref sig .tc := ⟨.hbm, 179, rfl⟩
abbrev main_v128 : Ref sig .tc := ⟨.hbm, 180, rfl⟩
abbrev main_v129 : Ref sig .tc := ⟨.hbm, 181, rfl⟩
abbrev main_c_29 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_c_30 : Ref sig .tc := ⟨.hbm, 190, rfl⟩
abbrev main_v137 : Ref sig .tc := ⟨.hbm, 191, rfl⟩
abbrev main_v138 : Ref sig .tc := ⟨.hbm, 192, rfl⟩
abbrev main_c_31 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_c_32 : Ref sig .tc := ⟨.hbm, 201, rfl⟩
abbrev main_v146 : Ref sig .tc := ⟨.hbm, 202, rfl⟩
abbrev main_v147 : Ref sig .tc := ⟨.hbm, 203, rfl⟩
abbrev main_c_33 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_cst_34 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_35 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_36 : Ref sig .tc := ⟨.hbm, 220, rfl⟩
abbrev main_v161 : Ref sig .tc := ⟨.hbm, 221, rfl⟩
abbrev main_v162 : Ref sig .tc := ⟨.hbm, 222, rfl⟩
abbrev main_cst_37 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_cst_38 : Ref sig .tc := ⟨.hbm, 227, rfl⟩
abbrev main_call2_v0 : Ref sig .tc := ⟨.hbm, 228, rfl⟩
abbrev main_call2_v1 : Ref sig .tc := ⟨.hbm, 229, rfl⟩
abbrev main_v166 : Ref sig .tc := ⟨.hbm, 230, rfl⟩
abbrev main_v167 : Ref sig .tc := ⟨.hbm, 231, rfl⟩
abbrev main_c_39 : Ref sig .tc := ⟨.hbm, 232, rfl⟩
abbrev main_v168 : Ref sig .tc := ⟨.hbm, 233, rfl⟩
abbrev main_v169 : Ref sig .tc := ⟨.hbm, 234, rfl⟩
abbrev main_c_40 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_41 : Ref sig .tc := ⟨.hbm, 249, rfl⟩
abbrev main_v183 : Ref sig .tc := ⟨.hbm, 250, rfl⟩
abbrev main_c_42 : Ref sig .tc := ⟨.hbm, 251, rfl⟩
abbrev main_v184 : Ref sig .tc := ⟨.hbm, 252, rfl⟩
abbrev main_v185 : Ref sig .tc := ⟨.hbm, 253, rfl⟩
abbrev main_c_43 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_c_44 : Ref sig .tc := ⟨.hbm, 261, rfl⟩
abbrev main_v192 : Ref sig .tc := ⟨.hbm, 262, rfl⟩
abbrev main_v193 : Ref sig .tc := ⟨.hbm, 263, rfl⟩
abbrev main_c_45 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem8_1 : DmaSem sig := 27
abbrev cc2_sem9_0 : DmaSem sig := 28
abbrev cc2_sem9_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem5_1 : DmaSem sig := 39

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x16 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4000x16 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S4x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x16 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S4000x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S16x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S16x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  pads_S118x16_S128x16_0100_000 : S118x16.Pads (![0, 0] : Fin 2 → Nat) ![10, 0] ![0, 0] S128x16
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x128_d1_w32 : S4000x128.Iotas .tc 32 [1]
  broadcasts_S4000x1_S4000x128 : S4000x1.Broadcasts S4000x128
  natLt_1_32 : 1 < 32
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x16_S16x16_0_0 : ∀ a, (![0, 0] : Fin 2 → Nat) a + S16x16.size a ≤ S16x16.size a
  h_S16x16 : 0 < S16x16.numel
  transposes_S16x4_S4x16_1_0 : S16x4.Transposes [1, 0] S4x16
  transposes_S4x1_S1x4_1_0 : S4x1.Transposes [1, 0] S1x4
  shapeCasts_S4_S1x4 : S4.ShapeCasts S1x4
  shapeCasts_S1_S1x1 : S1.ShapeCasts S1x1
  inb_S16x4_S16x4_0_0 : ∀ a, (![0, 0] : Fin 2 → Nat) a + S16x4.size a ≤ S16x4.size a
  h_S16x4 : 0 < S16x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S4000x4 : S1x4.Broadcasts S4000x4
  inb_S4x1_S4x1_0_0 : ∀ a, (![0, 0] : Fin 2 → Nat) a + S4x1.size a ≤ S4x1.size a
  h_S4x1 : 0 < S4x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4x16_S4x16_0_0 : ∀ a, (![0, 0] : Fin 2 → Nat) a + S4x16.size a ≤ S4x16.size a
  h_S4x16 : 0 < S4x16.numel
  shapeCasts_S4x16_S4x16 : S4x16.ShapeCasts S4x16
  bcast_S_S512x1 : S_.BroadcastsInDim S512x1 (![] : Fin 0 → Fin S512x1.rank)
  bcast_S100000_S100000x1_0 : S100000.BroadcastsInDim S100000x1 (![0] : Fin 1 → Fin S100000x1.rank)
  reducesTo_S3300000x16_S3300000_d1 : S3300000x16.ReducesTo [1] S3300000
  transposes_S16x16_S16x16_1_0 : S16x16.Transposes [1, 0] S16x16
  shapeCasts_S16x16_S16x16 : S16x16.ShapeCasts S16x16
  slices_S3300000_S3200000_0 : S3300000.Slices ![0] S3200000
  bcast_S3200000x1_S3200000x3_0_1 : S3200000x1.BroadcastsInDim S3200000x3 (![0, 1] : Fin 2 → Fin S3200000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S118x16_S16x16_S118x16_1_0_0_1_n_n_wf : DotDims.WF S118x16 S16x16 S118x16 [1] [0] [0] [1] [] []
  dot_S4000x128_S128x16_S4000x16_1_0_0_1_n_n_wf : DotDims.WF S4000x128 S128x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x16_S4000x16_1_0_0_1_n_n_wf : DotDims.WF S4000x16 S16x16 S4000x16 [1] [0] [0] [1] [] []
  dot_S4000x16_S16x4_S4000x4_1_0_0_1_n_n_wf : DotDims.WF S4000x16 S16x4 S4000x4 [1] [0] [0] [1] [] []
  dot_S4000x4_S4x1_S4000x1_1_0_0_1_n_n_wf : DotDims.WF S4000x4 S4x1 S4000x1 [1] [0] [0] [1] [] []
  dot_S4000x1_S1x4_S4000x4_1_0_0_1_n_n_wf : DotDims.WF S4000x1 S1x4 S4000x4 [1] [0] [0] [1] [] []
  dot_S4000x4_S4x16_S4000x16_1_0_0_1_n_n_wf : DotDims.WF S4000x4 S4x16 S4000x16 [1] [0] [0] [1] [] []
  scatter_S512x1_S100000x1_S100000x1_1_0_0_1_wf : ScatterDims.WF S512x1 S100000x1 S100000x1 [1] [0] [0] 1
  scatter_S100000x3_S3200000x1_S3200000x3_1_0_0_1_wf : ScatterDims.WF S100000x3 S3200000x1 S3200000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S100000x1.size a
  hwx0_0 : ∀ i : grid0.Coords, EltTy.bits .i32 = 32 ∨ (Rect.block (s := S100000x1) S4000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x16.size a ≤ S16x16.size a
  hwx1_4 : ∀ i : grid1.Coords, EltTy.bits .f32 = 32 ∨ (Rect.block (s := S16x16) S16x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x16.size a ≤ S100000x16.size a
  hwx1_6 : ∀ i : grid1.Coords, EltTy.bits .f32 = 32 ∨ (Rect.block (s := S100000x16) S4000x16.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x16.size a ≤ S100000x16.size a
  hwx1_7 : ∀ i : grid1.Coords, EltTy.bits .f32 = 32 ∨ (Rect.block (s := S100000x16) S4000x16.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x4.size a ≤ S16x4.size a
  hwx2_2 : ∀ i : grid2.Coords, EltTy.bits .f32 = 32 ∨ (Rect.block (s := S16x4) S16x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4.size a ≤ S1x4.size a
  hwx2_3 : ∀ i : grid2.Coords, EltTy.bits .f32 = 32 ∨ (Rect.block (s := S1x4) S1x4.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4x1.size a ≤ S4x1.size a
  hwx2_4 : ∀ i : grid2.Coords, EltTy.bits .f32 = 32 ∨ (Rect.block (s := S4x1) S4x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S4x16.size a ≤ S4x16.size a
  hwx2_6 : ∀ i : grid2.Coords, EltTy.bits .f32 = 32 ∨ (Rect.block (s := S4x16) S4x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x4.size a ≤ S1x4.size a
  hwx2_7 : ∀ i : grid2.Coords, EltTy.bits .f32 = 32 ∨ (Rect.block (s := S1x4) S1x4.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x16.size a ≤ S100000x16.size a
  hwx2_8 : ∀ i : grid2.Coords, EltTy.bits .f32 = 32 ∨ (Rect.block (s := S100000x16) S4000x16.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x1.size a ≤ S100000x1.size a
  hwx2_9 : ∀ i : grid2.Coords, EltTy.bits .f32 = 32 ∨ (Rect.block (s := S100000x1) S4000x1.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x16.size a ≤ S100000x16.size a
  hwx3_0 : ∀ i : grid3.Coords, EltTy.bits .f32 = 32 ∨ (Rect.block (s := S100000x16) S4000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x16.size a ≤ S100000x16.size a
  hwx3_1 : ∀ i : grid3.Coords, EltTy.bits .f32 = 32 ∨ (Rect.block (s := S100000x16) S4000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x16.size a ≤ S100000x16.size a
  hwx3_2 : ∀ i : grid3.Coords, EltTy.bits .f32 = 32 ∨ (Rect.block (s := S100000x16) S4000x16.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S16x16.size a ≤ S16x16.size a
  hwx3_3 : ∀ i : grid3.Coords, EltTy.bits .f32 = 32 ∨ (Rect.block (s := S16x16) S16x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S16x16.size a ≤ S16x16.size a
  hwx3_4 : ∀ i : grid3.Coords, EltTy.bits .f32 = 32 ∨ (Rect.block (s := S16x16) S16x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x16.size a ≤ S100000x16.size a
  hwx3_5 : ∀ i : grid3.Coords, EltTy.bits .f32 = 32 ∨ (Rect.block (s := S100000x16) S4000x16.size (cc3_transform_5 i) (hinb3_5 i)).WholeWords (EltTy.packing .f32)

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S118x16_S16x16_S118x16_1_0_0_1_n_n : DotDims S118x16 S16x16 S118x16 where
  lhsContracting := [1]
  rhsContracting := [0]
  lhsNonContracting := [0]
  rhsNonContracting := [1]
  lhsBatch := []
  rhsBatch := []
  wf := dot_S118x16_S16x16_S118x16_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S4000x16_S16x4_S4000x4_1_0_0_1_n_n : DotDims S4000x16 S16x4 S4000x4 where
  lhsContracting := [1]
  rhsContracting := [0]
  lhsNonContracting := [0]
  rhsNonContracting := [1]
  lhsBatch := []
  rhsBatch := []
  wf := dot_S4000x16_S16x4_S4000x4_1_0_0_1_n_n_wf
def dot_S4000x4_S4x1_S4000x1_1_0_0_1_n_n : DotDims S4000x4 S4x1 S4000x1 where
  lhsContracting := [1]
  rhsContracting := [0]
  lhsNonContracting := [0]
  rhsNonContracting := [1]
  lhsBatch := []
  rhsBatch := []
  wf := dot_S4000x4_S4x1_S4000x1_1_0_0_1_n_n_wf
def dot_S4000x1_S1x4_S4000x4_1_0_0_1_n_n : DotDims S4000x1 S1x4 S4000x4 where
  lhsContracting := [1]
  rhsContracting := [0]
  lhsNonContracting := [0]
  rhsNonContracting := [1]
  lhsBatch := []
  rhsBatch := []
  wf := dot_S4000x1_S1x4_S4000x4_1_0_0_1_n_n_wf
def dot_S4000x4_S4x16_S4000x16_1_0_0_1_n_n : DotDims S4000x4 S4x16 S4000x16 where
  lhsContracting := [1]
  rhsContracting := [0]
  lhsNonContracting := [0]
  rhsNonContracting := [1]
  lhsBatch := []
  rhsBatch := []
  wf := dot_S4000x4_S4x16_S4000x16_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

abbrev win0_0 : Pipeline.Window sig grid0 :=
  Pipeline.Window.ofSpec (Memref.whole main_v52) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v53) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v66) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v67) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v69_0) S4000x16.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v69_1) S4000x16.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v69_2) S4000x16.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v82) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S16x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x4.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S4x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v87) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v83) S4x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S1x4.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v88_0) S4000x16.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v88_1) S4000x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v104) S4000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69_0) S4000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69_1) S4000x16.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v107) S16x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S16x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v109) S4000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x3 : Shape := ⟨2, ![100000, 3]⟩
abbrev S118x16 : Shape := ⟨2, ![118, 16]⟩
abbrev S16x16 : Shape := ⟨2, ![16, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S100000 : Shape := ⟨1, ![100000]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x3 : Shape := ⟨2, ![3200000, 3]⟩
abbrev S100000x1 : Shape := ⟨2, ![100000, 1]⟩
abbrev S100000x16 : Shape := ⟨2, ![100000, 16]⟩
abbrev S3300000 : Shape := ⟨1, ![3300000]⟩
abbrev S3300000x1 : Shape := ⟨2, ![3300000, 1]⟩
abbrev S3300000x16 : Shape := ⟨2, ![3300000, 16]⟩
abbrev S1x16 : Shape := ⟨2, ![1, 16]⟩
abbrev S100000x4 : Shape := ⟨2, ![100000, 4]⟩
abbrev S1x4 : Shape := ⟨2, ![1, 4]⟩
abbrev S1x1 : Shape := ⟨2, ![1, 1]⟩
abbrev S512x1 : Shape := ⟨2, ![512, 1]⟩

abbrev nBuf : Space → Nat
  | .hbm => 434
  | .vmem => 0
  | .smem => 0
  | _ => 0

abbrev hbmTy0_0 (i : Nat) : BufTy := match i % 128 with
  | 0 => ⟨S100000x3, .f32⟩
  | 1 => ⟨S118x16, .f32⟩
  | 2 => ⟨S16x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x4, .f32⟩
  | 9 => ⟨S4, .f32⟩
  | 10 => ⟨S4x1, .f32⟩
  | 11 => ⟨S1, .f32⟩
  | 12 => ⟨S100000, .i32⟩
  | 13 => ⟨S2x3200000, .i32⟩
  | 14 => ⟨S100000, .i32⟩
  | 15 => ⟨S1x3200000, .i32⟩
  | 16 => ⟨S3200000, .i32⟩
  | 17 => ⟨S1x3200000, .i32⟩
  | 18 => ⟨S3200000, .i32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S3200000x3, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000x3, .f32⟩
  | 37 => ⟨S3200000x3, .f32⟩
  | 38 => ⟨S3200000x3, .f32⟩
  | 39 => ⟨S_, .f32⟩
  | 40 => ⟨S3200000, .f32⟩
  | 41 => ⟨S3200000, .f32⟩
  | 42 => ⟨S_, .f32⟩
  | 43 => ⟨S3200000, .f32⟩
  | 44 => ⟨S3200000, .f32⟩
  | 45 => ⟨S_, .i32⟩
  | 46 => ⟨S100000, .i32⟩
  | 47 => ⟨S100000, .i1⟩
  | 48 => ⟨S_, .i32⟩
  | 49 => ⟨S100000, .i32⟩
  | 50 => ⟨S100000, .i32⟩
  | 51 => ⟨S100000, .i32⟩
  | 52 => ⟨S100000x1, .i32⟩
  | 53 => ⟨S100000x16, .f32⟩
  | 54 => ⟨S100000x16, .f32⟩
  | 55 => ⟨S100000, .i32⟩
  | 56 => ⟨S3300000, .i32⟩
  | 57 => ⟨S3300000, .i32⟩
  | 58 => ⟨S_, .f32⟩
  | 59 => ⟨S100000, .f32⟩
  | 60 => ⟨S3300000, .f32⟩
  | 61 => ⟨S_, .f32⟩
  | 62 => ⟨S100000, .f32⟩
  | 63 => ⟨S_, .f32⟩
  | 64 => ⟨S100000, .f32⟩
  | 65 => ⟨S3300000x1, .i32⟩
  | 66 => ⟨S100000, .f32⟩
  | 67 => ⟨S_, .f32⟩
  | 68 => ⟨S100000, .f32⟩
  | 69 => ⟨S_, .f32⟩
  | 70 => ⟨S100000, .f32⟩
  | 71 => ⟨S100000, .i1⟩
  | 72 => ⟨S100000, .f32⟩
  | 73 => ⟨S100000, .f32⟩
  | 74 => ⟨S_, .f32⟩
  | 75 => ⟨S100000, .f32⟩
  | 76 => ⟨S100000, .f32⟩
  | 77 => ⟨S_, .f32⟩
  | 78 => ⟨S_, .f32⟩
  | 79 => ⟨S100000, .f32⟩
  | 80 => ⟨S100000, .f32⟩
  | 81 => ⟨S_, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x16, .f32⟩
  | 112 => ⟨S3300000x1, .f32⟩
  | 113 => ⟨S3300000x16, .f32⟩
  | 114 => ⟨S3300000x16, .f32⟩
  | 115 => ⟨S_, .f32⟩
  | 116 => ⟨S100000x16, .f32⟩
  | 117 => ⟨S3300000x1, .i32⟩
  | 118 => ⟨S100000x16, .f32⟩
  | 119 => ⟨S_, .f32⟩
  | 120 => ⟨S100000x16, .f32⟩
  | 121 => ⟨S1x16, .f32⟩
  | 122 => ⟨S100000x16, .f32⟩
  | 123 => ⟨S100000x16, .f32⟩
  | 124 => ⟨S_, .f32⟩
  | 125 => ⟨S_, .f32⟩
  | 126 => ⟨S100000x16, .f32⟩
  | 127 => ⟨S100000x16, .i1⟩
  | _ => ⟨S100000x3, .f32⟩

abbrev hbmTy0_1 (i : Nat) : BufTy := match i % 128 with
  | 0 => ⟨S_, .f32⟩
  | 1 => ⟨S100000x16, .f32⟩
  | 2 => ⟨S100000x16, .f32⟩
  | 3 => ⟨S100000x16, .f32⟩
  | 4 => ⟨S100000x16, .f32⟩
  | 5 => ⟨S1x16, .f32⟩
  | 6 => ⟨S100000x16, .f32⟩
  | 7 => ⟨S100000x16, .f32⟩
  | 8 => ⟨S_, .f32⟩
  | 9 => ⟨S_, .f32⟩
  | 10 => ⟨S100000x16, .f32⟩
  | 11 => ⟨S100000x16, .i1⟩
  | 12 => ⟨S_, .f32⟩
  | 13 => ⟨S100000x16, .f32⟩
  | 14 => ⟨S100000x16, .f32⟩
  | 15 => ⟨S100000x16, .f32⟩
  | 16 => ⟨S100000x16, .f32⟩
  | 17 => ⟨S100000, .i32⟩
  | 18 => ⟨S3300000, .i32⟩
  | 19 => ⟨S3300000, .i32⟩
  | 20 => ⟨S_, .f32⟩
  | 21 => ⟨S100000, .f32⟩
  | 22 => ⟨S3300000, .f32⟩
  | 23 => ⟨S_, .f32⟩
  | 24 => ⟨S100000, .f32⟩
  | 25 => ⟨S_, .f32⟩
  | 26 => ⟨S100000, .f32⟩
  | 27 => ⟨S3300000x1, .i32⟩
  | 28 => ⟨S100000, .f32⟩
  | 29 => ⟨S_, .f32⟩
  | 30 => ⟨S100000, .f32⟩
  | 31 => ⟨S_, .f32⟩
  | 32 => ⟨S100000, .f32⟩
  | 33 => ⟨S100000, .i1⟩
  | 34 => ⟨S100000, .f32⟩
  | 35 => ⟨S100000, .f32⟩
  | 36 => ⟨S_, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S_, .i32⟩
  | 56 => ⟨S3300000, .i32⟩
  | 57 => ⟨S3300000, .i1⟩
  | 58 => ⟨S_, .i32⟩
  | 59 => ⟨S3300000, .i32⟩
  | 60 => ⟨S3300000, .i32⟩
  | 61 => ⟨S3300000, .i32⟩
  | 62 => ⟨S3300000x1, .i32⟩
  | 63 => ⟨S3300000, .f32⟩
  | 64 => ⟨S3300000, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x16, .f32⟩
  | 74 => ⟨S3300000x1, .f32⟩
  | 75 => ⟨S3300000x16, .f32⟩
  | 76 => ⟨S3300000x16, .f32⟩
  | 77 => ⟨S_, .f32⟩
  | 78 => ⟨S100000x16, .f32⟩
  | 79 => ⟨S3300000x1, .i32⟩
  | 80 => ⟨S100000x16, .f32⟩
  | 81 => ⟨S_, .f32⟩
  | 82 => ⟨S100000x16, .f32⟩
  | 83 => ⟨S1x16, .f32⟩
  | 84 => ⟨S100000x16, .f32⟩
  | 85 => ⟨S100000x16, .f32⟩
  | 86 => ⟨S_, .f32⟩
  | 87 => ⟨S_, .f32⟩
  | 88 => ⟨S100000x16, .f32⟩
  | 89 => ⟨S100000x16, .i1⟩
  | 90 => ⟨S_, .f32⟩
  | 91 => ⟨S100000x16, .f32⟩
  | 92 => ⟨S100000x16, .f32⟩
  | 93 => ⟨S100000x16, .f32⟩
  | 94 => ⟨S100000x4, .f32⟩
  | 95 => ⟨S1x4, .f32⟩
  | 96 => ⟨S100000x4, .f32⟩
  | 97 => ⟨S100000x4, .f32⟩
  | 98 => ⟨S_, .f32⟩
  | 99 => ⟨S_, .f32⟩
  | 100 => ⟨S100000x4, .f32⟩
  | 101 => ⟨S100000x4, .i1⟩
  | 102 => ⟨S_, .f32⟩
  | 103 => ⟨S100000x4, .f32⟩
  | 104 => ⟨S100000x4, .f32⟩
  | 105 => ⟨S100000x4, .f32⟩
  | 106 => ⟨S100000x1, .f32⟩
  | 107 => ⟨S1x1, .f32⟩
  | 108 => ⟨S100000x1, .f32⟩
  | 109 => ⟨S100000x1, .f32⟩
  | 110 => ⟨S_, .f32⟩
  | 111 => ⟨S_, .f32⟩
  | 112 => ⟨S100000x1, .f32⟩
  | 113 => ⟨S100000x1, .i1⟩
  | 114 => ⟨S_, .f32⟩
  | 115 => ⟨S100000x1, .f32⟩
  | 116 => ⟨S100000x1, .f32⟩
  | 117 => ⟨S100000x1, .f32⟩
  | 118 => ⟨S_, .f32⟩
  | 119 => ⟨S512x1, .f32⟩
  | 120 => ⟨S100000x1, .i32⟩
  | 121 => ⟨S512x1, .f32⟩
  | 122 => ⟨S_, .f32⟩
  | 123 => ⟨S512x1, .f32⟩
  | 124 => ⟨S_, .f32⟩
  | 125 => ⟨S512x1, .f32⟩
  | 126 => ⟨S1, .i32⟩
  | 127 => ⟨S_, .i32⟩
  | _ => ⟨S100000x3, .f32⟩

abbrev hbmTy0_2 (i : Nat) : BufTy := match i % 128 with
  | 0 => ⟨S100000x1, .i32⟩
  | 1 => ⟨S100000x1, .i1⟩
  | 2 => ⟨S1x1, .i32⟩
  | 3 => ⟨S100000x1, .i32⟩
  | 4 => ⟨S100000x1, .i1⟩
  | 5 => ⟨S100000x1, .i1⟩
  | 6 => ⟨S_, .i1⟩
  | 7 => ⟨S100000, .i1⟩
  | 8 => ⟨S100000x1, .f32⟩
  | 9 => ⟨S100000x1, .i1⟩
  | 10 => ⟨S_, .f32⟩
  | 11 => ⟨S100000x1, .f32⟩
  | 12 => ⟨S100000x1, .f32⟩
  | 13 => ⟨S_, .f32⟩
  | 14 => ⟨S100000x1, .f32⟩
  | 15 => ⟨S100000x1, .f32⟩
  | 16 => ⟨S100000x1, .f32⟩
  | 17 => ⟨S100000x1, .f32⟩
  | 18 => ⟨S100000x1, .f32⟩
  | 19 => ⟨S100000x1, .f32⟩
  | 20 => ⟨S100000x4, .f32⟩
  | 21 => ⟨S_, .f32⟩
  | 22 => ⟨S100000x4, .f32⟩
  | 23 => ⟨S100000x4, .f32⟩
  | 24 => ⟨S100000x4, .f32⟩
  | 25 => ⟨S100000x4, .f32⟩
  | 26 => ⟨S100000x4, .f32⟩
  | 27 => ⟨S100000x4, .f32⟩
  | 28 => ⟨S100000x16, .f32⟩
  | 29 => ⟨S_, .f32⟩
  | 30 => ⟨S100000x16, .f32⟩
  | 31 => ⟨S100000x16, .f32⟩
  | 32 => ⟨S100000x16, .f32⟩
  | 33 => ⟨S100000x16, .f32⟩
  | 34 => ⟨S100000x16, .f32⟩
  | 35 => ⟨S100000x16, .f32⟩
  | 36 => ⟨S1, .i32⟩
  | 37 => ⟨S_, .i32⟩
  | 38 => ⟨S3300000x1, .i32⟩
  | 39 => ⟨S3300000x1, .i1⟩
  | 40 => ⟨S1x1, .i32⟩
  | 41 => ⟨S3300000x1, .i32⟩
  | 42 => ⟨S3300000x1, .i1⟩
  | 43 => ⟨S3300000x1, .i1⟩
  | 44 => ⟨S_, .i1⟩
  | 45 => ⟨S3300000, .i1⟩
  | 46 => ⟨S3300000x16, .f32⟩
  | 47 => ⟨S3300000x16, .i1⟩
  | 48 => ⟨S_, .f32⟩
  | 49 => ⟨S3300000x16, .f32⟩
  | 50 => ⟨S3300000x16, .f32⟩
  | 51 => ⟨S3300000x16, .f32⟩
  | 52 => ⟨S_, .f32⟩
  | 53 => ⟨S3300000, .f32⟩
  | 54 => ⟨S3300000x1, .f32⟩
  | 55 => ⟨S3300000x16, .f32⟩
  | 56 => ⟨S3300000x16, .f32⟩
  | 57 => ⟨S_, .f32⟩
  | 58 => ⟨S3300000, .f32⟩
  | 59 => ⟨S_, .f32⟩
  | 60 => ⟨S100000x16, .f32⟩
  | 61 => ⟨S100000x16, .f32⟩
  | 62 => ⟨S3300000, .f32⟩
  | 63 => ⟨S3300000, .f32⟩
  | 64 => ⟨S_, .f32⟩
  | 65 => ⟨S100000, .f32⟩
  | 66 => ⟨S100000, .f32⟩
  | 67 => ⟨S3300000, .f32⟩
  | 68 => ⟨S3300000, .f32⟩
  | 69 => ⟨S_, .f32⟩
  | 70 => ⟨S100000, .f32⟩
  | 71 => ⟨S100000, .f32⟩
  | 72 => ⟨S100000, .f32⟩
  | 73 => ⟨S_, .f32⟩
  | 74 => ⟨S100000, .f32⟩
  | 75 => ⟨S100000, .f32⟩
  | 76 => ⟨S100000, .f32⟩
  | 77 => ⟨S1, .i32⟩
  | 78 => ⟨S_, .i32⟩
  | 79 => ⟨S3300000x1, .i32⟩
  | 80 => ⟨S3300000x1, .i1⟩
  | 81 => ⟨S1x1, .i32⟩
  | 82 => ⟨S3300000x1, .i32⟩
  | 83 => ⟨S3300000x1, .i1⟩
  | 84 => ⟨S3300000x1, .i1⟩
  | 85 => ⟨S_, .i1⟩
  | 86 => ⟨S3300000, .i1⟩
  | 87 => ⟨S3300000, .f32⟩
  | 88 => ⟨S_, .f32⟩
  | 89 => ⟨S3300000, .f32⟩
  | 90 => ⟨S3300000, .f32⟩
  | 91 => ⟨S3300000, .f32⟩
  | 92 => ⟨S3200000, .f32⟩
  | 93 => ⟨S100000, .f32⟩
  | 94 => ⟨S100000x16, .f32⟩
  | 95 => ⟨S_, .f32⟩
  | 96 => ⟨S100000x16, .f32⟩
  | 97 => ⟨S100000x16, .f32⟩
  | 98 => ⟨S100000x16, .f32⟩
  | 99 => ⟨S100000x16, .f32⟩
  | 100 => ⟨S100000x16, .f32⟩
  | 101 => ⟨S100000x16, .f32⟩
  | 102 => ⟨S100000x16, .f32⟩
  | 103 => ⟨S_, .f32⟩
  | 104 => ⟨S100000x16, .f32⟩
  | 105 => ⟨S100000x16, .f32⟩
  | 106 => ⟨S100000x16, .f32⟩
  | 107 => ⟨S100000x16, .f32⟩
  | 108 => ⟨S100000x16, .f32⟩
  | 109 => ⟨S100000x16, .f32⟩
  | 110 => ⟨S1, .i32⟩
  | 111 => ⟨S_, .i32⟩
  | 112 => ⟨S3300000x1, .i32⟩
  | 113 => ⟨S3300000x1, .i1⟩
  | 114 => ⟨S1x1, .i32⟩
  | 115 => ⟨S3300000x1, .i32⟩
  | 116 => ⟨S3300000x1, .i1⟩
  | 117 => ⟨S3300000x1, .i1⟩
  | 118 => ⟨S_, .i1⟩
  | 119 => ⟨S3300000, .i1⟩
  | 120 => ⟨S3300000x16, .f32⟩
  | 121 => ⟨S3300000x16, .i1⟩
  | 122 => ⟨S_, .f32⟩
  | 123 => ⟨S3300000x16, .f32⟩
  | 124 => ⟨S3300000x16, .f32⟩
  | 125 => ⟨S3300000x16, .f32⟩
  | 126 => ⟨S_, .f32⟩
  | 127 => ⟨S3300000, .f32⟩
  | _ => ⟨S100000x3, .f32⟩

abbrev hbmTy0_3 (i : Nat) : BufTy := match i % 128 with
  | 0 => ⟨S3300000x1, .f32⟩
  | 1 => ⟨S_, .f32⟩
  | 2 => ⟨S3300000, .f32⟩
  | 3 => ⟨S3300000, .f32⟩
  | 4 => ⟨S3300000, .f32⟩
  | 5 => ⟨S_, .f32⟩
  | 6 => ⟨S100000, .f32⟩
  | 7 => ⟨S100000, .f32⟩
  | 8 => ⟨S3300000, .f32⟩
  | 9 => ⟨S3300000, .f32⟩
  | 10 => ⟨S_, .f32⟩
  | 11 => ⟨S100000, .f32⟩
  | 12 => ⟨S100000, .f32⟩
  | 13 => ⟨S100000, .f32⟩
  | 14 => ⟨S_, .f32⟩
  | 15 => ⟨S100000, .f32⟩
  | 16 => ⟨S100000, .f32⟩
  | 17 => ⟨S100000, .f32⟩
  | 18 => ⟨S1, .i32⟩
  | 19 => ⟨S_, .i32⟩
  | 20 => ⟨S3300000x1, .i32⟩
  | 21 => ⟨S3300000x1, .i1⟩
  | 22 => ⟨S1x1, .i32⟩
  | 23 => ⟨S3300000x1, .i32⟩
  | 24 => ⟨S3300000x1, .i1⟩
  | 25 => ⟨S3300000x1, .i1⟩
  | 26 => ⟨S_, .i1⟩
  | 27 => ⟨S3300000, .i1⟩
  | 28 => ⟨S3300000, .f32⟩
  | 29 => ⟨S_, .f32⟩
  | 30 => ⟨S3300000, .f32⟩
  | 31 => ⟨S3300000, .f32⟩
  | 32 => ⟨S3300000, .f32⟩
  | 33 => ⟨S3200000, .f32⟩
  | 34 => ⟨S100000, .f32⟩
  | 35 => ⟨S3200000, .f32⟩
  | 36 => ⟨S3200000, .f32⟩
  | 37 => ⟨S3200000x3, .f32⟩
  | 38 => ⟨S3200000x3, .f32⟩
  | 39 => ⟨S3200000x3, .f32⟩
  | 40 => ⟨S3200000x3, .f32⟩
  | 41 => ⟨S3200000x3, .f32⟩
  | 42 => ⟨S_, .f32⟩
  | 43 => ⟨S100000x3, .f32⟩
  | 44 => ⟨S100000x3, .f32⟩
  | 45 => ⟨S_, .f32⟩
  | 46 => ⟨S100000x3, .f32⟩
  | 47 => ⟨S100000x3, .f32⟩
  | 48 => ⟨S100000x3, .f32⟩
  | 49 => ⟨S100000x3, .f32⟩
  | _ => ⟨S100000x3, .f32⟩

abbrev hbmTy (i : Nat) : BufTy := match i / 128 with
  | 0 => hbmTy0_0 i
  | 1 => hbmTy0_1 i
  | 2 => hbmTy0_2 i
  | 3 => hbmTy0_3 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_6 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_cst_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_cst_10 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_11 : Ref sig .tc := ⟨.hbm, 74, rfl⟩
abbrev main_v46 : Ref sig .tc := ⟨.hbm, 75, rfl⟩
abbrev main_v47 : Ref sig .tc := ⟨.hbm, 76, rfl⟩
abbrev main_cst_12 : Ref sig .tc := ⟨.hbm, 77, rfl⟩
abbrev main_call0_v0 : Ref sig .tc := ⟨.hbm, 78, rfl⟩
abbrev main_call0_v1 : Ref sig .tc := ⟨.hbm, 79, rfl⟩
abbrev main_v48_0 : Ref sig .tc := ⟨.hbm, 80, rfl⟩
abbrev main_call0_cst : Ref sig .tc := ⟨.hbm, 81, rfl⟩
abbrev main_v48_1 : Ref sig .tc := ⟨.hbm, 82, rfl⟩
abbrev main_c_13 : Ref sig .tc := ⟨.hbm, 83, rfl⟩
abbrev main_v49 : Ref sig .tc := ⟨.hbm, 84, rfl⟩
abbrev main_v50 : Ref sig .tc := ⟨.hbm, 85, rfl⟩
abbrev main_c_14 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_15 : Ref sig .tc := ⟨.hbm, 93, rfl⟩
abbrev main_v57 : Ref sig .tc := ⟨.hbm, 94, rfl⟩
abbrev main_v58 : Ref sig .tc := ⟨.hbm, 95, rfl⟩
abbrev main_c_16 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_c_17 : Ref sig .tc := ⟨.hbm, 103, rfl⟩
abbrev main_v65 : Ref sig .tc := ⟨.hbm, 104, rfl⟩
abbrev main_v66 : Ref sig .tc := ⟨.hbm, 105, rfl⟩
abbrev main_c_18 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_19 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_20 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_cst_21 : Ref sig .tc := ⟨.hbm, 124, rfl⟩
abbrev main_call1_cst : Ref sig .tc := ⟨.hbm, 125, rfl⟩
abbrev main_call1_v0 : Ref sig .tc := ⟨.hbm, 126, rfl⟩
abbrev main_v82_2 : Ref sig .tc := ⟨.hbm, 127, rfl⟩
abbrev main_v82_1 : Ref sig .tc := ⟨.hbm, 128, rfl⟩
abbrev main_call1_v3 : Ref sig .tc := ⟨.hbm, 129, rfl⟩
abbrev main_call1_v4 : Ref sig .tc := ⟨.hbm, 130, rfl⟩
abbrev main_v82_0 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_cst_22 : Ref sig .tc := ⟨.hbm, 136, rfl⟩
abbrev main_call2_cst : Ref sig .tc := ⟨.hbm, 137, rfl⟩
abbrev main_call2_v0 : Ref sig .tc := ⟨.hbm, 138, rfl⟩
abbrev main_v87_2 : Ref sig .tc := ⟨.hbm, 139, rfl⟩
abbrev main_v87_1 : Ref sig .tc := ⟨.hbm, 140, rfl⟩
abbrev main_call2_v3 : Ref sig .tc := ⟨.hbm, 141, rfl⟩
abbrev main_call2_v4 : Ref sig .tc := ⟨.hbm, 142, rfl⟩
abbrev main_v87_0 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_cst_23 : Ref sig .tc := ⟨.hbm, 148, rfl⟩
abbrev main_v92 : Ref sig .tc := ⟨.hbm, 149, rfl⟩
abbrev main_v93 : Ref sig .tc := ⟨.hbm, 150, rfl⟩
abbrev main_cst_24 : Ref sig .tc := ⟨.hbm, 151, rfl⟩
abbrev main_v94 : Ref sig .tc := ⟨.hbm, 152, rfl⟩
abbrev main_cst_25 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_26 : Ref sig .tc := ⟨.hbm, 157, rfl⟩
abbrev main_v98 : Ref sig .tc := ⟨.hbm, 158, rfl⟩
abbrev main_cst_27 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_cst_28 : Ref sig .tc := ⟨.hbm, 164, rfl⟩
abbrev main_v103 : Ref sig .tc := ⟨.hbm, 165, rfl⟩
abbrev main_v104 : Ref sig .tc := ⟨.hbm, 166, rfl⟩
abbrev main_cst_29 : Ref sig .tc := ⟨.hbm, 167, rfl⟩
abbrev main_call3_v0 : Ref sig .tc := ⟨.hbm, 168, rfl⟩
abbrev main_call3_v1 : Ref sig .tc := ⟨.hbm, 169, rfl⟩
abbrev main_v105_0 : Ref sig .tc := ⟨.hbm, 170, rfl⟩
abbrev main_call3_cst : Ref sig .tc := ⟨.hbm, 171, rfl⟩
abbrev main_v105_1 : Ref sig .tc := ⟨.hbm, 172, rfl⟩
abbrev main_c_30 : Ref sig .tc := ⟨.hbm, 173, rfl⟩
abbrev main_v106 : Ref sig .tc := ⟨.hbm, 174, rfl⟩
abbrev main_v107 : Ref sig .tc := ⟨.hbm, 175, rfl⟩
abbrev main_c_31 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_c_32 : Ref sig .tc := ⟨.hbm, 183, rfl⟩
abbrev main_v114 : Ref sig .tc := ⟨.hbm, 184, rfl⟩
abbrev main_v115 : Ref sig .tc := ⟨.hbm, 185, rfl⟩
abbrev main_c_33 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_c_34 : Ref sig .tc := ⟨.hbm, 193, rfl⟩
abbrev main_v122 : Ref sig .tc := ⟨.hbm, 194, rfl⟩
abbrev main_v123 : Ref sig .tc := ⟨.hbm, 195, rfl⟩
abbrev main_c_35 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_36 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_37 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_cst_38 : Ref sig .tc := ⟨.hbm, 214, rfl⟩
abbrev main_call4_cst : Ref sig .tc := ⟨.hbm, 215, rfl⟩
abbrev main_call4_v0 : Ref sig .tc := ⟨.hbm, 216, rfl⟩
abbrev main_v139_2 : Ref sig .tc := ⟨.hbm, 217, rfl⟩
abbrev main_v139_1 : Ref sig .tc := ⟨.hbm, 218, rfl⟩
abbrev main_call4_v3 : Ref sig .tc := ⟨.hbm, 219, rfl⟩
abbrev main_call4_v4 : Ref sig .tc := ⟨.hbm, 220, rfl⟩
abbrev main_v139_0 : Ref sig .tc := ⟨.hbm, 221, rfl⟩
abbrev main_v140 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_cst_39 : Ref sig .tc := ⟨.hbm, 226, rfl⟩
abbrev main_call5_cst : Ref sig .tc := ⟨.hbm, 227, rfl⟩
abbrev main_call5_v0 : Ref sig .tc := ⟨.hbm, 228, rfl⟩
abbrev main_v144_2 : Ref sig .tc := ⟨.hbm, 229, rfl⟩
abbrev main_v144_1 : Ref sig .tc := ⟨.hbm, 230, rfl⟩
abbrev main_call5_v3 : Ref sig .tc := ⟨.hbm, 231, rfl⟩
abbrev main_call5_v4 : Ref sig .tc := ⟨.hbm, 232, rfl⟩
abbrev main_v144_0 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_40 : Ref sig .tc := ⟨.hbm, 238, rfl⟩
abbrev main_call6_cst : Ref sig .tc := ⟨.hbm, 239, rfl⟩
abbrev main_call6_v0 : Ref sig .tc := ⟨.hbm, 240, rfl⟩
abbrev main_v149_2 : Ref sig .tc := ⟨.hbm, 241, rfl⟩
abbrev main_v149_1 : Ref sig .tc := ⟨.hbm, 242, rfl⟩
abbrev main_call6_v3 : Ref sig .tc := ⟨.hbm, 243, rfl⟩
abbrev main_call6_v4 : Ref sig .tc := ⟨.hbm, 244, rfl⟩
abbrev main_v149_0 : Ref sig .tc := ⟨.hbm, 245, rfl⟩
abbrev main_cst_41 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_cst_42 : Ref sig .tc := ⟨.hbm, 250, rfl⟩
abbrev main_v153 : Ref sig .tc := ⟨.hbm, 251, rfl⟩
abbrev main_cst_43 : Ref sig .tc := ⟨.hbm, 252, rfl⟩
abbrev main_v154 : Ref sig .tc := ⟨.hbm, 253, rfl⟩
abbrev main_c_44 : Ref sig .tc := ⟨.hbm, 254, rfl⟩
abbrev main_c_45 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_c_46 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_cst_47 : Ref sig .tc := ⟨.hbm, 266, rfl⟩
abbrev main_v164 : Ref sig .tc := ⟨.hbm, 267, rfl⟩
abbrev main_v165 : Ref sig .tc := ⟨.hbm, 268, rfl⟩
abbrev main_call7_call0_cst : Ref sig .tc := ⟨.hbm, 269, rfl⟩
abbrev main_call7_call0_v0 : Ref sig .tc := ⟨.hbm, 270, rfl⟩
abbrev main_call7_v0_1 : Ref sig .tc := ⟨.hbm, 271, rfl⟩
abbrev main_call7_v0_0 : Ref sig .tc := ⟨.hbm, 272, rfl⟩
abbrev main_call7_v1 : Ref sig .tc := ⟨.hbm, 273, rfl⟩
abbrev main_call7_v2 : Ref sig .tc := ⟨.hbm, 274, rfl⟩
abbrev main_v166 : Ref sig .tc := ⟨.hbm, 275, rfl⟩
abbrev main_v167 : Ref sig .tc := ⟨.hbm, 276, rfl⟩
abbrev main_call8_call0_cst : Ref sig .tc := ⟨.hbm, 277, rfl⟩
abbrev main_call8_call0_v0 : Ref sig .tc := ⟨.hbm, 278, rfl⟩
abbrev main_call8_v0_1 : Ref sig .tc := ⟨.hbm, 279, rfl⟩
abbrev main_call8_v0_0 : Ref sig .tc := ⟨.hbm, 280, rfl⟩
abbrev main_call8_v1 : Ref sig .tc := ⟨.hbm, 281, rfl⟩
abbrev main_call8_v2 : Ref sig .tc := ⟨.hbm, 282, rfl⟩
abbrev main_v168 : Ref sig .tc := ⟨.hbm, 283, rfl⟩
abbrev main_v169 : Ref sig .tc := ⟨.hbm, 284, rfl⟩
abbrev main_call9_call0_cst : Ref sig .tc := ⟨.hbm, 285, rfl⟩
abbrev main_call9_call0_v0 : Ref sig .tc := ⟨.hbm, 286, rfl⟩
abbrev main_call9_v0_1 : Ref sig .tc := ⟨.hbm, 287, rfl⟩
abbrev main_call9_v0_0 : Ref sig .tc := ⟨.hbm, 288, rfl⟩
abbrev main_call9_v1 : Ref sig .tc := ⟨.hbm, 289, rfl⟩
abbrev main_call9_v2 : Ref sig .tc := ⟨.hbm, 290, rfl⟩
abbrev main_v170 : Ref sig .tc := ⟨.hbm, 291, rfl⟩
abbrev main_c_48 : Ref sig .tc := ⟨.hbm, 292, rfl⟩
abbrev main_c_49 : Ref sig .tc := ⟨.hbm, 293, rfl⟩
abbrev main_v171 : Ref sig .tc := ⟨.hbm, 294, rfl⟩
abbrev main_v172 : Ref sig .tc := ⟨.hbm, 295, rfl⟩
abbrev main_v173 : Ref sig .tc := ⟨.hbm, 296, rfl⟩
abbrev main_v174 : Ref sig .tc := ⟨.hbm, 297, rfl⟩
abbrev main_v175 : Ref sig .tc := ⟨.hbm, 298, rfl⟩
abbrev main_v176 : Ref sig .tc := ⟨.hbm, 299, rfl⟩
abbrev main_c_50 : Ref sig .tc := ⟨.hbm, 300, rfl⟩
abbrev main_v177 : Ref sig .tc := ⟨.hbm, 301, rfl⟩
abbrev main_v178 : Ref sig .tc := ⟨.hbm, 302, rfl⟩
abbrev main_v179 : Ref sig .tc := ⟨.hbm, 303, rfl⟩
abbrev main_cst_51 : Ref sig .tc := ⟨.hbm, 304, rfl⟩
abbrev main_v180 : Ref sig .tc := ⟨.hbm, 305, rfl⟩
abbrev main_v181 : Ref sig .tc := ⟨.hbm, 306, rfl⟩
abbrev main_v182 : Ref sig .tc := ⟨.hbm, 307, rfl⟩
abbrev main_cst_52 : Ref sig .tc := ⟨.hbm, 308, rfl⟩
abbrev main_v183 : Ref sig .tc := ⟨.hbm, 309, rfl⟩
abbrev main_v184 : Ref sig .tc := ⟨.hbm, 310, rfl⟩
abbrev main_v185 : Ref sig .tc := ⟨.hbm, 311, rfl⟩
abbrev main_v186 : Ref sig .tc := ⟨.hbm, 312, rfl⟩
abbrev main_cst_53 : Ref sig .tc := ⟨.hbm, 313, rfl⟩
abbrev main_v187 : Ref sig .tc := ⟨.hbm, 314, rfl⟩
abbrev main_cst_54 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_cst_55 : Ref sig .tc := ⟨.hbm, 320, rfl⟩
abbrev main_v192 : Ref sig .tc := ⟨.hbm, 321, rfl⟩
abbrev main_v193 : Ref sig .tc := ⟨.hbm, 322, rfl⟩
abbrev main_v194 : Ref sig .tc := ⟨.hbm, 323, rfl⟩
abbrev main_v195 : Ref sig .tc := ⟨.hbm, 324, rfl⟩
abbrev main_cst_56 : Ref sig .tc := ⟨.hbm, 325, rfl⟩
abbrev main_v196 : Ref sig .tc := ⟨.hbm, 326, rfl⟩
abbrev main_v197 : Ref sig .tc := ⟨.hbm, 327, rfl⟩
abbrev main_v198 : Ref sig .tc := ⟨.hbm, 328, rfl⟩
abbrev main_call10_cst : Ref sig .tc := ⟨.hbm, 329, rfl⟩
abbrev main_call10_v0 : Ref sig .tc := ⟨.hbm, 330, rfl⟩
abbrev main_v199 : Ref sig .tc := ⟨.hbm, 331, rfl⟩
abbrev main_v200 : Ref sig .tc := ⟨.hbm, 332, rfl⟩
abbrev main_c_57 : Ref sig .tc := ⟨.hbm, 333, rfl⟩
abbrev main_c_58 : Ref sig .tc := ⟨.hbm, 334, rfl⟩
abbrev main_v201 : Ref sig .tc := ⟨.hbm, 335, rfl⟩
abbrev main_v202 : Ref sig .tc := ⟨.hbm, 336, rfl⟩
abbrev main_v203 : Ref sig .tc := ⟨.hbm, 337, rfl⟩
abbrev main_v204 : Ref sig .tc := ⟨.hbm, 338, rfl⟩
abbrev main_v205 : Ref sig .tc := ⟨.hbm, 339, rfl⟩
abbrev main_v206 : Ref sig .tc := ⟨.hbm, 340, rfl⟩
abbrev main_c_59 : Ref sig .tc := ⟨.hbm, 341, rfl⟩
abbrev main_v207 : Ref sig .tc := ⟨.hbm, 342, rfl⟩
abbrev main_v208 : Ref sig .tc := ⟨.hbm, 343, rfl⟩
abbrev main_cst_60 : Ref sig .tc := ⟨.hbm, 344, rfl⟩
abbrev main_v209 : Ref sig .tc := ⟨.hbm, 345, rfl⟩
abbrev main_v210 : Ref sig .tc := ⟨.hbm, 346, rfl⟩
abbrev main_v211 : Ref sig .tc := ⟨.hbm, 347, rfl⟩
abbrev main_v212 : Ref sig .tc := ⟨.hbm, 348, rfl⟩
abbrev main_v213 : Ref sig .tc := ⟨.hbm, 349, rfl⟩
abbrev main_v214 : Ref sig .tc := ⟨.hbm, 350, rfl⟩
abbrev main_call11_call0_cst : Ref sig .tc := ⟨.hbm, 351, rfl⟩
abbrev main_call11_call0_v0 : Ref sig .tc := ⟨.hbm, 352, rfl⟩
abbrev main_call11_v0_1 : Ref sig .tc := ⟨.hbm, 353, rfl⟩
abbrev main_call11_v0_0 : Ref sig .tc := ⟨.hbm, 354, rfl⟩
abbrev main_call11_v1 : Ref sig .tc := ⟨.hbm, 355, rfl⟩
abbrev main_call11_v2 : Ref sig .tc := ⟨.hbm, 356, rfl⟩
abbrev main_v215 : Ref sig .tc := ⟨.hbm, 357, rfl⟩
abbrev main_v216 : Ref sig .tc := ⟨.hbm, 358, rfl⟩
abbrev main_call12_call0_cst : Ref sig .tc := ⟨.hbm, 359, rfl⟩
abbrev main_call12_call0_v0 : Ref sig .tc := ⟨.hbm, 360, rfl⟩
abbrev main_call12_v0_1 : Ref sig .tc := ⟨.hbm, 361, rfl⟩
abbrev main_call12_v0_0 : Ref sig .tc := ⟨.hbm, 362, rfl⟩
abbrev main_call12_v1 : Ref sig .tc := ⟨.hbm, 363, rfl⟩
abbrev main_call12_v2 : Ref sig .tc := ⟨.hbm, 364, rfl⟩
abbrev main_v217 : Ref sig .tc := ⟨.hbm, 365, rfl⟩
abbrev main_c_61 : Ref sig .tc := ⟨.hbm, 366, rfl⟩
abbrev main_c_62 : Ref sig .tc := ⟨.hbm, 367, rfl⟩
abbrev main_v218 : Ref sig .tc := ⟨.hbm, 368, rfl⟩
abbrev main_v219 : Ref sig .tc := ⟨.hbm, 369, rfl⟩
abbrev main_v220 : Ref sig .tc := ⟨.hbm, 370, rfl⟩
abbrev main_v221 : Ref sig .tc := ⟨.hbm, 371, rfl⟩
abbrev main_v222 : Ref sig .tc := ⟨.hbm, 372, rfl⟩
abbrev main_v223 : Ref sig .tc := ⟨.hbm, 373, rfl⟩
abbrev main_c_63 : Ref sig .tc := ⟨.hbm, 374, rfl⟩
abbrev main_v224 : Ref sig .tc := ⟨.hbm, 375, rfl⟩
abbrev main_v225 : Ref sig .tc := ⟨.hbm, 376, rfl⟩
abbrev main_v226 : Ref sig .tc := ⟨.hbm, 377, rfl⟩
abbrev main_cst_64 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_cst_65 : Ref sig .tc := ⟨.hbm, 382, rfl⟩
abbrev main_v230 : Ref sig .tc := ⟨.hbm, 383, rfl⟩
abbrev main_v231 : Ref sig .tc := ⟨.hbm, 384, rfl⟩
abbrev main_cst_66 : Ref sig .tc := ⟨.hbm, 385, rfl⟩
abbrev main_v232 : Ref sig .tc := ⟨.hbm, 386, rfl⟩
abbrev main_v233 : Ref sig .tc := ⟨.hbm, 387, rfl⟩
abbrev main_v234 : Ref sig .tc := ⟨.hbm, 388, rfl⟩
abbrev main_cst_67 : Ref sig .tc := ⟨.hbm, 389, rfl⟩
abbrev main_v235 : Ref sig .tc := ⟨.hbm, 390, rfl⟩
abbrev main_v236 : Ref sig .tc := ⟨.hbm, 391, rfl⟩
abbrev main_v237 : Ref sig .tc := ⟨.hbm, 392, rfl⟩
abbrev main_v238 : Ref sig .tc := ⟨.hbm, 393, rfl⟩
abbrev main_cst_68 : Ref sig .tc := ⟨.hbm, 394, rfl⟩
abbrev main_v239 : Ref sig .tc := ⟨.hbm, 395, rfl⟩
abbrev main_v240 : Ref sig .tc := ⟨.hbm, 396, rfl⟩
abbrev main_v241 : Ref sig .tc := ⟨.hbm, 397, rfl⟩
abbrev main_call13_cst : Ref sig .tc := ⟨.hbm, 398, rfl⟩
abbrev main_call13_v0 : Ref sig .tc := ⟨.hbm, 399, rfl⟩
abbrev main_v242 : Ref sig .tc := ⟨.hbm, 400, rfl⟩
abbrev main_v243 : Ref sig .tc := ⟨.hbm, 401, rfl⟩
abbrev main_c_69 : Ref sig .tc := ⟨.hbm, 402, rfl⟩
abbrev main_c_70 : Ref sig .tc := ⟨.hbm, 403, rfl⟩
abbrev main_v244 : Ref sig .tc := ⟨.hbm, 404, rfl⟩
abbrev main_v245 : Ref sig .tc := ⟨.hbm, 405, rfl⟩
abbrev main_v246 : Ref sig .tc := ⟨.hbm, 406, rfl⟩
abbrev main_v247 : Ref sig .tc := ⟨.hbm, 407, rfl⟩
abbrev main_v248 : Ref sig .tc := ⟨.hbm, 408, rfl⟩
abbrev main_v249 : Ref sig .tc := ⟨.hbm, 409, rfl⟩
abbrev main_c_71 : Ref sig .tc := ⟨.hbm, 410, rfl⟩
abbrev main_v250 : Ref sig .tc := ⟨.hbm, 411, rfl⟩
abbrev main_v251 : Ref sig .tc := ⟨.hbm, 412, rfl⟩
abbrev main_cst_72 : Ref sig .tc := ⟨.hbm, 413, rfl⟩
abbrev main_v252 : Ref sig .tc := ⟨.hbm, 414, rfl⟩
abbrev main_v253 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_v259 : Ref sig .tc := ⟨.hbm, 421, rfl⟩
abbrev main_v260 : Ref sig .tc := ⟨.hbm, 422, rfl⟩
abbrev main_v261 : Ref sig .tc := ⟨.hbm, 423, rfl⟩
abbrev main_v262 : Ref sig .tc := ⟨.hbm, 424, rfl⟩
abbrev main_v263 : Ref sig .tc := ⟨.hbm, 425, rfl⟩
abbrev main_cst_73 : Ref sig .tc := ⟨.hbm, 426, rfl⟩
abbrev main_v264 : Ref sig .tc := ⟨.hbm, 427, rfl⟩
abbrev main_v265 : Ref sig .tc := ⟨.hbm, 428, rfl⟩
abbrev main_cst_74 : Ref sig .tc := ⟨.hbm, 429, rfl⟩
abbrev main_v266 : Ref sig .tc := ⟨.hbm, 430, rfl⟩
abbrev main_v267 : Ref sig .tc := ⟨.hbm, 431, rfl⟩
abbrev main_v268 : Ref sig .tc := ⟨.hbm, 432, rfl⟩
abbrev main_v269 : Ref sig .tc := ⟨.hbm, 433, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  reducesTo_S3200000x3_S3200000_d1 : S3200000x3.ReducesTo [1] S3200000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  concatenates_S3200000_S100000_S3300000_d0 : Shape.Concatenates [S3200000, S100000] S3300000 0
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S100000x4 : S_.BroadcastsInDim S100000x4 (![] : Fin 0 → Fin S100000x4.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  reducesTo_S100000x1_S100000_d1 : S100000x1.ReducesTo [1] S100000
  bcast_S_S3300000x1 : S_.BroadcastsInDim S3300000x1 (![] : Fin 0 → Fin S3300000x1.rank)
  bcast_S1x1_S3300000x1_0_1 : S1x1.BroadcastsInDim S3300000x1 (![0, 1] : Fin 2 → Fin S3300000x1.rank)
  reducesTo_S3300000x1_S3300000_d1 : S3300000x1.ReducesTo [1] S3300000
  bcast_S3300000_S3300000x16_0 : S3300000.BroadcastsInDim S3300000x16 (![0] : Fin 1 → Fin S3300000x16.rank)
  bcast_S_S3300000x16 : S_.BroadcastsInDim S3300000x16 (![] : Fin 0 → Fin S3300000x16.rank)
  reducesTo_S3300000x16_S3300000_d1 : S3300000x16.ReducesTo [1] S3300000
  shapeCasts_S3300000_S3300000x1 : S3300000.ShapeCasts S3300000x1
  slices_S3300000_S3200000_0 : S3300000.Slices ![0] S3200000
  slices_S3300000_S100000_3200000 : S3300000.Slices ![3200000] S100000
  bcast_S3200000_S3200000x3_0 : S3200000.BroadcastsInDim S3200000x3 (![0] : Fin 1 → Fin S3200000x3.rank)
  bcast_S_S100000x3 : S_.BroadcastsInDim S100000x3 (![] : Fin 0 → Fin S100000x3.rank)
  gather_S100000x3_S3200000x1_S3200000x3_1_0_n_n_0_1_13_wf : GatherDims.WF S100000x3 S3200000x1 S3200000x3 [1] [0] [] [0] [] 1 ![1, 3]
  gather_S118x16_S100000x1_S100000x16_1_0_n_n_0_1_116_wf : GatherDims.WF S118x16 S100000x1 S100000x16 [1] [0] [] [0] [] 1 ![1, 16]
  dot_S100000x16_S16x16_S100000x16_1_0_0_1_n_n_wf : DotDims.WF S100000x16 S16x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  dot_S100000x4_S4x1_S100000x1_1_0_0_1_n_n_wf : DotDims.WF S100000x4 S4x1 S100000x1 [1] [0] [0] [1] [] []
  scatter_S512x1_S100000x1_S100000x1_1_0_0_1_wf : ScatterDims.WF S512x1 S100000x1 S100000x1 [1] [0] [0] 1
  gather_S512x1_S100000x1_S100000x1_1_0_n_n_0_1_11_wf : GatherDims.WF S512x1 S100000x1 S100000x1 [1] [0] [] [0] [] 1 ![1, 1]
  dot_S100000x1_S4x1_S100000x4_1_1_0_0_n_n_wf : DotDims.WF S100000x1 S4x1 S100000x4 [1] [1] [0] [0] [] []
  dot_S100000x4_S16x4_S100000x16_1_1_0_0_n_n_wf : DotDims.WF S100000x4 S16x4 S100000x16 [1] [1] [0] [0] [] []
  dot_S100000x16_S16x16_S100000x16_1_1_0_0_n_n_wf : DotDims.WF S100000x16 S16x16 S100000x16 [1] [1] [0] [0] [] []
  scatter_S100000x3_S3200000x1_S3200000x3_1_0_0_1_wf : ScatterDims.WF S100000x3 S3200000x1 S3200000x3 [1] [0] [0] 1

variable [Facts₀]

def gather_S100000x3_S3200000x1_S3200000x3_1_0_n_n_0_1_13 : GatherDims S100000x3 S3200000x1 S3200000x3 where
  offsetDims := [1]
  collapsedSliceDims := [0]
  operandBatchingDims := []
  startIndicesBatchingDims := []
  startIndexMap := [0]
  indexVectorDim := 1
  sliceSizes := ![1, 3]
  wf := gather_S100000x3_S3200000x1_S3200000x3_1_0_n_n_0_1_13_wf
def gather_S118x16_S100000x1_S100000x16_1_0_n_n_0_1_116 : GatherDims S118x16 S100000x1 S100000x16 where
  offsetDims := [1]
  collapsedSliceDims := [0]
  operandBatchingDims := []
  startIndicesBatchingDims := []
  startIndexMap := [0]
  indexVectorDim := 1
  sliceSizes := ![1, 16]
  wf := gather_S118x16_S100000x1_S100000x16_1_0_n_n_0_1_116_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def dot_S100000x4_S4x1_S100000x1_1_0_0_1_n_n : DotDims S100000x4 S4x1 S100000x1 where
  lhsContracting := [1]
  rhsContracting := [0]
  lhsNonContracting := [0]
  rhsNonContracting := [1]
  lhsBatch := []
  rhsBatch := []
  wf := dot_S100000x4_S4x1_S100000x1_1_0_0_1_n_n_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf
def gather_S512x1_S100000x1_S100000x1_1_0_n_n_0_1_11 : GatherDims S512x1 S100000x1 S100000x1 where
  offsetDims := [1]
  collapsedSliceDims := [0]
  operandBatchingDims := []
  startIndicesBatchingDims := []
  startIndexMap := [0]
  indexVectorDim := 1
  sliceSizes := ![1, 1]
  wf := gather_S512x1_S100000x1_S100000x1_1_0_n_n_0_1_11_wf
def dot_S100000x1_S4x1_S100000x4_1_1_0_0_n_n : DotDims S100000x1 S4x1 S100000x4 where
  lhsContracting := [1]
  rhsContracting := [1]
  lhsNonContracting := [0]
  rhsNonContracting := [0]
  lhsBatch := []
  rhsBatch := []
  wf := dot_S100000x1_S4x1_S100000x4_1_1_0_0_n_n_wf
def dot_S100000x4_S16x4_S100000x16_1_1_0_0_n_n : DotDims S100000x4 S16x4 S100000x16 where
  lhsContracting := [1]
  rhsContracting := [1]
  lhsNonContracting := [0]
  rhsNonContracting := [0]
  lhsBatch := []
  rhsBatch := []
  wf := dot_S100000x4_S16x4_S100000x16_1_1_0_0_n_n_wf
def dot_S100000x16_S16x16_S100000x16_1_1_0_0_n_n : DotDims S100000x16 S16x16 S100000x16 where
  lhsContracting := [1]
  rhsContracting := [1]
  lhsNonContracting := [0]
  rhsNonContracting := [0]
  lhsBatch := []
  rhsBatch := []
  wf := dot_S100000x16_S16x16_S100000x16_1_1_0_0_n_n_wf
def scatter_S100000x3_S3200000x1_S3200000x3_1_0_0_1 : ScatterDims S100000x3 S3200000x1 S3200000x3 where
  updateWindowDims := [1]
  insertedWindowDims := [0]
  scatterDimsToOperandDims := [0]
  indexVectorDim := 1
  wf := scatter_S100000x3_S3200000x1_S3200000x3_1_0_0_1_wf

class Facts : Prop extends Facts₀ where

variable [Facts]
-- ==== Proof.Args.lean ====
import Idealize.ShloMosaic.PureOps.Ideal

noncomputable section

namespace Cert.Proof

open Idealize.ShloMosaic

structure Args (F : FTy → Type) where
  pos : FVec F ⟨2, ![100000, 3]⟩ .f32
  emb : FVec F ⟨2, ![118, 16]⟩ .f32
  W1 : FVec F ⟨2, ![16, 16]⟩ .f32
  b1 : FVec F ⟨1, ![16]⟩ .f32
  Wl1 : FVec F ⟨2, ![16, 16]⟩ .f32
  bl1 : FVec F ⟨1, ![16]⟩ .f32
  W2 : FVec F ⟨2, ![16, 16]⟩ .f32
  b2 : FVec F ⟨1, ![16]⟩ .f32
  Wl2 : FVec F ⟨2, ![16, 4]⟩ .f32
  bl2 : FVec F ⟨1, ![4]⟩ .f32
  Wl3 : FVec F ⟨2, ![4, 1]⟩ .f32
  bl3 : FVec F ⟨1, ![1]⟩ .f32
  z : IVec ⟨1, ![100000]⟩ 32
  ei : IVec ⟨2, ![2, 3200000]⟩ 32
  batch : IVec ⟨1, ![100000]⟩ 32

end Cert.Proof

end
-- ==== Proof.RefVals.lean ====
import proofs.«408045_j39298950758801_3_alg».proof.ReferenceIdeal
import proofs.«408045_j39298950758801_3_alg».proof.Proof.Args

noncomputable section

namespace Cert.Proof.Rv

open Cert.ReferenceIdeal Idealize.ShloMosaic Idealize.ShloMosaic.TcCoe

variable {F : FTy → Type} [FloatOps F] [Cert.ReferenceIdeal.Facts]
open Cert.ReferenceIdeal.Facts Cert.ReferenceIdeal.Facts₀

def main_v0 (A : Args F) : (⟨S1x3200000, .i32⟩ : BufTy).Contents (Elt F) :=
  extractStridedSlice S1x3200000 ![0, 0] A.ei slices_S2x3200000_S1x3200000_0_0
def main_v1 (A : Args F) : (⟨S3200000, .i32⟩ : BufTy).Contents (Elt F) :=
  fun i => shapeCast S3200000 (main_v0 A) shapeCasts_S1x3200000_S3200000 i
def main_v2 (A : Args F) : (⟨S1x3200000, .i32⟩ : BufTy).Contents (Elt F) :=
  extractStridedSlice S1x3200000 ![1, 0] A.ei slices_S2x3200000_S1x3200000_1_0
def main_v3 (A : Args F) : (⟨S3200000, .i32⟩ : BufTy).Contents (Elt F) :=
  fun i => shapeCast S3200000 (main_v2 A) shapeCasts_S1x3200000_S3200000 i
def main_c (A : Args F) : (⟨S_, .i32⟩ : BufTy).Contents (Elt F) :=
  (constantI S_ 32 0#32)
def main_v4 (A : Args F) : (⟨S3200000, .i32⟩ : BufTy).Contents (Elt F) :=
  broadcastInDim S3200000 ![] bcast_S_S3200000 (main_c A)
def main_v5 (A : Args F) : (⟨S3200000, .i1⟩ : BufTy).Contents (Elt F) :=
  cmpi .slt (main_v1 A) (main_v4 A)
def main_c_0 (A : Args F) : (⟨S_, .i32⟩ : BufTy).Contents (Elt F) :=
  (constantI S_ 32 100000#32)
def main_v6 (A : Args F) : (⟨S3200000, .i32⟩ : BufTy).Contents (Elt F) :=
  broadcastInDim S3200000 ![] bcast_S_S3200000 (main_c_0 A)
def main_v7 (A : Args F) : (⟨S3200000, .i32⟩ : BufTy).Contents (Elt F) :=
  addi (main_v1 A) (main_v6 A)
def main_v8 (A : Args F) : (⟨S3200000, .i32⟩ : BufTy).Contents (Elt F) :=
  select (main_v5 A) (main_v7 A) (main_v1 A)
def main_v9 (A : Args F) : (⟨S3200000x1, .i32⟩ : BufTy).Contents (Elt F) :=
  broadcastInDim S3200000x1 ![0] bcast_S3200000_S3200000x1_0 (main_v8 A)
def main_v10 (A : Args F) : (⟨S3200000x3, .f32⟩ : BufTy).Contents (Elt F) :=
  Host.gather gather_S100000x3_S3200000x1_S3200000x3_1_0_n_n_0_1_13 A.pos (main_v9 A)
def main_c_1 (A : Args F) : (⟨S_, .i32⟩ : BufTy).Contents (Elt F) :=
  (constantI S_ 32 0#32)
def main_v11 (A : Args F) : (⟨S3200000, .i32⟩ : BufTy).Contents (Elt F) :=
  broadcastInDim S3200000 ![] bcast_S_S3200000 (main_c_1 A)
def main_v12 (A : Args F) : (⟨S3200000, .i1⟩ : BufTy).Contents (Elt F) :=
  cmpi .slt (main_v3 A) (main_v11 A)
def main_c_2 (A : Args F) : (⟨S_, .i32⟩ : BufTy).Contents (Elt F) :=
  (constantI S_ 32 100000#32)
def main_v13 (A : Args F) : (⟨S3200000, .i32⟩ : BufTy).Contents (Elt F) :=
  broadcastInDim S3200000 ![] bcast_S_S3200000 (main_c_2 A)
def main_v14 (A : Args F) : (⟨S3200000, .i32⟩ : BufTy).Contents (Elt F) :=
  addi (main_v3 A) (main_v13 A)
def main_v15 (A : Args F) : (⟨S3200000, .i32⟩ : BufTy).Contents (Elt F) :=
  select (main_v12 A) (main_v14 A) (main_v3 A)
def main_v16 (A : Args F) : (⟨S3200000x1, .i32⟩ : BufTy).Contents (Elt F) :=
  broadcastInDim S3200000x1 ![0] bcast_S3200000_S3200000x1_0 (main_v15 A)
def main_v17 (A : Args F) : (⟨S3200000x3, .f32⟩ : BufTy).Contents (Elt F) :=
  Host.gather gather_S100000x3_S3200000x1_S3200000x3_1_0_n_n_0_1_13 A.pos (main_v16 A)
def main_v18 (A : Args F) : (⟨S3200000x3, .f32⟩ : BufTy).Contents (Elt F) :=
  subf (main_v10 A) (main_v17 A)
def main_v19 (A : Args F) : (⟨S3200000x3, .f32⟩ : BufTy).Contents (Elt F) :=
  mulf (main_v18 A) (main_v18 A)
def main_cst (A : Args F) : (⟨S_, .f32⟩ : BufTy).Contents (Elt F) :=
  (constant S_ .f32 0x00000000#32)
def main_v20 (A : Args F) : (⟨S3200000, .f32⟩ : BufTy).Contents (Elt F) :=
  Host.reduceAdd (main_v19 A) (main_cst A) reducesTo_S3200000x3_S3200000_d1 h_S_
def main_v21 (A : Args F) : (⟨S3200000, .f32⟩ : BufTy).Contents (Elt F) :=
  Host.sqrt (main_v20 A)
def main_cst_3 (A : Args F) : (⟨S_, .f32⟩ : BufTy).Contents (Elt F) :=
  (constant S_ .f32 0x3F000000#32)
def main_v22 (A : Args F) : (⟨S3200000, .f32⟩ : BufTy).Contents (Elt F) :=
  broadcastInDim S3200000 ![] bcast_S_S3200000 (main_cst_3 A)
def main_v23 (A : Args F) : (⟨S3200000, .f32⟩ : BufTy).Contents (Elt F) :=
  Host.divf (main_v22 A) (main_v21 A)
def main_c_4 (A : Args F) : (⟨S_, .i32⟩ : BufTy).Contents (Elt F) :=
  (constantI S_ 32 0#32)
def main_v24 (A : Args F) : (⟨S100000, .i32⟩ : BufTy).Contents (Elt F) :=
  broadcastInDim S100000 ![] bcast_S_S100000 (main_c_4 A)
def main_v25 (A : Args F) : (⟨S100000, .i1⟩ : BufTy).Contents (Elt F) :=
  cmpi .slt A.z (main_v24 A)
def main_c_5 (A : Args F) : (⟨S_, .i32⟩ : BufTy).Contents (Elt F) :=
  (constantI S_ 32 118#32)
def main_v26 (A : Args F) : (⟨S100000, .i32⟩ : BufTy).Contents (Elt F) :=
  broadcastInDim S100000 ![] bcast_S_S100000 (main_c_5 A)
def main_v27 (A : Args F) : (⟨S100000, .i32⟩ : BufTy).Contents (Elt F) :=
  addi A.z (main_v26 A)
def main_v28 (A : Args F) : (⟨S100000, .i32⟩ : BufTy).Contents (Elt F) :=
  select (main_v25 A) (main_v27 A) A.z
def main_v29 (A : Args F) : (⟨S100000x1, .i32⟩ : BufTy).Contents (Elt F) :=
  broadcastInDim S100000x1 ![0] bcast_S100000_S100000x1_0 (main_v28 A)
def main_v30 (A : Args F) : (⟨S100000x16, .f32⟩ : BufTy).Contents (Elt F) :=
  Host.gather gather_S118x16_S100000x1_S100000x16_1_0_n_n_0_1_116 A.emb (main_v29 A)
def main_v31 (A : Args F) : (⟨S100000x16, .f32⟩ : BufTy).Contents (Elt F) :=
  Host.dotGeneral dot_S100000x16_S16x16_S100000x16_1_0_0_1_n_n none (main_v30 A) A.W1
def main_v32 (A : Args F) : (⟨S100000, .i32⟩ : BufTy).Contents (Elt F) :=
  (iotaInDim S100000 32 0)
def main_v33 (A : Args F) : (⟨S3300000, .i32⟩ : BufTy).Contents (Elt F) :=
  concatenate S3300000 0 [⟨S3200000, (main_v1 A)⟩, ⟨S100000, (main_v32 A)⟩] concatenates_S3200000_S100000_S3300000_d0
def main_v34 (A : Args F) : (⟨S3300000, .i32⟩ : BufTy).Contents (Elt F) :=
  concatenate S3300000 0 [⟨S3200000, (main_v3 A)⟩, ⟨S100000, (main_v32 A)⟩] concatenates_S3200000_S100000_S3300000_d0
def main_cst_6 (A : Args F) : (⟨S_, .f32⟩ : BufTy).Contents (Elt F) :=
  (constant S_ .f32 0x3F800000#32)
def main_v35 (A : Args F) : (⟨S100000, .f32⟩ : BufTy).Contents (Elt F) :=
  broadcastInDim S100000 ![] bcast_S_S100000 (main_cst_6 A)
def main_v36 (A : Args F) : (⟨S3300000, .f32⟩ : BufTy).Contents (Elt F) :=
  concatenate S3300000 0 [⟨S3200000, (main_v21 A)⟩, ⟨S100000, (main_v35 A)⟩] concatenates_S3200000_S100000_S3300000_d0
def main_cst_7 (A : Args F) : (⟨S_, .f32⟩ : BufTy).Contents (Elt F) :=
  (constant S_ .f32 0x00000000#32)
def main_v37 (A : Args F) : (⟨S100000, .f32⟩ : BufTy).Contents (Elt F) :=
  broadcastInDim S100000 ![] bcast_S_S100000 (main_cst_7 A)
def main_cst_8 (A : Args F) : (⟨S_, .f32⟩ : BufTy).Contents (Elt F) :=
  (constant S_ .f32 0x00000000#32)
def main_v38 (A : Args F) : (⟨S100000, .f32⟩ : BufTy).Contents (Elt F) :=
  broadcastInDim S100000 ![] bcast_S_S100000 (main_cst_8 A)
def main_v39 (A : Args F) : (⟨S3300000x1, .i32⟩ : BufTy).Contents (Elt F) :=
  broadcastInDim S3300000x1 ![0] bcast_S3300000_S3300000x1_0 (main_v34 A)
def main_v40 (A : Args F) : (⟨S100000, .f32⟩ : BufTy).Contents (Elt F) :=
  Host.scatterAdd scatter_S100000_S3300000x1_S3300000_n_0_0_1 (main_v38 A) (main_v39 A) (main_v36 A)
def main_cst_9 (A : Args F) : (⟨S_, .f32⟩ : BufTy).Contents (Elt F) :=
  (constant S_ .f32 0x00000000#32)
def main_v41 (A : Args F) : (⟨S100000, .f32⟩ : BufTy).Contents (Elt F) :=
  broadcastInDim S100000 ![] bcast_S_S100000 (main_cst_9 A)
def main_cst_10 (A : Args F) : (⟨S_, .f32⟩ : BufTy).Contents (Elt F) :=
  (constant S_ .f32 0x00000000#32)
def main_v42 (A : Args F) : (⟨S100000, .f32⟩ : BufTy).Contents (Elt F) :=
  broadcastInDim S100000 ![] bcast_S_S100000 (main_cst_10 A)
def main_v43 (A : Args F) : (⟨S100000, .i1⟩ : BufTy).Contents (Elt F) :=
  cmpf .ogt (main_v40 A) (main_v42 A)
def main_v44 (A : Args F) : (⟨S100000, .f32⟩ : BufTy).Contents (Elt F) :=
  Host.rsqrt (main_v40 A)
def main_v45 (A : Args F) : (⟨S100000, .f32⟩ : BufTy).Contents (Elt F) :=
  Host.divf (main_v44 A) (main_v40 A)
def main_cst_11 (A : Args F) : (⟨S_, .f32⟩ : BufTy).Contents (Elt F) :=
  (constant S_ .f32 0xBF000000#32)
def main_v46 (A : Args F) : (⟨S100000, .f32⟩ : BufTy).Contents (Elt F) :=
  broadcastInDim S100000 ![] bcast_S_S100000 (main_cst_11 A)
def main_v47 (A : Args F) : (⟨S100000, .f32⟩ : BufTy).Contents (Elt F) :=
  mulf (main_v46 A) (main_v45 A)
def main_cst_12 (A : Args F) : (⟨S_, .f32⟩ : BufTy).Contents (Elt F) :=
  (constant S_ .f32 0x00000000#32)
def main_call0_v0 (A : Args F) : (⟨S_, .f32⟩ : BufTy).Contents (Elt F) :=
  id (main_cst_12 A)
def main_call0_v1 (A : Args F) : (⟨S100000, .f32⟩ : BufTy).Contents (Elt F) :=
  (broadcastInDim S100000 ![] bcast_S_S100000) (main_call0_v0 A)
def main_v48_0 (A : Args F) : (⟨S100000, .f32⟩ : BufTy).Contents (Elt F) :=
  select (main_v43 A) (main_v44 A) (main_call0_v1 A)
def main_call0_cst (A : Args F) : (⟨S_, .f32⟩ : BufTy).Contents (Elt F) :=
  (constant S_ .f32 0x00000000#32)
def main_v48_1 (A : Args F) : (⟨S100000, .f32⟩ : BufTy).Contents (Elt F) :=
  (broadcastInDim S100000 ![] bcast_S_S100000) (main_call0_cst A)
def main_c_13 (A : Args F) : (⟨S_, .i32⟩ : BufTy).Contents (Elt F) :=
  (constantI S_ 32 0#32)
def main_v49 (A : Args F) : (⟨S3300000, .i32⟩ : BufTy).Contents (Elt F) :=
  broadcastInDim S3300000 ![] bcast_S_S3300000 (main_c_13 A)
def main_v50 (A : Args F) : (⟨S3300000, .i1⟩ : BufTy).Contents (Elt F) :=
  cmpi .slt (main_v33 A) (main_v49 A)
def main_c_14 (A : Args F) : (⟨S_, .i32⟩ : BufTy).Contents (Elt F) :=
  (constantI S_ 32 100000#32)
def main_v51 (A : Args F) : (⟨S3300000, .i32⟩ : BufTy).Contents (Elt F) :=
  broadcastInDim S3300000 ![] bcast_S_S3300000 (main_c_14 A)
def main_v52 (A : Args F) : (⟨S3300000, .i32⟩ : BufTy).Contents (Elt F) :=
  addi (main_v33 A) (main_v51 A)
def main_v53 (A : Args F) : (⟨S3300000, .i32⟩ : BufTy).Contents (Elt F) :=
  select (main_v50 A) (main_v52 A) (main_v33 A)
def main_v54 (A : Args F) : (⟨S3300000x1, .i32⟩ : BufTy).Contents (Elt F) :=
  broadcastInDim S3300000x1 ![0] bcast_S3300000_S3300000x1_0 (main_v53 A)
def main_v55 (A : Args F) : (⟨S3300000, .f32⟩ : BufTy).Contents (Elt F) :=
  Host.gather gather_S100000_S3300000x1_S3300000_n_0_n_n_0_1_1 (main_v48_0 A) (main_v54 A)
def main_v56 (A : Args F) : (⟨S3300000, .f32⟩ : BufTy).Contents (Elt F) :=
  mulf (main_v55 A) (main_v36 A)
def main_c_15 (A : Args F) : (⟨S_, .i32⟩ : BufTy).Contents (Elt F) :=
  (constantI S_ 32 0#32)
def main_v57 (A : Args F) : (⟨S3300000, .i32⟩ : BufTy).Contents (Elt F) :=
  broadcastInDim S3300000 ![] bcast_S_S3300000 (main_c_15 A)
def main_v58 (A : Args F) : (⟨S3300000, .i1⟩ : BufTy).Contents (Elt F) :=
  cmpi .slt (main_v34 A) (main_v57 A)
def main_c_16 (A : Args F) : (⟨S_, .i32⟩ : BufTy).Contents (Elt F) :=
  (constantI S_ 32 100000#32)
def main_v59 (A : Args F) : (⟨S3300000, .i32⟩ : BufTy).Contents (Elt F) :=
  broadcastInDim S3300000 ![] bcast_S_S3300000 (main_c_16 A)
def main_v60 (A : Args F) : (⟨S3300000, .i32⟩ : BufTy).Contents (Elt F) :=
  addi (main_v34 A) (main_v59 A)
def main_v61 (A : Args F) : (⟨S3300000, .i32⟩ : BufTy).Contents (Elt F) :=
  select (main_v58 A) (main_v60 A) (main_v34 A)
def main_v62 (A : Args F) : (⟨S3300000x1, .i32⟩ : BufTy).Contents (Elt F) :=
  broadcastInDim S3300000x1 ![0] bcast_S3300000_S3300000x1_0 (main_v61 A)
def main_v63 (A : Args F) : (⟨S3300000, .f32⟩ : BufTy).Contents (Elt F) :=
  Host.gather gather_S100000_S3300000x1_S3300000_n_0_n_n_0_1_1 (main_v48_0 A) (main_v62 A)
def main_v64 (A : Args F) : (⟨S3300000, .f32⟩ : BufTy).Contents (Elt F) :=
  mulf (main_v56 A) (main_v63 A)
def main_c_17 (A : Args F) : (⟨S_, .i32⟩ : BufTy).Contents (Elt F) :=
  (constantI S_ 32 0#32)
def main_v65 (A : Args F) : (⟨S3300000, .i32⟩ : BufTy).Contents (Elt F) :=
  broadcastInDim S3300000 ![] bcast_S_S3300000 (main_c_17 A)
def main_v66 (A : Args F) : (⟨S3300000, .i1⟩ : BufTy).Contents (Elt F) :=
  cmpi .slt (main_v33 A) (main_v65 A)
def main_c_18 (A : Args F) : (⟨S_, .i32⟩ : BufTy).Contents (Elt F) :=
  (constantI S_ 32 100000#32)
def main_v67 (A : Args F) : (⟨S3300000, .i32⟩ : BufTy).Contents (Elt F) :=
  broadcastInDim S3300000 ![] bcast_S_S3300000 (main_c_18 A)
def main_v68 (A : Args F) : (⟨S3300000, .i32⟩ : BufTy).Contents (Elt F) :=
  addi (main_v33 A) (main_v67 A)
def main_v69 (A : Args F) : (⟨S3300000, .i32⟩ : BufTy).Contents (Elt F) :=
  select (main_v66 A) (main_v68 A) (main_v33 A)
def main_v70 (A : Args F) : (⟨S3300000x1, .i32⟩ : BufTy).Contents (Elt F) :=
  broadcastInDim S3300000x1 ![0] bcast_S3300000_S3300000x1_0 (main_v69 A)
def main_v71 (A : Args F) : (⟨S3300000x16, .f32⟩ : BufTy).Contents (Elt F) :=
  Host.gather gather_S100000x16_S3300000x1_S3300000x16_1_0_n_n_0_1_116 (main_v31 A) (main_v70 A)
def main_v72 (A : Args F) : (⟨S3300000x1, .f32⟩ : BufTy).Contents (Elt F) :=
  broadcastInDim S3300000x1 ![0] bcast_S3300000_S3300000x1_0 (main_v64 A)
def main_v73 (A : Args F) : (⟨S3300000x16, .f32⟩ : BufTy).Contents (Elt F) :=
  broadcastInDim S3300000x16 ![0, 1] bcast_S3300000x1_S3300000x16_0_1 (main_v72 A)
def main_v74 (A : Args F) : (⟨S3300000x16, .f32⟩ : BufTy).Contents (Elt F) :=
  mulf (main_v71 A) (main_v73 A)
def main_cst_19 (A : Args F) : (⟨S_, .f32⟩ : BufTy).Contents (Elt F) :=
  (constant S_ .f32 0x00000000#32)
def main_v75 (A : Args F) : (⟨S100000x16, .f32⟩ : BufTy).Contents (Elt F) :=
  broadcastInDim S100000x16 ![] bcast_S_S100000x16 (main_cst_19 A)
def main_v76 (A : Args F) : (⟨S3300000x1, .i32⟩ : BufTy).Contents (Elt F) :=
  broadcastInDim S3300000x1 ![0] bcast_S3300000_S3300000x1_0 (main_v34 A)
def main_v77 (A : Args F) : (⟨S100000x16, .f32⟩ : BufTy).Contents (Elt F) :=
  Host.scatterAdd scatter_S100000x16_S3300000x1_S3300000x16_1_0_0_1 (main_v75 A) (main_v76 A) (main_v74 A)
def main_cst_20 (A : Args F) : (⟨S_, .f32⟩ : BufTy).Contents (Elt F) :=
  (constant S_ .f32 0x00000000#32)
def main_v78 (A : Args F) : (⟨S100000x16, .f32⟩ : BufTy).Contents (Elt F) :=
  broadcastInDim S100000x16 ![] bcast_S_S100000x16 (main_cst_20 A)
def main_v79 (A : Args F) : (⟨S1x16, .f32⟩ : BufTy).Contents (Elt F) :=
  broadcastInDim S1x16 ![1] bcast_S16_S1x16_1 A.b1
def main_v80 (A : Args F) : (⟨S100000x16, .f32⟩ : BufTy).Contents (Elt F) :=
  broadcastInDim S100000x16 ![0, 1] bcast_S1x16_S100000x16_0_1 (main_v79 A)
def main_v81 (A : Args F) : (⟨S100000x16, .f32⟩ : BufTy).Contents (Elt F) :=
  addf (main_v77 A) (main_v80 A)
def main_cst_21 (A : Args F) : (⟨S_, .f32⟩ : BufTy).Contents (Elt F) :=
  (constant S_ .f32 0x3C23D70A#32)
def main_call1_cst (A : Args F) : (⟨S_, .f32⟩ : BufTy).Contents (Elt F) :=
  (constant S_ .f32 0x00000000#32)
def main_call1_v0 (A : Args F) : (⟨S100000x16, .f32⟩ : BufTy).Contents (Elt F) :=
  (broadcastInDim S100000x16 ![] bcast_S_S100000x16) (main_call1_cst A)
def main_v82_2 (A : Args F) : (⟨S100000x16, .i1⟩ : BufTy).Contents (Elt F) :=
  (cmpf .oge) (main_v81 A) (main_call1_v0 A)
def main_v82_1 (A : Args F) : (⟨S_, .f32⟩ : BufTy).Contents (Elt F) :=
  id (main_cst_21 A)
def main_call1_v3 (A : Args F) : (⟨S100000x16, .f32⟩ : BufTy).Contents (Elt F) :=
  (broadcastInDim S100000x16 ![] bcast_S_S100000x16) (main_v82_1 A)
def main_call1_v4 (A : Args F) : (⟨S100000x16, .f32⟩ : BufTy).Contents (Elt F) :=
  mulf (main_call1_v3 A) (main_v81 A)
def main_v82_0 (A : Args F) : (⟨S100000x16, .f32⟩ : BufTy).Contents (Elt F) :=
  select (main_v82_2 A) (main_v81 A) (main_call1_v4 A)
def main_v83 (A : Args F) : (⟨S100000x16, .f32⟩ : BufTy).Contents (Elt F) :=
  Host.dotGeneral dot_S100000x16_S16x16_S100000x16_1_0_0_1_n_n none (main_v82_0 A) A.Wl1
def main_v84 (A : Args F) : (⟨S1x16, .f32⟩ : BufTy).Contents (Elt F) :=
  broadcastInDim S1x16 ![1] bcast_S16_S1x16_1 A.bl1
def main_v85 (A : Args F) : (⟨S100000x16, .f32⟩ : BufTy).Contents (Elt F) :=
  broadcastInDim S100000x16 ![0, 1] bcast_S1x16_S100000x16_0_1 (main_v84 A)
def main_v86 (A : Args F) : (⟨S100000x16, .f32⟩ : BufTy).Contents (Elt F) :=
  addf (main_v83 A) (main_v85 A)
def main_cst_22 (A : Args F) : (⟨S_, .f32⟩ : BufTy).Contents (Elt F) :=
  (constant S_ .f32 0x3C23D70A#32)
def main_call2_cst (A : Args F) : (⟨S_, .f32⟩ : BufTy).Contents (Elt F) :=
  (constant S_ .f32 0x00000000#32)
def main_call2_v0 (A : Args F) : (⟨S100000x16, .f32⟩ : BufTy).Contents (Elt F) :=
  (broadcastInDim S100000x16 ![] bcast_S_S100000x16) (main_call2_cst A)
def main_v87_2 (A : Args F) : (⟨S100000x16, .i1⟩ : BufTy).Contents (Elt F) :=
  (cmpf .oge) (main_v86 A) (main_call2_v0 A)
def main_v87_1 (A : Args F) : (⟨S_, .f32⟩ : BufTy).Contents (Elt F) :=
  id (main_cst_22 A)
def main_call2_v3 (A : Args F) : (⟨S100000x16, .f32⟩ : BufTy).Contents (Elt F) :=
  (broadcastInDim S100000x16 ![] bcast_S_S100000x16) (main_v87_1 A)
def main_call2_v4 (A : Args F) : (⟨S100000x16, .f32⟩ : BufTy).Contents (Elt F) :=
  mulf (main_call2_v3 A) (main_v86 A)
def main_v87_0 (A : Args F) : (⟨S100000x16, .f32⟩ : BufTy).Contents (Elt F) :=
  select (main_v87_2 A) (main_v86 A) (main_call2_v4 A)
def main_v88 (A : Args F) : (⟨S100000x16, .f32⟩ : BufTy).Contents (Elt F) :=
  Host.dotGeneral dot_S100000x16_S16x16_S100000x16_1_0_0_1_n_n none (main_v87_0 A) A.W2
def main_v89 (A : Args F) : (⟨S100000, .i32⟩ : BufTy).Contents (Elt F) :=
  (iotaInDim S100000 32 0)
def main_v90 (A : Args F) : (⟨S3300000, .i32⟩ : BufTy).Contents (Elt F) :=
  concatenate S3300000 0 [⟨S3200000, (main_v1 A)⟩, ⟨S100000, (main_v89 A)⟩] concatenates_S3200000_S100000_S3300000_d0
def main_v91 (A : Args F) : (⟨S3300000, .i32⟩ : BufTy).Contents (Elt F) :=
  concatenate S3300000 0 [⟨S3200000, (main_v3 A)⟩, ⟨S100000, (main_v89 A)⟩] concatenates_S3200000_S100000_S3300000_d0
def main_cst_23 (A : Args F) : (⟨S_, .f32⟩ : BufTy).Contents (Elt F) :=
  (constant S_ .f32 0x3F800000#32)
def main_v92 (A : Args F) : (⟨S100000, .f32⟩ : BufTy).Contents (Elt F) :=
  broadcastInDim S100000 ![] bcast_S_S100000 (main_cst_23 A)
def main_v93 (A : Args F) : (⟨S3300000, .f32⟩ : BufTy).Contents (Elt F) :=
  concatenate S3300000 0 [⟨S3200000, (main_v21 A)⟩, ⟨S100000, (main_v92 A)⟩] concatenates_S3200000_S100000_S3300000_d0
def main_cst_24 (A : Args F) : (⟨S_, .f32⟩ : BufTy).Contents (Elt F) :=
  (constant S_ .f32 0x00000000#32)
def main_v94 (A : Args F) : (⟨S100000, .f32⟩ : BufTy).Contents (Elt F) :=
  broadcastInDim S100000 ![] bcast_S_S100000 (main_cst_24 A)
def main_cst_25 (A : Args F) : (⟨S_, .f32⟩ : BufTy).Contents (Elt F) :=
  (constant S_ .f32 0x00000000#32)
def main_v95 (A : Args F) : (⟨S100000, .f32⟩ : BufTy).Contents (Elt F) :=
  broadcastInDim S100000 ![] bcast_S_S100000 (main_cst_25 A)
def main_v96 (A : Args F) : (⟨S3300000x1, .i32⟩ : BufTy).Contents (Elt F) :=
  broadcastInDim S3300000x1 ![0] bcast_S3300000_S3300000x1_0 (main_v91 A)
def main_v97 (A : Args F) : (⟨S100000, .f32⟩ : BufTy).Contents (Elt F) :=
  Host.scatterAdd scatter_S100000_S3300000x1_S3300000_n_0_0_1 (main_v95 A) (main_v96 A) (main_v93 A)
def main_cst_26 (A : Args F) : (⟨S_, .f32⟩ : BufTy).Contents (Elt F) :=
  (constant S_ .f32 0x00000000#32)
def main_v98 (A : Args F) : (⟨S100000, .f32⟩ : BufTy).Contents (Elt F) :=
  broadcastInDim S100000 ![] bcast_S_S100000 (main_cst_26 A)
def main_cst_27 (A : Args F) : (⟨S_, .f32⟩ : BufTy).Contents (Elt F) :=
  (constant S_ .f32 0x00000000#32)
def main_v99 (A : Args F) : (⟨S100000, .f32⟩ : BufTy).Contents (Elt F) :=
  broadcastInDim S100000 ![] bcast_S_S100000 (main_cst_27 A)
def main_v100 (A : Args F) : (⟨S100000, .i1⟩ : BufTy).Contents (Elt F) :=
  cmpf .ogt (main_v97 A) (main_v99 A)
def main_v101 (A : Args F) : (⟨S100000, .f32⟩ : BufTy).Contents (Elt F) :=
  Host.rsqrt (main_v97 A)
def main_v102 (A : Args F) : (⟨S100000, .f32⟩ : BufTy).Contents (Elt F) :=
  Host.divf (main_v101 A) (main_v97 A)
def main_cst_28 (A : Args F) : (⟨S_, .f32⟩ : BufTy).Contents (Elt F) :=
  (constant S_ .f32 0xBF000000#32)
def main_v103 (A : Args F) : (⟨S100000, .f32⟩ : BufTy).Contents (Elt F) :=
  broadcastInDim S100000 ![] bcast_S_S100000 (main_cst_28 A)
def main_v104 (A : Args F) : (⟨S100000, .f32⟩ : BufTy).Contents (Elt F) :=
  mulf (main_v103 A) (main_v102 A)
def main_cst_29 (A : Args F) : (⟨S_, .f32⟩ : BufTy).Contents (Elt F) :=
  (constant S_ .f32 0x00000000#32)
def main_call3_v0 (A : Args F) : (⟨S_, .f32⟩ : BufTy).Contents (Elt F) :=
  id (main_cst_29 A)
def main_call3_v1 (A : Args F) : (⟨S100000, .f32⟩ : BufTy).Contents (Elt F) :=
  (broadcastInDim S100000 ![] bcast_S_S100000) (main_call3_v0 A)
def main_v105_0 (A : Args F) : (⟨S100000, .f32⟩ : BufTy).Contents (Elt F) :=
  select (main_v100 A) (main_v101 A) (main_call3_v1 A)
def main_call3_cst (A : Args F) : (⟨S_, .f32⟩ : BufTy).Contents (Elt F) :=
  (constant S_ .f32 0x00000000#32)
def main_v105_1 (A : Args F) : (⟨S100000, .f32⟩ : BufTy).Contents (Elt F) :=
  (broadcastInDim S100000 ![] bcast_S_S100000) (main_call3_cst A)
def main_c_30 (A : Args F) : (⟨S_, .i32⟩ : BufTy).Contents (Elt F) :=
  (constantI S_ 32 0#32)
def main_v106 (A : Args F) : (⟨S3300000, .i32⟩ : BufTy).Contents (Elt F) :=
  broadcastInDim S3300000 ![] bcast_S_S3300000 (main_c_30 A)
def main_v107 (A : Args F) : (⟨S3300000, .i1⟩ : BufTy).Contents (Elt F) :=
  cmpi .slt (main_v90 A) (main_v106 A)
def main_c_31 (A : Args F) : (⟨S_, .i32⟩ : BufTy).Contents (Elt F) :=
  (constantI S_ 32 100000#32)
def main_v108 (A : Args F) : (⟨S3300000, .i32⟩ : BufTy).Contents (Elt F) :=
  broadcastInDim S3300000 ![] bcast_S_S3300000 (main_c_31 A)
def main_v109 (A : Args F) : (⟨S3300000, .i32⟩ : BufTy).Contents (Elt F) :=
  addi (main_v90 A) (main_v108 A)
def main_v110 (A : Args F) : (⟨S3300000, .i32⟩ : BufTy).Contents (Elt F) :=
  select (main_v107 A) (main_v109 A) (main_v90 A)
def main_v111 (A : Args F) : (⟨S3300000x1, .i32⟩ : BufTy).Contents (Elt F) :=
  broadcastInDim S3300000x1 ![0] bcast_S3300000_S3300000x1_0 (main_v110 A)
def main_v112 (A : Args F) : (⟨S3300000, .f32⟩ : BufTy).Contents (Elt F) :=
  Host.gather gather_S100000_S3300000x1_S3300000_n_0_n_n_0_1_1 (main_v105_0 A) (main_v111 A)
def main_v113 (A : Args F) : (⟨S3300000, .f32⟩ : BufTy).Contents (Elt F) :=
  mulf (main_v112 A) (main_v93 A)
def main_c_32 (A : Args F) : (⟨S_, .i32⟩ : BufTy).Contents (Elt F) :=
  (constantI S_ 32 0#32)
def main_v114 (A : Args F) : (⟨S3300000, .i32⟩ : BufTy).Contents (Elt F) :=
  broadcastInDim S3300000 ![] bcast_S_S3300000 (main_c_32 A)
def main_v115 (A : Args F) : (⟨S3300000, .i1⟩ : BufTy).Contents (Elt F) :=
  cmpi .slt (main_v91 A) (main_v114 A)
def main_c_33 (A : Args F) : (⟨S_, .i32⟩ : BufTy).Contents (Elt F) :=
  (constantI S_ 32 100000#32)
def main_v116 (A : Args F) : (⟨S3300000, .i32⟩ : BufTy).Contents (Elt F) :=
  broadcastInDim S3300000 ![] bcast_S_S3300000 (main_c_33 A)
def main_v117 (A : Args F) : (⟨S3300000, .i32⟩ : BufTy).Contents (Elt F) :=
  addi (main_v91 A) (main_v116 A)
def main_v118 (A : Args F) : (⟨S3300000, .i32⟩ : BufTy).Contents (Elt F) :=
  select (main_v115 A) (main_v117 A) (main_v91 A)
def main_v119 (A : Args F) : (⟨S3300000x1, .i32⟩ : BufTy).Contents (Elt F) :=
  broadcastInDim S3300000x1 ![0] bcast_S3300000_S3300000x1_0 (main_v118 A)
def main_v120 (A : Args F) : (⟨S3300000, .f32⟩ : BufTy).Contents (Elt F) :=
  Host.gather gather_S100000_S3300000x1_S3300000_n_0_n_n_0_1_1 (main_v105_0 A) (main_v119 A)
def main_v121 (A : Args F) : (⟨S3300000, .f32⟩ : BufTy).Contents (Elt F) :=
  mulf (main_v113 A) (main_v120 A)
def main_c_34 (A : Args F) : (⟨S_, .i32⟩ : BufTy).Contents (Elt F) :=
  (constantI S_ 32 0#32)
def main_v122 (A : Args F) : (⟨S3300000, .i32⟩ : BufTy).Contents (Elt F) :=
  broadcastInDim S3300000 ![] bcast_S_S3300000 (main_c_34 A)
def main_v123 (A : Args F) : (⟨S3300000, .i1⟩ : BufTy).Contents (Elt F) :=
  cmpi .slt (main_v90 A) (main_v122 A)
def main_c_35 (A : Args F) : (⟨S_, .i32⟩ : BufTy).Contents (Elt F) :=
  (constantI S_ 32 100000#32)
def main_v124 (A : Args F) : (⟨S3300000, .i32⟩ : BufTy).Contents (Elt F) :=
  broadcastInDim S3300000 ![] bcast_S_S3300000 (main_c_35 A)
def main_v125 (A : Args F) : (⟨S3300000, .i32⟩ : BufTy).Contents (Elt F) :=
  addi (main_v90 A) (main_v124 A)
def main_v126 (A : Args F) : (⟨S3300000, .i32⟩ : BufTy).Contents (Elt F) :=
  select (main_v123 A) (main_v125 A) (main_v90 A)
def main_v127 (A : Args F) : (⟨S3300000x1, .i32⟩ : BufTy).Contents (Elt F) :=
  broadcastInDim S3300000x1 ![0] bcast_S3300000_S3300000x1_0 (main_v126 A)
def main_v128 (A : Args F) : (⟨S3300000x16, .f32⟩ : BufTy).Contents (Elt F) :=
  Host.gather gather_S100000x16_S3300000x1_S3300000x16_1_0_n_n_0_1_116 (main_v88 A) (main_v127 A)
def main_v129 (A : Args F) : (⟨S3300000x1, .f32⟩ : BufTy).Contents (Elt F) :=
  broadcastInDim S3300000x1 ![0] bcast_S3300000_S3300000x1_0 (main_v121 A)
def main_v130 (A : Args F) : (⟨S3300000x16, .f32⟩ : BufTy).Contents (Elt F) :=
  broadcastInDim S3300000x16 ![0, 1] bcast_S3300000x1_S3300000x16_0_1 (main_v129 A)
def main_v131 (A : Args F) : (⟨S3300000x16, .f32⟩ : BufTy).Contents (Elt F) :=
  mulf (main_v128 A) (main_v130 A)
def main_cst_36 (A : Args F) : (⟨S_, .f32⟩ : BufTy).Contents (Elt F) :=
  (constant S_ .f32 0x00000000#32)
def main_v132 (A : Args F) : (⟨S100000x16, .f32⟩ : BufTy).Contents (Elt F) :=
  broadcastInDim S100000x16 ![] bcast_S_S100000x16 (main_cst_36 A)
def main_v133 (A : Args F) : (⟨S3300000x1, .i32⟩ : BufTy).Contents (Elt F) :=
  broadcastInDim S3300000x1 ![0] bcast_S3300000_S3300000x1_0 (main_v91 A)
def main_v134 (A : Args F) : (⟨S100000x16, .f32⟩ : BufTy).Contents (Elt F) :=
  Host.scatterAdd scatter_S100000x16_S3300000x1_S3300000x16_1_0_0_1 (main_v132 A) (main_v133 A) (main_v131 A)
def main_cst_37 (A : Args F) : (⟨S_, .f32⟩ : BufTy).Contents (Elt F) :=
  (constant S_ .f32 0x00000000#32)
def main_v135 (A : Args F) : (⟨S100000x16, .f32⟩ : BufTy).Contents (Elt F) :=
  broadcastInDim S100000x16 ![] bcast_S_S100000x16 (main_cst_37 A)
def main_v136 (A : Args F) : (⟨S1x16, .f32⟩ : BufTy).Contents (Elt F) :=
  broadcastInDim S1x16 ![1] bcast_S16_S1x16_1 A.b2
def main_v137 (A : Args F) : (⟨S100000x16, .f32⟩ : BufTy).Contents (Elt F) :=
  broadcastInDim S100000x16 ![0, 1] bcast_S1x16_S100000x16_0_1 (main_v136 A)
def main_v138 (A : Args F) : (⟨S100000x16, .f32⟩ : BufTy).Contents (Elt F) :=
  addf (main_v134 A) (main_v137 A)
def main_cst_38 (A : Args F) : (⟨S_, .f32⟩ : BufTy).Contents (Elt F) :=
  (constant S_ .f32 0x3C23D70A#32)
def main_call4_cst (A : Args F) : (⟨S_, .f32⟩ : BufTy).Contents (Elt F) :=
  (constant S_ .f32 0x00000000#32)
def main_call4_v0 (A : Args F) : (⟨S100000x16, .f32⟩ : BufTy).Contents (Elt F) :=
  (broadcastInDim S100000x16 ![] bcast_S_S100000x16) (main_call4_cst A)
def main_v139_2 (A : Args F) : (⟨S100000x16, .i1⟩ : BufTy).Contents (Elt F) :=
  (cmpf .oge) (main_v138 A) (main_call4_v0 A)
def main_v139_1 (A : Args F) : (⟨S_, .f32⟩ : BufTy).Contents (Elt F) :=
  id (main_cst_38 A)
def main_call4_v3 (A : Args F) : (⟨S100000x16, .f32⟩ : BufTy).Contents (Elt F) :=
  (broadcastInDim S100000x16 ![] bcast_S_S100000x16) (main_v139_1 A)
def main_call4_v4 (A : Args F) : (⟨S100000x16, .f32⟩ : BufTy).Contents (Elt F) :=
  mulf (main_call4_v3 A) (main_v138 A)
def main_v139_0 (A : Args F) : (⟨S100000x16, .f32⟩ : BufTy).Contents (Elt F) :=
  select (main_v139_2 A) (main_v138 A) (main_call4_v4 A)
def main_v140 (A : Args F) : (⟨S100000x4, .f32⟩ : BufTy).Contents (Elt F) :=
  Host.dotGeneral dot_S100000x16_S16x4_S100000x4_1_0_0_1_n_n none (main_v139_0 A) A.Wl2
def main_v141 (A : Args F) : (⟨S1x4, .f32⟩ : BufTy).Contents (Elt F) :=
  broadcastInDim S1x4 ![1] bcast_S4_S1x4_1 A.bl2
def main_v142 (A : Args F) : (⟨S100000x4, .f32⟩ : BufTy).Contents (Elt F) :=
  broadcastInDim S100000x4 ![0, 1] bcast_S1x4_S100000x4_0_1 (main_v141 A)
def main_v143 (A : Args F) : (⟨S100000x4, .f32⟩ : BufTy).Contents (Elt F) :=
  addf (main_v140 A) (main_v142 A)
def main_cst_39 (A : Args F) : (⟨S_, .f32⟩ : BufTy).Contents (Elt F) :=
  (constant S_ .f32 0x3C23D70A#32)
def main_call5_cst (A : Args F) : (⟨S_, .f32⟩ : BufTy).Contents (Elt F) :=
  (constant S_ .f32 0x00000000#32)
def main_call5_v0 (A : Args F) : (⟨S100000x4, .f32⟩ : BufTy).Contents (Elt F) :=
  (broadcastInDim S100000x4 ![] bcast_S_S100000x4) (main_call5_cst A)
def main_v144_2 (A : Args F) : (⟨S100000x4, .i1⟩ : BufTy).Contents (Elt F) :=
  (cmpf .oge) (main_v143 A) (main_call5_v0 A)
def main_v144_1 (A : Args F) : (⟨S_, .f32⟩ : BufTy).Contents (Elt F) :=
  id (main_cst_39 A)
def main_call5_v3 (A : Args F) : (⟨S100000x4, .f32⟩ : BufTy).Contents (Elt F) :=
  (broadcastInDim S100000x4 ![] bcast_S_S100000x4) (main_v144_1 A)
def main_call5_v4 (A : Args F) : (⟨S100000x4, .f32⟩ : BufTy).Contents (Elt F) :=
  mulf (main_call5_v3 A) (main_v143 A)
def main_v144_0 (A : Args F) : (⟨S100000x4, .f32⟩ : BufTy).Contents (Elt F) :=
  select (main_v144_2 A) (main_v143 A) (main_call5_v4 A)
def main_v145 (A : Args F) : (⟨S100000x1, .f32⟩ : BufTy).Contents (Elt F) :=
  Host.dotGeneral dot_S100000x4_S4x1_S100000x1_1_0_0_1_n_n none (main_v144_0 A) A.Wl3
def main_v146 (A : Args F) : (⟨S1x1, .f32⟩ : BufTy).Contents (Elt F) :=
  broadcastInDim S1x1 ![1] bcast_S1_S1x1_1 A.bl3
def main_v147 (A : Args F) : (⟨S100000x1, .f32⟩ : BufTy).Contents (Elt F) :=
  broadcastInDim S100000x1 ![0, 1] bcast_S1x1_S100000x1_0_1 (main_v146 A)
def main_v148 (A : Args F) : (⟨S100000x1, .f32⟩ : BufTy).Contents (Elt F) :=
  addf (main_v145 A) (main_v147 A)
def main_cst_40 (A : Args F) : (⟨S_, .f32⟩ : BufTy).Contents (Elt F) :=
  (constant S_ .f32 0x3C23D70A#32)
def main_call6_cst (A : Args F) : (⟨S_, .f32⟩ : BufTy).Contents (Elt F) :=
  (constant S_ .f32 0x00000000#32)
def main_call6_v0 (A : Args F) : (⟨S100000x1, .f32⟩ : BufTy).Contents (Elt F) :=
  (broadcastInDim S100000x1 ![] bcast_S_S100000x1) (main_call6_cst A)
def main_v149_2 (A : Args F) : (⟨S100000x1, .i1⟩ : BufTy).Contents (Elt F) :=
  (cmpf .oge) (main_v148 A) (main_call6_v0 A)
def main_v149_1 (A : Args F) : (⟨S_, .f32⟩ : BufTy).Contents (Elt F) :=
  id (main_cst_40 A)
def main_call6_v3 (A : Args F) : (⟨S100000x1, .f32⟩ : BufTy).Contents (Elt F) :=
  (broadcastInDim S100000x1 ![] bcast_S_S100000x1) (main_v149_1 A)
def main_call6_v4 (A : Args F) : (⟨S100000x1, .f32⟩ : BufTy).Contents (Elt F) :=
  mulf (main_call6_v3 A) (main_v148 A)
def main_v149_0 (A : Args F) : (⟨S100000x1, .f32⟩ : BufTy).Contents (Elt F) :=
  select (main_v149_2 A) (main_v148 A) (main_call6_v4 A)
def main_cst_41 (A : Args F) : (⟨S_, .f32⟩ : BufTy).Contents (Elt F) :=
  (constant S_ .f32 0x00000000#32)
def main_v150 (A : Args F) : (⟨S512x1, .f32⟩ : BufTy).Contents (Elt F) :=
  broadcastInDim S512x1 ![] bcast_S_S512x1 (main_cst_41 A)
def main_v151 (A : Args F) : (⟨S100000x1, .i32⟩ : BufTy).Contents (Elt F) :=
  broadcastInDim S100000x1 ![0] bcast_S100000_S100000x1_0 A.batch
def main_v152 (A : Args F) : (⟨S512x1, .f32⟩ : BufTy).Contents (Elt F) :=
  Host.scatterAdd scatter_S512x1_S100000x1_S100000x1_1_0_0_1 (main_v150 A) (main_v151 A) (main_v149_0 A)
def main_cst_42 (A : Args F) : (⟨S_, .f32⟩ : BufTy).Contents (Elt F) :=
  (constant S_ .f32 0x00000000#32)
def main_v153 (A : Args F) : (⟨S512x1, .f32⟩ : BufTy).Contents (Elt F) :=
  broadcastInDim S512x1 ![] bcast_S_S512x1 (main_cst_42 A)
def main_cst_43 (A : Args F) : (⟨S_, .f32⟩ : BufTy).Contents (Elt F) :=
  (constant S_ .f32 0x3F800000#32)
def main_v154 (A : Args F) : (⟨S512x1, .f32⟩ : BufTy).Contents (Elt F) :=
  broadcastInDim S512x1 ![] bcast_S_S512x1 (main_cst_43 A)
def main_c_44 (A : Args F) : (⟨S1, .i32⟩ : BufTy).Contents (Elt F) :=
  (constantI S1 32 511#32)
def main_c_45 (A : Args F) : (⟨S_, .i32⟩ : BufTy).Contents (Elt F) :=
  (constantI S_ 32 0#32)
def main_v155 (A : Args F) : (⟨S100000x1, .i32⟩ : BufTy).Contents (Elt F) :=
  broadcastInDim S100000x1 ![] bcast_S_S100000x1 (main_c_45 A)
def main_v156 (A : Args F) : (⟨S100000x1, .i1⟩ : BufTy).Contents (Elt F) :=
  cmpi .sge (main_v151 A) (main_v155 A)
def main_v157 (A : Args F) : (⟨S1x1, .i32⟩ : BufTy).Contents (Elt F) :=
  broadcastInDim S1x1 ![1] bcast_S1_S1x1_1 (main_c_44 A)
def main_v158 (A : Args F) : (⟨S100000x1, .i32⟩ : BufTy).Contents (Elt F) :=
  broadcastInDim S100000x1 ![0, 1] bcast_S1x1_S100000x1_0_1 (main_v157 A)
def main_v159 (A : Args F) : (⟨S100000x1, .i1⟩ : BufTy).Contents (Elt F) :=
  cmpi .sle (main_v151 A) (main_v158 A)
def main_v160 (A : Args F) : (⟨S100000x1, .i1⟩ : BufTy).Contents (Elt F) :=
  andi (main_v156 A) (main_v159 A)
def main_c_46 (A : Args F) : (⟨S_, .i1⟩ : BufTy).Contents (Elt F) :=
  (constantI S_ 1 1#1)
def main_v161 (A : Args F) : (⟨S100000, .i1⟩ : BufTy).Contents (Elt F) :=
  Host.reduce IntOp.andi (main_v160 A) (main_c_46 A) reducesTo_S100000x1_S100000_d1 h_S_
def main_v162 (A : Args F) : (⟨S100000x1, .f32⟩ : BufTy).Contents (Elt F) :=
  Host.gather gather_S512x1_S100000x1_S100000x1_1_0_n_n_0_1_11 (main_v154 A) (main_v151 A)
def main_v163 (A : Args F) : (⟨S100000x1, .i1⟩ : BufTy).Contents (Elt F) :=
  broadcastInDim S100000x1 ![0] bcast_S100000_S100000x1_0 (main_v161 A)
def main_cst_47 (A : Args F) : (⟨S_, .f32⟩ : BufTy).Contents (Elt F) :=
  (constant S_ .f32 0x00000000#32)
def main_v164 (A : Args F) : (⟨S100000x1, .f32⟩ : BufTy).Contents (Elt F) :=
  broadcastInDim S100000x1 ![] bcast_S_S100000x1 (main_cst_47 A)
def main_v165 (A : Args F) : (⟨S100000x1, .f32⟩ : BufTy).Contents (Elt F) :=
  select (main_v163 A) (main_v162 A) (main_v164 A)
def main_call7_call0_cst (A : Args F) : (⟨S_, .f32⟩ : BufTy).Contents (Elt F) :=
  (constant S_ .f32 0x00000000#32)
def main_call7_call0_v0 (A : Args F) : (⟨S100000x1, .f32⟩ : BufTy).Contents (Elt F) :=
  (broadcastInDim S100000x1 ![] bcast_S_S100000x1) (main_call7_call0_cst A)
def main_call7_v0_1 (A : Args F) : (⟨S100000x1, .f32⟩ : BufTy).Contents (Elt F) :=
  select (main_v149_2 A) (main_call7_call0_v0 A) (main_v165 A)
def main_call7_v0_0 (A : Args F) : (⟨S100000x1, .f32⟩ : BufTy).Contents (Elt F) :=
  select (main_v149_2 A) (main_v165 A) (main_call7_call0_v0 A)
def main_call7_v1 (A : Args F) : (⟨S100000x1, .f32⟩ : BufTy).Contents (Elt F) :=
  (broadcastInDim S100000x1 ![] bcast_S_S100000x1) (main_v149_1 A)
def main_call7_v2 (A : Args F) : (⟨S100000x1, .f32⟩ : BufTy).Contents (Elt F) :=
  mulf (main_call7_v1 A) (main_call7_v0_1 A)
def main_v166 (A : Args F) : (⟨S100000x1, .f32⟩ : BufTy).Contents (Elt F) :=
  addf (main_call7_v0_0 A) (main_call7_v2 A)
def main_v167 (A : Args F) : (⟨S100000x4, .f32⟩ : BufTy).Contents (Elt F) :=
  Host.dotGeneral dot_S100000x1_S4x1_S100000x4_1_1_0_0_n_n none (main_v166 A) A.Wl3
def main_call8_call0_cst (A : Args F) : (⟨S_, .f32⟩ : BufTy).Contents (Elt F) :=
  (constant S_ .f32 0x00000000#32)
def main_call8_call0_v0 (A : Args F) : (⟨S100000x4, .f32⟩ : BufTy).Contents (Elt F) :=
  (broadcastInDim S100000x4 ![] bcast_S_S100000x4) (main_call8_call0_cst A)
def main_call8_v0_1 (A : Args F) : (⟨S100000x4, .f32⟩ : BufTy).Contents (Elt F) :=
  select (main_v144_2 A) (main_call8_call0_v0 A) (main_v167 A)
def main_call8_v0_0 (A : Args F) : (⟨S100000x4, .f32⟩ : BufTy).Contents (Elt F) :=
  select (main_v144_2 A) (main_v167 A) (main_call8_call0_v0 A)
def main_call8_v1 (A : Args F) : (⟨S100000x4, .f32⟩ : BufTy).Contents (Elt F) :=
  (broadcastInDim S100000x4 ![] bcast_S_S100000x4) (main_v144_1 A)
def main_call8_v2 (A : Args F) : (⟨S100000x4, .f32⟩ : BufTy).Contents (Elt F) :=
  mulf (main_call8_v1 A) (main_call8_v0_1 A)
def main_v168 (A : Args F) : (⟨S100000x4, .f32⟩ : BufTy).Contents (Elt F) :=
  addf (main_call8_v0_0 A) (main_call8_v2 A)
def main_v169 (A : Args F) : (⟨S100000x16, .f32⟩ : BufTy).Contents (Elt F) :=
  Host.dotGeneral dot_S100000x4_S16x4_S100000x16_1_1_0_0_n_n none (main_v168 A) A.Wl2
def main_call9_call0_cst (A : Args F) : (⟨S_, .f32⟩ : BufTy).Contents (Elt F) :=
  (constant S_ .f32 0x00000000#32)
def main_call9_call0_v0 (A : Args F) : (⟨S100000x16, .f32⟩ : BufTy).Contents (Elt F) :=
  (broadcastInDim S100000x16 ![] bcast_S_S100000x16) (main_call9_call0_cst A)
def main_call9_v0_1 (A : Args F) : (⟨S100000x16, .f32⟩ : BufTy).Contents (Elt F) :=
  select (main_v139_2 A) (main_call9_call0_v0 A) (main_v169 A)
def main_call9_v0_0 (A : Args F) : (⟨S100000x16, .f32⟩ : BufTy).Contents (Elt F) :=
  select (main_v139_2 A) (main_v169 A) (main_call9_call0_v0 A)
def main_call9_v1 (A : Args F) : (⟨S100000x16, .f32⟩ : BufTy).Contents (Elt F) :=
  (broadcastInDim S100000x16 ![] bcast_S_S100000x16) (main_v139_1 A)
def main_call9_v2 (A : Args F) : (⟨S100000x16, .f32⟩ : BufTy).Contents (Elt F) :=
  mulf (main_call9_v1 A) (main_call9_v0_1 A)
def main_v170 (A : Args F) : (⟨S100000x16, .f32⟩ : BufTy).Contents (Elt F) :=
  addf (main_call9_v0_0 A) (main_call9_v2 A)
def main_c_48 (A : Args F) : (⟨S1, .i32⟩ : BufTy).Contents (Elt F) :=
  (constantI S1 32 99999#32)
def main_c_49 (A : Args F) : (⟨S_, .i32⟩ : BufTy).Contents (Elt F) :=
  (constantI S_ 32 0#32)
def main_v171 (A : Args F) : (⟨S3300000x1, .i32⟩ : BufTy).Contents (Elt F) :=
  broadcastInDim S3300000x1 ![] bcast_S_S3300000x1 (main_c_49 A)
def main_v172 (A : Args F) : (⟨S3300000x1, .i1⟩ : BufTy).Contents (Elt F) :=
  cmpi .sge (main_v133 A) (main_v171 A)
def main_v173 (A : Args F) : (⟨S1x1, .i32⟩ : BufTy).Contents (Elt F) :=
  broadcastInDim S1x1 ![1] bcast_S1_S1x1_1 (main_c_48 A)
def main_v174 (A : Args F) : (⟨S3300000x1, .i32⟩ : BufTy).Contents (Elt F) :=
  broadcastInDim S3300000x1 ![0, 1] bcast_S1x1_S3300000x1_0_1 (main_v173 A)
def main_v175 (A : Args F) : (⟨S3300000x1, .i1⟩ : BufTy).Contents (Elt F) :=
  cmpi .sle (main_v133 A) (main_v174 A)
def main_v176 (A : Args F) : (⟨S3300000x1, .i1⟩ : BufTy).Contents (Elt F) :=
  andi (main_v172 A) (main_v175 A)
def main_c_50 (A : Args F) : (⟨S_, .i1⟩ : BufTy).Contents (Elt F) :=
  (constantI S_ 1 1#1)
def main_v177 (A : Args F) : (⟨S3300000, .i1⟩ : BufTy).Contents (Elt F) :=
  Host.reduce IntOp.andi (main_v176 A) (main_c_50 A) reducesTo_S3300000x1_S3300000_d1 h_S_
def main_v178 (A : Args F) : (⟨S3300000x16, .f32⟩ : BufTy).Contents (Elt F) :=
  Host.gather gather_S100000x16_S3300000x1_S3300000x16_1_0_n_n_0_1_116 (main_v170 A) (main_v133 A)
def main_v179 (A : Args F) : (⟨S3300000x16, .i1⟩ : BufTy).Contents (Elt F) :=
  broadcastInDim S3300000x16 ![0] bcast_S3300000_S3300000x16_0 (main_v177 A)
def main_cst_51 (A : Args F) : (⟨S_, .f32⟩ : BufTy).Contents (Elt F) :=
  (constant S_ .f32 0x00000000#32)
def main_v180 (A : Args F) : (⟨S3300000x16, .f32⟩ : BufTy).Contents (Elt F) :=
  broadcastInDim S3300000x16 ![] bcast_S_S3300000x16 (main_cst_51 A)
def main_v181 (A : Args F) : (⟨S3300000x16, .f32⟩ : BufTy).Contents (Elt F) :=
  select (main_v179 A) (main_v178 A) (main_v180 A)
def main_v182 (A : Args F) : (⟨S3300000x16, .f32⟩ : BufTy).Contents (Elt F) :=
  mulf (main_v128 A) (main_v181 A)
def main_cst_52 (A : Args F) : (⟨S_, .f32⟩ : BufTy).Contents (Elt F) :=
  (constant S_ .f32 0x00000000#32)
def main_v183 (A : Args F) : (⟨S3300000, .f32⟩ : BufTy).Contents (Elt F) :=
  Host.reduceAdd (main_v182 A) (main_cst_52 A) reducesTo_S3300000x16_S3300000_d1 h_S_
def main_v184 (A : Args F) : (⟨S3300000x1, .f32⟩ : BufTy).Contents (Elt F) :=
  fun i => shapeCast S3300000x1 (main_v183 A) shapeCasts_S3300000_S3300000x1 i
def main_v185 (A : Args F) : (⟨S3300000x16, .f32⟩ : BufTy).Contents (Elt F) :=
  broadcastInDim S3300000x16 ![0, 1] bcast_S3300000x1_S3300000x16_0_1 (main_v129 A)
def main_v186 (A : Args F) : (⟨S3300000x16, .f32⟩ : BufTy).Contents (Elt F) :=
  mulf (main_v181 A) (main_v185 A)
def main_cst_53 (A : Args F) : (⟨S_, .f32⟩ : BufTy).Contents (Elt F) :=
  (constant S_ .f32 0x00000000#32)
def main_v187 (A : Args F) : (⟨S3300000, .f32⟩ : BufTy).Contents (Elt F) :=
  Host.reduceAdd (main_v184 A) (main_cst_53 A) reducesTo_S3300000x1_S3300000_d1 h_S_
def main_cst_54 (A : Args F) : (⟨S_, .f32⟩ : BufTy).Contents (Elt F) :=
  (constant S_ .f32 0x00000000#32)
def main_v188 (A : Args F) : (⟨S100000x16, .f32⟩ : BufTy).Contents (Elt F) :=
  broadcastInDim S100000x16 ![] bcast_S_S100000x16 (main_cst_54 A)
def main_v189 (A : Args F) : (⟨S100000x16, .f32⟩ : BufTy).Contents (Elt F) :=
  Host.scatterAdd scatter_S100000x16_S3300000x1_S3300000x16_1_0_0_1 (main_v188 A) (main_v127 A) (main_v186 A)
def main_v190 (A : Args F) : (⟨S3300000, .f32⟩ : BufTy).Contents (Elt F) :=
  mulf (main_v113 A) (main_v187 A)
def main_v191 (A : Args F) : (⟨S3300000, .f32⟩ : BufTy).Contents (Elt F) :=
  mulf (main_v187 A) (main_v120 A)
def main_cst_55 (A : Args F) : (⟨S_, .f32⟩ : BufTy).Contents (Elt F) :=
  (constant S_ .f32 0x00000000#32)
def main_v192 (A : Args F) : (⟨S100000, .f32⟩ : BufTy).Contents (Elt F) :=
  broadcastInDim S100000 ![] bcast_S_S100000 (main_cst_55 A)
def main_v193 (A : Args F) : (⟨S100000, .f32⟩ : BufTy).Contents (Elt F) :=
  Host.scatterAdd scatter_S100000_S3300000x1_S3300000_n_0_0_1 (main_v192 A) (main_v119 A) (main_v190 A)
def main_v194 (A : Args F) : (⟨S3300000, .f32⟩ : BufTy).Contents (Elt F) :=
  mulf (main_v112 A) (main_v191 A)
def main_v195 (A : Args F) : (⟨S3300000, .f32⟩ : BufTy).Contents (Elt F) :=
  mulf (main_v191 A) (main_v93 A)
def main_cst_56 (A : Args F) : (⟨S_, .f32⟩ : BufTy).Contents (Elt F) :=
  (constant S_ .f32 0x00000000#32)
def main_v196 (A : Args F) : (⟨S100000, .f32⟩ : BufTy).Contents (Elt F) :=
  broadcastInDim S100000 ![] bcast_S_S100000 (main_cst_56 A)
def main_v197 (A : Args F) : (⟨S100000, .f32⟩ : BufTy).Contents (Elt F) :=
  Host.scatterAdd scatter_S100000_S3300000x1_S3300000_n_0_0_1 (main_v196 A) (main_v111 A) (main_v195 A)
def main_v198 (A : Args F) : (⟨S100000, .f32⟩ : BufTy).Contents (Elt F) :=
  addf (main_v193 A) (main_v197 A)
def main_call10_cst (A : Args F) : (⟨S_, .f32⟩ : BufTy).Contents (Elt F) :=
  (constant S_ .f32 0x00000000#32)
def main_call10_v0 (A : Args F) : (⟨S100000, .f32⟩ : BufTy).Contents (Elt F) :=
  (broadcastInDim S100000 ![] bcast_S_S100000) (main_call10_cst A)
def main_v199 (A : Args F) : (⟨S100000, .f32⟩ : BufTy).Contents (Elt F) :=
  select (main_v100 A) (main_v198 A) (main_call10_v0 A)
def main_v200 (A : Args F) : (⟨S100000, .f32⟩ : BufTy).Contents (Elt F) :=
  mulf (main_v199 A) (main_v104 A)
def main_c_57 (A : Args F) : (⟨S1, .i32⟩ : BufTy).Contents (Elt F) :=
  (constantI S1 32 99999#32)
def main_c_58 (A : Args F) : (⟨S_, .i32⟩ : BufTy).Contents (Elt F) :=
  (constantI S_ 32 0#32)
def main_v201 (A : Args F) : (⟨S3300000x1, .i32⟩ : BufTy).Contents (Elt F) :=
  broadcastInDim S3300000x1 ![] bcast_S_S3300000x1 (main_c_58 A)
def main_v202 (A : Args F) : (⟨S3300000x1, .i1⟩ : BufTy).Contents (Elt F) :=
  cmpi .sge (main_v96 A) (main_v201 A)
def main_v203 (A : Args F) : (⟨S1x1, .i32⟩ : BufTy).Contents (Elt F) :=
  broadcastInDim S1x1 ![1] bcast_S1_S1x1_1 (main_c_57 A)
def main_v204 (A : Args F) : (⟨S3300000x1, .i32⟩ : BufTy).Contents (Elt F) :=
  broadcastInDim S3300000x1 ![0, 1] bcast_S1x1_S3300000x1_0_1 (main_v203 A)
def main_v205 (A : Args F) : (⟨S3300000x1, .i1⟩ : BufTy).Contents (Elt F) :=
  cmpi .sle (main_v96 A) (main_v204 A)
def main_v206 (A : Args F) : (⟨S3300000x1, .i1⟩ : BufTy).Contents (Elt F) :=
  andi (main_v202 A) (main_v205 A)
def main_c_59 (A : Args F) : (⟨S_, .i1⟩ : BufTy).Contents (Elt F) :=
  (constantI S_ 1 1#1)
def main_v207 (A : Args F) : (⟨S3300000, .i1⟩ : BufTy).Contents (Elt F) :=
  Host.reduce IntOp.andi (main_v206 A) (main_c_59 A) reducesTo_S3300000x1_S3300000_d1 h_S_
def main_v208 (A : Args F) : (⟨S3300000, .f32⟩ : BufTy).Contents (Elt F) :=
  Host.gather gather_S100000_S3300000x1_S3300000_n_0_n_n_0_1_1 (main_v200 A) (main_v96 A)
def main_cst_60 (A : Args F) : (⟨S_, .f32⟩ : BufTy).Contents (Elt F) :=
  (constant S_ .f32 0x00000000#32)
def main_v209 (A : Args F) : (⟨S3300000, .f32⟩ : BufTy).Contents (Elt F) :=
  broadcastInDim S3300000 ![] bcast_S_S3300000 (main_cst_60 A)
def main_v210 (A : Args F) : (⟨S3300000, .f32⟩ : BufTy).Contents (Elt F) :=
  select (main_v207 A) (main_v208 A) (main_v209 A)
def main_v211 (A : Args F) : (⟨S3300000, .f32⟩ : BufTy).Contents (Elt F) :=
  addf (main_v194 A) (main_v210 A)
def main_v212 (A : Args F) : (⟨S3200000, .f32⟩ : BufTy).Contents (Elt F) :=
  extractStridedSlice S3200000 ![0] (main_v211 A) slices_S3300000_S3200000_0
def main_v213 (A : Args F) : (⟨S100000, .f32⟩ : BufTy).Contents (Elt F) :=
  extractStridedSlice S100000 ![3200000] (main_v211 A) slices_S3300000_S100000_3200000
def main_v214 (A : Args F) : (⟨S100000x16, .f32⟩ : BufTy).Contents (Elt F) :=
  Host.dotGeneral dot_S100000x16_S16x16_S100000x16_1_1_0_0_n_n none (main_v189 A) A.W2
def main_call11_call0_cst (A : Args F) : (⟨S_, .f32⟩ : BufTy).Contents (Elt F) :=
  (constant S_ .f32 0x00000000#32)
def main_call11_call0_v0 (A : Args F) : (⟨S100000x16, .f32⟩ : BufTy).Contents (Elt F) :=
  (broadcastInDim S100000x16 ![] bcast_S_S100000x16) (main_call11_call0_cst A)
def main_call11_v0_1 (A : Args F) : (⟨S100000x16, .f32⟩ : BufTy).Contents (Elt F) :=
  select (main_v87_2 A) (main_call11_call0_v0 A) (main_v214 A)
def main_call11_v0_0 (A : Args F) : (⟨S100000x16, .f32⟩ : BufTy).Contents (Elt F) :=
  select (main_v87_2 A) (main_v214 A) (main_call11_call0_v0 A)
def main_call11_v1 (A : Args F) : (⟨S100000x16, .f32⟩ : BufTy).Contents (Elt F) :=
  (broadcastInDim S100000x16 ![] bcast_S_S100000x16) (main_v87_1 A)
def main_call11_v2 (A : Args F) : (⟨S100000x16, .f32⟩ : BufTy).Contents (Elt F) :=
  mulf (main_call11_v1 A) (main_call11_v0_1 A)
def main_v215 (A : Args F) : (⟨S100000x16, .f32⟩ : BufTy).Contents (Elt F) :=
  addf (main_call11_v0_0 A) (main_call11_v2 A)
def main_v216 (A : Args F) : (⟨S100000x16, .f32⟩ : BufTy).Contents (Elt F) :=
  Host.dotGeneral dot_S100000x16_S16x16_S100000x16_1_1_0_0_n_n none (main_v215 A) A.Wl1
def main_call12_call0_cst (A : Args F) : (⟨S_, .f32⟩ : BufTy).Contents (Elt F) :=
  (constant S_ .f32 0x00000000#32)
def main_call12_call0_v0 (A : Args F) : (⟨S100000x16, .f32⟩ : BufTy).Contents (Elt F) :=
  (broadcastInDim S100000x16 ![] bcast_S_S100000x16) (main_call12_call0_cst A)
def main_call12_v0_1 (A : Args F) : (⟨S100000x16, .f32⟩ : BufTy).Contents (Elt F) :=
  select (main_v82_2 A) (main_call12_call0_v0 A) (main_v216 A)
def main_call12_v0_0 (A : Args F) : (⟨S100000x16, .f32⟩ : BufTy).Contents (Elt F) :=
  select (main_v82_2 A) (main_v216 A) (main_call12_call0_v0 A)
def main_call12_v1 (A : Args F) : (⟨S100000x16, .f32⟩ : BufTy).Contents (Elt F) :=
  (broadcastInDim S100000x16 ![] bcast_S_S100000x16) (main_v82_1 A)
def main_call12_v2 (A : Args F) : (⟨S100000x16, .f32⟩ : BufTy).Contents (Elt F) :=
  mulf (main_call12_v1 A) (main_call12_v0_1 A)
def main_v217 (A : Args F) : (⟨S100000x16, .f32⟩ : BufTy).Contents (Elt F) :=
  addf (main_call12_v0_0 A) (main_call12_v2 A)
def main_c_61 (A : Args F) : (⟨S1, .i32⟩ : BufTy).Contents (Elt F) :=
  (constantI S1 32 99999#32)
def main_c_62 (A : Args F) : (⟨S_, .i32⟩ : BufTy).Contents (Elt F) :=
  (constantI S_ 32 0#32)
def main_v218 (A : Args F) : (⟨S3300000x1, .i32⟩ : BufTy).Contents (Elt F) :=
  broadcastInDim S3300000x1 ![] bcast_S_S3300000x1 (main_c_62 A)
def main_v219 (A : Args F) : (⟨S3300000x1, .i1⟩ : BufTy).Contents (Elt F) :=
  cmpi .sge (main_v76 A) (main_v218 A)
def main_v220 (A : Args F) : (⟨S1x1, .i32⟩ : BufTy).Contents (Elt F) :=
  broadcastInDim S1x1 ![1] bcast_S1_S1x1_1 (main_c_61 A)
def main_v221 (A : Args F) : (⟨S3300000x1, .i32⟩ : BufTy).Contents (Elt F) :=
  broadcastInDim S3300000x1 ![0, 1] bcast_S1x1_S3300000x1_0_1 (main_v220 A)
def main_v222 (A : Args F) : (⟨S3300000x1, .i1⟩ : BufTy).Contents (Elt F) :=
  cmpi .sle (main_v76 A) (main_v221 A)
def main_v223 (A : Args F) : (⟨S3300000x1, .i1⟩ : BufTy).Contents (Elt F) :=
  andi (main_v219 A) (main_v222 A)
def main_c_63 (A : Args F) : (⟨S_, .i1⟩ : BufTy).Contents (Elt F) :=
  (constantI S_ 1 1#1)
def main_v224 (A : Args F) : (⟨S3300000, .i1⟩ : BufTy).Contents (Elt F) :=
  Host.reduce IntOp.andi (main_v223 A) (main_c_63 A) reducesTo_S3300000x1_S3300000_d1 h_S_
def main_v225 (A : Args F) : (⟨S3300000x16, .f32⟩ : BufTy).Contents (Elt F) :=
  Host.gather gather_S100000x16_S3300000x1_S3300000x16_1_0_n_n_0_1_116 (main_v217 A) (main_v76 A)
def main_v226 (A : Args F) : (⟨S3300000x16, .i1⟩ : BufTy).Contents (Elt F) :=
  broadcastInDim S3300000x16 ![0] bcast_S3300000_S3300000x16_0 (main_v224 A)
def main_cst_64 (A : Args F) : (⟨S_, .f32⟩ : BufTy).Contents (Elt F) :=
  (constant S_ .f32 0x00000000#32)
def main_v227 (A : Args F) : (⟨S3300000x16, .f32⟩ : BufTy).Contents (Elt F) :=
  broadcastInDim S3300000x16 ![] bcast_S_S3300000x16 (main_cst_64 A)
def main_v228 (A : Args F) : (⟨S3300000x16, .f32⟩ : BufTy).Contents (Elt F) :=
  select (main_v226 A) (main_v225 A) (main_v227 A)
def main_v229 (A : Args F) : (⟨S3300000x16, .f32⟩ : BufTy).Contents (Elt F) :=
  mulf (main_v71 A) (main_v228 A)
def main_cst_65 (A : Args F) : (⟨S_, .f32⟩ : BufTy).Contents (Elt F) :=
  (constant S_ .f32 0x00000000#32)
def main_v230 (A : Args F) : (⟨S3300000, .f32⟩ : BufTy).Contents (Elt F) :=
  Host.reduceAdd (main_v229 A) (main_cst_65 A) reducesTo_S3300000x16_S3300000_d1 h_S_
def main_v231 (A : Args F) : (⟨S3300000x1, .f32⟩ : BufTy).Contents (Elt F) :=
  fun i => shapeCast S3300000x1 (main_v230 A) shapeCasts_S3300000_S3300000x1 i
def main_cst_66 (A : Args F) : (⟨S_, .f32⟩ : BufTy).Contents (Elt F) :=
  (constant S_ .f32 0x00000000#32)
def main_v232 (A : Args F) : (⟨S3300000, .f32⟩ : BufTy).Contents (Elt F) :=
  Host.reduceAdd (main_v231 A) (main_cst_66 A) reducesTo_S3300000x1_S3300000_d1 h_S_
def main_v233 (A : Args F) : (⟨S3300000, .f32⟩ : BufTy).Contents (Elt F) :=
  mulf (main_v56 A) (main_v232 A)
def main_v234 (A : Args F) : (⟨S3300000, .f32⟩ : BufTy).Contents (Elt F) :=
  mulf (main_v232 A) (main_v63 A)
def main_cst_67 (A : Args F) : (⟨S_, .f32⟩ : BufTy).Contents (Elt F) :=
  (constant S_ .f32 0x00000000#32)
def main_v235 (A : Args F) : (⟨S100000, .f32⟩ : BufTy).Contents (Elt F) :=
  broadcastInDim S100000 ![] bcast_S_S100000 (main_cst_67 A)
def main_v236 (A : Args F) : (⟨S100000, .f32⟩ : BufTy).Contents (Elt F) :=
  Host.scatterAdd scatter_S100000_S3300000x1_S3300000_n_0_0_1 (main_v235 A) (main_v62 A) (main_v233 A)
def main_v237 (A : Args F) : (⟨S3300000, .f32⟩ : BufTy).Contents (Elt F) :=
  mulf (main_v55 A) (main_v234 A)
def main_v238 (A : Args F) : (⟨S3300000, .f32⟩ : BufTy).Contents (Elt F) :=
  mulf (main_v234 A) (main_v36 A)
def main_cst_68 (A : Args F) : (⟨S_, .f32⟩ : BufTy).Contents (Elt F) :=
  (constant S_ .f32 0x00000000#32)
def main_v239 (A : Args F) : (⟨S100000, .f32⟩ : BufTy).Contents (Elt F) :=
  broadcastInDim S100000 ![] bcast_S_S100000 (main_cst_68 A)
def main_v240 (A : Args F) : (⟨S100000, .f32⟩ : BufTy).Contents (Elt F) :=
  Host.scatterAdd scatter_S100000_S3300000x1_S3300000_n_0_0_1 (main_v239 A) (main_v54 A) (main_v238 A)
def main_v241 (A : Args F) : (⟨S100000, .f32⟩ : BufTy).Contents (Elt F) :=
  addf (main_v236 A) (main_v240 A)
def main_call13_cst (A : Args F) : (⟨S_, .f32⟩ : BufTy).Contents (Elt F) :=
  (constant S_ .f32 0x00000000#32)
def main_call13_v0 (A : Args F) : (⟨S100000, .f32⟩ : BufTy).Contents (Elt F) :=
  (broadcastInDim S100000 ![] bcast_S_S100000) (main_call13_cst A)
def main_v242 (A : Args F) : (⟨S100000, .f32⟩ : BufTy).Contents (Elt F) :=
  select (main_v43 A) (main_v241 A) (main_call13_v0 A)
def main_v243 (A : Args F) : (⟨S100000, .f32⟩ : BufTy).Contents (Elt F) :=
  mulf (main_v242 A) (main_v47 A)
def main_c_69 (A : Args F) : (⟨S1, .i32⟩ : BufTy).Contents (Elt F) :=
  (constantI S1 32 99999#32)
def main_c_70 (A : Args F) : (⟨S_, .i32⟩ : BufTy).Contents (Elt F) :=
  (constantI S_ 32 0#32)
def main_v244 (A : Args F) : (⟨S3300000x1, .i32⟩ : BufTy).Contents (Elt F) :=
  broadcastInDim S3300000x1 ![] bcast_S_S3300000x1 (main_c_70 A)
def main_v245 (A : Args F) : (⟨S3300000x1, .i1⟩ : BufTy).Contents (Elt F) :=
  cmpi .sge (main_v39 A) (main_v244 A)
def main_v246 (A : Args F) : (⟨S1x1, .i32⟩ : BufTy).Contents (Elt F) :=
  broadcastInDim S1x1 ![1] bcast_S1_S1x1_1 (main_c_69 A)
def main_v247 (A : Args F) : (⟨S3300000x1, .i32⟩ : BufTy).Contents (Elt F) :=
  broadcastInDim S3300000x1 ![0, 1] bcast_S1x1_S3300000x1_0_1 (main_v246 A)
def main_v248 (A : Args F) : (⟨S3300000x1, .i1⟩ : BufTy).Contents (Elt F) :=
  cmpi .sle (main_v39 A) (main_v247 A)
def main_v249 (A : Args F) : (⟨S3300000x1, .i1⟩ : BufTy).Contents (Elt F) :=
  andi (main_v245 A) (main_v248 A)
def main_c_71 (A : Args F) : (⟨S_, .i1⟩ : BufTy).Contents (Elt F) :=
  (constantI S_ 1 1#1)
def main_v250 (A : Args F) : (⟨S3300000, .i1⟩ : BufTy).Contents (Elt F) :=
  Host.reduce IntOp.andi (main_v249 A) (main_c_71 A) reducesTo_S3300000x1_S3300000_d1 h_S_
def main_v251 (A : Args F) : (⟨S3300000, .f32⟩ : BufTy).Contents (Elt F) :=
  Host.gather gather_S100000_S3300000x1_S3300000_n_0_n_n_0_1_1 (main_v243 A) (main_v39 A)
def main_cst_72 (A : Args F) : (⟨S_, .f32⟩ : BufTy).Contents (Elt F) :=
  (constant S_ .f32 0x00000000#32)
def main_v252 (A : Args F) : (⟨S3300000, .f32⟩ : BufTy).Contents (Elt F) :=
  broadcastInDim S3300000 ![] bcast_S_S3300000 (main_cst_72 A)
def main_v253 (A : Args F) : (⟨S3300000, .f32⟩ : BufTy).Contents (Elt F) :=
  select (main_v250 A) (main_v251 A) (main_v252 A)
def main_v254 (A : Args F) : (⟨S3300000, .f32⟩ : BufTy).Contents (Elt F) :=
  addf (main_v237 A) (main_v253 A)
def main_v255 (A : Args F) : (⟨S3200000, .f32⟩ : BufTy).Contents (Elt F) :=
  extractStridedSlice S3200000 ![0] (main_v254 A) slices_S3300000_S3200000_0
def main_v256 (A : Args F) : (⟨S100000, .f32⟩ : BufTy).Contents (Elt F) :=
  extractStridedSlice S100000 ![3200000] (main_v254 A) slices_S3300000_S100000_3200000
def main_v257 (A : Args F) : (⟨S3200000, .f32⟩ : BufTy).Contents (Elt F) :=
  addf (main_v212 A) (main_v255 A)
def main_v258 (A : Args F) : (⟨S3200000, .f32⟩ : BufTy).Contents (Elt F) :=
  mulf (main_v257 A) (main_v23 A)
def main_v259 (A : Args F) : (⟨S3200000x3, .f32⟩ : BufTy).Contents (Elt F) :=
  broadcastInDim S3200000x3 ![0] bcast_S3200000_S3200000x3_0 (main_v258 A)
def main_v260 (A : Args F) : (⟨S3200000x3, .f32⟩ : BufTy).Contents (Elt F) :=
  mulf (main_v18 A) (main_v259 A)
def main_v261 (A : Args F) : (⟨S3200000x3, .f32⟩ : BufTy).Contents (Elt F) :=
  mulf (main_v259 A) (main_v18 A)
def main_v262 (A : Args F) : (⟨S3200000x3, .f32⟩ : BufTy).Contents (Elt F) :=
  addf (main_v260 A) (main_v261 A)
def main_v263 (A : Args F) : (⟨S3200000x3, .f32⟩ : BufTy).Contents (Elt F) :=
  Host.negf (main_v262 A)
def main_cst_73 (A : Args F) : (⟨S_, .f32⟩ : BufTy).Contents (Elt F) :=
  (constant S_ .f32 0x00000000#32)
def main_v264 (A : Args F) : (⟨S100000x3, .f32⟩ : BufTy).Contents (Elt F) :=
  broadcastInDim S100000x3 ![] bcast_S_S100000x3 (main_cst_73 A)
def main_v265 (A : Args F) : (⟨S100000x3, .f32⟩ : BufTy).Contents (Elt F) :=
  Host.scatterAdd scatter_S100000x3_S3200000x1_S3200000x3_1_0_0_1 (main_v264 A) (main_v16 A) (main_v263 A)
def main_cst_74 (A : Args F) : (⟨S_, .f32⟩ : BufTy).Contents (Elt F) :=
  (constant S_ .f32 0x00000000#32)
def main_v266 (A : Args F) : (⟨S100000x3, .f32⟩ : BufTy).Contents (Elt F) :=
  broadcastInDim S100000x3 ![] bcast_S_S100000x3 (main_cst_74 A)
def main_v267 (A : Args F) : (⟨S100000x3, .f32⟩ : BufTy).Contents (Elt F) :=
  Host.scatterAdd scatter_S100000x3_S3200000x1_S3200000x3_1_0_0_1 (main_v266 A) (main_v9 A) (main_v262 A)
def main_v268 (A : Args F) : (⟨S100000x3, .f32⟩ : BufTy).Contents (Elt F) :=
  addf (main_v265 A) (main_v267 A)
def main_v269 (A : Args F) : (⟨S100000x3, .f32⟩ : BufTy).Contents (Elt F) :=
  Host.negf (main_v268 A)

end Cert.Proof.Rv

end
-- ==== Proof.RefOps.lean ====
import proofs.«408045_j39298950758801_3_alg».proof.ReferenceIdeal
import Idealize.ShloMosaic.Lib.StableHlo.Run

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts Cert.ReferenceIdeal.Facts₀

set_option maxRecDepth 8192 in
abbrev w0 : List (HloOp τ sig (Elt F)) :=
  [ unary main_arg13 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg13 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_c (constantI S_ 32 0#32),
    unary main_c main_v4 (broadcastInDim S3200000 ![] bcast_S_S3200000 : (⟨S_, .i32⟩ : BufTy).Contents (Elt F) → (⟨S3200000, .i32⟩ : BufTy).Contents (Elt F)),
    binary main_v1 main_v4 main_v5 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v6 (broadcastInDim S3200000 ![] bcast_S_S3200000 : (⟨S_, .i32⟩ : BufTy).Contents (Elt F) → (⟨S3200000, .i32⟩ : BufTy).Contents (Elt F)),
    binary main_v1 main_v6 main_v7 (addi : (⟨S3200000, .i32⟩ : BufTy).Contents (Elt F) → (⟨S3200000, .i32⟩ : BufTy).Contents (Elt F) → (⟨S3200000, .i32⟩ : BufTy).Contents (Elt F)),
    ternary main_v5 main_v7 main_v1 main_v8 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v8 main_v9 (broadcastInDim S3200000x1 ![0] bcast_S3200000_S3200000x1_0 : (⟨S3200000, .i32⟩ : BufTy).Contents (Elt F) → (⟨S3200000x1, .i32⟩ : BufTy).Contents (Elt F)),
    binary main_arg0 main_v9 main_v10 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    nullary main_c_1 (constantI S_ 32 0#32),
    unary main_c_1 main_v11 (broadcastInDim S3200000 ![] bcast_S_S3200000 : (⟨S_, .i32⟩ : BufTy).Contents (Elt F) → (⟨S3200000, .i32⟩ : BufTy).Contents (Elt F)),
    binary main_v3 main_v11 main_v12 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v13 (broadcastInDim S3200000 ![] bcast_S_S3200000 : (⟨S_, .i32⟩ : BufTy).Contents (Elt F) → (⟨S3200000, .i32⟩ : BufTy).Contents (Elt F)),
    binary main_v3 main_v13 main_v14 (addi : (⟨S3200000, .i32⟩ : BufTy).Contents (Elt F) → (⟨S3200000, .i32⟩ : BufTy).Contents (Elt F) → (⟨S3200000, .i32⟩ : BufTy).Contents (Elt F)),
    ternary main_v12 main_v14 main_v3 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) ]
abbrev w0_W : List (Ref sig .tc) := [main_v0, main_v1, main_v2, main_v3, main_c, main_v4, main_v5, main_c_0, main_v6, main_v7, main_v8, main_v9, main_v10, main_c_1, main_v11, main_v12, main_c_2, main_v13, main_v14, main_v15]

set_option maxRecDepth 8192 in
abbrev w1 : List (HloOp τ sig (Elt F)) :=
  [ unary main_v15 main_v16 (broadcastInDim S3200000x1 ![0] bcast_S3200000_S3200000x1_0 : (⟨S3200000, .i32⟩ : BufTy).Contents (Elt F) → (⟨S3200000x1, .i32⟩ : BufTy).Contents (Elt F)),
    binary main_arg0 main_v16 main_v17 ((fun x i => Host.gather gather_S100000x3_S3200000x1_S3200000x3_1_0_n_n_0_1_13 x i) : (⟨S100000x3, .f32⟩ : BufTy).Contents (Elt F) → (⟨S3200000x1, .i32⟩ : BufTy).Contents (Elt F) → (⟨S3200000x3, .f32⟩ : BufTy).Contents (Elt F)),
    binary main_v10 main_v17 main_v18 (subf : (⟨S3200000x3, .f32⟩ : BufTy).Contents (Elt F) → (⟨S3200000x3, .f32⟩ : BufTy).Contents (Elt F) → (⟨S3200000x3, .f32⟩ : BufTy).Contents (Elt F)),
    binary main_v18 main_v18 main_v19 (mulf : (⟨S3200000x3, .f32⟩ : BufTy).Contents (Elt F) → (⟨S3200000x3, .f32⟩ : BufTy).Contents (Elt F) → (⟨S3200000x3, .f32⟩ : BufTy).Contents (Elt F)),
    nullary main_cst (constant S_ .f32 0x00000000#32),
    binary main_v19 main_cst main_v20 ((fun x v => Host.reduceAdd x v reducesTo_S3200000x3_S3200000_d1 h_S_) : (⟨S3200000x3, .f32⟩ : BufTy).Contents (Elt F) → (⟨S_, .f32⟩ : BufTy).Contents (Elt F) → (⟨S3200000, .f32⟩ : BufTy).Contents (Elt F)),
    unary main_v20 main_v21 (Host.sqrt : (⟨S3200000, .f32⟩ : BufTy).Contents (Elt F) → (⟨S3200000, .f32⟩ : BufTy).Contents (Elt F)),
    nullary main_cst_3 (constant S_ .f32 0x3F000000#32),
    unary main_cst_3 main_v22 (broadcastInDim S3200000 ![] bcast_S_S3200000 : (⟨S_, .f32⟩ : BufTy).Contents (Elt F) → (⟨S3200000, .f32⟩ : BufTy).Contents (Elt F)),
    binary main_v22 main_v21 main_v23 (Host.divf : (⟨S3200000, .f32⟩ : BufTy).Contents (Elt F) → (⟨S3200000, .f32⟩ : BufTy).Contents (Elt F) → (⟨S3200000, .f32⟩ : BufTy).Contents (Elt F)),
    nullary main_c_4 (constantI S_ 32 0#32),
    unary main_c_4 main_v24 (broadcastInDim S100000 ![] bcast_S_S100000 : (⟨S_, .i32⟩ : BufTy).Contents (Elt F) → (⟨S100000, .i32⟩ : BufTy).Contents (Elt F)),
    binary main_arg12 main_v24 main_v25 (cmpi .slt : (⟨S100000, .i32⟩ : BufTy).Contents (Elt F) → (⟨S100000, .i32⟩ : BufTy).Contents (Elt F) → (⟨S100000, .i1⟩ : BufTy).Contents (Elt F)),
    nullary main_c_5 (constantI S_ 32 118#32),
    unary main_c_5 main_v26 (broadcastInDim S100000 ![] bcast_S_S100000 : (⟨S_, .i32⟩ : BufTy).Contents (Elt F) → (⟨S100000, .i32⟩ : BufTy).Contents (Elt F)),
    binary main_arg12 main_v26 main_v27 (addi : (⟨S100000, .i32⟩ : BufTy).Contents (Elt F) → (⟨S100000, .i32⟩ : BufTy).Contents (Elt F) → (⟨S100000, .i32⟩ : BufTy).Contents (Elt F)),
    ternary main_v25 main_v27 main_arg12 main_v28 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v28 main_v29 (broadcastInDim S100000x1 ![0] bcast_S100000_S100000x1_0 : (⟨S100000, .i32⟩ : BufTy).Contents (Elt F) → (⟨S100000x1, .i32⟩ : BufTy).Contents (Elt F)),
    binary main_arg1 main_v29 main_v30 ((fun x i => Host.gather gather_S118x16_S100000x1_S100000x16_1_0_n_n_0_1_116 x i) : (⟨S118x16, .f32⟩ : BufTy).Contents (Elt F) → (⟨S100000x1, .i32⟩ : BufTy).Contents (Elt F) → (⟨S100000x16, .f32⟩ : BufTy).Contents (Elt F)),
    binary main_v30 main_arg2 main_v31 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]
abbrev w1_W : List (Ref sig .tc) := [main_v16, main_v17, main_v18, main_v19, main_cst, main_v20, main_v21, main_cst_3, main_v22, main_v23, main_c_4, main_v24, main_v25, main_c_5, main_v26, main_v27, main_v28, main_v29, main_v30, main_v31]

set_option maxRecDepth 8192 in
abbrev w2 : List (HloOp τ sig (Elt F)) :=
  [ nullary main_v32 (iotaInDim S100000 32 0),
    binary main_v1 main_v32 main_v33 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v32 main_v34 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_6 (constant S_ .f32 0x3F800000#32),
    unary main_cst_6 main_v35 (broadcastInDim S100000 ![] bcast_S_S100000 : (⟨S_, .f32⟩ : BufTy).Contents (Elt F) → (⟨S100000, .f32⟩ : BufTy).Contents (Elt F)),
    binary main_v21 main_v35 main_v36 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)),
    nullary main_cst_7 (constant S_ .f32 0x00000000#32),
    unary main_cst_7 main_v37 (broadcastInDim S100000 ![] bcast_S_S100000 : (⟨S_, .f32⟩ : BufTy).Contents (Elt F) → (⟨S100000, .f32⟩ : BufTy).Contents (Elt F)),
    nullary main_cst_8 (constant S_ .f32 0x00000000#32),
    unary main_cst_8 main_v38 (broadcastInDim S100000 ![] bcast_S_S100000 : (⟨S_, .f32⟩ : BufTy).Contents (Elt F) → (⟨S100000, .f32⟩ : BufTy).Contents (Elt F)),
    unary main_v34 main_v39 (broadcastInDim S3300000x1 ![0] bcast_S3300000_S3300000x1_0 : (⟨S3300000, .i32⟩ : BufTy).Contents (Elt F) → (⟨S3300000x1, .i32⟩ : BufTy).Contents (Elt F)),
    ternary main_v38 main_v39 main_v36 main_v40 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_9 (constant S_ .f32 0x00000000#32),
    unary main_cst_9 main_v41 (broadcastInDim S100000 ![] bcast_S_S100000 : (⟨S_, .f32⟩ : BufTy).Contents (Elt F) → (⟨S100000, .f32⟩ : BufTy).Contents (Elt F)),
    nullary main_cst_10 (constant S_ .f32 0x00000000#32),
    unary main_cst_10 main_v42 (broadcastInDim S100000 ![] bcast_S_S100000 : (⟨S_, .f32⟩ : BufTy).Contents (Elt F) → (⟨S100000, .f32⟩ : BufTy).Contents (Elt F)),
    binary main_v40 main_v42 main_v43 (cmpf .ogt : (⟨S100000, .f32⟩ : BufTy).Contents (Elt F) → (⟨S100000, .f32⟩ : BufTy).Contents (Elt F) → (⟨S100000, .i1⟩ : BufTy).Contents (Elt F)),
    unary main_v40 main_v44 (Host.rsqrt : (⟨S100000, .f32⟩ : BufTy).Contents (Elt F) → (⟨S100000, .f32⟩ : BufTy).Contents (Elt F)),
    binary main_v44 main_v40 main_v45 (Host.divf : (⟨S100000, .f32⟩ : BufTy).Contents (Elt F) → (⟨S100000, .f32⟩ : BufTy).Contents (Elt F) → (⟨S100000, .f32⟩ : BufTy).Contents (Elt F)),
    nullary main_cst_11 (constant S_ .f32 0xBF000000#32) ]
abbrev w2_W : List (Ref sig .tc) := [main_v32, main_v33, main_v34, main_cst_6, main_v35, main_v36, main_cst_7, main_v37, main_cst_8, main_v38, main_v39, main_v40, main_cst_9, main_v41, main_cst_10, main_v42, main_v43, main_v44, main_v45, main_cst_11]

set_option maxRecDepth 8192 in
abbrev w3 : List (HloOp τ sig (Elt F)) :=
  [ unary main_cst_11 main_v46 (broadcastInDim S100000 ![] bcast_S_S100000 : (⟨S_, .f32⟩ : BufTy).Contents (Elt F) → (⟨S100000, .f32⟩ : BufTy).Contents (Elt F)),
    binary main_v46 main_v45 main_v47 (mulf : (⟨S100000, .f32⟩ : BufTy).Contents (Elt F) → (⟨S100000, .f32⟩ : BufTy).Contents (Elt F) → (⟨S100000, .f32⟩ : BufTy).Contents (Elt F)),
    nullary main_cst_12 (constant S_ .f32 0x00000000#32),
    TRef.unary ((.of main_cst_12) : StableHlo.TRef sig ⟨S_, .f32⟩) main_call0.v0 id,
    TRef.unary main_call0.v0 main_call0.v1 (broadcastInDim S100000 ![] bcast_S_S100000),
    TRef.ternary ((.of main_v43) : StableHlo.TRef sig ⟨S100000, .i1⟩) ((.of main_v44) : StableHlo.TRef sig ⟨S100000, .f32⟩) main_call0.v1 main_call0.v2 select,
    TRef.nullary main_call0.cst (constant S_ .f32 0x00000000#32),
    TRef.unary main_call0.cst main_call0.v3 (broadcastInDim S100000 ![] bcast_S_S100000),
    nullary main_c_13 (constantI S_ 32 0#32),
    unary main_c_13 main_v49 (broadcastInDim S3300000 ![] bcast_S_S3300000 : (⟨S_, .i32⟩ : BufTy).Contents (Elt F) → (⟨S3300000, .i32⟩ : BufTy).Contents (Elt F)),
    binary main_v33 main_v49 main_v50 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v51 (broadcastInDim S3300000 ![] bcast_S_S3300000 : (⟨S_, .i32⟩ : BufTy).Contents (Elt F) → (⟨S3300000, .i32⟩ : BufTy).Contents (Elt F)),
    binary main_v33 main_v51 main_v52 (addi : (⟨S3300000, .i32⟩ : BufTy).Contents (Elt F) → (⟨S3300000, .i32⟩ : BufTy).Contents (Elt F) → (⟨S3300000, .i32⟩ : BufTy).Contents (Elt F)),
    ternary main_v50 main_v52 main_v33 main_v53 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v53 main_v54 (broadcastInDim S3300000x1 ![0] bcast_S3300000_S3300000x1_0 : (⟨S3300000, .i32⟩ : BufTy).Contents (Elt F) → (⟨S3300000x1, .i32⟩ : BufTy).Contents (Elt F)),
    binary main_v48_0 main_v54 main_v55 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v55 main_v36 main_v56 (mulf : (⟨S3300000, .f32⟩ : BufTy).Contents (Elt F) → (⟨S3300000, .f32⟩ : BufTy).Contents (Elt F) → (⟨S3300000, .f32⟩ : BufTy).Contents (Elt F)),
    nullary main_c_15 (constantI S_ 32 0#32) ]
abbrev w3_W : List (Ref sig .tc) := [main_v46, main_v47, main_cst_12, main_call0_v0, main_call0_v1, main_v48_0, main_call0_cst, main_v48_1, main_c_13, main_v49, main_v50, main_c_14, main_v51, main_v52, main_v53, main_v54, main_v55, main_v56, main_c_15]

set_option maxRecDepth 8192 in
abbrev w4 : List (HloOp τ sig (Elt F)) :=
  [ unary main_c_15 main_v57 (broadcastInDim S3300000 ![] bcast_S_S3300000 : (⟨S_, .i32⟩ : BufTy).Contents (Elt F) → (⟨S3300000, .i32⟩ : BufTy).Contents (Elt F)),
    binary main_v34 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v59 (broadcastInDim S3300000 ![] bcast_S_S3300000 : (⟨S_, .i32⟩ : BufTy).Contents (Elt F) → (⟨S3300000, .i32⟩ : BufTy).Contents (Elt F)),
    binary main_v34 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v34 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v48_0 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v56 main_v63 main_v64 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v65 (broadcastInDim S3300000 ![] bcast_S_S3300000 : (⟨S_, .i32⟩ : BufTy).Contents (Elt F) → (⟨S3300000, .i32⟩ : BufTy).Contents (Elt F)),
    binary main_v33 main_v65 main_v66 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v67 (broadcastInDim S3300000 ![] bcast_S_S3300000 : (⟨S_, .i32⟩ : BufTy).Contents (Elt F) → (⟨S3300000, .i32⟩ : BufTy).Contents (Elt F)),
    binary main_v33 main_v67 main_v68 (addi : (⟨S3300000, .i32⟩ : BufTy).Contents (Elt F) → (⟨S3300000, .i32⟩ : BufTy).Contents (Elt F) → (⟨S3300000, .i32⟩ : BufTy).Contents (Elt F)),
    ternary main_v66 main_v68 main_v33 main_v69 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v69 main_v70 (broadcastInDim S3300000x1 ![0] bcast_S3300000_S3300000x1_0 : (⟨S3300000, .i32⟩ : BufTy).Contents (Elt F) → (⟨S3300000x1, .i32⟩ : BufTy).Contents (Elt F)),
    binary main_v31 main_v70 main_v71 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v64 main_v72 (broadcastInDim S3300000x1 ![0] bcast_S3300000_S3300000x1_0 : (⟨S3300000, .f32⟩ : BufTy).Contents (Elt F) → (⟨S3300000x1, .f32⟩ : BufTy).Contents (Elt F)) ]
abbrev w4_W : List (Ref sig .tc) := [main_v57, main_v58, main_c_16, main_v59, main_v60, main_v61, main_v62, main_v63, main_v64, main_c_17, main_v65, main_v66, main_c_18, main_v67, main_v68, main_v69, main_v70, main_v71, main_v72]

set_option maxRecDepth 8192 in
abbrev w5 : List (HloOp τ sig (Elt F)) :=
  [ unary main_v72 main_v73 (broadcastInDim S3300000x16 ![0, 1] bcast_S3300000x1_S3300000x16_0_1 : (⟨S3300000x1, .f32⟩ : BufTy).Contents (Elt F) → (⟨S3300000x16, .f32⟩ : BufTy).Contents (Elt F)),
    binary main_v71 main_v73 main_v74 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v75 (broadcastInDim S100000x16 ![] bcast_S_S100000x16 : (⟨S_, .f32⟩ : BufTy).Contents (Elt F) → (⟨S100000x16, .f32⟩ : BufTy).Contents (Elt F)),
    unary main_v34 main_v76 (broadcastInDim S3300000x1 ![0] bcast_S3300000_S3300000x1_0 : (⟨S3300000, .i32⟩ : BufTy).Contents (Elt F) → (⟨S3300000x1, .i32⟩ : BufTy).Contents (Elt F)),
    ternary main_v75 main_v76 main_v74 main_v77 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    nullary main_cst_20 (constant S_ .f32 0x00000000#32),
    unary main_cst_20 main_v78 (broadcastInDim S100000x16 ![] bcast_S_S100000x16 : (⟨S_, .f32⟩ : BufTy).Contents (Elt F) → (⟨S100000x16, .f32⟩ : BufTy).Contents (Elt F)),
    unary main_arg3 main_v79 (broadcastInDim S1x16 ![1] bcast_S16_S1x16_1 : (⟨S16, .f32⟩ : BufTy).Contents (Elt F) → (⟨S1x16, .f32⟩ : BufTy).Contents (Elt F)),
    unary main_v79 main_v80 (broadcastInDim S100000x16 ![0, 1] bcast_S1x16_S100000x16_0_1 : (⟨S1x16, .f32⟩ : BufTy).Contents (Elt F) → (⟨S100000x16, .f32⟩ : BufTy).Contents (Elt F)),
    binary main_v77 main_v80 main_v81 (addf : (⟨S100000x16, .f32⟩ : BufTy).Contents (Elt F) → (⟨S100000x16, .f32⟩ : BufTy).Contents (Elt F) → (⟨S100000x16, .f32⟩ : BufTy).Contents (Elt F)),
    nullary main_cst_21 (constant S_ .f32 0x3C23D70A#32),
    TRef.nullary main_call1.cst (constant S_ .f32 0x00000000#32),
    TRef.unary main_call1.cst main_call1.v0 (broadcastInDim S100000x16 ![] bcast_S_S100000x16),
    TRef.binary ((.of main_v81) : StableHlo.TRef sig ⟨S100000x16, .f32⟩) main_call1.v0 main_call1.v1 (cmpf .oge),
    TRef.unary ((.of main_cst_21) : StableHlo.TRef sig ⟨S_, .f32⟩) main_call1.v2 id,
    TRef.unary main_call1.v2 main_call1.v3 (broadcastInDim S100000x16 ![] bcast_S_S100000x16),
    TRef.binary main_call1.v3 ((.of main_v81) : StableHlo.TRef sig ⟨S100000x16, .f32⟩) main_call1.v4 mulf,
    TRef.ternary main_call1.v1 ((.of main_v81) : StableHlo.TRef sig ⟨S100000x16, .f32⟩) main_call1.v4 main_call1.call0.v0 select ]
abbrev w5_W : List (Ref sig .tc) := [main_v73, main_v74, main_cst_19, main_v75, main_v76, main_v77, main_cst_20, main_v78, main_v79, main_v80, main_v81, main_cst_21, main_call1_cst, main_call1_v0, main_v82_2, main_v82_1, main_call1_v3, main_call1_v4, main_v82_0]

set_option maxRecDepth 8192 in
abbrev w6 : List (HloOp τ sig (Elt F)) :=
  [ binary main_v82_0 main_arg4 main_v83 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg5 main_v84 (broadcastInDim S1x16 ![1] bcast_S16_S1x16_1 : (⟨S16, .f32⟩ : BufTy).Contents (Elt F) → (⟨S1x16, .f32⟩ : BufTy).Contents (Elt F)),
    unary main_v84 main_v85 (broadcastInDim S100000x16 ![0, 1] bcast_S1x16_S100000x16_0_1 : (⟨S1x16, .f32⟩ : BufTy).Contents (Elt F) → (⟨S100000x16, .f32⟩ : BufTy).Contents (Elt F)),
    binary main_v83 main_v85 main_v86 (addf : (⟨S100000x16, .f32⟩ : BufTy).Contents (Elt F) → (⟨S100000x16, .f32⟩ : BufTy).Contents (Elt F) → (⟨S100000x16, .f32⟩ : BufTy).Contents (Elt F)),
    nullary main_cst_22 (constant S_ .f32 0x3C23D70A#32),
    TRef.nullary main_call2.cst (constant S_ .f32 0x00000000#32),
    TRef.unary main_call2.cst main_call2.v0 (broadcastInDim S100000x16 ![] bcast_S_S100000x16),
    TRef.binary ((.of main_v86) : StableHlo.TRef sig ⟨S100000x16, .f32⟩) main_call2.v0 main_call2.v1 (cmpf .oge),
    TRef.unary ((.of main_cst_22) : StableHlo.TRef sig ⟨S_, .f32⟩) main_call2.v2 id,
    TRef.unary main_call2.v2 main_call2.v3 (broadcastInDim S100000x16 ![] bcast_S_S100000x16),
    TRef.binary main_call2.v3 ((.of main_v86) : StableHlo.TRef sig ⟨S100000x16, .f32⟩) main_call2.v4 mulf,
    TRef.ternary main_call2.v1 ((.of main_v86) : StableHlo.TRef sig ⟨S100000x16, .f32⟩) main_call2.v4 main_call2.call0.v0 select,
    binary main_v87_0 main_arg6 main_v88 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_v89 (iotaInDim S100000 32 0),
    binary main_v1 main_v89 main_v90 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_v3 main_v89 main_v91 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_23 (constant S_ .f32 0x3F800000#32),
    unary main_cst_23 main_v92 (broadcastInDim S100000 ![] bcast_S_S100000 : (⟨S_, .f32⟩ : BufTy).Contents (Elt F) → (⟨S100000, .f32⟩ : BufTy).Contents (Elt F)),
    binary main_v21 main_v92 main_v93 ((fun a b => concatenate S3300000 0 [⟨S3200000, a⟩, ⟨S100000, b⟩] concatenates_S3200000_S100000_S3300000_d0) : (⟨S3200000, .f32⟩ : BufTy).Contents (Elt F) → (⟨S100000, .f32⟩ : BufTy).Contents (Elt F) → (⟨S3300000, .f32⟩ : BufTy).Contents (Elt F)) ]
abbrev w6_W : List (Ref sig .tc) := [main_v83, main_v84, main_v85, main_v86, main_cst_22, main_call2_cst, main_call2_v0, main_v87_2, main_v87_1, main_call2_v3, main_call2_v4, main_v87_0, main_v88, main_v89, main_v90, main_v91, main_cst_23, main_v92, main_v93]

set_option maxRecDepth 8192 in
abbrev w7 : List (HloOp τ sig (Elt F)) :=
  [ nullary main_cst_24 (constant S_ .f32 0x00000000#32),
    unary main_cst_24 main_v94 (broadcastInDim S100000 ![] bcast_S_S100000 : (⟨S_, .f32⟩ : BufTy).Contents (Elt F) → (⟨S100000, .f32⟩ : BufTy).Contents (Elt F)),
    nullary main_cst_25 (constant S_ .f32 0x00000000#32),
    unary main_cst_25 main_v95 (broadcastInDim S100000 ![] bcast_S_S100000 : (⟨S_, .f32⟩ : BufTy).Contents (Elt F) → (⟨S100000, .f32⟩ : BufTy).Contents (Elt F)),
    unary main_v91 main_v96 (broadcastInDim S3300000x1 ![0] bcast_S3300000_S3300000x1_0 : (⟨S3300000, .i32⟩ : BufTy).Contents (Elt F) → (⟨S3300000x1, .i32⟩ : BufTy).Contents (Elt F)),
    ternary main_v95 main_v96 main_v93 main_v97 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_26 (constant S_ .f32 0x00000000#32),
    unary main_cst_26 main_v98 (broadcastInDim S100000 ![] bcast_S_S100000 : (⟨S_, .f32⟩ : BufTy).Contents (Elt F) → (⟨S100000, .f32⟩ : BufTy).Contents (Elt F)),
    nullary main_cst_27 (constant S_ .f32 0x00000000#32),
    unary main_cst_27 main_v99 (broadcastInDim S100000 ![] bcast_S_S100000 : (⟨S_, .f32⟩ : BufTy).Contents (Elt F) → (⟨S100000, .f32⟩ : BufTy).Contents (Elt F)),
    binary main_v97 main_v99 main_v100 (cmpf .ogt : (⟨S100000, .f32⟩ : BufTy).Contents (Elt F) → (⟨S100000, .f32⟩ : BufTy).Contents (Elt F) → (⟨S100000, .i1⟩ : BufTy).Contents (Elt F)),
    unary main_v97 main_v101 (Host.rsqrt : (⟨S100000, .f32⟩ : BufTy).Contents (Elt F) → (⟨S100000, .f32⟩ : BufTy).Contents (Elt F)),
    binary main_v101 main_v97 main_v102 (Host.divf : (⟨S100000, .f32⟩ : BufTy).Contents (Elt F) → (⟨S100000, .f32⟩ : BufTy).Contents (Elt F) → (⟨S100000, .f32⟩ : BufTy).Contents (Elt F)),
    nullary main_cst_28 (constant S_ .f32 0xBF000000#32),
    unary main_cst_28 main_v103 (broadcastInDim S100000 ![] bcast_S_S100000 : (⟨S_, .f32⟩ : BufTy).Contents (Elt F) → (⟨S100000, .f32⟩ : BufTy).Contents (Elt F)),
    binary main_v103 main_v102 main_v104 (mulf : (⟨S100000, .f32⟩ : BufTy).Contents (Elt F) → (⟨S100000, .f32⟩ : BufTy).Contents (Elt F) → (⟨S100000, .f32⟩ : BufTy).Contents (Elt F)),
    nullary main_cst_29 (constant S_ .f32 0x00000000#32),
    TRef.unary ((.of main_cst_29) : StableHlo.TRef sig ⟨S_, .f32⟩) main_call3.v0 id,
    TRef.unary main_call3.v0 main_call3.v1 (broadcastInDim S100000 ![] bcast_S_S100000),
    TRef.ternary ((.of main_v100) : StableHlo.TRef sig ⟨S100000, .i1⟩) ((.of main_v101) : StableHlo.TRef sig ⟨S100000, .f32⟩) main_call3.v1 main_call3.v2 select,
    TRef.nullary main_call3.cst (constant S_ .f32 0x00000000#32) ]
abbrev w7_W : List (Ref sig .tc) := [main_cst_24, main_v94, main_cst_25, main_v95, main_v96, main_v97, main_cst_26, main_v98, main_cst_27, main_v99, main_v100, main_v101, main_v102, main_cst_28, main_v103, main_v104, main_cst_29, main_call3_v0, main_call3_v1, main_v105_0, main_call3_cst]

set_option maxRecDepth 8192 in
abbrev w8 : List (HloOp τ sig (Elt F)) :=
  [ TRef.unary main_call3.cst main_call3.v3 (broadcastInDim S100000 ![] bcast_S_S100000),
    nullary main_c_30 (constantI S_ 32 0#32),
    unary main_c_30 main_v106 (broadcastInDim S3300000 ![] bcast_S_S3300000 : (⟨S_, .i32⟩ : BufTy).Contents (Elt F) → (⟨S3300000, .i32⟩ : BufTy).Contents (Elt F)),
    binary main_v90 main_v106 main_v107 (cmpi .slt : (⟨S3300000, .i32⟩ : BufTy).Contents (Elt F) → (⟨S3300000, .i32⟩ : BufTy).Contents (Elt F) → (⟨S3300000, .i1⟩ : BufTy).Contents (Elt F)),
    nullary main_c_31 (constantI S_ 32 100000#32),
    unary main_c_31 main_v108 (broadcastInDim S3300000 ![] bcast_S_S3300000 : (⟨S_, .i32⟩ : BufTy).Contents (Elt F) → (⟨S3300000, .i32⟩ : BufTy).Contents (Elt F)),
    binary main_v90 main_v108 main_v109 (addi : (⟨S3300000, .i32⟩ : BufTy).Contents (Elt F) → (⟨S3300000, .i32⟩ : BufTy).Contents (Elt F) → (⟨S3300000, .i32⟩ : BufTy).Contents (Elt F)),
    ternary main_v107 main_v109 main_v90 main_v110 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v110 main_v111 (broadcastInDim S3300000x1 ![0] bcast_S3300000_S3300000x1_0 : (⟨S3300000, .i32⟩ : BufTy).Contents (Elt F) → (⟨S3300000x1, .i32⟩ : BufTy).Contents (Elt F)),
    binary main_v105_0 main_v111 main_v112 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v112 main_v93 main_v113 (mulf : (⟨S3300000, .f32⟩ : BufTy).Contents (Elt F) → (⟨S3300000, .f32⟩ : BufTy).Contents (Elt F) → (⟨S3300000, .f32⟩ : BufTy).Contents (Elt F)),
    nullary main_c_32 (constantI S_ 32 0#32),
    unary main_c_32 main_v114 (broadcastInDim S3300000 ![] bcast_S_S3300000 : (⟨S_, .i32⟩ : BufTy).Contents (Elt F) → (⟨S3300000, .i32⟩ : BufTy).Contents (Elt F)),
    binary main_v91 main_v114 main_v115 (cmpi .slt : (⟨S3300000, .i32⟩ : BufTy).Contents (Elt F) → (⟨S3300000, .i32⟩ : BufTy).Contents (Elt F) → (⟨S3300000, .i1⟩ : BufTy).Contents (Elt F)),
    nullary main_c_33 (constantI S_ 32 100000#32),
    unary main_c_33 main_v116 (broadcastInDim S3300000 ![] bcast_S_S3300000 : (⟨S_, .i32⟩ : BufTy).Contents (Elt F) → (⟨S3300000, .i32⟩ : BufTy).Contents (Elt F)),
    binary main_v91 main_v116 main_v117 (addi : (⟨S3300000, .i32⟩ : BufTy).Contents (Elt F) → (⟨S3300000, .i32⟩ : BufTy).Contents (Elt F) → (⟨S3300000, .i32⟩ : BufTy).Contents (Elt F)),
    ternary main_v115 main_v117 main_v91 main_v118 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v118 main_v119 (broadcastInDim S3300000x1 ![0] bcast_S3300000_S3300000x1_0 : (⟨S3300000, .i32⟩ : BufTy).Contents (Elt F) → (⟨S3300000x1, .i32⟩ : BufTy).Contents (Elt F)),
    binary main_v105_0 main_v119 main_v120 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v113 main_v120 main_v121 (mulf : (⟨S3300000, .f32⟩ : BufTy).Contents (Elt F) → (⟨S3300000, .f32⟩ : BufTy).Contents (Elt F) → (⟨S3300000, .f32⟩ : BufTy).Contents (Elt F)),
    nullary main_c_34 (constantI S_ 32 0#32) ]
abbrev w8_W : List (Ref sig .tc) := [main_v105_1, main_c_30, main_v106, main_v107, main_c_31, main_v108, main_v109, main_v110, main_v111, main_v112, main_v113, main_c_32, main_v114, main_v115, main_c_33, main_v116, main_v117, main_v118, main_v119, main_v120, main_v121, main_c_34]

set_option maxRecDepth 8192 in
abbrev w9 : List (HloOp τ sig (Elt F)) :=
  [ unary main_c_34 main_v122 (broadcastInDim S3300000 ![] bcast_S_S3300000 : (⟨S_, .i32⟩ : BufTy).Contents (Elt F) → (⟨S3300000, .i32⟩ : BufTy).Contents (Elt F)),
    binary main_v90 main_v122 main_v123 (cmpi .slt : (⟨S3300000, .i32⟩ : BufTy).Contents (Elt F) → (⟨S3300000, .i32⟩ : BufTy).Contents (Elt F) → (⟨S3300000, .i1⟩ : BufTy).Contents (Elt F)),
    nullary main_c_35 (constantI S_ 32 100000#32),
    unary main_c_35 main_v124 (broadcastInDim S3300000 ![] bcast_S_S3300000 : (⟨S_, .i32⟩ : BufTy).Contents (Elt F) → (⟨S3300000, .i32⟩ : BufTy).Contents (Elt F)),
    binary main_v90 main_v124 main_v125 (addi : (⟨S3300000, .i32⟩ : BufTy).Contents (Elt F) → (⟨S3300000, .i32⟩ : BufTy).Contents (Elt F) → (⟨S3300000, .i32⟩ : BufTy).Contents (Elt F)),
    ternary main_v123 main_v125 main_v90 main_v126 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v126 main_v127 (broadcastInDim S3300000x1 ![0] bcast_S3300000_S3300000x1_0 : (⟨S3300000, .i32⟩ : BufTy).Contents (Elt F) → (⟨S3300000x1, .i32⟩ : BufTy).Contents (Elt F)),
    binary main_v88 main_v127 main_v128 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v121 main_v129 (broadcastInDim S3300000x1 ![0] bcast_S3300000_S3300000x1_0 : (⟨S3300000, .f32⟩ : BufTy).Contents (Elt F) → (⟨S3300000x1, .f32⟩ : BufTy).Contents (Elt F)),
    unary main_v129 main_v130 (broadcastInDim S3300000x16 ![0, 1] bcast_S3300000x1_S3300000x16_0_1 : (⟨S3300000x1, .f32⟩ : BufTy).Contents (Elt F) → (⟨S3300000x16, .f32⟩ : BufTy).Contents (Elt F)),
    binary main_v128 main_v130 main_v131 (mulf : (⟨S3300000x16, .f32⟩ : BufTy).Contents (Elt F) → (⟨S3300000x16, .f32⟩ : BufTy).Contents (Elt F) → (⟨S3300000x16, .f32⟩ : BufTy).Contents (Elt F)),
    nullary main_cst_36 (constant S_ .f32 0x00000000#32),
    unary main_cst_36 main_v132 (broadcastInDim S100000x16 ![] bcast_S_S100000x16 : (⟨S_, .f32⟩ : BufTy).Contents (Elt F) → (⟨S100000x16, .f32⟩ : BufTy).Contents (Elt F)),
    unary main_v91 main_v133 (broadcastInDim S3300000x1 ![0] bcast_S3300000_S3300000x1_0 : (⟨S3300000, .i32⟩ : BufTy).Contents (Elt F) → (⟨S3300000x1, .i32⟩ : BufTy).Contents (Elt F)),
    ternary main_v132 main_v133 main_v131 main_v134 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    nullary main_cst_37 (constant S_ .f32 0x00000000#32),
    unary main_cst_37 main_v135 (broadcastInDim S100000x16 ![] bcast_S_S100000x16 : (⟨S_, .f32⟩ : BufTy).Contents (Elt F) → (⟨S100000x16, .f32⟩ : BufTy).Contents (Elt F)),
    unary main_arg7 main_v136 (broadcastInDim S1x16 ![1] bcast_S16_S1x16_1 : (⟨S16, .f32⟩ : BufTy).Contents (Elt F) → (⟨S1x16, .f32⟩ : BufTy).Contents (Elt F)),
    unary main_v136 main_v137 (broadcastInDim S100000x16 ![0, 1] bcast_S1x16_S100000x16_0_1 : (⟨S1x16, .f32⟩ : BufTy).Contents (Elt F) → (⟨S100000x16, .f32⟩ : BufTy).Contents (Elt F)),
    binary main_v134 main_v137 main_v138 (addf : (⟨S100000x16, .f32⟩ : BufTy).Contents (Elt F) → (⟨S100000x16, .f32⟩ : BufTy).Contents (Elt F) → (⟨S100000x16, .f32⟩ : BufTy).Contents (Elt F)),
    nullary main_cst_38 (constant S_ .f32 0x3C23D70A#32) ]
abbrev w9_W : List (Ref sig .tc) := [main_v122, main_v123, main_c_35, main_v124, main_v125, main_v126, main_v127, main_v128, main_v129, main_v130, main_v131, main_cst_36, main_v132, main_v133, main_v134, main_cst_37, main_v135, main_v136, main_v137, main_v138, main_cst_38]

set_option maxRecDepth 8192 in
abbrev w10 : List (HloOp τ sig (Elt F)) :=
  [ TRef.nullary main_call4.cst (constant S_ .f32 0x00000000#32),
    TRef.unary main_call4.cst main_call4.v0 (broadcastInDim S100000x16 ![] bcast_S_S100000x16),
    TRef.binary ((.of main_v138) : StableHlo.TRef sig ⟨S100000x16, .f32⟩) main_call4.v0 main_call4.v1 (cmpf .oge),
    TRef.unary ((.of main_cst_38) : StableHlo.TRef sig ⟨S_, .f32⟩) main_call4.v2 id,
    TRef.unary main_call4.v2 main_call4.v3 (broadcastInDim S100000x16 ![] bcast_S_S100000x16),
    TRef.binary main_call4.v3 ((.of main_v138) : StableHlo.TRef sig ⟨S100000x16, .f32⟩) main_call4.v4 mulf,
    TRef.ternary main_call4.v1 ((.of main_v138) : StableHlo.TRef sig ⟨S100000x16, .f32⟩) main_call4.v4 main_call4.call0.v0 select,
    binary main_v139_0 main_arg8 main_v140 ((fun l r => Host.dotGeneral dot_S100000x16_S16x4_S100000x4_1_0_0_1_n_n none l r) : (⟨S100000x16, .f32⟩ : BufTy).Contents (Elt F) → (⟨S16x4, .f32⟩ : BufTy).Contents (Elt F) → (⟨S100000x4, .f32⟩ : BufTy).Contents (Elt F)),
    unary main_arg9 main_v141 (broadcastInDim S1x4 ![1] bcast_S4_S1x4_1 : (⟨S4, .f32⟩ : BufTy).Contents (Elt F) → (⟨S1x4, .f32⟩ : BufTy).Contents (Elt F)),
    unary main_v141 main_v142 (broadcastInDim S100000x4 ![0, 1] bcast_S1x4_S100000x4_0_1 : (⟨S1x4, .f32⟩ : BufTy).Contents (Elt F) → (⟨S100000x4, .f32⟩ : BufTy).Contents (Elt F)),
    binary main_v140 main_v142 main_v143 (addf : (⟨S100000x4, .f32⟩ : BufTy).Contents (Elt F) → (⟨S100000x4, .f32⟩ : BufTy).Contents (Elt F) → (⟨S100000x4, .f32⟩ : BufTy).Contents (Elt F)),
    nullary main_cst_39 (constant S_ .f32 0x3C23D70A#32),
    TRef.nullary main_call5.cst (constant S_ .f32 0x00000000#32),
    TRef.unary main_call5.cst main_call5.v0 (broadcastInDim S100000x4 ![] bcast_S_S100000x4),
    TRef.binary ((.of main_v143) : StableHlo.TRef sig ⟨S100000x4, .f32⟩) main_call5.v0 main_call5.v1 (cmpf .oge),
    TRef.unary ((.of main_cst_39) : StableHlo.TRef sig ⟨S_, .f32⟩) main_call5.v2 id,
    TRef.unary main_call5.v2 main_call5.v3 (broadcastInDim S100000x4 ![] bcast_S_S100000x4),
    TRef.binary main_call5.v3 ((.of main_v143) : StableHlo.TRef sig ⟨S100000x4, .f32⟩) main_call5.v4 mulf,
    TRef.ternary main_call5.v1 ((.of main_v143) : StableHlo.TRef sig ⟨S100000x4, .f32⟩) main_call5.v4 main_call5.call0.v0 select,
    binary main_v144_0 main_arg10 main_v145 ((fun l r => Host.dotGeneral dot_S100000x4_S4x1_S100000x1_1_0_0_1_n_n none l r) : (⟨S100000x4, .f32⟩ : BufTy).Contents (Elt F) → (⟨S4x1, .f32⟩ : BufTy).Contents (Elt F) → (⟨S100000x1, .f32⟩ : BufTy).Contents (Elt F)),
    unary main_arg11 main_v146 (broadcastInDim S1x1 ![1] bcast_S1_S1x1_1 : (⟨S1, .f32⟩ : BufTy).Contents (Elt F) → (⟨S1x1, .f32⟩ : BufTy).Contents (Elt F)),
    unary main_v146 main_v147 (broadcastInDim S100000x1 ![0, 1] bcast_S1x1_S100000x1_0_1 : (⟨S1x1, .f32⟩ : BufTy).Contents (Elt F) → (⟨S100000x1, .f32⟩ : BufTy).Contents (Elt F)),
    binary main_v145 main_v147 main_v148 (addf : (⟨S100000x1, .f32⟩ : BufTy).Contents (Elt F) → (⟨S100000x1, .f32⟩ : BufTy).Contents (Elt F) → (⟨S100000x1, .f32⟩ : BufTy).Contents (Elt F)),
    nullary main_cst_40 (constant S_ .f32 0x3C23D70A#32) ]
abbrev w10_W : List (Ref sig .tc) := [main_call4_cst, main_call4_v0, main_v139_2, main_v139_1, main_call4_v3, main_call4_v4, main_v139_0, main_v140, main_v141, main_v142, main_v143, main_cst_39, main_call5_cst, main_call5_v0, main_v144_2, main_v144_1, main_call5_v3, main_call5_v4, main_v144_0, main_v145, main_v146, main_v147, main_v148, main_cst_40]

set_option maxRecDepth 8192 in
abbrev w11 : List (HloOp τ sig (Elt F)) :=
  [ TRef.nullary main_call6.cst (constant S_ .f32 0x00000000#32),
    TRef.unary main_call6.cst main_call6.v0 (broadcastInDim S100000x1 ![] bcast_S_S100000x1),
    TRef.binary ((.of main_v148) : StableHlo.TRef sig ⟨S100000x1, .f32⟩) main_call6.v0 main_call6.v1 (cmpf .oge),
    TRef.unary ((.of main_cst_40) : StableHlo.TRef sig ⟨S_, .f32⟩) main_call6.v2 id,
    TRef.unary main_call6.v2 main_call6.v3 (broadcastInDim S100000x1 ![] bcast_S_S100000x1),
    TRef.binary main_call6.v3 ((.of main_v148) : StableHlo.TRef sig ⟨S100000x1, .f32⟩) main_call6.v4 mulf,
    TRef.ternary main_call6.v1 ((.of main_v148) : StableHlo.TRef sig ⟨S100000x1, .f32⟩) main_call6.v4 main_call6.call0.v0 select,
    nullary main_cst_41 (constant S_ .f32 0x00000000#32),
    unary main_cst_41 main_v150 (broadcastInDim S512x1 ![] bcast_S_S512x1 : (⟨S_, .f32⟩ : BufTy).Contents (Elt F) → (⟨S512x1, .f32⟩ : BufTy).Contents (Elt F)),
    unary main_arg14 main_v151 (broadcastInDim S100000x1 ![0] bcast_S100000_S100000x1_0 : (⟨S100000, .i32⟩ : BufTy).Contents (Elt F) → (⟨S100000x1, .i32⟩ : BufTy).Contents (Elt F)),
    ternary main_v150 main_v151 main_v149_0 main_v152 ((fun x i u => Host.scatterAdd scatter_S512x1_S100000x1_S100000x1_1_0_0_1 x i u) : (⟨S512x1, .f32⟩ : BufTy).Contents (Elt F) → (⟨S100000x1, .i32⟩ : BufTy).Contents (Elt F) → (⟨S100000x1, .f32⟩ : BufTy).Contents (Elt F) → (⟨S512x1, .f32⟩ : BufTy).Contents (Elt F)),
    nullary main_cst_42 (constant S_ .f32 0x00000000#32),
    unary main_cst_42 main_v153 (broadcastInDim S512x1 ![] bcast_S_S512x1 : (⟨S_, .f32⟩ : BufTy).Contents (Elt F) → (⟨S512x1, .f32⟩ : BufTy).Contents (Elt F)),
    nullary main_cst_43 (constant S_ .f32 0x3F800000#32),
    unary main_cst_43 main_v154 (broadcastInDim S512x1 ![] bcast_S_S512x1 : (⟨S_, .f32⟩ : BufTy).Contents (Elt F) → (⟨S512x1, .f32⟩ : BufTy).Contents (Elt F)),
    nullary main_c_44 (constantI S1 32 511#32),
    nullary main_c_45 (constantI S_ 32 0#32),
    unary main_c_45 main_v155 (broadcastInDim S100000x1 ![] bcast_S_S100000x1 : (⟨S_, .i32⟩ : BufTy).Contents (Elt F) → (⟨S100000x1, .i32⟩ : BufTy).Contents (Elt F)),
    binary main_v151 main_v155 main_v156 (cmpi .sge : (⟨S100000x1, .i32⟩ : BufTy).Contents (Elt F) → (⟨S100000x1, .i32⟩ : BufTy).Contents (Elt F) → (⟨S100000x1, .i1⟩ : BufTy).Contents (Elt F)),
    unary main_c_44 main_v157 (broadcastInDim S1x1 ![1] bcast_S1_S1x1_1 : (⟨S1, .i32⟩ : BufTy).Contents (Elt F) → (⟨S1x1, .i32⟩ : BufTy).Contents (Elt F)),
    unary main_v157 main_v158 (broadcastInDim S100000x1 ![0, 1] bcast_S1x1_S100000x1_0_1 : (⟨S1x1, .i32⟩ : BufTy).Contents (Elt F) → (⟨S100000x1, .i32⟩ : BufTy).Contents (Elt F)),
    binary main_v151 main_v158 main_v159 (cmpi .sle : (⟨S100000x1, .i32⟩ : BufTy).Contents (Elt F) → (⟨S100000x1, .i32⟩ : BufTy).Contents (Elt F) → (⟨S100000x1, .i1⟩ : BufTy).Contents (Elt F)),
    binary main_v156 main_v159 main_v160 (andi : (⟨S100000x1, .i1⟩ : BufTy).Contents (Elt F) → (⟨S100000x1, .i1⟩ : BufTy).Contents (Elt F) → (⟨S100000x1, .i1⟩ : BufTy).Contents (Elt F)),
    nullary main_c_46 (constantI S_ 1 1#1) ]
abbrev w11_W : List (Ref sig .tc) := [main_call6_cst, main_call6_v0, main_v149_2, main_v149_1, main_call6_v3, main_call6_v4, main_v149_0, main_cst_41, main_v150, main_v151, main_v152, main_cst_42, main_v153, main_cst_43, main_v154, main_c_44, main_c_45, main_v155, main_v156, main_v157, main_v158, main_v159, main_v160, main_c_46]

set_option maxRecDepth 8192 in
abbrev w12 : List (HloOp τ sig (Elt F)) :=
  [ binary main_v160 main_c_46 main_v161 ((fun x v => Host.reduce IntOp.andi x v reducesTo_S100000x1_S100000_d1 h_S_) : (⟨S100000x1, .i1⟩ : BufTy).Contents (Elt F) → (⟨S_, .i1⟩ : BufTy).Contents (Elt F) → (⟨S100000, .i1⟩ : BufTy).Contents (Elt F)),
    binary main_v154 main_v151 main_v162 ((fun x i => Host.gather gather_S512x1_S100000x1_S100000x1_1_0_n_n_0_1_11 x i) : (⟨S512x1, .f32⟩ : BufTy).Contents (Elt F) → (⟨S100000x1, .i32⟩ : BufTy).Contents (Elt F) → (⟨S100000x1, .f32⟩ : BufTy).Contents (Elt F)),
    unary main_v161 main_v163 (broadcastInDim S100000x1 ![0] bcast_S100000_S100000x1_0 : (⟨S100000, .i1⟩ : BufTy).Contents (Elt F) → (⟨S100000x1, .i1⟩ : BufTy).Contents (Elt F)),
    nullary main_cst_47 (constant S_ .f32 0x00000000#32),
    unary main_cst_47 main_v164 (broadcastInDim S100000x1 ![] bcast_S_S100000x1 : (⟨S_, .f32⟩ : BufTy).Contents (Elt F) → (⟨S100000x1, .f32⟩ : BufTy).Contents (Elt F)),
    ternary main_v163 main_v162 main_v164 main_v165 (select : (⟨S100000x1, .i1⟩ : BufTy).Contents (Elt F) → (⟨S100000x1, .f32⟩ : BufTy).Contents (Elt F) → (⟨S100000x1, .f32⟩ : BufTy).Contents (Elt F) → (⟨S100000x1, .f32⟩ : BufTy).Contents (Elt F)),
    TRef.nullary main_call7.call0.cst (constant S_ .f32 0x00000000#32),
    TRef.unary main_call7.call0.cst main_call7.call0.v0 (broadcastInDim S100000x1 ![] bcast_S_S100000x1),
    TRef.ternary ((.of main_v149_2) : StableHlo.TRef sig ⟨S100000x1, .i1⟩) main_call7.call0.v0 ((.of main_v165) : StableHlo.TRef sig ⟨S100000x1, .f32⟩) main_call7.call0.v1 select,
    TRef.ternary ((.of main_v149_2) : StableHlo.TRef sig ⟨S100000x1, .i1⟩) ((.of main_v165) : StableHlo.TRef sig ⟨S100000x1, .f32⟩) main_call7.call0.v0 main_call7.call0.v2 select,
    TRef.unary ((.of main_v149_1) : StableHlo.TRef sig ⟨S_, .f32⟩) main_call7.v1 (broadcastInDim S100000x1 ![] bcast_S_S100000x1),
    TRef.binary main_call7.v1 main_call7.call0.v1 main_call7.v2 mulf,
    TRef.binary main_call7.call0.v2 main_call7.v2 main_call7.v3 addf,
    binary main_v166 main_arg10 main_v167 ((fun l r => Host.dotGeneral dot_S100000x1_S4x1_S100000x4_1_1_0_0_n_n none l r) : (⟨S100000x1, .f32⟩ : BufTy).Contents (Elt F) → (⟨S4x1, .f32⟩ : BufTy).Contents (Elt F) → (⟨S100000x4, .f32⟩ : BufTy).Contents (Elt F)),
    TRef.nullary main_call8.call0.cst (constant S_ .f32 0x00000000#32),
    TRef.unary main_call8.call0.cst main_call8.call0.v0 (broadcastInDim S100000x4 ![] bcast_S_S100000x4),
    TRef.ternary ((.of main_v144_2) : StableHlo.TRef sig ⟨S100000x4, .i1⟩) main_call8.call0.v0 ((.of main_v167) : StableHlo.TRef sig ⟨S100000x4, .f32⟩) main_call8.call0.v1 select,
    TRef.ternary ((.of main_v144_2) : StableHlo.TRef sig ⟨S100000x4, .i1⟩) ((.of main_v167) : StableHlo.TRef sig ⟨S100000x4, .f32⟩) main_call8.call0.v0 main_call8.call0.v2 select,
    TRef.unary ((.of main_v144_1) : StableHlo.TRef sig ⟨S_, .f32⟩) main_call8.v1 (broadcastInDim S100000x4 ![] bcast_S_S100000x4),
    TRef.binary main_call8.v1 main_call8.call0.v1 main_call8.v2 mulf,
    TRef.binary main_call8.call0.v2 main_call8.v2 main_call8.v3 addf,
    binary main_v168 main_arg8 main_v169 ((fun l r => Host.dotGeneral dot_S100000x4_S16x4_S100000x16_1_1_0_0_n_n none l r) : (⟨S100000x4, .f32⟩ : BufTy).Contents (Elt F) → (⟨S16x4, .f32⟩ : BufTy).Contents (Elt F) → (⟨S100000x16, .f32⟩ : BufTy).Contents (Elt F)),
    TRef.nullary main_call9.call0.cst (constant S_ .f32 0x00000000#32),
    TRef.unary main_call9.call0.cst main_call9.call0.v0 (broadcastInDim S100000x16 ![] bcast_S_S100000x16) ]
abbrev w12_W : List (Ref sig .tc) := [main_v161, main_v162, main_v163, main_cst_47, main_v164, main_v165, main_call7_call0_cst, main_call7_call0_v0, main_call7_v0_1, main_call7_v0_0, main_call7_v1, main_call7_v2, main_v166, main_v167, main_call8_call0_cst, main_call8_call0_v0, main_call8_v0_1, main_call8_v0_0, main_call8_v1, main_call8_v2, main_v168, main_v169, main_call9_call0_cst, main_call9_call0_v0]

set_option maxRecDepth 8192 in
abbrev w13 : List (HloOp τ sig (Elt F)) :=
  [ TRef.ternary ((.of main_v139_2) : StableHlo.TRef sig ⟨S100000x16, .i1⟩) main_call9.call0.v0 ((.of main_v169) : StableHlo.TRef sig ⟨S100000x16, .f32⟩) main_call9.call0.v1 select,
    TRef.ternary ((.of main_v139_2) : StableHlo.TRef sig ⟨S100000x16, .i1⟩) ((.of main_v169) : StableHlo.TRef sig ⟨S100000x16, .f32⟩) main_call9.call0.v0 main_call9.call0.v2 select,
    TRef.unary ((.of main_v139_1) : StableHlo.TRef sig ⟨S_, .f32⟩) main_call9.v1 (broadcastInDim S100000x16 ![] bcast_S_S100000x16),
    TRef.binary main_call9.v1 main_call9.call0.v1 main_call9.v2 mulf,
    TRef.binary main_call9.call0.v2 main_call9.v2 main_call9.v3 addf,
    nullary main_c_48 (constantI S1 32 99999#32),
    nullary main_c_49 (constantI S_ 32 0#32),
    unary main_c_49 main_v171 (broadcastInDim S3300000x1 ![] bcast_S_S3300000x1 : (⟨S_, .i32⟩ : BufTy).Contents (Elt F) → (⟨S3300000x1, .i32⟩ : BufTy).Contents (Elt F)),
    binary main_v133 main_v171 main_v172 (cmpi .sge : (⟨S3300000x1, .i32⟩ : BufTy).Contents (Elt F) → (⟨S3300000x1, .i32⟩ : BufTy).Contents (Elt F) → (⟨S3300000x1, .i1⟩ : BufTy).Contents (Elt F)),
    unary main_c_48 main_v173 (broadcastInDim S1x1 ![1] bcast_S1_S1x1_1 : (⟨S1, .i32⟩ : BufTy).Contents (Elt F) → (⟨S1x1, .i32⟩ : BufTy).Contents (Elt F)),
    unary main_v173 main_v174 (broadcastInDim S3300000x1 ![0, 1] bcast_S1x1_S3300000x1_0_1 : (⟨S1x1, .i32⟩ : BufTy).Contents (Elt F) → (⟨S3300000x1, .i32⟩ : BufTy).Contents (Elt F)),
    binary main_v133 main_v174 main_v175 (cmpi .sle : (⟨S3300000x1, .i32⟩ : BufTy).Contents (Elt F) → (⟨S3300000x1, .i32⟩ : BufTy).Contents (Elt F) → (⟨S3300000x1, .i1⟩ : BufTy).Contents (Elt F)),
    binary main_v172 main_v175 main_v176 (andi : (⟨S3300000x1, .i1⟩ : BufTy).Contents (Elt F) → (⟨S3300000x1, .i1⟩ : BufTy).Contents (Elt F) → (⟨S3300000x1, .i1⟩ : BufTy).Contents (Elt F)),
    nullary main_c_50 (constantI S_ 1 1#1),
    binary main_v176 main_c_50 main_v177 ((fun x v => Host.reduce IntOp.andi x v reducesTo_S3300000x1_S3300000_d1 h_S_) : (⟨S3300000x1, .i1⟩ : BufTy).Contents (Elt F) → (⟨S_, .i1⟩ : BufTy).Contents (Elt F) → (⟨S3300000, .i1⟩ : BufTy).Contents (Elt F)),
    binary main_v170 main_v133 main_v178 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v177 main_v179 (broadcastInDim S3300000x16 ![0] bcast_S3300000_S3300000x16_0 : (⟨S3300000, .i1⟩ : BufTy).Contents (Elt F) → (⟨S3300000x16, .i1⟩ : BufTy).Contents (Elt F)),
    nullary main_cst_51 (constant S_ .f32 0x00000000#32),
    unary main_cst_51 main_v180 (broadcastInDim S3300000x16 ![] bcast_S_S3300000x16 : (⟨S_, .f32⟩ : BufTy).Contents (Elt F) → (⟨S3300000x16, .f32⟩ : BufTy).Contents (Elt F)),
    ternary main_v179 main_v178 main_v180 main_v181 (select : (⟨S3300000x16, .i1⟩ : BufTy).Contents (Elt F) → (⟨S3300000x16, .f32⟩ : BufTy).Contents (Elt F) → (⟨S3300000x16, .f32⟩ : BufTy).Contents (Elt F) → (⟨S3300000x16, .f32⟩ : BufTy).Contents (Elt F)),
    binary main_v128 main_v181 main_v182 (mulf : (⟨S3300000x16, .f32⟩ : BufTy).Contents (Elt F) → (⟨S3300000x16, .f32⟩ : BufTy).Contents (Elt F) → (⟨S3300000x16, .f32⟩ : BufTy).Contents (Elt F)),
    nullary main_cst_52 (constant S_ .f32 0x00000000#32),
    binary main_v182 main_cst_52 main_v183 ((fun x v => Host.reduceAdd x v reducesTo_S3300000x16_S3300000_d1 h_S_) : (⟨S3300000x16, .f32⟩ : BufTy).Contents (Elt F) → (⟨S_, .f32⟩ : BufTy).Contents (Elt F) → (⟨S3300000, .f32⟩ : BufTy).Contents (Elt F)),
    reshape main_v183 main_v184 rfl shapeCasts_S3300000_S3300000x1 ]
abbrev w13_W : List (Ref sig .tc) := [main_call9_v0_1, main_call9_v0_0, main_call9_v1, main_call9_v2, main_v170, main_c_48, main_c_49, main_v171, main_v172, main_v173, main_v174, main_v175, main_v176, main_c_50, main_v177, main_v178, main_v179, main_cst_51, main_v180, main_v181, main_v182, main_cst_52, main_v183, main_v184]

set_option maxRecDepth 8192 in
abbrev w14 : List (HloOp τ sig (Elt F)) :=
  [ unary main_v129 main_v185 (broadcastInDim S3300000x16 ![0, 1] bcast_S3300000x1_S3300000x16_0_1 : (⟨S3300000x1, .f32⟩ : BufTy).Contents (Elt F) → (⟨S3300000x16, .f32⟩ : BufTy).Contents (Elt F)),
    binary main_v181 main_v185 main_v186 (mulf : (⟨S3300000x16, .f32⟩ : BufTy).Contents (Elt F) → (⟨S3300000x16, .f32⟩ : BufTy).Contents (Elt F) → (⟨S3300000x16, .f32⟩ : BufTy).Contents (Elt F)),
    nullary main_cst_53 (constant S_ .f32 0x00000000#32),
    binary main_v184 main_cst_53 main_v187 ((fun x v => Host.reduceAdd x v reducesTo_S3300000x1_S3300000_d1 h_S_) : (⟨S3300000x1, .f32⟩ : BufTy).Contents (Elt F) → (⟨S_, .f32⟩ : BufTy).Contents (Elt F) → (⟨S3300000, .f32⟩ : BufTy).Contents (Elt F)),
    nullary main_cst_54 (constant S_ .f32 0x00000000#32),
    unary main_cst_54 main_v188 (broadcastInDim S100000x16 ![] bcast_S_S100000x16 : (⟨S_, .f32⟩ : BufTy).Contents (Elt F) → (⟨S100000x16, .f32⟩ : BufTy).Contents (Elt F)),
    ternary main_v188 main_v127 main_v186 main_v189 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    binary main_v113 main_v187 main_v190 (mulf : (⟨S3300000, .f32⟩ : BufTy).Contents (Elt F) → (⟨S3300000, .f32⟩ : BufTy).Contents (Elt F) → (⟨S3300000, .f32⟩ : BufTy).Contents (Elt F)),
    binary main_v187 main_v120 main_v191 (mulf : (⟨S3300000, .f32⟩ : BufTy).Contents (Elt F) → (⟨S3300000, .f32⟩ : BufTy).Contents (Elt F) → (⟨S3300000, .f32⟩ : BufTy).Contents (Elt F)),
    nullary main_cst_55 (constant S_ .f32 0x00000000#32),
    unary main_cst_55 main_v192 (broadcastInDim S100000 ![] bcast_S_S100000 : (⟨S_, .f32⟩ : BufTy).Contents (Elt F) → (⟨S100000, .f32⟩ : BufTy).Contents (Elt F)),
    ternary main_v192 main_v119 main_v190 main_v193 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    binary main_v112 main_v191 main_v194 (mulf : (⟨S3300000, .f32⟩ : BufTy).Contents (Elt F) → (⟨S3300000, .f32⟩ : BufTy).Contents (Elt F) → (⟨S3300000, .f32⟩ : BufTy).Contents (Elt F)),
    binary main_v191 main_v93 main_v195 (mulf : (⟨S3300000, .f32⟩ : BufTy).Contents (Elt F) → (⟨S3300000, .f32⟩ : BufTy).Contents (Elt F) → (⟨S3300000, .f32⟩ : BufTy).Contents (Elt F)),
    nullary main_cst_56 (constant S_ .f32 0x00000000#32),
    unary main_cst_56 main_v196 (broadcastInDim S100000 ![] bcast_S_S100000 : (⟨S_, .f32⟩ : BufTy).Contents (Elt F) → (⟨S100000, .f32⟩ : BufTy).Contents (Elt F)),
    ternary main_v196 main_v111 main_v195 main_v197 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    binary main_v193 main_v197 main_v198 (addf : (⟨S100000, .f32⟩ : BufTy).Contents (Elt F) → (⟨S100000, .f32⟩ : BufTy).Contents (Elt F) → (⟨S100000, .f32⟩ : BufTy).Contents (Elt F)),
    TRef.nullary main_call10.cst (constant S_ .f32 0x00000000#32),
    TRef.unary main_call10.cst main_call10.v0 (broadcastInDim S100000 ![] bcast_S_S100000),
    TRef.ternary ((.of main_v100) : StableHlo.TRef sig ⟨S100000, .i1⟩) ((.of main_v198) : StableHlo.TRef sig ⟨S100000, .f32⟩) main_call10.v0 main_call10.v1 select,
    binary main_v199 main_v104 main_v200 (mulf : (⟨S100000, .f32⟩ : BufTy).Contents (Elt F) → (⟨S100000, .f32⟩ : BufTy).Contents (Elt F) → (⟨S100000, .f32⟩ : BufTy).Contents (Elt F)),
    nullary main_c_57 (constantI S1 32 99999#32),
    nullary main_c_58 (constantI S_ 32 0#32),
    unary main_c_58 main_v201 (broadcastInDim S3300000x1 ![] bcast_S_S3300000x1 : (⟨S_, .i32⟩ : BufTy).Contents (Elt F) → (⟨S3300000x1, .i32⟩ : BufTy).Contents (Elt F)) ]
abbrev w14_W : List (Ref sig .tc) := [main_v185, main_v186, main_cst_53, main_v187, main_cst_54, main_v188, main_v189, main_v190, main_v191, main_cst_55, main_v192, main_v193, main_v194, main_v195, main_cst_56, main_v196, main_v197, main_v198, main_call10_cst, main_call10_v0, main_v199, main_v200, main_c_57, main_c_58, main_v201]

set_option maxRecDepth 8192 in
abbrev w15 : List (HloOp τ sig (Elt F)) :=
  [ binary main_v96 main_v201 main_v202 (cmpi .sge : (⟨S3300000x1, .i32⟩ : BufTy).Contents (Elt F) → (⟨S3300000x1, .i32⟩ : BufTy).Contents (Elt F) → (⟨S3300000x1, .i1⟩ : BufTy).Contents (Elt F)),
    unary main_c_57 main_v203 (broadcastInDim S1x1 ![1] bcast_S1_S1x1_1 : (⟨S1, .i32⟩ : BufTy).Contents (Elt F) → (⟨S1x1, .i32⟩ : BufTy).Contents (Elt F)),
    unary main_v203 main_v204 (broadcastInDim S3300000x1 ![0, 1] bcast_S1x1_S3300000x1_0_1 : (⟨S1x1, .i32⟩ : BufTy).Contents (Elt F) → (⟨S3300000x1, .i32⟩ : BufTy).Contents (Elt F)),
    binary main_v96 main_v204 main_v205 (cmpi .sle : (⟨S3300000x1, .i32⟩ : BufTy).Contents (Elt F) → (⟨S3300000x1, .i32⟩ : BufTy).Contents (Elt F) → (⟨S3300000x1, .i1⟩ : BufTy).Contents (Elt F)),
    binary main_v202 main_v205 main_v206 (andi : (⟨S3300000x1, .i1⟩ : BufTy).Contents (Elt F) → (⟨S3300000x1, .i1⟩ : BufTy).Contents (Elt F) → (⟨S3300000x1, .i1⟩ : BufTy).Contents (Elt F)),
    nullary main_c_59 (constantI S_ 1 1#1),
    binary main_v206 main_c_59 main_v207 ((fun x v => Host.reduce IntOp.andi x v reducesTo_S3300000x1_S3300000_d1 h_S_) : (⟨S3300000x1, .i1⟩ : BufTy).Contents (Elt F) → (⟨S_, .i1⟩ : BufTy).Contents (Elt F) → (⟨S3300000, .i1⟩ : BufTy).Contents (Elt F)),
    binary main_v200 main_v96 main_v208 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_cst_60 (constant S_ .f32 0x00000000#32),
    unary main_cst_60 main_v209 (broadcastInDim S3300000 ![] bcast_S_S3300000 : (⟨S_, .f32⟩ : BufTy).Contents (Elt F) → (⟨S3300000, .f32⟩ : BufTy).Contents (Elt F)),
    ternary main_v207 main_v208 main_v209 main_v210 (select : (⟨S3300000, .i1⟩ : BufTy).Contents (Elt F) → (⟨S3300000, .f32⟩ : BufTy).Contents (Elt F) → (⟨S3300000, .f32⟩ : BufTy).Contents (Elt F) → (⟨S3300000, .f32⟩ : BufTy).Contents (Elt F)),
    binary main_v194 main_v210 main_v211 (addf : (⟨S3300000, .f32⟩ : BufTy).Contents (Elt F) → (⟨S3300000, .f32⟩ : BufTy).Contents (Elt F) → (⟨S3300000, .f32⟩ : BufTy).Contents (Elt F)),
    unary main_v211 main_v212 ((extractStridedSlice S3200000 ![0] · slices_S3300000_S3200000_0) : (⟨S3300000, .f32⟩ : BufTy).Contents (Elt F) → (⟨S3200000, .f32⟩ : BufTy).Contents (Elt F)),
    unary main_v211 main_v213 ((extractStridedSlice S100000 ![3200000] · slices_S3300000_S100000_3200000) : (⟨S3300000, .f32⟩ : BufTy).Contents (Elt F) → (⟨S100000, .f32⟩ : BufTy).Contents (Elt F)),
    binary main_v189 main_arg6 main_v214 ((fun l r => Host.dotGeneral dot_S100000x16_S16x16_S100000x16_1_1_0_0_n_n none l r) : (⟨S100000x16, .f32⟩ : BufTy).Contents (Elt F) → (⟨S16x16, .f32⟩ : BufTy).Contents (Elt F) → (⟨S100000x16, .f32⟩ : BufTy).Contents (Elt F)),
    TRef.nullary main_call11.call0.cst (constant S_ .f32 0x00000000#32),
    TRef.unary main_call11.call0.cst main_call11.call0.v0 (broadcastInDim S100000x16 ![] bcast_S_S100000x16),
    TRef.ternary ((.of main_v87_2) : StableHlo.TRef sig ⟨S100000x16, .i1⟩) main_call11.call0.v0 ((.of main_v214) : StableHlo.TRef sig ⟨S100000x16, .f32⟩) main_call11.call0.v1 select,
    TRef.ternary ((.of main_v87_2) : StableHlo.TRef sig ⟨S100000x16, .i1⟩) ((.of main_v214) : StableHlo.TRef sig ⟨S100000x16, .f32⟩) main_call11.call0.v0 main_call11.call0.v2 select,
    TRef.unary ((.of main_v87_1) : StableHlo.TRef sig ⟨S_, .f32⟩) main_call11.v1 (broadcastInDim S100000x16 ![] bcast_S_S100000x16),
    TRef.binary main_call11.v1 main_call11.call0.v1 main_call11.v2 mulf,
    TRef.binary main_call11.call0.v2 main_call11.v2 main_call11.v3 addf,
    binary main_v215 main_arg4 main_v216 ((fun l r => Host.dotGeneral dot_S100000x16_S16x16_S100000x16_1_1_0_0_n_n none l r) : (⟨S100000x16, .f32⟩ : BufTy).Contents (Elt F) → (⟨S16x16, .f32⟩ : BufTy).Contents (Elt F) → (⟨S100000x16, .f32⟩ : BufTy).Contents (Elt F)),
    TRef.nullary main_call12.call0.cst (constant S_ .f32 0x00000000#32) ]
abbrev w15_W : List (Ref sig .tc) := [main_v202, main_v203, main_v204, main_v205, main_v206, main_c_59, main_v207, main_v208, main_cst_60, main_v209, main_v210, main_v211, main_v212, main_v213, main_v214, main_call11_call0_cst, main_call11_call0_v0, main_call11_v0_1, main_call11_v0_0, main_call11_v1, main_call11_v2, main_v215, main_v216, main_call12_call0_cst]

set_option maxRecDepth 8192 in
abbrev w16 : List (HloOp τ sig (Elt F)) :=
  [ TRef.unary main_call12.call0.cst main_call12.call0.v0 (broadcastInDim S100000x16 ![] bcast_S_S100000x16),
    TRef.ternary ((.of main_v82_2) : StableHlo.TRef sig ⟨S100000x16, .i1⟩) main_call12.call0.v0 ((.of main_v216) : StableHlo.TRef sig ⟨S100000x16, .f32⟩) main_call12.call0.v1 select,
    TRef.ternary ((.of main_v82_2) : StableHlo.TRef sig ⟨S100000x16, .i1⟩) ((.of main_v216) : StableHlo.TRef sig ⟨S100000x16, .f32⟩) main_call12.call0.v0 main_call12.call0.v2 select,
    TRef.unary ((.of main_v82_1) : StableHlo.TRef sig ⟨S_, .f32⟩) main_call12.v1 (broadcastInDim S100000x16 ![] bcast_S_S100000x16),
    TRef.binary main_call12.v1 main_call12.call0.v1 main_call12.v2 mulf,
    TRef.binary main_call12.call0.v2 main_call12.v2 main_call12.v3 addf,
    nullary main_c_61 (constantI S1 32 99999#32),
    nullary main_c_62 (constantI S_ 32 0#32),
    unary main_c_62 main_v218 (broadcastInDim S3300000x1 ![] bcast_S_S3300000x1 : (⟨S_, .i32⟩ : BufTy).Contents (Elt F) → (⟨S3300000x1, .i32⟩ : BufTy).Contents (Elt F)),
    binary main_v76 main_v218 main_v219 (cmpi .sge : (⟨S3300000x1, .i32⟩ : BufTy).Contents (Elt F) → (⟨S3300000x1, .i32⟩ : BufTy).Contents (Elt F) → (⟨S3300000x1, .i1⟩ : BufTy).Contents (Elt F)),
    unary main_c_61 main_v220 (broadcastInDim S1x1 ![1] bcast_S1_S1x1_1 : (⟨S1, .i32⟩ : BufTy).Contents (Elt F) → (⟨S1x1, .i32⟩ : BufTy).Contents (Elt F)),
    unary main_v220 main_v221 (broadcastInDim S3300000x1 ![0, 1] bcast_S1x1_S3300000x1_0_1 : (⟨S1x1, .i32⟩ : BufTy).Contents (Elt F) → (⟨S3300000x1, .i32⟩ : BufTy).Contents (Elt F)),
    binary main_v76 main_v221 main_v222 (cmpi .sle : (⟨S3300000x1, .i32⟩ : BufTy).Contents (Elt F) → (⟨S3300000x1, .i32⟩ : BufTy).Contents (Elt F) → (⟨S3300000x1, .i1⟩ : BufTy).Contents (Elt F)),
    binary main_v219 main_v222 main_v223 (andi : (⟨S3300000x1, .i1⟩ : BufTy).Contents (Elt F) → (⟨S3300000x1, .i1⟩ : BufTy).Contents (Elt F) → (⟨S3300000x1, .i1⟩ : BufTy).Contents (Elt F)),
    nullary main_c_63 (constantI S_ 1 1#1),
    binary main_v223 main_c_63 main_v224 ((fun x v => Host.reduce IntOp.andi x v reducesTo_S3300000x1_S3300000_d1 h_S_) : (⟨S3300000x1, .i1⟩ : BufTy).Contents (Elt F) → (⟨S_, .i1⟩ : BufTy).Contents (Elt F) → (⟨S3300000, .i1⟩ : BufTy).Contents (Elt F)),
    binary main_v217 main_v76 main_v225 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v224 main_v226 (broadcastInDim S3300000x16 ![0] bcast_S3300000_S3300000x16_0 : (⟨S3300000, .i1⟩ : BufTy).Contents (Elt F) → (⟨S3300000x16, .i1⟩ : BufTy).Contents (Elt F)),
    nullary main_cst_64 (constant S_ .f32 0x00000000#32),
    unary main_cst_64 main_v227 (broadcastInDim S3300000x16 ![] bcast_S_S3300000x16 : (⟨S_, .f32⟩ : BufTy).Contents (Elt F) → (⟨S3300000x16, .f32⟩ : BufTy).Contents (Elt F)),
    ternary main_v226 main_v225 main_v227 main_v228 (select : (⟨S3300000x16, .i1⟩ : BufTy).Contents (Elt F) → (⟨S3300000x16, .f32⟩ : BufTy).Contents (Elt F) → (⟨S3300000x16, .f32⟩ : BufTy).Contents (Elt F) → (⟨S3300000x16, .f32⟩ : BufTy).Contents (Elt F)),
    binary main_v71 main_v228 main_v229 (mulf : (⟨S3300000x16, .f32⟩ : BufTy).Contents (Elt F) → (⟨S3300000x16, .f32⟩ : BufTy).Contents (Elt F) → (⟨S3300000x16, .f32⟩ : BufTy).Contents (Elt F)),
    nullary main_cst_65 (constant S_ .f32 0x00000000#32),
    binary main_v229 main_cst_65 main_v230 ((fun x v => Host.reduceAdd x v reducesTo_S3300000x16_S3300000_d1 h_S_) : (⟨S3300000x16, .f32⟩ : BufTy).Contents (Elt F) → (⟨S_, .f32⟩ : BufTy).Contents (Elt F) → (⟨S3300000, .f32⟩ : BufTy).Contents (Elt F)),
    reshape main_v230 main_v231 rfl shapeCasts_S3300000_S3300000x1 ]
abbrev w16_W : List (Ref sig .tc) := [main_call12_call0_v0, main_call12_v0_1, main_call12_v0_0, main_call12_v1, main_call12_v2, main_v217, main_c_61, main_c_62, main_v218, main_v219, main_v220, main_v221, main_v222, main_v223, main_c_63, main_v224, main_v225, main_v226, main_cst_64, main_v227, main_v228, main_v229, main_cst_65, main_v230, main_v231]

set_option maxRecDepth 8192 in
abbrev w17 : List (HloOp τ sig (Elt F)) :=
  [ nullary main_cst_66 (constant S_ .f32 0x00000000#32),
    binary main_v231 main_cst_66 main_v232 ((fun x v => Host.reduceAdd x v reducesTo_S3300000x1_S3300000_d1 h_S_) : (⟨S3300000x1, .f32⟩ : BufTy).Contents (Elt F) → (⟨S_, .f32⟩ : BufTy).Contents (Elt F) → (⟨S3300000, .f32⟩ : BufTy).Contents (Elt F)),
    binary main_v56 main_v232 main_v233 (mulf : (⟨S3300000, .f32⟩ : BufTy).Contents (Elt F) → (⟨S3300000, .f32⟩ : BufTy).Contents (Elt F) → (⟨S3300000, .f32⟩ : BufTy).Contents (Elt F)),
    binary main_v232 main_v63 main_v234 (mulf : (⟨S3300000, .f32⟩ : BufTy).Contents (Elt F) → (⟨S3300000, .f32⟩ : BufTy).Contents (Elt F) → (⟨S3300000, .f32⟩ : BufTy).Contents (Elt F)),
    nullary main_cst_67 (constant S_ .f32 0x00000000#32),
    unary main_cst_67 main_v235 (broadcastInDim S100000 ![] bcast_S_S100000 : (⟨S_, .f32⟩ : BufTy).Contents (Elt F) → (⟨S100000, .f32⟩ : BufTy).Contents (Elt F)),
    ternary main_v235 main_v62 main_v233 main_v236 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    binary main_v55 main_v234 main_v237 (mulf : (⟨S3300000, .f32⟩ : BufTy).Contents (Elt F) → (⟨S3300000, .f32⟩ : BufTy).Contents (Elt F) → (⟨S3300000, .f32⟩ : BufTy).Contents (Elt F)),
    binary main_v234 main_v36 main_v238 (mulf : (⟨S3300000, .f32⟩ : BufTy).Contents (Elt F) → (⟨S3300000, .f32⟩ : BufTy).Contents (Elt F) → (⟨S3300000, .f32⟩ : BufTy).Contents (Elt F)),
    nullary main_cst_68 (constant S_ .f32 0x00000000#32),
    unary main_cst_68 main_v239 (broadcastInDim S100000 ![] bcast_S_S100000 : (⟨S_, .f32⟩ : BufTy).Contents (Elt F) → (⟨S100000, .f32⟩ : BufTy).Contents (Elt F)),
    ternary main_v239 main_v54 main_v238 main_v240 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    binary main_v236 main_v240 main_v241 (addf : (⟨S100000, .f32⟩ : BufTy).Contents (Elt F) → (⟨S100000, .f32⟩ : BufTy).Contents (Elt F) → (⟨S100000, .f32⟩ : BufTy).Contents (Elt F)),
    TRef.nullary main_call13.cst (constant S_ .f32 0x00000000#32),
    TRef.unary main_call13.cst main_call13.v0 (broadcastInDim S100000 ![] bcast_S_S100000),
    TRef.ternary ((.of main_v43) : StableHlo.TRef sig ⟨S100000, .i1⟩) ((.of main_v241) : StableHlo.TRef sig ⟨S100000, .f32⟩) main_call13.v0 main_call13.v1 select,
    binary main_v242 main_v47 main_v243 (mulf : (⟨S100000, .f32⟩ : BufTy).Contents (Elt F) → (⟨S100000, .f32⟩ : BufTy).Contents (Elt F) → (⟨S100000, .f32⟩ : BufTy).Contents (Elt F)),
    nullary main_c_69 (constantI S1 32 99999#32),
    nullary main_c_70 (constantI S_ 32 0#32),
    unary main_c_70 main_v244 (broadcastInDim S3300000x1 ![] bcast_S_S3300000x1 : (⟨S_, .i32⟩ : BufTy).Contents (Elt F) → (⟨S3300000x1, .i32⟩ : BufTy).Contents (Elt F)),
    binary main_v39 main_v244 main_v245 (cmpi .sge : (⟨S3300000x1, .i32⟩ : BufTy).Contents (Elt F) → (⟨S3300000x1, .i32⟩ : BufTy).Contents (Elt F) → (⟨S3300000x1, .i1⟩ : BufTy).Contents (Elt F)),
    unary main_c_69 main_v246 (broadcastInDim S1x1 ![1] bcast_S1_S1x1_1 : (⟨S1, .i32⟩ : BufTy).Contents (Elt F) → (⟨S1x1, .i32⟩ : BufTy).Contents (Elt F)),
    unary main_v246 main_v247 (broadcastInDim S3300000x1 ![0, 1] bcast_S1x1_S3300000x1_0_1 : (⟨S1x1, .i32⟩ : BufTy).Contents (Elt F) → (⟨S3300000x1, .i32⟩ : BufTy).Contents (Elt F)),
    binary main_v39 main_v247 main_v248 (cmpi .sle : (⟨S3300000x1, .i32⟩ : BufTy).Contents (Elt F) → (⟨S3300000x1, .i32⟩ : BufTy).Contents (Elt F) → (⟨S3300000x1, .i1⟩ : BufTy).Contents (Elt F)),
    binary main_v245 main_v248 main_v249 (andi : (⟨S3300000x1, .i1⟩ : BufTy).Contents (Elt F) → (⟨S3300000x1, .i1⟩ : BufTy).Contents (Elt F) → (⟨S3300000x1, .i1⟩ : BufTy).Contents (Elt F)) ]
abbrev w17_W : List (Ref sig .tc) := [main_cst_66, main_v232, main_v233, main_v234, main_cst_67, main_v235, main_v236, main_v237, main_v238, main_cst_68, main_v239, main_v240, main_v241, main_call13_cst, main_call13_v0, main_v242, main_v243, main_c_69, main_c_70, main_v244, main_v245, main_v246, main_v247, main_v248, main_v249]

set_option maxRecDepth 8192 in
abbrev w18 : List (HloOp τ sig (Elt F)) :=
  [ nullary main_c_71 (constantI S_ 1 1#1),
    binary main_v249 main_c_71 main_v250 ((fun x v => Host.reduce IntOp.andi x v reducesTo_S3300000x1_S3300000_d1 h_S_) : (⟨S3300000x1, .i1⟩ : BufTy).Contents (Elt F) → (⟨S_, .i1⟩ : BufTy).Contents (Elt F) → (⟨S3300000, .i1⟩ : BufTy).Contents (Elt F)),
    binary main_v243 main_v39 main_v251 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_cst_72 (constant S_ .f32 0x00000000#32),
    unary main_cst_72 main_v252 (broadcastInDim S3300000 ![] bcast_S_S3300000 : (⟨S_, .f32⟩ : BufTy).Contents (Elt F) → (⟨S3300000, .f32⟩ : BufTy).Contents (Elt F)),
    ternary main_v250 main_v251 main_v252 main_v253 (select : (⟨S3300000, .i1⟩ : BufTy).Contents (Elt F) → (⟨S3300000, .f32⟩ : BufTy).Contents (Elt F) → (⟨S3300000, .f32⟩ : BufTy).Contents (Elt F) → (⟨S3300000, .f32⟩ : BufTy).Contents (Elt F)),
    binary main_v237 main_v253 main_v254 (addf : (⟨S3300000, .f32⟩ : BufTy).Contents (Elt F) → (⟨S3300000, .f32⟩ : BufTy).Contents (Elt F) → (⟨S3300000, .f32⟩ : BufTy).Contents (Elt F)),
    unary main_v254 main_v255 ((extractStridedSlice S3200000 ![0] · slices_S3300000_S3200000_0) : (⟨S3300000, .f32⟩ : BufTy).Contents (Elt F) → (⟨S3200000, .f32⟩ : BufTy).Contents (Elt F)),
    unary main_v254 main_v256 ((extractStridedSlice S100000 ![3200000] · slices_S3300000_S100000_3200000) : (⟨S3300000, .f32⟩ : BufTy).Contents (Elt F) → (⟨S100000, .f32⟩ : BufTy).Contents (Elt F)),
    binary main_v212 main_v255 main_v257 (addf : (⟨S3200000, .f32⟩ : BufTy).Contents (Elt F) → (⟨S3200000, .f32⟩ : BufTy).Contents (Elt F) → (⟨S3200000, .f32⟩ : BufTy).Contents (Elt F)),
    binary main_v257 main_v23 main_v258 (mulf : (⟨S3200000, .f32⟩ : BufTy).Contents (Elt F) → (⟨S3200000, .f32⟩ : BufTy).Contents (Elt F) → (⟨S3200000, .f32⟩ : BufTy).Contents (Elt F)),
    unary main_v258 main_v259 (broadcastInDim S3200000x3 ![0] bcast_S3200000_S3200000x3_0 : (⟨S3200000, .f32⟩ : BufTy).Contents (Elt F) → (⟨S3200000x3, .f32⟩ : BufTy).Contents (Elt F)),
    binary main_v18 main_v259 main_v260 (mulf : (⟨S3200000x3, .f32⟩ : BufTy).Contents (Elt F) → (⟨S3200000x3, .f32⟩ : BufTy).Contents (Elt F) → (⟨S3200000x3, .f32⟩ : BufTy).Contents (Elt F)),
    binary main_v259 main_v18 main_v261 (mulf : (⟨S3200000x3, .f32⟩ : BufTy).Contents (Elt F) → (⟨S3200000x3, .f32⟩ : BufTy).Contents (Elt F) → (⟨S3200000x3, .f32⟩ : BufTy).Contents (Elt F)),
    binary main_v260 main_v261 main_v262 (addf : (⟨S3200000x3, .f32⟩ : BufTy).Contents (Elt F) → (⟨S3200000x3, .f32⟩ : BufTy).Contents (Elt F) → (⟨S3200000x3, .f32⟩ : BufTy).Contents (Elt F)),
    unary main_v262 main_v263 (Host.negf : (⟨S3200000x3, .f32⟩ : BufTy).Contents (Elt F) → (⟨S3200000x3, .f32⟩ : BufTy).Contents (Elt F)),
    nullary main_cst_73 (constant S_ .f32 0x00000000#32),
    unary main_cst_73 main_v264 (broadcastInDim S100000x3 ![] bcast_S_S100000x3 : (⟨S_, .f32⟩ : BufTy).Contents (Elt F) → (⟨S100000x3, .f32⟩ : BufTy).Contents (Elt F)),
    ternary main_v264 main_v16 main_v263 main_v265 ((fun x i u => Host.scatterAdd scatter_S100000x3_S3200000x1_S3200000x3_1_0_0_1 x i u) : (⟨S100000x3, .f32⟩ : BufTy).Contents (Elt F) → (⟨S3200000x1, .i32⟩ : BufTy).Contents (Elt F) → (⟨S3200000x3, .f32⟩ : BufTy).Contents (Elt F) → (⟨S100000x3, .f32⟩ : BufTy).Contents (Elt F)),
    nullary main_cst_74 (constant S_ .f32 0x00000000#32),
    unary main_cst_74 main_v266 (broadcastInDim S100000x3 ![] bcast_S_S100000x3 : (⟨S_, .f32⟩ : BufTy).Contents (Elt F) → (⟨S100000x3, .f32⟩ : BufTy).Contents (Elt F)),
    ternary main_v266 main_v9 main_v262 main_v267 ((fun x i u => Host.scatterAdd scatter_S100000x3_S3200000x1_S3200000x3_1_0_0_1 x i u) : (⟨S100000x3, .f32⟩ : BufTy).Contents (Elt F) → (⟨S3200000x1, .i32⟩ : BufTy).Contents (Elt F) → (⟨S3200000x3, .f32⟩ : BufTy).Contents (Elt F) → (⟨S100000x3, .f32⟩ : BufTy).Contents (Elt F)),
    binary main_v265 main_v267 main_v268 (addf : (⟨S100000x3, .f32⟩ : BufTy).Contents (Elt F) → (⟨S100000x3, .f32⟩ : BufTy).Contents (Elt F) → (⟨S100000x3, .f32⟩ : BufTy).Contents (Elt F)),
    unary main_v268 main_v269 (Host.negf : (⟨S100000x3, .f32⟩ : BufTy).Contents (Elt F) → (⟨S100000x3, .f32⟩ : BufTy).Contents (Elt F)) ]
abbrev w18_W : List (Ref sig .tc) := [main_c_71, main_v250, main_v251, main_cst_72, main_v252, main_v253, main_v254, main_v255, main_v256, main_v257, main_v258, main_v259, main_v260, main_v261, main_v262, main_v263, main_cst_73, main_v264, main_v265, main_cst_74, main_v266, main_v267, main_v268, main_v269]

end Cert.Proof.RefWin

namespace Cert.Proof.RefOps

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts Cert.ReferenceIdeal.Facts₀

open Cert.Proof.RefWin

abbrev ops0 : List (HloOp τ sig (Elt F)) := w0 ++ w1 ++ w2
abbrev ops1 : List (HloOp τ sig (Elt F)) := w3 ++ w4 ++ w5 ++ w6
abbrev ops2 : List (HloOp τ sig (Elt F)) := w7 ++ w8 ++ w9
abbrev ops3 : List (HloOp τ sig (Elt F)) := w10 ++ w11 ++ w12 ++ w13
abbrev ops4 : List (HloOp τ sig (Elt F)) := w14 ++ w15 ++ w16
abbrev ops5 : List (HloOp τ sig (Elt F)) := w17 ++ w18

abbrev ops : List (HloOp τ sig (Elt F)) := ops0 ++ ops1 ++ ops2 ++ ops3 ++ ops4 ++ ops5

end Cert.Proof.RefOps

end
-- ==== Proof.RefRunA.lean ====
import proofs.«408045_j39298950758801_3_alg».proof.Proof.RefOps
import Idealize.ShloMosaic.Lib.StableHlo.Run

noncomputable section

namespace Cert.Proof.Ref

open Cert.ReferenceIdeal Idealize.ShloMosaic Idealize.ShloMosaic.TcCoe Idealize.SL.Sem Idealize.ShloMosaic.StableHlo

theorem after_app {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

variable {F : FTy → Type} [FloatOps F] [Cert.ReferenceIdeal.Facts]

set_option maxRecDepth 16384 in
set_option maxHeartbeats 2000000 in
theorem part0_eq (c : Dev nD) : Cert.ReferenceIdeal.main_part0 (F := F) c = seq RefOps.ops0 := by
  simp only [main_part0, RefOps.ops0, RefWin.w0, RefWin.w1, RefWin.w2, List.cons_append, List.nil_append, seq, bind_assoc, pure_bind] <;> rfl

set_option maxRecDepth 16384 in
set_option maxHeartbeats 2000000 in
theorem part1_eq (c : Dev nD) : Cert.ReferenceIdeal.main_part1 (F := F) c = seq RefOps.ops1 := by
  simp only [main_part1, RefOps.ops1, RefWin.w3, RefWin.w4, RefWin.w5, RefWin.w6, List.cons_append, List.nil_append, fn_where.body, fn_leaky_relu.body, fn_where_0.body, seq, bind_assoc, pure_bind] <;> rfl

set_option maxRecDepth 16384 in
set_option maxHeartbeats 2000000 in
theorem part2_eq (c : Dev nD) : Cert.ReferenceIdeal.main_part2 (F := F) c = seq RefOps.ops2 := by
  simp only [main_part2, RefOps.ops2, RefWin.w7, RefWin.w8, RefWin.w9, List.cons_append, List.nil_append, fn_where.body, seq, bind_assoc, pure_bind] <;> rfl

set_option maxRecDepth 16384 in
set_option maxHeartbeats 2000000 in
theorem part3_eq (c : Dev nD) : Cert.ReferenceIdeal.main_part3 (F := F) c = seq RefOps.ops3 := by
  simp only [main_part3, RefOps.ops3, RefWin.w10, RefWin.w11, RefWin.w12, RefWin.w13, List.cons_append, List.nil_append, fn_leaky_relu.body, fn_where_0.body, fn_leaky_relu_1.body, fn_where_2.body, fn_leaky_relu_3.body, fn_where_4.body, fn_leaky_relu_5.body, fn_where_6.body, fn_leaky_relu_7.body, fn_where_8.body, fn_leaky_relu_9.body, fn_where_10.body, seq, bind_assoc, pure_bind] <;> rfl

set_option maxRecDepth 16384 in
set_option maxHeartbeats 2000000 in
theorem part4_eq (c : Dev nD) : Cert.ReferenceIdeal.main_part4 (F := F) c = seq RefOps.ops4 := by
  simp only [main_part4, RefOps.ops4, RefWin.w14, RefWin.w15, RefWin.w16, List.cons_append, List.nil_append, fn_where_11.body, fn_leaky_relu_9.body, fn_where_10.body, seq, bind_assoc, pure_bind] <;> rfl

set_option maxRecDepth 16384 in
set_option maxHeartbeats 2000000 in
theorem part5_eq (c : Dev nD) : Cert.ReferenceIdeal.main_part5 (F := F) c = seq RefOps.ops5 := by
  simp only [main_part5, RefOps.ops5, RefWin.w17, RefWin.w18, List.cons_append, List.nil_append, fn_where_11.body, seq, bind_assoc, pure_bind] <;> rfl

theorem main_eq (c : Dev nD) : Cert.ReferenceIdeal.main (F := F) c = seq RefOps.ops := by
  simp only [main, RefOps.ops, seq_append, bind_assoc, part0_eq, part1_eq, part2_eq, part3_eq, part4_eq, part5_eq]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops0_sub : (RefOps.ops0 : List (HloOp τ sig (Elt F))).Forall fun op => op.bufs ⊆ tcRefs τ sig := by
  simp only [RefOps.ops0, RefWin.w0, RefWin.w1, RefWin.w2, List.cons_append, List.nil_append, List.Forall, nullary_bufs_sub, unary_bufs_sub, binary_bufs_sub, ternary_bufs_sub, reshape_bufs_sub, and_self]

set_option maxRecDepth 16384 in
theorem ops0_fresh : (RefOps.ops0 : List (HloOp τ sig (Elt F))).Forall fun op => op.fresh = ∅ := by
  simp only [RefOps.ops0, RefWin.w0, RefWin.w1, RefWin.w2, List.cons_append, List.nil_append, List.Forall]
  repeat' apply And.intro
  all_goals rfl

set_option maxRecDepth 16384 in
theorem ops1_sub : (RefOps.ops1 : List (HloOp τ sig (Elt F))).Forall fun op => op.bufs ⊆ tcRefs τ sig := by
  simp only [RefOps.ops1, RefWin.w3, RefWin.w4, RefWin.w5, RefWin.w6, List.cons_append, List.nil_append, List.Forall, nullary_bufs_sub, unary_bufs_sub, binary_bufs_sub, ternary_bufs_sub, reshape_bufs_sub, and_self]

set_option maxRecDepth 16384 in
theorem ops1_fresh : (RefOps.ops1 : List (HloOp τ sig (Elt F))).Forall fun op => op.fresh = ∅ := by
  simp only [RefOps.ops1, RefWin.w3, RefWin.w4, RefWin.w5, RefWin.w6, List.cons_append, List.nil_append, List.Forall]
  repeat' apply And.intro
  all_goals rfl

set_option maxRecDepth 16384 in
theorem ops2_sub : (RefOps.ops2 : List (HloOp τ sig (Elt F))).Forall fun op => op.bufs ⊆ tcRefs τ sig := by
  simp only [RefOps.ops2, RefWin.w7, RefWin.w8, RefWin.w9, List.cons_append, List.nil_append, List.Forall, nullary_bufs_sub, unary_bufs_sub, binary_bufs_sub, ternary_bufs_sub, reshape_bufs_sub, and_self]

set_option maxRecDepth 16384 in
theorem ops2_fresh : (RefOps.ops2 : List (HloOp τ sig (Elt F))).Forall fun op => op.fresh = ∅ := by
  simp only [RefOps.ops2, RefWin.w7, RefWin.w8, RefWin.w9, List.cons_append, List.nil_append, List.Forall]
  repeat' apply And.intro
  all_goals rfl

set_option maxRecDepth 16384 in
theorem ops3_sub : (RefOps.ops3 : List (HloOp τ sig (Elt F))).Forall fun op => op.bufs ⊆ tcRefs τ sig := by
  simp only [RefOps.ops3, RefWin.w10, RefWin.w11, RefWin.w12, RefWin.w13, List.cons_append, List.nil_append, List.Forall, nullary_bufs_sub, unary_bufs_sub, binary_bufs_sub, ternary_bufs_sub, reshape_bufs_sub, and_self]

set_option maxRecDepth 16384 in
theorem ops3_fresh : (RefOps.ops3 : List (HloOp τ sig (Elt F))).Forall fun op => op.fresh = ∅ := by
  simp only [RefOps.ops3, RefWin.w10, RefWin.w11, RefWin.w12, RefWin.w13, List.cons_append, List.nil_append, List.Forall]
  repeat' apply And.intro
  all_goals rfl

set_option maxRecDepth 16384 in
theorem ops4_sub : (RefOps.ops4 : List (HloOp τ sig (Elt F))).Forall fun op => op.bufs ⊆ tcRefs τ sig := by
  simp only [RefOps.ops4, RefWin.w14, RefWin.w15, RefWin.w16, List.cons_append, List.nil_append, List.Forall, nullary_bufs_sub, unary_bufs_sub, binary_bufs_sub, ternary_bufs_sub, reshape_bufs_sub, and_self]

set_option maxRecDepth 16384 in
theorem ops4_fresh : (RefOps.ops4 : List (HloOp τ sig (Elt F))).Forall fun op => op.fresh = ∅ := by
  simp only [RefOps.ops4, RefWin.w14, RefWin.w15, RefWin.w16, List.cons_append, List.nil_append, List.Forall]
  repeat' apply And.intro
  all_goals rfl

set_option maxRecDepth 16384 in
theorem ops5_sub : (RefOps.ops5 : List (HloOp τ sig (Elt F))).Forall fun op => op.bufs ⊆ tcRefs τ sig := by
  simp only [RefOps.ops5, RefWin.w17, RefWin.w18, List.cons_append, List.nil_append, List.Forall, nullary_bufs_sub, unary_bufs_sub, binary_bufs_sub, ternary_bufs_sub, reshape_bufs_sub, and_self]

set_option maxRecDepth 16384 in
theorem ops5_fresh : (RefOps.ops5 : List (HloOp τ sig (Elt F))).Forall fun op => op.fresh = ∅ := by
  simp only [RefOps.ops5, RefWin.w17, RefWin.w18, List.cons_append, List.nil_append, List.Forall]
  repeat' apply And.intro
  all_goals rfl

theorem ops_sub : (RefOps.ops : List (HloOp τ sig (Elt F))).Forall fun op => op.bufs ⊆ tcRefs τ sig :=
  forall_app (forall_app (forall_app (forall_app (forall_app ops0_sub ops1_sub) ops2_sub) ops3_sub) ops4_sub) ops5_sub

theorem ops_fresh : ∀ op ∈ (RefOps.ops : List (HloOp τ sig (Elt F))), op.fresh = ∅ :=
  List.forall_iff_forall_mem.mp
    (forall_app (forall_app (forall_app (forall_app (forall_app ops0_fresh ops1_fresh) ops2_fresh) ops3_fresh) ops4_fresh) ops5_fresh)

theorem run_after (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ fun r =>
      ∀ (c : Dev nD) (b : Ref sig .tc),
        r.2.mem ((c.tc : Thread nD τ).loc b) = after RefOps.ops (launchContents m c) (b : DevRef τ sig) :=
  run_seq scopedRefs_eq scopedSems_eq defs main (fun _ => RefOps.ops) main_eq (fun _ => ops_sub) m ρ (fun _ => ops_fresh)

end Cert.Proof.Ref

end
-- ==== Proof.RefInvA.lean ====
import proofs.«408045_j39298950758801_3_alg».proof.Proof.Args
import proofs.«408045_j39298950758801_3_alg».proof.ReferenceIdeal
import Idealize.ShloMosaic.Lib.StableHlo.Run

noncomputable section

namespace Cert.Proof.RefWin

open Cert.ReferenceIdeal Idealize.ShloMosaic Idealize.ShloMosaic.TcCoe Idealize.SL.Sem Idealize.ShloMosaic.StableHlo

variable {F : FTy → Type} [FloatOps F]

abbrev argRefs : List (Ref sig .tc) :=
  [main_arg0, main_arg1, main_arg2, main_arg3, main_arg4, main_arg5, main_arg6, main_arg7, main_arg8, main_arg9,
    main_arg10, main_arg11, main_arg12, main_arg13, main_arg14]

structure InvA (V : Valuation τ sig (Elt F)) (A : Args F) : Prop where
  e_main_arg0 : V (no_index (main_arg0 : DevRef τ sig)) = A.pos
  e_main_arg1 : V (no_index (main_arg1 : DevRef τ sig)) = A.emb
  e_main_arg2 : V (no_index (main_arg2 : DevRef τ sig)) = A.W1
  e_main_arg3 : V (no_index (main_arg3 : DevRef τ sig)) = A.b1
  e_main_arg4 : V (no_index (main_arg4 : DevRef τ sig)) = A.Wl1
  e_main_arg5 : V (no_index (main_arg5 : DevRef τ sig)) = A.bl1
  e_main_arg6 : V (no_index (main_arg6 : DevRef τ sig)) = A.W2
  e_main_arg7 : V (no_index (main_arg7 : DevRef τ sig)) = A.b2
  e_main_arg8 : V (no_index (main_arg8 : DevRef τ sig)) = A.Wl2
  e_main_arg9 : V (no_index (main_arg9 : DevRef τ sig)) = A.bl2
  e_main_arg10 : V (no_index (main_arg10 : DevRef τ sig)) = A.Wl3
  e_main_arg11 : V (no_index (main_arg11 : DevRef τ sig)) = A.bl3
  e_main_arg12 : V (no_index (main_arg12 : DevRef τ sig)) = A.z
  e_main_arg13 : V (no_index (main_arg13 : DevRef τ sig)) = A.ei
  e_main_arg14 : V (no_index (main_arg14 : DevRef τ sig)) = A.batch

-- A line that writes no argument buffer leaves the fifteen arguments as they were.
theorem InvA.after {V : Valuation τ sig (Elt F)} {A : Args F} (h : InvA V A) (w : List (HloOp τ sig (Elt F)))
    (W : List (Ref sig .tc)) (hW : w.Forall fun op => op.writes ⊆ (W.map (Proc.devRef (τ := τ) .tc)).toFinset)
    (hn : ∀ r ∈ argRefs, r ∉ W) : InvA (after w V) A := by
  cases h
  constructor
  all_goals
    refine (after_of_writes_sub w V hW (hn _ ?_)).trans ?_
    · decide
    · assumption

end Cert.Proof.RefWin

end
-- ==== Proof.RefRunC.lean ====
import proofs.«408045_j39298950758801_3_alg».proof.Proof.RefVals
import Idealize.ShloMosaic.Lib.StableHlo.Run

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts Cert.ReferenceIdeal.Facts₀

structure Inv0 (V : Valuation τ sig (Elt F)) (A : Args F) : Prop

structure Inv1 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v10 : V (no_index (main_v10 : DevRef τ sig)) = Rv.main_v10 A
  e_main_v15 : V (no_index (main_v15 : DevRef τ sig)) = Rv.main_v15 A

structure Inv2 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v21 : V (no_index (main_v21 : DevRef τ sig)) = Rv.main_v21 A
  e_main_v23 : V (no_index (main_v23 : DevRef τ sig)) = Rv.main_v23 A
  e_main_v31 : V (no_index (main_v31 : DevRef τ sig)) = Rv.main_v31 A

structure Inv3 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v21 : V (no_index (main_v21 : DevRef τ sig)) = Rv.main_v21 A
  e_main_v23 : V (no_index (main_v23 : DevRef τ sig)) = Rv.main_v23 A
  e_main_v31 : V (no_index (main_v31 : DevRef τ sig)) = Rv.main_v31 A
  e_main_v33 : V (no_index (main_v33 : DevRef τ sig)) = Rv.main_v33 A
  e_main_v34 : V (no_index (main_v34 : DevRef τ sig)) = Rv.main_v34 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v44 : V (no_index (main_v44 : DevRef τ sig)) = Rv.main_v44 A
  e_main_v45 : V (no_index (main_v45 : DevRef τ sig)) = Rv.main_v45 A
  e_main_cst_11 : V (no_index (main_cst_11 : DevRef τ sig)) = Rv.main_cst_11 A

structure Inv4 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v21 : V (no_index (main_v21 : DevRef τ sig)) = Rv.main_v21 A
  e_main_v23 : V (no_index (main_v23 : DevRef τ sig)) = Rv.main_v23 A
  e_main_v31 : V (no_index (main_v31 : DevRef τ sig)) = Rv.main_v31 A
  e_main_v33 : V (no_index (main_v33 : DevRef τ sig)) = Rv.main_v33 A
  e_main_v34 : V (no_index (main_v34 : DevRef τ sig)) = Rv.main_v34 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v48_0 : V (no_index (main_v48_0 : DevRef τ sig)) = Rv.main_v48_0 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_c_15 : V (no_index (main_c_15 : DevRef τ sig)) = Rv.main_c_15 A

structure Inv5 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v21 : V (no_index (main_v21 : DevRef τ sig)) = Rv.main_v21 A
  e_main_v23 : V (no_index (main_v23 : DevRef τ sig)) = Rv.main_v23 A
  e_main_v34 : V (no_index (main_v34 : DevRef τ sig)) = Rv.main_v34 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v72 : V (no_index (main_v72 : DevRef τ sig)) = Rv.main_v72 A

structure Inv6 (V : Valuation τ sig (Elt F)) (A : Args F) : Prop where
  e_main_v1 : V (no_index (main_v1 : DevRef τ sig)) = Rv.main_v1 A
  e_main_v3 : V (no_index (main_v3 : DevRef τ sig)) = Rv.main_v3 A
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v21 : V (no_index (main_v21 : DevRef τ sig)) = Rv.main_v21 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v82_0 : V (no_index (main_v82_0 : DevRef τ sig)) = Rv.main_v82_0 A

structure Inv7 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v88 : V (no_index (main_v88 : DevRef τ sig)) = Rv.main_v88 A
  e_main_v90 : V (no_index (main_v90 : DevRef τ sig)) = Rv.main_v90 A
  e_main_v91 : V (no_index (main_v91 : DevRef τ sig)) = Rv.main_v91 A
  e_main_v93 : V (no_index (main_v93 : DevRef τ sig)) = Rv.main_v93 A

structure Inv8 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v88 : V (no_index (main_v88 : DevRef τ sig)) = Rv.main_v88 A
  e_main_v90 : V (no_index (main_v90 : DevRef τ sig)) = Rv.main_v90 A
  e_main_v91 : V (no_index (main_v91 : DevRef τ sig)) = Rv.main_v91 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v105_0 : V (no_index (main_v105_0 : DevRef τ sig)) = Rv.main_v105_0 A
  e_main_call3_cst : V (no_index (main_call3_cst : DevRef τ sig)) = Rv.main_call3_cst A

structure Inv9 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v88 : V (no_index (main_v88 : DevRef τ sig)) = Rv.main_v88 A
  e_main_v90 : V (no_index (main_v90 : DevRef τ sig)) = Rv.main_v90 A
  e_main_v91 : V (no_index (main_v91 : DevRef τ sig)) = Rv.main_v91 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v121 : V (no_index (main_v121 : DevRef τ sig)) = Rv.main_v121 A
  e_main_c_34 : V (no_index (main_c_34 : DevRef τ sig)) = Rv.main_c_34 A

structure Inv10 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v127 : V (no_index (main_v127 : DevRef τ sig)) = Rv.main_v127 A
  e_main_v128 : V (no_index (main_v128 : DevRef τ sig)) = Rv.main_v128 A
  e_main_v129 : V (no_index (main_v129 : DevRef τ sig)) = Rv.main_v129 A
  e_main_v133 : V (no_index (main_v133 : DevRef τ sig)) = Rv.main_v133 A
  e_main_v138 : V (no_index (main_v138 : DevRef τ sig)) = Rv.main_v138 A
  e_main_cst_38 : V (no_index (main_cst_38 : DevRef τ sig)) = Rv.main_cst_38 A

structure Inv11 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v127 : V (no_index (main_v127 : DevRef τ sig)) = Rv.main_v127 A
  e_main_v128 : V (no_index (main_v128 : DevRef τ sig)) = Rv.main_v128 A
  e_main_v129 : V (no_index (main_v129 : DevRef τ sig)) = Rv.main_v129 A
  e_main_v133 : V (no_index (main_v133 : DevRef τ sig)) = Rv.main_v133 A
  e_main_v139_2 : V (no_index (main_v139_2 : DevRef τ sig)) = Rv.main_v139_2 A
  e_main_v139_1 : V (no_index (main_v139_1 : DevRef τ sig)) = Rv.main_v139_1 A
  e_main_v144_2 : V (no_index (main_v144_2 : DevRef τ sig)) = Rv.main_v144_2 A
  e_main_v144_1 : V (no_index (main_v144_1 : DevRef τ sig)) = Rv.main_v144_1 A
  e_main_v148 : V (no_index (main_v148 : DevRef τ sig)) = Rv.main_v148 A
  e_main_cst_40 : V (no_index (main_cst_40 : DevRef τ sig)) = Rv.main_cst_40 A

structure Inv12 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v127 : V (no_index (main_v127 : DevRef τ sig)) = Rv.main_v127 A
  e_main_v128 : V (no_index (main_v128 : DevRef τ sig)) = Rv.main_v128 A
  e_main_v129 : V (no_index (main_v129 : DevRef τ sig)) = Rv.main_v129 A
  e_main_v133 : V (no_index (main_v133 : DevRef τ sig)) = Rv.main_v133 A
  e_main_v139_2 : V (no_index (main_v139_2 : DevRef τ sig)) = Rv.main_v139_2 A
  e_main_v139_1 : V (no_index (main_v139_1 : DevRef τ sig)) = Rv.main_v139_1 A
  e_main_v144_2 : V (no_index (main_v144_2 : DevRef τ sig)) = Rv.main_v144_2 A
  e_main_v144_1 : V (no_index (main_v144_1 : DevRef τ sig)) = Rv.main_v144_1 A
  e_main_v149_2 : V (no_index (main_v149_2 : DevRef τ sig)) = Rv.main_v149_2 A
  e_main_v149_1 : V (no_index (main_v149_1 : DevRef τ sig)) = Rv.main_v149_1 A
  e_main_v151 : V (no_index (main_v151 : DevRef τ sig)) = Rv.main_v151 A
  e_main_v152 : V (no_index (main_v152 : DevRef τ sig)) = Rv.main_v152 A
  e_main_v154 : V (no_index (main_v154 : DevRef τ sig)) = Rv.main_v154 A
  e_main_v160 : V (no_index (main_v160 : DevRef τ sig)) = Rv.main_v160 A
  e_main_c_46 : V (no_index (main_c_46 : DevRef τ sig)) = Rv.main_c_46 A

structure Inv13 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v127 : V (no_index (main_v127 : DevRef τ sig)) = Rv.main_v127 A
  e_main_v128 : V (no_index (main_v128 : DevRef τ sig)) = Rv.main_v128 A
  e_main_v129 : V (no_index (main_v129 : DevRef τ sig)) = Rv.main_v129 A
  e_main_v133 : V (no_index (main_v133 : DevRef τ sig)) = Rv.main_v133 A
  e_main_v139_2 : V (no_index (main_v139_2 : DevRef τ sig)) = Rv.main_v139_2 A
  e_main_v139_1 : V (no_index (main_v139_1 : DevRef τ sig)) = Rv.main_v139_1 A
  e_main_v152 : V (no_index (main_v152 : DevRef τ sig)) = Rv.main_v152 A
  e_main_v169 : V (no_index (main_v169 : DevRef τ sig)) = Rv.main_v169 A
  e_main_call9_call0_v0 : V (no_index (main_call9_call0_v0 : DevRef τ sig)) = Rv.main_call9_call0_v0 A

structure Inv14 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v93 : V (no_index (main_v93 : DevRef τ sig)) = Rv.main_v93 A
  e_main_v96 : V (no_index (main_v96 : DevRef τ sig)) = Rv.main_v96 A
  e_main_v100 : V (no_index (main_v100 : DevRef τ sig)) = Rv.main_v100 A
  e_main_v104 : V (no_index (main_v104 : DevRef τ sig)) = Rv.main_v104 A
  e_main_v111 : V (no_index (main_v111 : DevRef τ sig)) = Rv.main_v111 A
  e_main_v112 : V (no_index (main_v112 : DevRef τ sig)) = Rv.main_v112 A
  e_main_v113 : V (no_index (main_v113 : DevRef τ sig)) = Rv.main_v113 A
  e_main_v119 : V (no_index (main_v119 : DevRef τ sig)) = Rv.main_v119 A
  e_main_v120 : V (no_index (main_v120 : DevRef τ sig)) = Rv.main_v120 A
  e_main_v127 : V (no_index (main_v127 : DevRef τ sig)) = Rv.main_v127 A
  e_main_v129 : V (no_index (main_v129 : DevRef τ sig)) = Rv.main_v129 A
  e_main_v152 : V (no_index (main_v152 : DevRef τ sig)) = Rv.main_v152 A
  e_main_v181 : V (no_index (main_v181 : DevRef τ sig)) = Rv.main_v181 A
  e_main_v184 : V (no_index (main_v184 : DevRef τ sig)) = Rv.main_v184 A

structure Inv15 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v87_2 : V (no_index (main_v87_2 : DevRef τ sig)) = Rv.main_v87_2 A
  e_main_v87_1 : V (no_index (main_v87_1 : DevRef τ sig)) = Rv.main_v87_1 A
  e_main_v96 : V (no_index (main_v96 : DevRef τ sig)) = Rv.main_v96 A
  e_main_v152 : V (no_index (main_v152 : DevRef τ sig)) = Rv.main_v152 A
  e_main_v189 : V (no_index (main_v189 : DevRef τ sig)) = Rv.main_v189 A
  e_main_v194 : V (no_index (main_v194 : DevRef τ sig)) = Rv.main_v194 A
  e_main_v200 : V (no_index (main_v200 : DevRef τ sig)) = Rv.main_v200 A
  e_main_c_57 : V (no_index (main_c_57 : DevRef τ sig)) = Rv.main_c_57 A
  e_main_v201 : V (no_index (main_v201 : DevRef τ sig)) = Rv.main_v201 A

structure Inv16 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v71 : V (no_index (main_v71 : DevRef τ sig)) = Rv.main_v71 A
  e_main_v76 : V (no_index (main_v76 : DevRef τ sig)) = Rv.main_v76 A
  e_main_v82_2 : V (no_index (main_v82_2 : DevRef τ sig)) = Rv.main_v82_2 A
  e_main_v82_1 : V (no_index (main_v82_1 : DevRef τ sig)) = Rv.main_v82_1 A
  e_main_v152 : V (no_index (main_v152 : DevRef τ sig)) = Rv.main_v152 A
  e_main_v212 : V (no_index (main_v212 : DevRef τ sig)) = Rv.main_v212 A
  e_main_v216 : V (no_index (main_v216 : DevRef τ sig)) = Rv.main_v216 A
  e_main_call12_call0_cst : V (no_index (main_call12_call0_cst : DevRef τ sig)) = Rv.main_call12_call0_cst A

structure Inv17 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v36 : V (no_index (main_v36 : DevRef τ sig)) = Rv.main_v36 A
  e_main_v39 : V (no_index (main_v39 : DevRef τ sig)) = Rv.main_v39 A
  e_main_v43 : V (no_index (main_v43 : DevRef τ sig)) = Rv.main_v43 A
  e_main_v47 : V (no_index (main_v47 : DevRef τ sig)) = Rv.main_v47 A
  e_main_v54 : V (no_index (main_v54 : DevRef τ sig)) = Rv.main_v54 A
  e_main_v55 : V (no_index (main_v55 : DevRef τ sig)) = Rv.main_v55 A
  e_main_v56 : V (no_index (main_v56 : DevRef τ sig)) = Rv.main_v56 A
  e_main_v62 : V (no_index (main_v62 : DevRef τ sig)) = Rv.main_v62 A
  e_main_v63 : V (no_index (main_v63 : DevRef τ sig)) = Rv.main_v63 A
  e_main_v152 : V (no_index (main_v152 : DevRef τ sig)) = Rv.main_v152 A
  e_main_v212 : V (no_index (main_v212 : DevRef τ sig)) = Rv.main_v212 A
  e_main_v231 : V (no_index (main_v231 : DevRef τ sig)) = Rv.main_v231 A

structure Inv18 (V : Valuation τ sig (Elt F)) (A : Args F) : Prop where
  e_main_v9 : V (no_index (main_v9 : DevRef τ sig)) = Rv.main_v9 A
  e_main_v16 : V (no_index (main_v16 : DevRef τ sig)) = Rv.main_v16 A
  e_main_v18 : V (no_index (main_v18 : DevRef τ sig)) = Rv.main_v18 A
  e_main_v23 : V (no_index (main_v23 : DevRef τ sig)) = Rv.main_v23 A
  e_main_v39 : V (no_index (main_v39 : DevRef τ sig)) = Rv.main_v39 A
  e_main_v152 : V (no_index (main_v152 : DevRef τ sig)) = Rv.main_v152 A
  e_main_v212 : V (no_index (main_v212 : DevRef τ sig)) = Rv.main_v212 A
  e_main_v237 : V (no_index (main_v237 : DevRef τ sig)) = Rv.main_v237 A
  e_main_v243 : V (no_index (main_v243 : DevRef τ sig)) = Rv.main_v243 A
  e_main_v249 : V (no_index (main_v249 : DevRef τ sig)) = Rv.main_v249 A

structure Inv19 (V : Valuation τ sig (Elt F)) (A : Args F) : Prop where
  e_main_v152 : V (no_index (main_v152 : DevRef τ sig)) = Rv.main_v152 A
  e_main_v269 : V (no_index (main_v269 : DevRef τ sig)) = Rv.main_v269 A

end Cert.Proof.RefWin

end
-- ==== Proof.RefRunW0.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w0_writes : (w0 : List (HloOp τ sig (Elt F))).Forall fun op =>
    op.writes ⊆ (w0_W.map (Proc.devRef (τ := τ) .tc)).toFinset := by
  simp only [w0, w0_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step0 (V : Valuation τ sig (Elt F)) (A : Args F) (h : InvA V A ∧ Inv0 V A) :
    InvA (after w0 V) A ∧ Inv1 (after w0 V) A := by
  obtain ⟨ha, h⟩ := h
  refine ⟨ha.after w0 w0_W w0_writes (by decide), ?_⟩
  cases ha
  cases h
  constructor
  all_goals first
    | (refine (after_of_writes_sub w0 V w0_writes ?_).trans ?_
       · decide
       · assumption)
    | (simp only [w0]
       after_results_simp
       simp only [*]
       rfl)
    | (simp only [w0]
       after_results_simp
       rfl)

end Cert.Proof.RefWin

end
-- ==== Proof.RefRunW1.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w1_writes : (w1 : List (HloOp τ sig (Elt F))).Forall fun op =>
    op.writes ⊆ (w1_W.map (Proc.devRef (τ := τ) .tc)).toFinset := by
  simp only [w1, w1_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step1 (V : Valuation τ sig (Elt F)) (A : Args F) (h : InvA V A ∧ Inv1 V A) :
    InvA (after w1 V) A ∧ Inv2 (after w1 V) A := by
  obtain ⟨ha, h⟩ := h
  refine ⟨ha.after w1 w1_W w1_writes (by decide), ?_⟩
  cases ha
  cases h
  constructor
  all_goals first
    | (refine (after_of_writes_sub w1 V w1_writes ?_).trans ?_
       · decide
       · assumption)
    | (simp only [w1]
       after_results_simp
       simp only [*]
       rfl)
    | (simp only [w1]
       after_results_simp
       rfl)

end Cert.Proof.RefWin

end
-- ==== Proof.RefRunW2.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w2_writes : (w2 : List (HloOp τ sig (Elt F))).Forall fun op =>
    op.writes ⊆ (w2_W.map (Proc.devRef (τ := τ) .tc)).toFinset := by
  simp only [w2, w2_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 8000000 in
theorem step2 (V : Valuation τ sig (Elt F)) (A : Args F) (h : InvA V A ∧ Inv2 V A) :
    InvA (after w2 V) A ∧ Inv3 (after w2 V) A := by
  have hh := h
  obtain ⟨ha, h⟩ := h
  refine ⟨ha.after w2 w2_W w2_writes (by decide), ?_⟩
  cases ha
  cases h
  constructor
  all_goals first
    | (refine (after_of_writes_sub w2 V w2_writes ?_).trans ?_
       · decide
       · assumption)
    | (simp only [w2]
       after_results_simp
       simp only [*]
       rfl)
    | (simp only [w2]
       after_results_simp
       rfl)
    | (simp only [w2]
       after_results
       repeat (first
         | rw [hh.1.e_main_arg0] | rw [hh.1.e_main_arg1] | rw [hh.1.e_main_arg2] | rw [hh.1.e_main_arg3]
         | rw [hh.1.e_main_arg4] | rw [hh.1.e_main_arg5] | rw [hh.1.e_main_arg6] | rw [hh.1.e_main_arg7]
         | rw [hh.1.e_main_arg8] | rw [hh.1.e_main_arg9] | rw [hh.1.e_main_arg10] | rw [hh.1.e_main_arg11]
         | rw [hh.1.e_main_arg12] | rw [hh.1.e_main_arg13] | rw [hh.1.e_main_arg14] | rw [hh.2.e_main_v1] | rw [hh.2.e_main_v3]
         | rw [hh.2.e_main_v9] | rw [hh.2.e_main_v16] | rw [hh.2.e_main_v18] | rw [hh.2.e_main_v21] | rw [hh.2.e_main_v23]
         | rw [hh.2.e_main_v31])
       rfl)

end Cert.Proof.RefWin

end
-- ==== Proof.RefRunW3.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w3_writes : (w3 : List (HloOp τ sig (Elt F))).Forall fun op =>
    op.writes ⊆ (w3_W.map (Proc.devRef (τ := τ) .tc)).toFinset := by
  simp only [w3, w3_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step3 (V : Valuation τ sig (Elt F)) (A : Args F) (h : InvA V A ∧ Inv3 V A) :
    InvA (after w3 V) A ∧ Inv4 (after w3 V) A := by
  obtain ⟨ha, h⟩ := h
  refine ⟨ha.after w3 w3_W w3_writes (by decide), ?_⟩
  cases ha
  cases h
  constructor
  all_goals first
    | (refine (after_of_writes_sub w3 V w3_writes ?_).trans ?_
       · decide
       · assumption)
    | (simp only [w3]
       after_results_simp
       simp only [*]
       rfl)
    | (simp only [w3]
       after_results_simp
       rfl)

end Cert.Proof.RefWin

end
-- ==== Proof.RefRunW4.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w4_writes : (w4 : List (HloOp τ sig (Elt F))).Forall fun op =>
    op.writes ⊆ (w4_W.map (Proc.devRef (τ := τ) .tc)).toFinset := by
  simp only [w4, w4_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step4 (V : Valuation τ sig (Elt F)) (A : Args F) (h : InvA V A ∧ Inv4 V A) :
    InvA (after w4 V) A ∧ Inv5 (after w4 V) A := by
  obtain ⟨ha, h⟩ := h
  refine ⟨ha.after w4 w4_W w4_writes (by decide), ?_⟩
  cases ha
  cases h
  constructor
  all_goals first
    | (refine (after_of_writes_sub w4 V w4_writes ?_).trans ?_
       · decide
       · assumption)
    | (simp only [w4]
       after_results_simp
       simp only [*]
       rfl)
    | (simp only [w4]
       after_results_simp
       rfl)

end Cert.Proof.RefWin

end
-- ==== Proof.RefRunW5.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w5_writes : (w5 : List (HloOp τ sig (Elt F))).Forall fun op =>
    op.writes ⊆ (w5_W.map (Proc.devRef (τ := τ) .tc)).toFinset := by
  simp only [w5, w5_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step5 (V : Valuation τ sig (Elt F)) (A : Args F) (h : InvA V A ∧ Inv5 V A) :
    InvA (after w5 V) A ∧ Inv6 (after w5 V) A := by
  obtain ⟨ha, h⟩ := h
  refine ⟨ha.after w5 w5_W w5_writes (by decide), ?_⟩
  cases ha
  cases h
  constructor
  all_goals first
    | (refine (after_of_writes_sub w5 V w5_writes ?_).trans ?_
       · decide
       · assumption)
    | (simp only [w5]
       after_results_simp
       simp only [*]
       rfl)
    | (simp only [w5]
       after_results_simp
       rfl)

end Cert.Proof.RefWin

end
-- ==== Proof.RefRunW6.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w6_writes : (w6 : List (HloOp τ sig (Elt F))).Forall fun op =>
    op.writes ⊆ (w6_W.map (Proc.devRef (τ := τ) .tc)).toFinset := by
  simp only [w6, w6_W, List.Forall, nullary_writes, unary_writes, binary_writes, ternary_writes, reshape_writes,
    Finset.singleton_subset_iff, List.mem_toFinset, List.map_cons, List.map_nil, List.mem_cons, true_or, or_true, and_self]

attribute [local irreducible] Host.gather Host.scatterAdd Host.reduce Host.reduceAdd concatenate in
set_option maxRecDepth 16384 in
set_option maxHeartbeats 8000000 in
theorem step6 (V : Valuation τ sig (Elt F)) (A : Args F) (h : InvA V A ∧ Inv6 V A) :
    InvA (after w6 V) A ∧ Inv7 (after w6 V) A := by
  have hh := h
  obtain ⟨ha, h⟩ := h
  refine ⟨ha.after w6 w6_W w6_writes (by decide), ?_⟩
  cases ha
  cases h
  constructor
  all_goals first
    | (refine (after_of_writes_sub w6 V w6_writes ?_).trans ?_
       · decide
       · assumption)
    | (simp only [w6]
       after_results_simp
       simp only [*]
       rfl)
    | (simp only [w6]
       after_results_simp
       rfl)
    | (simp only [w6]
       after_results
       repeat (first
         | rw [hh.1.e_main_arg0] | rw [hh.1.e_main_arg1] | rw [hh.1.e_main_arg2] | rw [hh.1.e_main_arg3]
         | rw [hh.1.e_main_arg4] | rw [hh.1.e_main_arg5] | rw [hh.1.e_main_arg6] | rw [hh.1.e_main_arg7]
         | rw [hh.1.e_main_arg8] | rw [hh.1.e_main_arg9] | rw [hh.1.e_main_arg10] | rw [hh.1.e_main_arg11]
         | rw [hh.1.e_main_arg12] | rw [hh.1.e_main_arg13] | rw [hh.1.e_main_arg14] | rw [hh.2.e_main_v1] | rw [hh.2.e_main_v3]
         | rw [hh.2.e_main_v9] | rw [hh.2.e_main_v16] | rw [hh.2.e_main_v18] | rw [hh.2.e_main_v21] | rw [hh.2.e_main_v23]
         | rw [hh.2.e_main_v36] | rw [hh.2.e_main_v39] | rw [hh.2.e_main_v43] | rw [hh.2.e_main_v47] | rw [hh.2.e_main_v54]
         | rw [hh.2.e_main_v55] | rw [hh.2.e_main_v56] | rw [hh.2.e_main_v62] | rw [hh.2.e_main_v63] | rw [hh.2.e_main_v71]
         | rw [hh.2.e_main_v76] | rw [hh.2.e_main_v82_2] | rw [hh.2.e_main_v82_1] | rw [hh.2.e_main_v82_0])
       rfl)

end Cert.Proof.RefWin

end
-- ==== Proof.RefRunW7.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w7_writes : (w7 : List (HloOp τ sig (Elt F))).Forall fun op =>
    op.writes ⊆ (w7_W.map (Proc.devRef (τ := τ) .tc)).toFinset := by
  simp only [w7, w7_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step7 (V : Valuation τ sig (Elt F)) (A : Args F) (h : InvA V A ∧ Inv7 V A) :
    InvA (after w7 V) A ∧ Inv8 (after w7 V) A := by
  obtain ⟨ha, h⟩ := h
  refine ⟨ha.after w7 w7_W w7_writes (by decide), ?_⟩
  cases ha
  cases h
  constructor
  all_goals first
    | (refine (after_of_writes_sub w7 V w7_writes ?_).trans ?_
       · decide
       · assumption)
    | (simp only [w7]
       after_results_simp
       simp only [*]
       rfl)
    | (simp only [w7]
       after_results_simp
       rfl)

end Cert.Proof.RefWin

end
-- ==== Proof.RefRunW8.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w8_writes : (w8 : List (HloOp τ sig (Elt F))).Forall fun op =>
    op.writes ⊆ (w8_W.map (Proc.devRef (τ := τ) .tc)).toFinset := by
  simp only [w8, w8_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step8 (V : Valuation τ sig (Elt F)) (A : Args F) (h : InvA V A ∧ Inv8 V A) :
    InvA (after w8 V) A ∧ Inv9 (after w8 V) A := by
  obtain ⟨ha, h⟩ := h
  refine ⟨ha.after w8 w8_W w8_writes (by decide), ?_⟩
  cases ha
  cases h
  constructor
  all_goals first
    | (refine (after_of_writes_sub w8 V w8_writes ?_).trans ?_
       · decide
       · assumption)
    | (simp only [w8]
       after_results_simp
       simp only [*]
       rfl)
    | (simp only [w8]
       after_results_simp
       rfl)

end Cert.Proof.RefWin

end
-- ==== Proof.RefRunW9.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w9_writes : (w9 : List (HloOp τ sig (Elt F))).Forall fun op =>
    op.writes ⊆ (w9_W.map (Proc.devRef (τ := τ) .tc)).toFinset := by
  simp only [w9, w9_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step9 (V : Valuation τ sig (Elt F)) (A : Args F) (h : InvA V A ∧ Inv9 V A) :
    InvA (after w9 V) A ∧ Inv10 (after w9 V) A := by
  obtain ⟨ha, h⟩ := h
  refine ⟨ha.after w9 w9_W w9_writes (by decide), ?_⟩
  cases ha
  cases h
  constructor
  all_goals first
    | (refine (after_of_writes_sub w9 V w9_writes ?_).trans ?_
       · decide
       · assumption)
    | (simp only [w9]
       after_results_simp
       simp only [*]
       rfl)
    | (simp only [w9]
       after_results_simp
       rfl)

end Cert.Proof.RefWin

end
-- ==== Proof.RefRunW10.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w10_writes : (w10 : List (HloOp τ sig (Elt F))).Forall fun op =>
    op.writes ⊆ (w10_W.map (Proc.devRef (τ := τ) .tc)).toFinset := by
  simp only [w10, w10_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step10 (V : Valuation τ sig (Elt F)) (A : Args F) (h : InvA V A ∧ Inv10 V A) :
    InvA (after w10 V) A ∧ Inv11 (after w10 V) A := by
  obtain ⟨ha, h⟩ := h
  refine ⟨ha.after w10 w10_W w10_writes (by decide), ?_⟩
  cases ha
  cases h
  constructor
  all_goals first
    | (refine (after_of_writes_sub w10 V w10_writes ?_).trans ?_
       · decide
       · assumption)
    | (simp only [w10]
       after_results_simp
       simp only [*]
       rfl)
    | (simp only [w10]
       after_results_simp
       rfl)

end Cert.Proof.RefWin

end
-- ==== Proof.RefRunW11.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w11_writes : (w11 : List (HloOp τ sig (Elt F))).Forall fun op =>
    op.writes ⊆ (w11_W.map (Proc.devRef (τ := τ) .tc)).toFinset := by
  simp only [w11, w11_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step11 (V : Valuation τ sig (Elt F)) (A : Args F) (h : InvA V A ∧ Inv11 V A) :
    InvA (after w11 V) A ∧ Inv12 (after w11 V) A := by
  obtain ⟨ha, h⟩ := h
  refine ⟨ha.after w11 w11_W w11_writes (by decide), ?_⟩
  cases ha
  cases h
  constructor
  all_goals first
    | (refine (after_of_writes_sub w11 V w11_writes ?_).trans ?_
       · decide
       · assumption)
    | (simp only [w11]
       after_results_simp
       simp only [*]
       rfl)
    | (simp only [w11]
       after_results_simp
       rfl)

end Cert.Proof.RefWin

end
-- ==== Proof.RefRunW12.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w12_writes : (w12 : List (HloOp τ sig (Elt F))).Forall fun op =>
    op.writes ⊆ (w12_W.map (Proc.devRef (τ := τ) .tc)).toFinset := by
  simp only [w12, w12_W, List.Forall, nullary_writes, unary_writes, binary_writes, ternary_writes, reshape_writes,
    Finset.singleton_subset_iff, List.mem_toFinset, List.map_cons, List.map_nil, List.mem_cons, true_or, or_true, and_self]

attribute [local irreducible] Host.gather Host.scatterAdd Host.reduce Host.reduceAdd concatenate in
set_option maxRecDepth 16384 in
set_option maxHeartbeats 2000000 in
theorem step12 (V : Valuation τ sig (Elt F)) (A : Args F) (h : InvA V A ∧ Inv12 V A) :
    InvA (after w12 V) A ∧ Inv13 (after w12 V) A := by
  obtain ⟨ha, h⟩ := h
  refine ⟨ha.after w12 w12_W w12_writes (by decide), ?_⟩
  cases ha
  cases h
  constructor
  all_goals first
    | (refine (after_of_writes_sub w12 V w12_writes ?_).trans ?_
       · decide
       · assumption)
    | (simp only [w12]
       after_results_simp
       simp only [*]
       rfl)
    | (simp only [w12]
       after_results_simp
       rfl)

end Cert.Proof.RefWin

end
-- ==== Proof.RefRunW13.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w13_writes : (w13 : List (HloOp τ sig (Elt F))).Forall fun op =>
    op.writes ⊆ (w13_W.map (Proc.devRef (τ := τ) .tc)).toFinset := by
  simp only [w13, w13_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step13 (V : Valuation τ sig (Elt F)) (A : Args F) (h : InvA V A ∧ Inv13 V A) :
    InvA (after w13 V) A ∧ Inv14 (after w13 V) A := by
  obtain ⟨ha, h⟩ := h
  refine ⟨ha.after w13 w13_W w13_writes (by decide), ?_⟩
  cases ha
  cases h
  constructor
  all_goals first
    | (refine (after_of_writes_sub w13 V w13_writes ?_).trans ?_
       · decide
       · assumption)
    | (simp only [w13]
       after_results_simp
       simp only [*]
       rfl)
    | (simp only [w13]
       after_results_simp
       rfl)

end Cert.Proof.RefWin

end
-- ==== Proof.RefRunW14.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w14_writes : (w14 : List (HloOp τ sig (Elt F))).Forall fun op =>
    op.writes ⊆ (w14_W.map (Proc.devRef (τ := τ) .tc)).toFinset := by
  simp only [w14, w14_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step14 (V : Valuation τ sig (Elt F)) (A : Args F) (h : InvA V A ∧ Inv14 V A) :
    InvA (after w14 V) A ∧ Inv15 (after w14 V) A := by
  obtain ⟨ha, h⟩ := h
  refine ⟨ha.after w14 w14_W w14_writes (by decide), ?_⟩
  cases ha
  cases h
  constructor
  all_goals first
    | (refine (after_of_writes_sub w14 V w14_writes ?_).trans ?_
       · decide
       · assumption)
    | (simp only [w14]
       after_results_simp
       simp only [*]
       rfl)
    | (simp only [w14]
       after_results_simp
       rfl)

end Cert.Proof.RefWin

end
-- ==== Proof.RefRunW15.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w15_writes : (w15 : List (HloOp τ sig (Elt F))).Forall fun op =>
    op.writes ⊆ (w15_W.map (Proc.devRef (τ := τ) .tc)).toFinset := by
  simp only [w15, w15_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step15 (V : Valuation τ sig (Elt F)) (A : Args F) (h : InvA V A ∧ Inv15 V A) :
    InvA (after w15 V) A ∧ Inv16 (after w15 V) A := by
  obtain ⟨ha, h⟩ := h
  refine ⟨ha.after w15 w15_W w15_writes (by decide), ?_⟩
  cases ha
  cases h
  constructor
  all_goals first
    | (refine (after_of_writes_sub w15 V w15_writes ?_).trans ?_
       · decide
       · assumption)
    | (simp only [w15]
       after_results_simp
       simp only [*]
       rfl)
    | (simp only [w15]
       after_results_simp
       rfl)

end Cert.Proof.RefWin

end
-- ==== Proof.RefRunW16.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w16_writes : (w16 : List (HloOp τ sig (Elt F))).Forall fun op =>
    op.writes ⊆ (w16_W.map (Proc.devRef (τ := τ) .tc)).toFinset := by
  simp only [w16, w16_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step16 (V : Valuation τ sig (Elt F)) (A : Args F) (h : InvA V A ∧ Inv16 V A) :
    InvA (after w16 V) A ∧ Inv17 (after w16 V) A := by
  obtain ⟨ha, h⟩ := h
  refine ⟨ha.after w16 w16_W w16_writes (by decide), ?_⟩
  cases ha
  cases h
  constructor
  all_goals first
    | (refine (after_of_writes_sub w16 V w16_writes ?_).trans ?_
       · decide
       · assumption)
    | (simp only [w16]
       after_results_simp
       simp only [*]
       rfl)
    | (simp only [w16]
       after_results_simp
       rfl)

end Cert.Proof.RefWin

end
-- ==== Proof.RefRunW17.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w17_writes : (w17 : List (HloOp τ sig (Elt F))).Forall fun op =>
    op.writes ⊆ (w17_W.map (Proc.devRef (τ := τ) .tc)).toFinset := by
  simp only [w17, w17_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step17 (V : Valuation τ sig (Elt F)) (A : Args F) (h : InvA V A ∧ Inv17 V A) :
    InvA (after w17 V) A ∧ Inv18 (after w17 V) A := by
  obtain ⟨ha, h⟩ := h
  refine ⟨ha.after w17 w17_W w17_writes (by decide), ?_⟩
  cases ha
  cases h
  constructor
  all_goals first
    | (refine (after_of_writes_sub w17 V w17_writes ?_).trans ?_
       · decide
       · assumption)
    | (simp only [w17]
       after_results_simp
       simp only [*]
       rfl)
    | (simp only [w17]
       after_results_simp
       rfl)

end Cert.Proof.RefWin

end
-- ==== Proof.RefRunW18.lean ====
import proofs.«408045_j39298950758801_3_alg».proof.Proof.RefOps
import proofs.«408045_j39298950758801_3_alg».proof.Proof.RefInvA
import proofs.«408045_j39298950758801_3_alg».proof.Proof.RefRunC

noncomputable section

namespace Cert.Proof.RefWin

open Cert.ReferenceIdeal Idealize.ShloMosaic Idealize.ShloMosaic.TcCoe Idealize.SL.Sem Idealize.ShloMosaic.StableHlo

variable {F : FTy → Type} [FloatOps F] [Cert.ReferenceIdeal.Facts]

set_option maxRecDepth 16384 in
theorem w18_writes : (w18 : List (HloOp τ sig (Elt F))).Forall fun op =>
    op.writes ⊆ (w18_W.map (Proc.devRef (τ := τ) .tc)).toFinset := by
  simp only [w18, w18_W, List.Forall, nullary_writes, unary_writes, binary_writes, ternary_writes, reshape_writes,
    Finset.singleton_subset_iff, List.mem_toFinset, List.map_cons, List.map_nil, List.mem_cons, true_or, or_true, and_self]

set_option maxRecDepth 16384 in
set_option maxHeartbeats 2000000 in
theorem step18 (V : Valuation τ sig (Elt F)) (A : Args F) (h : InvA V A ∧ Inv18 V A) :
    InvA (after w18 V) A ∧ Inv19 (after w18 V) A := by
  obtain ⟨ha, h⟩ := h
  refine ⟨ha.after w18 w18_W w18_writes (by decide), ?_⟩
  cases ha
  cases h
  constructor
  all_goals first
    | (refine (after_of_writes_sub w18 V w18_writes ?_).trans ?_
       · decide
       · assumption)
    | (simp only [w18]
       after_results_simp
       simp only [*]
       rfl)
    | (simp only [w18]
       after_results_simp
       rfl)

end Cert.Proof.RefWin

end
-- ==== Proof.RefRun.lean ====
import proofs.«408045_j39298950758801_3_alg».proof.Proof.RefVals
import Idealize.ShloMosaic.Lib.StableHlo.Run
import proofs.«408045_j39298950758801_3_alg».proof.Proof.RefRunA
import proofs.«408045_j39298950758801_3_alg».proof.Proof.RefRunW0
import proofs.«408045_j39298950758801_3_alg».proof.Proof.RefRunW1
import proofs.«408045_j39298950758801_3_alg».proof.Proof.RefRunW2
import proofs.«408045_j39298950758801_3_alg».proof.Proof.RefRunW3
import proofs.«408045_j39298950758801_3_alg».proof.Proof.RefRunW4
import proofs.«408045_j39298950758801_3_alg».proof.Proof.RefRunW5
import proofs.«408045_j39298950758801_3_alg».proof.Proof.RefRunW6
import proofs.«408045_j39298950758801_3_alg».proof.Proof.RefRunW7
import proofs.«408045_j39298950758801_3_alg».proof.Proof.RefRunW8
import proofs.«408045_j39298950758801_3_alg».proof.Proof.RefRunW9
import proofs.«408045_j39298950758801_3_alg».proof.Proof.RefRunW10
import proofs.«408045_j39298950758801_3_alg».proof.Proof.RefRunW11
import proofs.«408045_j39298950758801_3_alg».proof.Proof.RefRunW12
import proofs.«408045_j39298950758801_3_alg».proof.Proof.RefRunW13
import proofs.«408045_j39298950758801_3_alg».proof.Proof.RefRunW14
import proofs.«408045_j39298950758801_3_alg».proof.Proof.RefRunW15
import proofs.«408045_j39298950758801_3_alg».proof.Proof.RefRunW16
import proofs.«408045_j39298950758801_3_alg».proof.Proof.RefRunW17
import proofs.«408045_j39298950758801_3_alg».proof.Proof.RefRunW18

noncomputable section

namespace Cert.Proof

open Cert.ReferenceIdeal Idealize.ShloMosaic Idealize.ShloMosaic.TcCoe Idealize.SL.Sem

def refArgs (m : (ℓ : Loc nD τ sig) → Buf (Elt Ideal) ℓ) (c : Dev nD) : Args Ideal :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14)⟩

theorem Ref.inv_end {F : FTy → Type} [FloatOps F] [Cert.ReferenceIdeal.Facts]
    (V : Valuation τ sig (Elt F)) (A : Args F) (h : RefWin.InvA V A ∧ RefWin.Inv0 V A) :
    RefWin.InvA (StableHlo.after RefOps.ops V) A ∧ RefWin.Inv19 (StableHlo.after RefOps.ops V) A := by
  simp only [RefOps.ops, RefOps.ops0, RefOps.ops1, RefOps.ops2, RefOps.ops3, RefOps.ops4, RefOps.ops5, Ref.after_app]
  exact RefWin.step18 _ A (RefWin.step17 _ A (RefWin.step16 _ A (RefWin.step15 _ A (RefWin.step14 _ A (RefWin.step13 _ A (RefWin.step12 _ A (RefWin.step11 _ A (RefWin.step10 _ A (RefWin.step9 _ A (RefWin.step8 _ A (RefWin.step7 _ A (RefWin.step6 _ A (RefWin.step5 _ A (RefWin.step4 _ A (RefWin.step3 _ A (RefWin.step2 _ A (RefWin.step1 _ A (RefWin.step0 V A h))))))))))))))))))

theorem Ref.run [Cert.ReferenceIdeal.Facts] (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v152) = Rv.main_v152 (refArgs m c)
      ∧ r.2.mem ((c.tc : Thread nD τ).loc main_v269) = Rv.main_v269 (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine (θ_run (Cert.ReferenceIdeal.defs (F := Ideal)) _ _).mono (fun r h c => ?_) (Ref.run_after m ρ)
  have hI := Ref.inv_end (StableHlo.launchContents m c) (refArgs m c)
    ⟨⟨rfl, rfl, rfl, rfl, rfl, rfl, rfl, rfl, rfl, rfl, rfl, rfl, rfl, rfl, rfl⟩, ⟨⟩⟩
  exact ⟨(h c main_v152).trans hI.2.e_main_v152, (h c main_v269).trans hI.2.e_main_v269,
    (h c main_arg0).trans hI.1.e_main_arg0,
    (h c main_arg1).trans hI.1.e_main_arg1,
    (h c main_arg2).trans hI.1.e_main_arg2,
    (h c main_arg3).trans hI.1.e_main_arg3,
    (h c main_arg4).trans hI.1.e_main_arg4,
    (h c main_arg5).trans hI.1.e_main_arg5,
    (h c main_arg6).trans hI.1.e_main_arg6,
    (h c main_arg7).trans hI.1.e_main_arg7,
    (h c main_arg8).trans hI.1.e_main_arg8,
    (h c main_arg9).trans hI.1.e_main_arg9,
    (h c main_arg10).trans hI.1.e_main_arg10,
    (h c main_arg11).trans hI.1.e_main_arg11,
    (h c main_arg12).trans hI.1.e_main_arg12,
    (h c main_arg13).trans hI.1.e_main_arg13,
    (h c main_arg14).trans hI.1.e_main_arg14⟩

end Cert.Proof

end
-- ==== Proof.KerVals.lean ====
import proofs.«408045_j39298950758801_3_alg».proof.KernelIdeal
import proofs.«408045_j39298950758801_3_alg».proof.Proof.Args

noncomputable section

namespace Cert.Proof.Kv

open Cert.KernelIdeal Idealize.ShloMosaic Idealize.ShloMosaic.TcCoe

variable {F : FTy → Type} [FloatOps F] [Cert.KernelIdeal.Facts]
open Cert.KernelIdeal.Facts Cert.KernelIdeal.Facts₀

structure RegFns (F : FTy → Type) where
  emb : (⟨S100000x1, .i32⟩ : BufTy).Contents (Elt F) → (⟨S128x16, .f32⟩ : BufTy).Contents (Elt F) → (⟨S100000x16, .f32⟩ : BufTy).Contents (Elt F)
  y1 : (⟨S100000x16, .f32⟩ : BufTy).Contents (Elt F) → (⟨S1x16, .f32⟩ : BufTy).Contents (Elt F) → (⟨S100000x16, .f32⟩ : BufTy).Contents (Elt F)
  y2 : (⟨S100000x16, .f32⟩ : BufTy).Contents (Elt F) → (⟨S1x16, .f32⟩ : BufTy).Contents (Elt F) → (⟨S16x16, .f32⟩ : BufTy).Contents (Elt F) → (⟨S1x16, .f32⟩ : BufTy).Contents (Elt F) → (⟨S100000x16, .f32⟩ : BufTy).Contents (Elt F)
  x2 : (⟨S100000x16, .f32⟩ : BufTy).Contents (Elt F) → (⟨S1x16, .f32⟩ : BufTy).Contents (Elt F) → (⟨S16x16, .f32⟩ : BufTy).Contents (Elt F) → (⟨S1x16, .f32⟩ : BufTy).Contents (Elt F) → (⟨S16x16, .f32⟩ : BufTy).Contents (Elt F) → (⟨S100000x16, .f32⟩ : BufTy).Contents (Elt F)
  gy3 : (⟨S100000x16, .f32⟩ : BufTy).Contents (Elt F) → (⟨S1x16, .f32⟩ : BufTy).Contents (Elt F) → (⟨S16x4, .f32⟩ : BufTy).Contents (Elt F) → (⟨S1x4, .f32⟩ : BufTy).Contents (Elt F) → (⟨S4x1, .f32⟩ : BufTy).Contents (Elt F) → (⟨S1x1, .f32⟩ : BufTy).Contents (Elt F) → (⟨S4x16, .f32⟩ : BufTy).Contents (Elt F) → (⟨S1x4, .f32⟩ : BufTy).Contents (Elt F) → (⟨S100000x16, .f32⟩ : BufTy).Contents (Elt F)
  h5 : (⟨S100000x16, .f32⟩ : BufTy).Contents (Elt F) → (⟨S1x16, .f32⟩ : BufTy).Contents (Elt F) → (⟨S16x4, .f32⟩ : BufTy).Contents (Elt F) → (⟨S1x4, .f32⟩ : BufTy).Contents (Elt F) → (⟨S4x1, .f32⟩ : BufTy).Contents (Elt F) → (⟨S1x1, .f32⟩ : BufTy).Contents (Elt F) → (⟨S100000x1, .f32⟩ : BufTy).Contents (Elt F)
  gy1 : (⟨S100000x16, .f32⟩ : BufTy).Contents (Elt F) → (⟨S100000x16, .f32⟩ : BufTy).Contents (Elt F) → (⟨S100000x16, .f32⟩ : BufTy).Contents (Elt F) → (⟨S16x16, .f32⟩ : BufTy).Contents (Elt F) → (⟨S16x16, .f32⟩ : BufTy).Contents (Elt F) → (⟨S100000x16, .f32⟩ : BufTy).Contents (Elt F)

def main_v0 (R : RegFns F) (A : Args F) : (⟨S1x3200000, .i32⟩ : BufTy).Contents (Elt F) :=
  extractStridedSlice S1x3200000 ![0, 0] A.ei slices_S2x3200000_S1x3200000_0_0
def main_v1 (R : RegFns F) (A : Args F) : (⟨S3200000, .i32⟩ : BufTy).Contents (Elt F) :=
  fun i => shapeCast S3200000 (main_v0 R A) shapeCasts_S1x3200000_S3200000 i
def main_v2 (R : RegFns F) (A : Args F) : (⟨S1x3200000, .i32⟩ : BufTy).Contents (Elt F) :=
  extractStridedSlice S1x3200000 ![1, 0] A.ei slices_S2x3200000_S1x3200000_1_0
def main_v3 (R : RegFns F) (A : Args F) : (⟨S3200000, .i32⟩ : BufTy).Contents (Elt F) :=
  fun i => shapeCast S3200000 (main_v2 R A) shapeCasts_S1x3200000_S3200000 i
def main_c (R : RegFns F) (A : Args F) : (⟨S_, .i32⟩ : BufTy).Contents (Elt F) :=
  (constantI S_ 32 0#32)
def main_v4 (R : RegFns F) (A : Args F) : (⟨S3200000, .i32⟩ : BufTy).Contents (Elt F) :=
  broadcastInDim S3200000 ![] bcast_S_S3200000 (main_c R A)
def main_v5 (R : RegFns F) (A : Args F) : (⟨S3200000, .i1⟩ : BufTy).Contents (Elt F) :=
  cmpi .slt (main_v1 R A) (main_v4 R A)
def main_c_0 (R : RegFns F) (A : Args F) : (⟨S_, .i32⟩ : BufTy).Contents (Elt F) :=
  (constantI S_ 32 100000#32)
def main_v6 (R : RegFns F) (A : Args F) : (⟨S3200000, .i32⟩ : BufTy).Contents (Elt F) :=
  broadcastInDim S3200000 ![] bcast_S_S3200000 (main_c_0 R A)
def main_v7 (R : RegFns F) (A : Args F) : (⟨S3200000, .i32⟩ : BufTy).Contents (Elt F) :=
  addi (main_v1 R A) (main_v6 R A)
def main_v8 (R : RegFns F) (A : Args F) : (⟨S3200000, .i32⟩ : BufTy).Contents (Elt F) :=
  select (main_v5 R A) (main_v7 R A) (main_v1 R A)
def main_v9 (R : RegFns F) (A : Args F) : (⟨S3200000x1, .i32⟩ : BufTy).Contents (Elt F) :=
  broadcastInDim S3200000x1 ![0] bcast_S3200000_S3200000x1_0 (main_v8 R A)
def main_v10 (R : RegFns F) (A : Args F) : (⟨S3200000x3, .f32⟩ : BufTy).Contents (Elt F) :=
  Host.gather gather_S100000x3_S3200000x1_S3200000x3_1_0_n_n_0_1_13 A.pos (main_v9 R A)
def main_c_1 (R : RegFns F) (A : Args F) : (⟨S_, .i32⟩ : BufTy).Contents (Elt F) :=
  (constantI S_ 32 0#32)
def main_v11 (R : RegFns F) (A : Args F) : (⟨S3200000, .i32⟩ : BufTy).Contents (Elt F) :=
  broadcastInDim S3200000 ![] bcast_S_S3200000 (main_c_1 R A)
def main_v12 (R : RegFns F) (A : Args F) : (⟨S3200000, .i1⟩ : BufTy).Contents (Elt F) :=
  cmpi .slt (main_v3 R A) (main_v11 R A)
def main_c_2 (R : RegFns F) (A : Args F) : (⟨S_, .i32⟩ : BufTy).Contents (Elt F) :=
  (constantI S_ 32 100000#32)
def main_v13 (R : RegFns F) (A : Args F) : (⟨S3200000, .i32⟩ : BufTy).Contents (Elt F) :=
  broadcastInDim S3200000 ![] bcast_S_S3200000 (main_c_2 R A)
def main_v14 (R : RegFns F) (A : Args F) : (⟨S3200000, .i32⟩ : BufTy).Contents (Elt F) :=
  addi (main_v3 R A) (main_v13 R A)
def main_v15 (R : RegFns F) (A : Args F) : (⟨S3200000, .i32⟩ : BufTy).Contents (Elt F) :=
  select (main_v12 R A) (main_v14 R A) (main_v3 R A)
def main_v16 (R : RegFns F) (A : Args F) : (⟨S3200000x1, .i32⟩ : BufTy).Contents (Elt F) :=
  broadcastInDim S3200000x1 ![0] bcast_S3200000_S3200000x1_0 (main_v15 R A)
def main_v17 (R : RegFns F) (A : Args F) : (⟨S3200000x3, .f32⟩ : BufTy).Contents (Elt F) :=
  Host.gather gather_S100000x3_S3200000x1_S3200000x3_1_0_n_n_0_1_13 A.pos (main_v16 R A)
def main_v18 (R : RegFns F) (A : Args F) : (⟨S3200000x3, .f32⟩ : BufTy).Contents (Elt F) :=
  subf (main_v10 R A) (main_v17 R A)
def main_v19 (R : RegFns F) (A : Args F) : (⟨S3200000x3, .f32⟩ : BufTy).Contents (Elt F) :=
  mulf (main_v18 R A) (main_v18 R A)
def main_cst (R : RegFns F) (A : Args F) : (⟨S_, .f32⟩ : BufTy).Contents (Elt F) :=
  (constant S_ .f32 0x00000000#32)
def main_v20 (R : RegFns F) (A : Args F) : (⟨S3200000, .f32⟩ : BufTy).Contents (Elt F) :=
  Host.reduceAdd (main_v19 R A) (main_cst R A) reducesTo_S3200000x3_S3200000_d1 h_S_
def main_v21 (R : RegFns F) (A : Args F) : (⟨S3200000, .f32⟩ : BufTy).Contents (Elt F) :=
  Host.sqrt (main_v20 R A)
def main_v22 (R : RegFns F) (A : Args F) : (⟨S100000, .i32⟩ : BufTy).Contents (Elt F) :=
  (iotaInDim S100000 32 0)
def main_v23 (R : RegFns F) (A : Args F) : (⟨S3300000, .i32⟩ : BufTy).Contents (Elt F) :=
  concatenate S3300000 0 [⟨S3200000, (main_v1 R A)⟩, ⟨S100000, (main_v22 R A)⟩] concatenates_S3200000_S100000_S3300000_d0
def main_v24 (R : RegFns F) (A : Args F) : (⟨S3300000, .i32⟩ : BufTy).Contents (Elt F) :=
  concatenate S3300000 0 [⟨S3200000, (main_v3 R A)⟩, ⟨S100000, (main_v22 R A)⟩] concatenates_S3200000_S100000_S3300000_d0
def main_cst_3 (R : RegFns F) (A : Args F) : (⟨S_, .f32⟩ : BufTy).Contents (Elt F) :=
  (constant S_ .f32 0x3F800000#32)
def main_v25 (R : RegFns F) (A : Args F) : (⟨S100000, .f32⟩ : BufTy).Contents (Elt F) :=
  broadcastInDim S100000 ![] bcast_S_S100000 (main_cst_3 R A)
def main_v26 (R : RegFns F) (A : Args F) : (⟨S3300000, .f32⟩ : BufTy).Contents (Elt F) :=
  concatenate S3300000 0 [⟨S3200000, (main_v21 R A)⟩, ⟨S100000, (main_v25 R A)⟩] concatenates_S3200000_S100000_S3300000_d0
def main_cst_4 (R : RegFns F) (A : Args F) : (⟨S_, .f32⟩ : BufTy).Contents (Elt F) :=
  (constant S_ .f32 0x00000000#32)
def main_v27 (R : RegFns F) (A : Args F) : (⟨S100000, .f32⟩ : BufTy).Contents (Elt F) :=
  broadcastInDim S100000 ![] bcast_S_S100000 (main_cst_4 R A)
def main_v28 (R : RegFns F) (A : Args F) : (⟨S3300000x1, .i32⟩ : BufTy).Contents (Elt F) :=
  broadcastInDim S3300000x1 ![0] bcast_S3300000_S3300000x1_0 (main_v24 R A)
def main_v29 (R : RegFns F) (A : Args F) : (⟨S100000, .f32⟩ : BufTy).Contents (Elt F) :=
  Host.scatterAdd scatter_S100000_S3300000x1_S3300000_n_0_0_1 (main_v27 R A) (main_v28 R A) (main_v26 R A)
def main_cst_5 (R : RegFns F) (A : Args F) : (⟨S_, .f32⟩ : BufTy).Contents (Elt F) :=
  (constant S_ .f32 0x00000000#32)
def main_v30 (R : RegFns F) (A : Args F) : (⟨S100000, .f32⟩ : BufTy).Contents (Elt F) :=
  broadcastInDim S100000 ![] bcast_S_S100000 (main_cst_5 R A)
def main_v31 (R : RegFns F) (A : Args F) : (⟨S100000, .i1⟩ : BufTy).Contents (Elt F) :=
  cmpf .ogt (main_v29 R A) (main_v30 R A)
def main_v32 (R : RegFns F) (A : Args F) : (⟨S100000, .f32⟩ : BufTy).Contents (Elt F) :=
  Host.rsqrt (main_v29 R A)
def main_cst_6 (R : RegFns F) (A : Args F) : (⟨S_, .f32⟩ : BufTy).Contents (Elt F) :=
  (constant S_ .f32 0x00000000#32)
def main_call0_v0 (R : RegFns F) (A : Args F) : (⟨S_, .f32⟩ : BufTy).Contents (Elt F) :=
  id (main_cst_6 R A)
def main_call0_v1 (R : RegFns F) (A : Args F) : (⟨S100000, .f32⟩ : BufTy).Contents (Elt F) :=
  (broadcastInDim S100000 ![] bcast_S_S100000) (main_call0_v0 R A)
def main_v33 (R : RegFns F) (A : Args F) : (⟨S100000, .f32⟩ : BufTy).Contents (Elt F) :=
  select (main_v31 R A) (main_v32 R A) (main_call0_v1 R A)
def main_c_7 (R : RegFns F) (A : Args F) : (⟨S_, .i32⟩ : BufTy).Contents (Elt F) :=
  (constantI S_ 32 0#32)
def main_v34 (R : RegFns F) (A : Args F) : (⟨S3300000, .i32⟩ : BufTy).Contents (Elt F) :=
  broadcastInDim S3300000 ![] bcast_S_S3300000 (main_c_7 R A)
def main_v35 (R : RegFns F) (A : Args F) : (⟨S3300000, .i1⟩ : BufTy).Contents (Elt F) :=
  cmpi .slt (main_v23 R A) (main_v34 R A)
def main_c_8 (R : RegFns F) (A : Args F) : (⟨S_, .i32⟩ : BufTy).Contents (Elt F) :=
  (constantI S_ 32 100000#32)
def main_v36 (R : RegFns F) (A : Args F) : (⟨S3300000, .i32⟩ : BufTy).Contents (Elt F) :=
  broadcastInDim S3300000 ![] bcast_S_S3300000 (main_c_8 R A)
def main_v37 (R : RegFns F) (A : Args F) : (⟨S3300000, .i32⟩ : BufTy).Contents (Elt F) :=
  addi (main_v23 R A) (main_v36 R A)
def main_v38 (R : RegFns F) (A : Args F) : (⟨S3300000, .i32⟩ : BufTy).Contents (Elt F) :=
  select (main_v35 R A) (main_v37 R A) (main_v23 R A)
def main_v39 (R : RegFns F) (A : Args F) : (⟨S3300000x1, .i32⟩ : BufTy).Contents (Elt F) :=
  broadcastInDim S3300000x1 ![0] bcast_S3300000_S3300000x1_0 (main_v38 R A)
def main_v40 (R : RegFns F) (A : Args F) : (⟨S3300000, .f32⟩ : BufTy).Contents (Elt F) :=
  Host.gather gather_S100000_S3300000x1_S3300000_n_0_n_n_0_1_1 (main_v33 R A) (main_v39 R A)
def main_v41 (R : RegFns F) (A : Args F) : (⟨S3300000, .f32⟩ : BufTy).Contents (Elt F) :=
  mulf (main_v40 R A) (main_v26 R A)
def main_c_9 (R : RegFns F) (A : Args F) : (⟨S_, .i32⟩ : BufTy).Contents (Elt F) :=
  (constantI S_ 32 0#32)
def main_v42 (R : RegFns F) (A : Args F) : (⟨S3300000, .i32⟩ : BufTy).Contents (Elt F) :=
  broadcastInDim S3300000 ![] bcast_S_S3300000 (main_c_9 R A)
def main_v43 (R : RegFns F) (A : Args F) : (⟨S3300000, .i1⟩ : BufTy).Contents (Elt F) :=
  cmpi .slt (main_v24 R A) (main_v42 R A)
def main_c_10 (R : RegFns F) (A : Args F) : (⟨S_, .i32⟩ : BufTy).Contents (Elt F) :=
  (constantI S_ 32 100000#32)
def main_v44 (R : RegFns F) (A : Args F) : (⟨S3300000, .i32⟩ : BufTy).Contents (Elt F) :=
  broadcastInDim S3300000 ![] bcast_S_S3300000 (main_c_10 R A)
def main_v45 (R : RegFns F) (A : Args F) : (⟨S3300000, .i32⟩ : BufTy).Contents (Elt F) :=
  addi (main_v24 R A) (main_v44 R A)
def main_v46 (R : RegFns F) (A : Args F) : (⟨S3300000, .i32⟩ : BufTy).Contents (Elt F) :=
  select (main_v43 R A) (main_v45 R A) (main_v24 R A)
def main_v47 (R : RegFns F) (A : Args F) : (⟨S3300000x1, .i32⟩ : BufTy).Contents (Elt F) :=
  broadcastInDim S3300000x1 ![0] bcast_S3300000_S3300000x1_0 (main_v46 R A)
def main_v48 (R : RegFns F) (A : Args F) : (⟨S3300000, .f32⟩ : BufTy).Contents (Elt F) :=
  Host.gather gather_S100000_S3300000x1_S3300000_n_0_n_n_0_1_1 (main_v33 R A) (main_v47 R A)
def main_v49 (R : RegFns F) (A : Args F) : (⟨S3300000, .f32⟩ : BufTy).Contents (Elt F) :=
  mulf (main_v41 R A) (main_v48 R A)
def main_v50 (R : RegFns F) (A : Args F) : (⟨S118x16, .f32⟩ : BufTy).Contents (Elt F) :=
  Host.dotGeneral dot_S118x16_S16x16_S118x16_1_0_0_1_n_n none A.emb A.W1
def main_c_11 (R : RegFns F) (A : Args F) : (⟨S_, .i32⟩ : BufTy).Contents (Elt F) :=
  (constantI S_ 32 0#32)
def main_call1_v0 (R : RegFns F) (A : Args F) : (⟨S_, .f32⟩ : BufTy).Contents (Elt F) :=
  (sitofp .f32) (main_c_11 R A)
def main_v51 (R : RegFns F) (A : Args F) : (⟨S128x16, .f32⟩ : BufTy).Contents (Elt F) :=
  (fun x v => pad S128x16 ![0, 0] ![10, 0] ![0, 0] x v pads_S118x16_S128x16_0100_000 h_S_) (main_v50 R A) (main_call1_v0 R A)
def main_v52 (R : RegFns F) (A : Args F) : (⟨S100000x1, .i32⟩ : BufTy).Contents (Elt F) :=
  fun i => shapeCast S100000x1 A.z shapeCasts_S100000_S100000x1 i
def main_v53 (R : RegFns F) (A : Args F) : (⟨S100000x16, .f32⟩ : BufTy).Contents (Elt F) :=
  R.emb (main_v52 R A) (main_v51 R A)
def main_c_12 (R : RegFns F) (A : Args F) : (⟨S_, .i32⟩ : BufTy).Contents (Elt F) :=
  (constantI S_ 32 0#32)
def main_v54 (R : RegFns F) (A : Args F) : (⟨S3300000, .i32⟩ : BufTy).Contents (Elt F) :=
  broadcastInDim S3300000 ![] bcast_S_S3300000 (main_c_12 R A)
def main_v55 (R : RegFns F) (A : Args F) : (⟨S3300000, .i1⟩ : BufTy).Contents (Elt F) :=
  cmpi .slt (main_v23 R A) (main_v54 R A)
def main_c_13 (R : RegFns F) (A : Args F) : (⟨S_, .i32⟩ : BufTy).Contents (Elt F) :=
  (constantI S_ 32 100000#32)
def main_v56 (R : RegFns F) (A : Args F) : (⟨S3300000, .i32⟩ : BufTy).Contents (Elt F) :=
  broadcastInDim S3300000 ![] bcast_S_S3300000 (main_c_13 R A)
def main_v57 (R : RegFns F) (A : Args F) : (⟨S3300000, .i32⟩ : BufTy).Contents (Elt F) :=
  addi (main_v23 R A) (main_v56 R A)
def main_v58 (R : RegFns F) (A : Args F) : (⟨S3300000, .i32⟩ : BufTy).Contents (Elt F) :=
  select (main_v55 R A) (main_v57 R A) (main_v23 R A)
def main_v59 (R : RegFns F) (A : Args F) : (⟨S3300000x1, .i32⟩ : BufTy).Contents (Elt F) :=
  broadcastInDim S3300000x1 ![0] bcast_S3300000_S3300000x1_0 (main_v58 R A)
def main_v60 (R : RegFns F) (A : Args F) : (⟨S3300000x16, .f32⟩ : BufTy).Contents (Elt F) :=
  Host.gather gather_S100000x16_S3300000x1_S3300000x16_1_0_n_n_0_1_116 (main_v53 R A) (main_v59 R A)
def main_v61 (R : RegFns F) (A : Args F) : (⟨S3300000x1, .f32⟩ : BufTy).Contents (Elt F) :=
  broadcastInDim S3300000x1 ![0] bcast_S3300000_S3300000x1_0 (main_v49 R A)
def main_v62 (R : RegFns F) (A : Args F) : (⟨S3300000x16, .f32⟩ : BufTy).Contents (Elt F) :=
  broadcastInDim S3300000x16 ![0, 1] bcast_S3300000x1_S3300000x16_0_1 (main_v61 R A)
def main_v63 (R : RegFns F) (A : Args F) : (⟨S3300000x16, .f32⟩ : BufTy).Contents (Elt F) :=
  mulf (main_v60 R A) (main_v62 R A)
def main_cst_14 (R : RegFns F) (A : Args F) : (⟨S_, .f32⟩ : BufTy).Contents (Elt F) :=
  (constant S_ .f32 0x00000000#32)
def main_v64 (R : RegFns F) (A : Args F) : (⟨S100000x16, .f32⟩ : BufTy).Contents (Elt F) :=
  broadcastInDim S100000x16 ![] bcast_S_S100000x16 (main_cst_14 R A)
def main_v65 (R : RegFns F) (A : Args F) : (⟨S3300000x1, .i32⟩ : BufTy).Contents (Elt F) :=
  broadcastInDim S3300000x1 ![0] bcast_S3300000_S3300000x1_0 (main_v24 R A)
def main_v66 (R : RegFns F) (A : Args F) : (⟨S100000x16, .f32⟩ : BufTy).Contents (Elt F) :=
  Host.scatterAdd scatter_S100000x16_S3300000x1_S3300000x16_1_0_0_1 (main_v64 R A) (main_v65 R A) (main_v63 R A)
def main_v67 (R : RegFns F) (A : Args F) : (⟨S1x16, .f32⟩ : BufTy).Contents (Elt F) :=
  fun i => shapeCast S1x16 A.b1 shapeCasts_S16_S1x16 i
def main_v68 (R : RegFns F) (A : Args F) : (⟨S1x16, .f32⟩ : BufTy).Contents (Elt F) :=
  fun i => shapeCast S1x16 A.bl1 shapeCasts_S16_S1x16 i
def main_v69_0 (R : RegFns F) (A : Args F) : (⟨S100000x16, .f32⟩ : BufTy).Contents (Elt F) :=
  R.y1 (main_v66 R A) (main_v67 R A)
def main_v69_1 (R : RegFns F) (A : Args F) : (⟨S100000x16, .f32⟩ : BufTy).Contents (Elt F) :=
  R.y2 (main_v66 R A) (main_v67 R A) A.Wl1 (main_v68 R A)
def main_v69_2 (R : RegFns F) (A : Args F) : (⟨S100000x16, .f32⟩ : BufTy).Contents (Elt F) :=
  R.x2 (main_v66 R A) (main_v67 R A) A.Wl1 (main_v68 R A) A.W2
def main_c_15 (R : RegFns F) (A : Args F) : (⟨S_, .i32⟩ : BufTy).Contents (Elt F) :=
  (constantI S_ 32 0#32)
def main_v70 (R : RegFns F) (A : Args F) : (⟨S3300000, .i32⟩ : BufTy).Contents (Elt F) :=
  broadcastInDim S3300000 ![] bcast_S_S3300000 (main_c_15 R A)
def main_v71 (R : RegFns F) (A : Args F) : (⟨S3300000, .i1⟩ : BufTy).Contents (Elt F) :=
  cmpi .slt (main_v23 R A) (main_v70 R A)
def main_c_16 (R : RegFns F) (A : Args F) : (⟨S_, .i32⟩ : BufTy).Contents (Elt F) :=
  (constantI S_ 32 100000#32)
def main_v72 (R : RegFns F) (A : Args F) : (⟨S3300000, .i32⟩ : BufTy).Contents (Elt F) :=
  broadcastInDim S3300000 ![] bcast_S_S3300000 (main_c_16 R A)
def main_v73 (R : RegFns F) (A : Args F) : (⟨S3300000, .i32⟩ : BufTy).Contents (Elt F) :=
  addi (main_v23 R A) (main_v72 R A)
def main_v74 (R : RegFns F) (A : Args F) : (⟨S3300000, .i32⟩ : BufTy).Contents (Elt F) :=
  select (main_v71 R A) (main_v73 R A) (main_v23 R A)
def main_v75 (R : RegFns F) (A : Args F) : (⟨S3300000x1, .i32⟩ : BufTy).Contents (Elt F) :=
  broadcastInDim S3300000x1 ![0] bcast_S3300000_S3300000x1_0 (main_v74 R A)
def main_v76 (R : RegFns F) (A : Args F) : (⟨S3300000x16, .f32⟩ : BufTy).Contents (Elt F) :=
  Host.gather gather_S100000x16_S3300000x1_S3300000x16_1_0_n_n_0_1_116 (main_v69_2 R A) (main_v75 R A)
def main_v77 (R : RegFns F) (A : Args F) : (⟨S3300000x1, .f32⟩ : BufTy).Contents (Elt F) :=
  broadcastInDim S3300000x1 ![0] bcast_S3300000_S3300000x1_0 (main_v49 R A)
def main_v78 (R : RegFns F) (A : Args F) : (⟨S3300000x16, .f32⟩ : BufTy).Contents (Elt F) :=
  broadcastInDim S3300000x16 ![0, 1] bcast_S3300000x1_S3300000x16_0_1 (main_v77 R A)
def main_v79 (R : RegFns F) (A : Args F) : (⟨S3300000x16, .f32⟩ : BufTy).Contents (Elt F) :=
  mulf (main_v76 R A) (main_v78 R A)
def main_cst_17 (R : RegFns F) (A : Args F) : (⟨S_, .f32⟩ : BufTy).Contents (Elt F) :=
  (constant S_ .f32 0x00000000#32)
def main_v80 (R : RegFns F) (A : Args F) : (⟨S100000x16, .f32⟩ : BufTy).Contents (Elt F) :=
  broadcastInDim S100000x16 ![] bcast_S_S100000x16 (main_cst_17 R A)
def main_v81 (R : RegFns F) (A : Args F) : (⟨S3300000x1, .i32⟩ : BufTy).Contents (Elt F) :=
  broadcastInDim S3300000x1 ![0] bcast_S3300000_S3300000x1_0 (main_v24 R A)
def main_v82 (R : RegFns F) (A : Args F) : (⟨S100000x16, .f32⟩ : BufTy).Contents (Elt F) :=
  Host.scatterAdd scatter_S100000x16_S3300000x1_S3300000x16_1_0_0_1 (main_v80 R A) (main_v81 R A) (main_v79 R A)
def main_v83 (R : RegFns F) (A : Args F) : (⟨S4x16, .f32⟩ : BufTy).Contents (Elt F) :=
  transpose S4x16 [1, 0] A.Wl2 transposes_S16x4_S4x16_1_0
def main_v84 (R : RegFns F) (A : Args F) : (⟨S1x4, .f32⟩ : BufTy).Contents (Elt F) :=
  transpose S1x4 [1, 0] A.Wl3 transposes_S4x1_S1x4_1_0
def main_v85 (R : RegFns F) (A : Args F) : (⟨S1x16, .f32⟩ : BufTy).Contents (Elt F) :=
  fun i => shapeCast S1x16 A.b2 shapeCasts_S16_S1x16 i
def main_v86 (R : RegFns F) (A : Args F) : (⟨S1x4, .f32⟩ : BufTy).Contents (Elt F) :=
  fun i => shapeCast S1x4 A.bl2 shapeCasts_S4_S1x4 i
def main_v87 (R : RegFns F) (A : Args F) : (⟨S1x1, .f32⟩ : BufTy).Contents (Elt F) :=
  fun i => shapeCast S1x1 A.bl3 shapeCasts_S1_S1x1 i
def main_v88_0 (R : RegFns F) (A : Args F) : (⟨S100000x16, .f32⟩ : BufTy).Contents (Elt F) :=
  R.gy3 (main_v82 R A) (main_v85 R A) A.Wl2 (main_v86 R A) A.Wl3 (main_v87 R A) (main_v83 R A) (main_v84 R A)
def main_v88_1 (R : RegFns F) (A : Args F) : (⟨S100000x1, .f32⟩ : BufTy).Contents (Elt F) :=
  R.h5 (main_v82 R A) (main_v85 R A) A.Wl2 (main_v86 R A) A.Wl3 (main_v87 R A)
def main_cst_18 (R : RegFns F) (A : Args F) : (⟨S_, .f32⟩ : BufTy).Contents (Elt F) :=
  (constant S_ .f32 0x00000000#32)
def main_v89 (R : RegFns F) (A : Args F) : (⟨S512x1, .f32⟩ : BufTy).Contents (Elt F) :=
  broadcastInDim S512x1 ![] bcast_S_S512x1 (main_cst_18 R A)
def main_v90 (R : RegFns F) (A : Args F) : (⟨S100000x1, .i32⟩ : BufTy).Contents (Elt F) :=
  broadcastInDim S100000x1 ![0] bcast_S100000_S100000x1_0 A.batch
def main_v91 (R : RegFns F) (A : Args F) : (⟨S512x1, .f32⟩ : BufTy).Contents (Elt F) :=
  Host.scatterAdd scatter_S512x1_S100000x1_S100000x1_1_0_0_1 (main_v89 R A) (main_v90 R A) (main_v88_1 R A)
def main_c_19 (R : RegFns F) (A : Args F) : (⟨S_, .i32⟩ : BufTy).Contents (Elt F) :=
  (constantI S_ 32 0#32)
def main_v92 (R : RegFns F) (A : Args F) : (⟨S3300000, .i32⟩ : BufTy).Contents (Elt F) :=
  broadcastInDim S3300000 ![] bcast_S_S3300000 (main_c_19 R A)
def main_v93 (R : RegFns F) (A : Args F) : (⟨S3300000, .i1⟩ : BufTy).Contents (Elt F) :=
  cmpi .slt (main_v24 R A) (main_v92 R A)
def main_c_20 (R : RegFns F) (A : Args F) : (⟨S_, .i32⟩ : BufTy).Contents (Elt F) :=
  (constantI S_ 32 100000#32)
def main_v94 (R : RegFns F) (A : Args F) : (⟨S3300000, .i32⟩ : BufTy).Contents (Elt F) :=
  broadcastInDim S3300000 ![] bcast_S_S3300000 (main_c_20 R A)
def main_v95 (R : RegFns F) (A : Args F) : (⟨S3300000, .i32⟩ : BufTy).Contents (Elt F) :=
  addi (main_v24 R A) (main_v94 R A)
def main_v96 (R : RegFns F) (A : Args F) : (⟨S3300000, .i32⟩ : BufTy).Contents (Elt F) :=
  select (main_v93 R A) (main_v95 R A) (main_v24 R A)
def main_v97 (R : RegFns F) (A : Args F) : (⟨S3300000x1, .i32⟩ : BufTy).Contents (Elt F) :=
  broadcastInDim S3300000x1 ![0] bcast_S3300000_S3300000x1_0 (main_v96 R A)
def main_v98 (R : RegFns F) (A : Args F) : (⟨S3300000x16, .f32⟩ : BufTy).Contents (Elt F) :=
  Host.gather gather_S100000x16_S3300000x1_S3300000x16_1_0_n_n_0_1_116 (main_v88_0 R A) (main_v97 R A)
def main_v99 (R : RegFns F) (A : Args F) : (⟨S3300000x1, .f32⟩ : BufTy).Contents (Elt F) :=
  broadcastInDim S3300000x1 ![0] bcast_S3300000_S3300000x1_0 (main_v49 R A)
def main_v100 (R : RegFns F) (A : Args F) : (⟨S3300000x16, .f32⟩ : BufTy).Contents (Elt F) :=
  broadcastInDim S3300000x16 ![0, 1] bcast_S3300000x1_S3300000x16_0_1 (main_v99 R A)
def main_v101 (R : RegFns F) (A : Args F) : (⟨S3300000x16, .f32⟩ : BufTy).Contents (Elt F) :=
  mulf (main_v98 R A) (main_v100 R A)
def main_cst_21 (R : RegFns F) (A : Args F) : (⟨S_, .f32⟩ : BufTy).Contents (Elt F) :=
  (constant S_ .f32 0x00000000#32)
def main_v102 (R : RegFns F) (A : Args F) : (⟨S100000x16, .f32⟩ : BufTy).Contents (Elt F) :=
  broadcastInDim S100000x16 ![] bcast_S_S100000x16 (main_cst_21 R A)
def main_v103 (R : RegFns F) (A : Args F) : (⟨S3300000x1, .i32⟩ : BufTy).Contents (Elt F) :=
  broadcastInDim S3300000x1 ![0] bcast_S3300000_S3300000x1_0 (main_v23 R A)
def main_v104 (R : RegFns F) (A : Args F) : (⟨S100000x16, .f32⟩ : BufTy).Contents (Elt F) :=
  Host.scatterAdd scatter_S100000x16_S3300000x1_S3300000x16_1_0_0_1 (main_v102 R A) (main_v103 R A) (main_v101 R A)
def main_v105 (R : RegFns F) (A : Args F) : (⟨S3300000x16, .f32⟩ : BufTy).Contents (Elt F) :=
  mulf (main_v98 R A) (main_v76 R A)
def main_cst_22 (R : RegFns F) (A : Args F) : (⟨S_, .f32⟩ : BufTy).Contents (Elt F) :=
  (constant S_ .f32 0x00000000#32)
def main_v106 (R : RegFns F) (A : Args F) : (⟨S3300000, .f32⟩ : BufTy).Contents (Elt F) :=
  Host.reduceAdd (main_v105 R A) (main_cst_22 R A) reducesTo_S3300000x16_S3300000_d1 h_S_
def main_v107 (R : RegFns F) (A : Args F) : (⟨S16x16, .f32⟩ : BufTy).Contents (Elt F) :=
  transpose S16x16 [1, 0] A.Wl1 transposes_S16x16_S16x16_1_0
def main_v108 (R : RegFns F) (A : Args F) : (⟨S16x16, .f32⟩ : BufTy).Contents (Elt F) :=
  transpose S16x16 [1, 0] A.W2 transposes_S16x16_S16x16_1_0
def main_v109 (R : RegFns F) (A : Args F) : (⟨S100000x16, .f32⟩ : BufTy).Contents (Elt F) :=
  R.gy1 (main_v104 R A) (main_v69_0 R A) (main_v69_1 R A) (main_v107 R A) (main_v108 R A)
def main_c_23 (R : RegFns F) (A : Args F) : (⟨S_, .i32⟩ : BufTy).Contents (Elt F) :=
  (constantI S_ 32 0#32)
def main_v110 (R : RegFns F) (A : Args F) : (⟨S3300000, .i32⟩ : BufTy).Contents (Elt F) :=
  broadcastInDim S3300000 ![] bcast_S_S3300000 (main_c_23 R A)
def main_v111 (R : RegFns F) (A : Args F) : (⟨S3300000, .i1⟩ : BufTy).Contents (Elt F) :=
  cmpi .slt (main_v24 R A) (main_v110 R A)
def main_c_24 (R : RegFns F) (A : Args F) : (⟨S_, .i32⟩ : BufTy).Contents (Elt F) :=
  (constantI S_ 32 100000#32)
def main_v112 (R : RegFns F) (A : Args F) : (⟨S3300000, .i32⟩ : BufTy).Contents (Elt F) :=
  broadcastInDim S3300000 ![] bcast_S_S3300000 (main_c_24 R A)
def main_v113 (R : RegFns F) (A : Args F) : (⟨S3300000, .i32⟩ : BufTy).Contents (Elt F) :=
  addi (main_v24 R A) (main_v112 R A)
def main_v114 (R : RegFns F) (A : Args F) : (⟨S3300000, .i32⟩ : BufTy).Contents (Elt F) :=
  select (main_v111 R A) (main_v113 R A) (main_v24 R A)
def main_v115 (R : RegFns F) (A : Args F) : (⟨S3300000x1, .i32⟩ : BufTy).Contents (Elt F) :=
  broadcastInDim S3300000x1 ![0] bcast_S3300000_S3300000x1_0 (main_v114 R A)
def main_v116 (R : RegFns F) (A : Args F) : (⟨S3300000x16, .f32⟩ : BufTy).Contents (Elt F) :=
  Host.gather gather_S100000x16_S3300000x1_S3300000x16_1_0_n_n_0_1_116 (main_v109 R A) (main_v115 R A)
def main_v117 (R : RegFns F) (A : Args F) : (⟨S3300000x16, .f32⟩ : BufTy).Contents (Elt F) :=
  mulf (main_v116 R A) (main_v60 R A)
def main_cst_25 (R : RegFns F) (A : Args F) : (⟨S_, .f32⟩ : BufTy).Contents (Elt F) :=
  (constant S_ .f32 0x00000000#32)
def main_v118 (R : RegFns F) (A : Args F) : (⟨S3300000, .f32⟩ : BufTy).Contents (Elt F) :=
  Host.reduceAdd (main_v117 R A) (main_cst_25 R A) reducesTo_S3300000x16_S3300000_d1 h_S_
def main_v119 (R : RegFns F) (A : Args F) : (⟨S3300000, .f32⟩ : BufTy).Contents (Elt F) :=
  addf (main_v118 R A) (main_v106 R A)
def main_c_26 (R : RegFns F) (A : Args F) : (⟨S_, .i32⟩ : BufTy).Contents (Elt F) :=
  (constantI S_ 32 0#32)
def main_v120 (R : RegFns F) (A : Args F) : (⟨S3300000, .i32⟩ : BufTy).Contents (Elt F) :=
  broadcastInDim S3300000 ![] bcast_S_S3300000 (main_c_26 R A)
def main_v121 (R : RegFns F) (A : Args F) : (⟨S3300000, .i1⟩ : BufTy).Contents (Elt F) :=
  cmpi .slt (main_v23 R A) (main_v120 R A)
def main_c_27 (R : RegFns F) (A : Args F) : (⟨S_, .i32⟩ : BufTy).Contents (Elt F) :=
  (constantI S_ 32 100000#32)
def main_v122 (R : RegFns F) (A : Args F) : (⟨S3300000, .i32⟩ : BufTy).Contents (Elt F) :=
  broadcastInDim S3300000 ![] bcast_S_S3300000 (main_c_27 R A)
def main_v123 (R : RegFns F) (A : Args F) : (⟨S3300000, .i32⟩ : BufTy).Contents (Elt F) :=
  addi (main_v23 R A) (main_v122 R A)
def main_v124 (R : RegFns F) (A : Args F) : (⟨S3300000, .i32⟩ : BufTy).Contents (Elt F) :=
  select (main_v121 R A) (main_v123 R A) (main_v23 R A)
def main_v125 (R : RegFns F) (A : Args F) : (⟨S3300000x1, .i32⟩ : BufTy).Contents (Elt F) :=
  broadcastInDim S3300000x1 ![0] bcast_S3300000_S3300000x1_0 (main_v124 R A)
def main_v126 (R : RegFns F) (A : Args F) : (⟨S3300000, .f32⟩ : BufTy).Contents (Elt F) :=
  Host.gather gather_S100000_S3300000x1_S3300000_n_0_n_n_0_1_1 (main_v33 R A) (main_v125 R A)
def main_v127 (R : RegFns F) (A : Args F) : (⟨S3300000, .f32⟩ : BufTy).Contents (Elt F) :=
  mulf (main_v119 R A) (main_v126 R A)
def main_c_28 (R : RegFns F) (A : Args F) : (⟨S_, .i32⟩ : BufTy).Contents (Elt F) :=
  (constantI S_ 32 0#32)
def main_v128 (R : RegFns F) (A : Args F) : (⟨S3300000, .i32⟩ : BufTy).Contents (Elt F) :=
  broadcastInDim S3300000 ![] bcast_S_S3300000 (main_c_28 R A)
def main_v129 (R : RegFns F) (A : Args F) : (⟨S3300000, .i1⟩ : BufTy).Contents (Elt F) :=
  cmpi .slt (main_v24 R A) (main_v128 R A)
def main_c_29 (R : RegFns F) (A : Args F) : (⟨S_, .i32⟩ : BufTy).Contents (Elt F) :=
  (constantI S_ 32 100000#32)
def main_v130 (R : RegFns F) (A : Args F) : (⟨S3300000, .i32⟩ : BufTy).Contents (Elt F) :=
  broadcastInDim S3300000 ![] bcast_S_S3300000 (main_c_29 R A)
def main_v131 (R : RegFns F) (A : Args F) : (⟨S3300000, .i32⟩ : BufTy).Contents (Elt F) :=
  addi (main_v24 R A) (main_v130 R A)
def main_v132 (R : RegFns F) (A : Args F) : (⟨S3300000, .i32⟩ : BufTy).Contents (Elt F) :=
  select (main_v129 R A) (main_v131 R A) (main_v24 R A)
def main_v133 (R : RegFns F) (A : Args F) : (⟨S3300000x1, .i32⟩ : BufTy).Contents (Elt F) :=
  broadcastInDim S3300000x1 ![0] bcast_S3300000_S3300000x1_0 (main_v132 R A)
def main_v134 (R : RegFns F) (A : Args F) : (⟨S3300000, .f32⟩ : BufTy).Contents (Elt F) :=
  Host.gather gather_S100000_S3300000x1_S3300000_n_0_n_n_0_1_1 (main_v33 R A) (main_v133 R A)
def main_v135 (R : RegFns F) (A : Args F) : (⟨S3300000, .f32⟩ : BufTy).Contents (Elt F) :=
  mulf (main_v127 R A) (main_v134 R A)
def main_v136 (R : RegFns F) (A : Args F) : (⟨S3300000, .f32⟩ : BufTy).Contents (Elt F) :=
  mulf (main_v119 R A) (main_v26 R A)
def main_c_30 (R : RegFns F) (A : Args F) : (⟨S_, .i32⟩ : BufTy).Contents (Elt F) :=
  (constantI S_ 32 0#32)
def main_v137 (R : RegFns F) (A : Args F) : (⟨S3300000, .i32⟩ : BufTy).Contents (Elt F) :=
  broadcastInDim S3300000 ![] bcast_S_S3300000 (main_c_30 R A)
def main_v138 (R : RegFns F) (A : Args F) : (⟨S3300000, .i1⟩ : BufTy).Contents (Elt F) :=
  cmpi .slt (main_v24 R A) (main_v137 R A)
def main_c_31 (R : RegFns F) (A : Args F) : (⟨S_, .i32⟩ : BufTy).Contents (Elt F) :=
  (constantI S_ 32 100000#32)
def main_v139 (R : RegFns F) (A : Args F) : (⟨S3300000, .i32⟩ : BufTy).Contents (Elt F) :=
  broadcastInDim S3300000 ![] bcast_S_S3300000 (main_c_31 R A)
def main_v140 (R : RegFns F) (A : Args F) : (⟨S3300000, .i32⟩ : BufTy).Contents (Elt F) :=
  addi (main_v24 R A) (main_v139 R A)
def main_v141 (R : RegFns F) (A : Args F) : (⟨S3300000, .i32⟩ : BufTy).Contents (Elt F) :=
  select (main_v138 R A) (main_v140 R A) (main_v24 R A)
def main_v142 (R : RegFns F) (A : Args F) : (⟨S3300000x1, .i32⟩ : BufTy).Contents (Elt F) :=
  broadcastInDim S3300000x1 ![0] bcast_S3300000_S3300000x1_0 (main_v141 R A)
def main_v143 (R : RegFns F) (A : Args F) : (⟨S3300000, .f32⟩ : BufTy).Contents (Elt F) :=
  Host.gather gather_S100000_S3300000x1_S3300000_n_0_n_n_0_1_1 (main_v33 R A) (main_v142 R A)
def main_v144 (R : RegFns F) (A : Args F) : (⟨S3300000, .f32⟩ : BufTy).Contents (Elt F) :=
  mulf (main_v136 R A) (main_v143 R A)
def main_v145 (R : RegFns F) (A : Args F) : (⟨S3300000, .f32⟩ : BufTy).Contents (Elt F) :=
  mulf (main_v119 R A) (main_v26 R A)
def main_c_32 (R : RegFns F) (A : Args F) : (⟨S_, .i32⟩ : BufTy).Contents (Elt F) :=
  (constantI S_ 32 0#32)
def main_v146 (R : RegFns F) (A : Args F) : (⟨S3300000, .i32⟩ : BufTy).Contents (Elt F) :=
  broadcastInDim S3300000 ![] bcast_S_S3300000 (main_c_32 R A)
def main_v147 (R : RegFns F) (A : Args F) : (⟨S3300000, .i1⟩ : BufTy).Contents (Elt F) :=
  cmpi .slt (main_v23 R A) (main_v146 R A)
def main_c_33 (R : RegFns F) (A : Args F) : (⟨S_, .i32⟩ : BufTy).Contents (Elt F) :=
  (constantI S_ 32 100000#32)
def main_v148 (R : RegFns F) (A : Args F) : (⟨S3300000, .i32⟩ : BufTy).Contents (Elt F) :=
  broadcastInDim S3300000 ![] bcast_S_S3300000 (main_c_33 R A)
def main_v149 (R : RegFns F) (A : Args F) : (⟨S3300000, .i32⟩ : BufTy).Contents (Elt F) :=
  addi (main_v23 R A) (main_v148 R A)
def main_v150 (R : RegFns F) (A : Args F) : (⟨S3300000, .i32⟩ : BufTy).Contents (Elt F) :=
  select (main_v147 R A) (main_v149 R A) (main_v23 R A)
def main_v151 (R : RegFns F) (A : Args F) : (⟨S3300000x1, .i32⟩ : BufTy).Contents (Elt F) :=
  broadcastInDim S3300000x1 ![0] bcast_S3300000_S3300000x1_0 (main_v150 R A)
def main_v152 (R : RegFns F) (A : Args F) : (⟨S3300000, .f32⟩ : BufTy).Contents (Elt F) :=
  Host.gather gather_S100000_S3300000x1_S3300000_n_0_n_n_0_1_1 (main_v33 R A) (main_v151 R A)
def main_v153 (R : RegFns F) (A : Args F) : (⟨S3300000, .f32⟩ : BufTy).Contents (Elt F) :=
  mulf (main_v145 R A) (main_v152 R A)
def main_cst_34 (R : RegFns F) (A : Args F) : (⟨S_, .f32⟩ : BufTy).Contents (Elt F) :=
  (constant S_ .f32 0x00000000#32)
def main_v154 (R : RegFns F) (A : Args F) : (⟨S100000, .f32⟩ : BufTy).Contents (Elt F) :=
  broadcastInDim S100000 ![] bcast_S_S100000 (main_cst_34 R A)
def main_v155 (R : RegFns F) (A : Args F) : (⟨S3300000x1, .i32⟩ : BufTy).Contents (Elt F) :=
  broadcastInDim S3300000x1 ![0] bcast_S3300000_S3300000x1_0 (main_v23 R A)
def main_v156 (R : RegFns F) (A : Args F) : (⟨S100000, .f32⟩ : BufTy).Contents (Elt F) :=
  Host.scatterAdd scatter_S100000_S3300000x1_S3300000_n_0_0_1 (main_v154 R A) (main_v155 R A) (main_v144 R A)
def main_cst_35 (R : RegFns F) (A : Args F) : (⟨S_, .f32⟩ : BufTy).Contents (Elt F) :=
  (constant S_ .f32 0x00000000#32)
def main_v157 (R : RegFns F) (A : Args F) : (⟨S100000, .f32⟩ : BufTy).Contents (Elt F) :=
  broadcastInDim S100000 ![] bcast_S_S100000 (main_cst_35 R A)
def main_v158 (R : RegFns F) (A : Args F) : (⟨S3300000x1, .i32⟩ : BufTy).Contents (Elt F) :=
  broadcastInDim S3300000x1 ![0] bcast_S3300000_S3300000x1_0 (main_v24 R A)
def main_v159 (R : RegFns F) (A : Args F) : (⟨S100000, .f32⟩ : BufTy).Contents (Elt F) :=
  Host.scatterAdd scatter_S100000_S3300000x1_S3300000_n_0_0_1 (main_v157 R A) (main_v158 R A) (main_v153 R A)
def main_v160 (R : RegFns F) (A : Args F) : (⟨S100000, .f32⟩ : BufTy).Contents (Elt F) :=
  addf (main_v156 R A) (main_v159 R A)
def main_cst_36 (R : RegFns F) (A : Args F) : (⟨S_, .f32⟩ : BufTy).Contents (Elt F) :=
  (constant S_ .f32 0x00000000#32)
def main_v161 (R : RegFns F) (A : Args F) : (⟨S100000, .f32⟩ : BufTy).Contents (Elt F) :=
  broadcastInDim S100000 ![] bcast_S_S100000 (main_cst_36 R A)
def main_v162 (R : RegFns F) (A : Args F) : (⟨S100000, .i1⟩ : BufTy).Contents (Elt F) :=
  cmpf .ogt (main_v29 R A) (main_v161 R A)
def main_cst_37 (R : RegFns F) (A : Args F) : (⟨S_, .f32⟩ : BufTy).Contents (Elt F) :=
  (constant S_ .f32 0xBF000000#32)
def main_v163 (R : RegFns F) (A : Args F) : (⟨S100000, .f32⟩ : BufTy).Contents (Elt F) :=
  broadcastInDim S100000 ![] bcast_S_S100000 (main_cst_37 R A)
def main_v164 (R : RegFns F) (A : Args F) : (⟨S100000, .f32⟩ : BufTy).Contents (Elt F) :=
  mulf (main_v163 R A) (main_v33 R A)
def main_v165 (R : RegFns F) (A : Args F) : (⟨S100000, .f32⟩ : BufTy).Contents (Elt F) :=
  Host.divf (main_v164 R A) (main_v29 R A)
def main_cst_38 (R : RegFns F) (A : Args F) : (⟨S_, .f32⟩ : BufTy).Contents (Elt F) :=
  (constant S_ .f32 0x00000000#32)
def main_call2_v0 (R : RegFns F) (A : Args F) : (⟨S_, .f32⟩ : BufTy).Contents (Elt F) :=
  id (main_cst_38 R A)
def main_call2_v1 (R : RegFns F) (A : Args F) : (⟨S100000, .f32⟩ : BufTy).Contents (Elt F) :=
  (broadcastInDim S100000 ![] bcast_S_S100000) (main_call2_v0 R A)
def main_v166 (R : RegFns F) (A : Args F) : (⟨S100000, .f32⟩ : BufTy).Contents (Elt F) :=
  select (main_v162 R A) (main_v165 R A) (main_call2_v1 R A)
def main_v167 (R : RegFns F) (A : Args F) : (⟨S100000, .f32⟩ : BufTy).Contents (Elt F) :=
  mulf (main_v160 R A) (main_v166 R A)
def main_c_39 (R : RegFns F) (A : Args F) : (⟨S_, .i32⟩ : BufTy).Contents (Elt F) :=
  (constantI S_ 32 0#32)
def main_v168 (R : RegFns F) (A : Args F) : (⟨S3300000, .i32⟩ : BufTy).Contents (Elt F) :=
  broadcastInDim S3300000 ![] bcast_S_S3300000 (main_c_39 R A)
def main_v169 (R : RegFns F) (A : Args F) : (⟨S3300000, .i1⟩ : BufTy).Contents (Elt F) :=
  cmpi .slt (main_v24 R A) (main_v168 R A)
def main_c_40 (R : RegFns F) (A : Args F) : (⟨S_, .i32⟩ : BufTy).Contents (Elt F) :=
  (constantI S_ 32 100000#32)
def main_v170 (R : RegFns F) (A : Args F) : (⟨S3300000, .i32⟩ : BufTy).Contents (Elt F) :=
  broadcastInDim S3300000 ![] bcast_S_S3300000 (main_c_40 R A)
def main_v171 (R : RegFns F) (A : Args F) : (⟨S3300000, .i32⟩ : BufTy).Contents (Elt F) :=
  addi (main_v24 R A) (main_v170 R A)
def main_v172 (R : RegFns F) (A : Args F) : (⟨S3300000, .i32⟩ : BufTy).Contents (Elt F) :=
  select (main_v169 R A) (main_v171 R A) (main_v24 R A)
def main_v173 (R : RegFns F) (A : Args F) : (⟨S3300000x1, .i32⟩ : BufTy).Contents (Elt F) :=
  broadcastInDim S3300000x1 ![0] bcast_S3300000_S3300000x1_0 (main_v172 R A)
def main_v174 (R : RegFns F) (A : Args F) : (⟨S3300000, .f32⟩ : BufTy).Contents (Elt F) :=
  Host.gather gather_S100000_S3300000x1_S3300000_n_0_n_n_0_1_1 (main_v167 R A) (main_v173 R A)
def main_v175 (R : RegFns F) (A : Args F) : (⟨S3300000, .f32⟩ : BufTy).Contents (Elt F) :=
  addf (main_v135 R A) (main_v174 R A)
def main_v176 (R : RegFns F) (A : Args F) : (⟨S3200000, .f32⟩ : BufTy).Contents (Elt F) :=
  extractStridedSlice S3200000 ![0] (main_v175 R A) slices_S3300000_S3200000_0
def main_v177 (R : RegFns F) (A : Args F) : (⟨S3200000x1, .f32⟩ : BufTy).Contents (Elt F) :=
  broadcastInDim S3200000x1 ![0] bcast_S3200000_S3200000x1_0 (main_v176 R A)
def main_v178 (R : RegFns F) (A : Args F) : (⟨S3200000x3, .f32⟩ : BufTy).Contents (Elt F) :=
  broadcastInDim S3200000x3 ![0, 1] bcast_S3200000x1_S3200000x3_0_1 (main_v177 R A)
def main_v179 (R : RegFns F) (A : Args F) : (⟨S3200000x3, .f32⟩ : BufTy).Contents (Elt F) :=
  mulf (main_v178 R A) (main_v18 R A)
def main_v180 (R : RegFns F) (A : Args F) : (⟨S3200000x1, .f32⟩ : BufTy).Contents (Elt F) :=
  broadcastInDim S3200000x1 ![0] bcast_S3200000_S3200000x1_0 (main_v21 R A)
def main_v181 (R : RegFns F) (A : Args F) : (⟨S3200000x3, .f32⟩ : BufTy).Contents (Elt F) :=
  broadcastInDim S3200000x3 ![0, 1] bcast_S3200000x1_S3200000x3_0_1 (main_v180 R A)
def main_v182 (R : RegFns F) (A : Args F) : (⟨S3200000x3, .f32⟩ : BufTy).Contents (Elt F) :=
  Host.divf (main_v179 R A) (main_v181 R A)
def main_cst_41 (R : RegFns F) (A : Args F) : (⟨S_, .f32⟩ : BufTy).Contents (Elt F) :=
  (constant S_ .f32 0x00000000#32)
def main_v183 (R : RegFns F) (A : Args F) : (⟨S100000x3, .f32⟩ : BufTy).Contents (Elt F) :=
  broadcastInDim S100000x3 ![] bcast_S_S100000x3 (main_cst_41 R A)
def main_c_42 (R : RegFns F) (A : Args F) : (⟨S_, .i32⟩ : BufTy).Contents (Elt F) :=
  (constantI S_ 32 0#32)
def main_v184 (R : RegFns F) (A : Args F) : (⟨S3200000, .i32⟩ : BufTy).Contents (Elt F) :=
  broadcastInDim S3200000 ![] bcast_S_S3200000 (main_c_42 R A)
def main_v185 (R : RegFns F) (A : Args F) : (⟨S3200000, .i1⟩ : BufTy).Contents (Elt F) :=
  cmpi .slt (main_v1 R A) (main_v184 R A)
def main_c_43 (R : RegFns F) (A : Args F) : (⟨S_, .i32⟩ : BufTy).Contents (Elt F) :=
  (constantI S_ 32 100000#32)
def main_v186 (R : RegFns F) (A : Args F) : (⟨S3200000, .i32⟩ : BufTy).Contents (Elt F) :=
  broadcastInDim S3200000 ![] bcast_S_S3200000 (main_c_43 R A)
def main_v187 (R : RegFns F) (A : Args F) : (⟨S3200000, .i32⟩ : BufTy).Contents (Elt F) :=
  addi (main_v1 R A) (main_v186 R A)
def main_v188 (R : RegFns F) (A : Args F) : (⟨S3200000, .i32⟩ : BufTy).Contents (Elt F) :=
  select (main_v185 R A) (main_v187 R A) (main_v1 R A)
def main_v189 (R : RegFns F) (A : Args F) : (⟨S3200000x1, .i32⟩ : BufTy).Contents (Elt F) :=
  broadcastInDim S3200000x1 ![0] bcast_S3200000_S3200000x1_0 (main_v188 R A)
def main_v190 (R : RegFns F) (A : Args F) : (⟨S100000x3, .f32⟩ : BufTy).Contents (Elt F) :=
  Host.scatterAdd scatter_S100000x3_S3200000x1_S3200000x3_1_0_0_1 (main_v183 R A) (main_v189 R A) (main_v182 R A)
def main_v191 (R : RegFns F) (A : Args F) : (⟨S3200000x3, .f32⟩ : BufTy).Contents (Elt F) :=
  Host.negf (main_v182 R A)
def main_c_44 (R : RegFns F) (A : Args F) : (⟨S_, .i32⟩ : BufTy).Contents (Elt F) :=
  (constantI S_ 32 0#32)
def main_v192 (R : RegFns F) (A : Args F) : (⟨S3200000, .i32⟩ : BufTy).Contents (Elt F) :=
  broadcastInDim S3200000 ![] bcast_S_S3200000 (main_c_44 R A)
def main_v193 (R : RegFns F) (A : Args F) : (⟨S3200000, .i1⟩ : BufTy).Contents (Elt F) :=
  cmpi .slt (main_v3 R A) (main_v192 R A)
def main_c_45 (R : RegFns F) (A : Args F) : (⟨S_, .i32⟩ : BufTy).Contents (Elt F) :=
  (constantI S_ 32 100000#32)
def main_v194 (R : RegFns F) (A : Args F) : (⟨S3200000, .i32⟩ : BufTy).Contents (Elt F) :=
  broadcastInDim S3200000 ![] bcast_S_S3200000 (main_c_45 R A)
def main_v195 (R : RegFns F) (A : Args F) : (⟨S3200000, .i32⟩ : BufTy).Contents (Elt F) :=
  addi (main_v3 R A) (main_v194 R A)
def main_v196 (R : RegFns F) (A : Args F) : (⟨S3200000, .i32⟩ : BufTy).Contents (Elt F) :=
  select (main_v193 R A) (main_v195 R A) (main_v3 R A)
def main_v197 (R : RegFns F) (A : Args F) : (⟨S3200000x1, .i32⟩ : BufTy).Contents (Elt F) :=
  broadcastInDim S3200000x1 ![0] bcast_S3200000_S3200000x1_0 (main_v196 R A)
def main_v198 (R : RegFns F) (A : Args F) : (⟨S100000x3, .f32⟩ : BufTy).Contents (Elt F) :=
  Host.scatterAdd scatter_S100000x3_S3200000x1_S3200000x3_1_0_0_1 (main_v190 R A) (main_v197 R A) (main_v191 R A)
def main_v199 (R : RegFns F) (A : Args F) : (⟨S100000x3, .f32⟩ : BufTy).Contents (Elt F) :=
  Host.negf (main_v198 R A)

end Cert.Proof.Kv

end
-- ==== Proof.RegSpec.lean ====
import Idealize.ShloMosaic.PureOps.Ideal
import Idealize.ShloMosaic.Lib.ValueIdx

noncomputable section

namespace Cert.Proof.Reg

open Idealize.ShloMosaic Idealize.ShloMosaic.ValueIdx

abbrev zeroLit : EReal := Ideal.ofBits .f32 0x00000000#32
abbrev oneLit : EReal := Ideal.ofBits .f32 0x3F800000#32
abbrev slope : EReal := Ideal.ofBits .f32 0x3C23D70A#32

def lk (x : EReal) : EReal := Scalar.select (FloatOps.cmpf (F := Ideal) (φ := .f32) .oge x zeroLit) x (slope * x)
def lkg (x : EReal) : EReal := Scalar.select (FloatOps.cmpf (F := Ideal) (φ := .f32) .oge x zeroLit) oneLit slope

abbrev M (r c : Nat) := FVec Ideal ⟨2, ![r, c]⟩ .f32

def oh (zw : BitVec 32) (k : Fin 128) : EReal := if zw = BitVec.ofNat 32 k.val then 1 else 0

def emb (z : IVec ⟨2, ![100000, 1]⟩ 32) (T : M 128 16) : M 100000 16 :=
  fun i => ∑ k : Fin 128, oh (z (ix2 (i 0) 0)) k * T (ix2 k (i 1))

section Dense1
variable (x : M 100000 16) (b1 : M 1 16) (Wl1 : M 16 16) (bl1 : M 1 16) (W2 : M 16 16)
def y1 : M 100000 16 := fun i => x i + b1 (ix2 0 (i 1))
def y2 : M 100000 16 := fun i => (∑ k : Fin 16, lk (y1 x b1 (ix2 (i 0) k)) * Wl1 (ix2 k (i 1))) + bl1 (ix2 0 (i 1))
def x2 : M 100000 16 := fun i => ∑ k : Fin 16, lk (y2 x b1 Wl1 bl1 (ix2 (i 0) k)) * W2 (ix2 k (i 1))
end Dense1

section Dense2
variable (x : M 100000 16) (b2 : M 1 16) (Wl2 : M 16 4) (bl2 : M 1 4) (Wl3 : M 4 1) (bl3 : M 1 1) (Wl2T : M 4 16) (Wl3T : M 1 4)
def y3 : M 100000 16 := fun i => x i + b2 (ix2 0 (i 1))
def y4 : M 100000 4 := fun i => (∑ k : Fin 16, lk (y3 x b2 (ix2 (i 0) k)) * Wl2 (ix2 k (i 1))) + bl2 (ix2 0 (i 1))
def y5 : M 100000 1 := fun i => (∑ k : Fin 4, lk (y4 x b2 Wl2 bl2 (ix2 (i 0) k)) * Wl3 (ix2 k (i 1))) + bl3 (ix2 0 (i 1))
def h5 : M 100000 1 := fun i => lk (y5 x b2 Wl2 bl2 Wl3 bl3 i)
def gy5 : M 100000 1 := fun i => lkg (y5 x b2 Wl2 bl2 Wl3 bl3 i)
def gy4 : M 100000 4 := fun i => (∑ k : Fin 1, gy5 x b2 Wl2 bl2 Wl3 bl3 (ix2 (i 0) k) * Wl3T (ix2 k (i 1))) * lkg (y4 x b2 Wl2 bl2 i)
def gy3 : M 100000 16 := fun i => (∑ k : Fin 4, gy4 x b2 Wl2 bl2 Wl3 bl3 Wl3T (ix2 (i 0) k) * Wl2T (ix2 k (i 1))) * lkg (y3 x b2 i)
end Dense2

section Dense1Bwd
variable (gx2 y1v y2v : M 100000 16) (Wl1T W2T : M 16 16)
def gy2 : M 100000 16 := fun i => (∑ k : Fin 16, gx2 (ix2 (i 0) k) * W2T (ix2 k (i 1))) * lkg (y2v i)
def gy1 : M 100000 16 := fun i => (∑ k : Fin 16, gy2 gx2 y2v W2T (ix2 (i 0) k) * Wl1T (ix2 k (i 1))) * lkg (y1v i)
end Dense1Bwd

end Cert.Proof.Reg

end
-- ==== Proof.RegFns.lean ====
import proofs.«408045_j39298950758801_3_alg».proof.Proof.KerVals
import proofs.«408045_j39298950758801_3_alg».proof.Proof.RegSpec

noncomputable section

namespace Cert.Proof.Reg

open Idealize.ShloMosaic

def fns : Kv.RegFns Ideal where
  emb := Reg.emb
  y1 := Reg.y1
  y2 := Reg.y2
  x2 := Reg.x2
  gy3 := Reg.gy3
  h5 := Reg.h5
  gy1 := Reg.gy1

end Cert.Proof.Reg

end
-- ==== Proof.KerRunA.lean ====
import Idealize.ShloMosaic.Lib.StableHlo.Run

noncomputable section

namespace Cert.Proof.Line

open Idealize.ShloMosaic Idealize.ShloMosaic.TcCoe Idealize.ShloMosaic.StableHlo

variable {τ : Topo} {sig : RefSig} {Val : EltTy → Type}

def Writes (ops : List (HloOp τ sig Val)) (wr : List (Ref sig .tc)) : Prop :=
  List.Forall₂ (fun op y => op.writes = {Proc.devRef (τ := τ) .tc y}) ops wr

abbrev key (r : Ref sig .tc) : ℕ := r.idx.val

def Incr (wr : List (Ref sig .tc)) : Prop := wr.Pairwise fun x y => key x < key y

theorem after_of_notMem {ops : List (HloOp τ sig Val)} {wr : List (Ref sig .tc)} (hw : Writes ops wr) :
    ∀ (V : Valuation τ sig Val) {r : Ref sig .tc}, r ∉ wr →
      after ops V (Proc.devRef .tc r) = V (Proc.devRef .tc r) := by
  induction hw with
  | nil => intro V r _; rfl
  | cons h _ ih =>
    intro V r hr
    rw [after_cons, ih _ (fun h' => hr (List.mem_cons_of_mem _ h'))]
    refine HloOp.result_of_not_mem _ _ ?_
    rw [h, Finset.mem_singleton]
    exact devRef_ne_of_ne (fun e => hr (e ▸ List.mem_cons_self))

theorem notMem_of_lt {wr : List (Ref sig .tc)} {lo : ℕ} (hlo : ∀ x ∈ wr, lo ≤ key x) {r : Ref sig .tc} (hr : key r < lo) :
    r ∉ wr := fun h => absurd (hlo r h) (Nat.not_le.mpr hr)

theorem incr_of_keys {wr : List (Ref sig .tc)} {lo n : ℕ} (h : wr.map key = List.range' lo n) : Incr wr := by
  have hp : (wr.map key).Pairwise (· < ·) := by rw [h]; exact List.pairwise_lt_range'
  exact List.pairwise_map.mp hp

theorem lo_of_keys {wr : List (Ref sig .tc)} {lo n : ℕ} (h : wr.map key = List.range' lo n) : ∀ x ∈ wr, lo ≤ key x := by
  intro x hx
  have hm : key x ∈ List.range' lo n := by rw [← h]; exact List.mem_map_of_mem hx
  exact (List.mem_range'_1.mp hm).1

theorem notMem_drop_of_lt {wr : List (Ref sig .tc)} (hs : Incr wr) :
    ∀ {j : ℕ} {y : Ref sig .tc}, wr[j]? = some y → ∀ {r : Ref sig .tc}, key r < key y → r ∉ wr.drop j := by
  induction wr with
  | nil => intro j y _ r _; simp
  | cons x t ih =>
    have hx := (List.pairwise_cons.mp hs).1
    have ht := (List.pairwise_cons.mp hs).2
    intro j y hy r hr
    cases j with
    | zero =>
      have e : x = y := by simpa using hy
      subst e
      rw [List.drop_zero]
      intro hm
      rcases List.mem_cons.mp hm with rfl | hm
      · exact Nat.lt_irrefl _ hr
      · exact Nat.lt_asymm hr (hx r hm)
    | succ j =>
      rw [List.drop_succ_cons]
      exact ih ht (by simpa using hy) hr

theorem notMem_drop_succ {wr : List (Ref sig .tc)} (hs : Incr wr) :
    ∀ {j : ℕ} {y : Ref sig .tc}, wr[j]? = some y → y ∉ wr.drop (j + 1) := by
  induction wr with
  | nil => intro j y _; simp
  | cons x t ih =>
    have hx := (List.pairwise_cons.mp hs).1
    have ht := (List.pairwise_cons.mp hs).2
    intro j y hy
    cases j with
    | zero =>
      have e : x = y := by simpa using hy
      subst e
      rw [List.drop_succ_cons, List.drop_zero]
      exact fun hm => Nat.lt_irrefl _ (hx x hm)
    | succ j =>
      rw [List.drop_succ_cons]
      exact ih ht (by simpa using hy)

theorem wr_getElem? {ops : List (HloOp τ sig Val)} {wr : List (Ref sig .tc)} (hw : Writes ops wr) :
    ∀ (j : ℕ) {op : HloOp τ sig Val} {y : Ref sig .tc}, ops[j]? = some op →
      op.writes = {Proc.devRef (τ := τ) .tc y} → wr[j]? = some y := by
  induction hw with
  | nil => intro j op y h; simp at h
  | @cons o y₀ os ys h _ ih =>
    intro j op y hop hwy
    cases j with
    | zero =>
      obtain rfl : o = op := by simpa using hop
      have := Finset.singleton_injective (h.symm.trans hwy)
      simp [Proc.devRef_injective _ this]
    | succ j => simpa using ih j (by simpa using hop) hwy

theorem after_eq_result_take {ops : List (HloOp τ sig Val)} {wr : List (Ref sig .tc)} (hw : Writes ops wr) :
    ∀ (V : Valuation τ sig Val) (j : ℕ) {op : HloOp τ sig Val}, ops[j]? = some op →
      ∀ {r : Ref sig .tc}, r ∉ wr.drop (j + 1) →
        after ops V (Proc.devRef .tc r) = op.result (after (ops.take j) V) (Proc.devRef .tc r) := by
  induction hw with
  | nil => intro V j op h; simp at h
  | @cons o y₀ os ys h hw' ih =>
    intro V j op hop r hr
    cases j with
    | zero =>
      obtain rfl : o = op := by simpa using hop
      rw [after_cons, List.take_zero, after_nil]
      exact after_of_notMem hw' _ (by simpa using hr)
    | succ j =>
      rw [after_cons, List.take_succ_cons, after_cons]
      exact ih _ j (by simpa using hop) (by simpa using hr)

theorem after_eq_take {ops : List (HloOp τ sig Val)} {wr : List (Ref sig .tc)} (hw : Writes ops wr) :
    ∀ (V : Valuation τ sig Val) (j : ℕ) {r : Ref sig .tc}, r ∉ wr.drop j →
      after ops V (Proc.devRef .tc r) = after (ops.take j) V (Proc.devRef .tc r) := by
  induction hw with
  | nil => intro V j r _; simp
  | cons h hw' ih =>
    intro V j r hr
    cases j with
    | zero =>
      rw [List.take_zero, after_nil]
      exact after_of_notMem (List.Forall₂.cons h hw') V (by simpa using hr)
    | succ j =>
      rw [after_cons, List.take_succ_cons, after_cons]
      exact ih _ j (by simpa using hr)

structure Stretch (ops : List (HloOp τ sig Val)) (wr : List (Ref sig .tc)) (V Wf : Valuation τ sig Val) (hi : ℕ) : Prop where
  writes : Writes ops wr
  incr : Incr wr
  stable : ∀ r : Ref sig .tc, key r < hi → Wf (Proc.devRef .tc r) = after ops V (Proc.devRef .tc r)

namespace Stretch

variable {ops : List (HloOp τ sig Val)} {wr : List (Ref sig .tc)} {V Wf : Valuation τ sig Val} {hi : ℕ}

theorem result_eq (S : Stretch ops wr V Wf hi) (j : ℕ) {op : HloOp τ sig Val} (hop : ops[j]? = some op) {y : Ref sig .tc}
    (hwy : op.writes = {Proc.devRef (τ := τ) .tc y}) (ky : key y < hi) :
    Wf (Proc.devRef .tc y) = op.result (after (ops.take j) V) (Proc.devRef .tc y) :=
  (S.stable y ky).trans (after_eq_result_take S.writes V j hop (notMem_drop_succ S.incr (wr_getElem? S.writes j hop hwy)))

theorem operand_eq (S : Stretch ops wr V Wf hi) (j : ℕ) {op : HloOp τ sig Val} (hop : ops[j]? = some op) {y : Ref sig .tc}
    (hwy : op.writes = {Proc.devRef (τ := τ) .tc y}) (ky : key y < hi) {a : Ref sig .tc} (ka : key a < key y) :
    after (ops.take j) V (Proc.devRef .tc a) = Wf (Proc.devRef .tc a) :=
  ((S.stable a (Nat.lt_trans ka ky)).trans
    (after_eq_take S.writes V j (notMem_drop_of_lt S.incr (wr_getElem? S.writes j hop hwy) ka))).symm

theorem nullary (S : Stretch ops wr V Wf hi) (j : ℕ) {y : Ref sig .tc} {v : y.ty.Contents Val} {hy}
    (hop : ops[j]? = some (StableHlo.nullary y v hy)) (ky : key y < hi) :
    Wf (Proc.devRef .tc y) = v := by
  rw [S.result_eq j hop (nullary_writes ..) ky, nullary_result]

theorem unary (S : Stretch ops wr V Wf hi) (j : ℕ) {x y : Ref sig .tc} {f : x.ty.Contents Val → y.ty.Contents Val} {hx hy}
    (hop : ops[j]? = some (StableHlo.unary x y f hx hy)) (kx : key x < key y) (ky : key y < hi) :
    Wf (Proc.devRef .tc y) = f (Wf (Proc.devRef .tc x)) := by
  rw [S.result_eq j hop (unary_writes ..) ky, unary_result, S.operand_eq j hop (unary_writes ..) ky kx]

theorem binary (S : Stretch ops wr V Wf hi) (j : ℕ) {a b y : Ref sig .tc}
    {f : a.ty.Contents Val → b.ty.Contents Val → y.ty.Contents Val} {ha hb hy}
    (hop : ops[j]? = some (StableHlo.binary a b y f ha hb hy)) (ka : key a < key y) (kb : key b < key y) (ky : key y < hi) :
    Wf (Proc.devRef .tc y) = f (Wf (Proc.devRef .tc a)) (Wf (Proc.devRef .tc b)) := by
  rw [S.result_eq j hop (binary_writes ..) ky, binary_result, S.operand_eq j hop (binary_writes ..) ky ka,
    S.operand_eq j hop (binary_writes ..) ky kb]

theorem ternary (S : Stretch ops wr V Wf hi) (j : ℕ) {c a b y : Ref sig .tc}
    {f : c.ty.Contents Val → a.ty.Contents Val → b.ty.Contents Val → y.ty.Contents Val} {hc ha hb hy}
    (hop : ops[j]? = some (StableHlo.ternary c a b y f hc ha hb hy)) (kc : key c < key y) (ka : key a < key y) (kb : key b < key y)
    (ky : key y < hi) :
    Wf (Proc.devRef .tc y) = f (Wf (Proc.devRef .tc c)) (Wf (Proc.devRef .tc a)) (Wf (Proc.devRef .tc b)) := by
  rw [S.result_eq j hop (ternary_writes ..) ky, ternary_result, S.operand_eq j hop (ternary_writes ..) ky kc,
    S.operand_eq j hop (ternary_writes ..) ky ka, S.operand_eq j hop (ternary_writes ..) ky kb]

theorem reshape (S : Stretch ops wr V Wf hi) (j : ℕ) {x y : Ref sig .tc} {he : x.ty.elt = y.ty.elt}
    {hn : x.ty.shape.ShapeCasts y.ty.shape} {hx hy}
    (hop : ops[j]? = some (StableHlo.reshape x y he hn hx hy)) (kx : key x < key y) (ky : key y < hi) :
    Wf (Proc.devRef .tc y) = fun i => he ▸ shapeCast y.ty.shape (Wf (Proc.devRef .tc x)) hn i := by
  rw [S.result_eq j hop (reshape_writes ..) ky, reshape_result, S.operand_eq j hop (reshape_writes ..) ky kx]

end Stretch

end Cert.Proof.Line

end
-- ==== Proof.KerRunW.lean ====
/- GENERATED by scratch/gen_run.js (bun scratch/gen_run.js lists) from proof/Proof/Gen/KernelIdeal/Launch.lean: for each stretch of host operations of the
   kernel program's @main, the buffer each operation writes, in the order of the operations, and by computation two facts of each list: it is what the
   operations write, one buffer each; its table positions are the consecutive numbers from the stretch's first (so they grow, and none lies below it). A table of the program's own lines. -/
import proofs.«408045_j39298950758801_3_alg».proof.Proof.KerRunA
import proofs.«408045_j39298950758801_3_alg».proof.Proof.Gen.KernelIdeal.Launch

set_option maxRecDepth 16384

noncomputable section

namespace Cert.Proof.Wr

open Cert.KernelIdeal Cert.KernelIdeal.Gen Idealize.ShloMosaic Cert.Proof.Line

variable {F : FTy → Type} [FloatOps F]

/-- What `hostOps0` writes. -/
def hostOps0 : List (Ref sig .tc) :=
  [main_v0, main_v1, main_v2, main_v3, main_c, main_v4, main_v5, main_c_0,
    main_v6, main_v7, main_v8, main_v9, main_v10, main_c_1, main_v11, main_v12,
    main_c_2, main_v13, main_v14, main_v15, main_v16, main_v17, main_v18, main_v19,
    main_cst, main_v20, main_v21, main_v22, main_v23, main_v24, main_cst_3, main_v25,
    main_v26, main_cst_4, main_v27, main_v28, main_v29, main_cst_5, main_v30, main_v31,
    main_v32, main_cst_6]
theorem writes_hostOps0 : Writes (Cert.KernelIdeal.Gen.hostOps0 (F := F)) hostOps0 := by
  unfold Writes hostOps0
  repeat (first | exact List.Forall₂.nil | refine List.Forall₂.cons rfl ?_)
theorem keys_hostOps0 : hostOps0.map key = List.range' 15 42 := by unfold hostOps0; decide
theorem incr_hostOps0 : Incr hostOps0 := incr_of_keys keys_hostOps0
theorem lo_hostOps0 : ∀ x ∈ hostOps0, 15 ≤ key x := lo_of_keys keys_hostOps0

/-- What `hostOps0_1` writes. -/
def hostOps0_1 : List (Ref sig .tc) :=
  [main_call0_v0, main_call0_v1, main_v33]
theorem writes_hostOps0_1 : Writes (Cert.KernelIdeal.Gen.hostOps0_1 (F := F)) hostOps0_1 := by
  unfold Writes hostOps0_1
  repeat (first | exact List.Forall₂.nil | refine List.Forall₂.cons rfl ?_)
theorem keys_hostOps0_1 : hostOps0_1.map key = List.range' 57 3 := by unfold hostOps0_1; decide
theorem incr_hostOps0_1 : Incr hostOps0_1 := incr_of_keys keys_hostOps0_1
theorem lo_hostOps0_1 : ∀ x ∈ hostOps0_1, 57 ≤ key x := lo_of_keys keys_hostOps0_1

/-- What `hostOps0_2` writes. -/
def hostOps0_2 : List (Ref sig .tc) :=
  [main_c_7, main_v34, main_v35, main_c_8, main_v36, main_v37, main_v38, main_v39,
    main_v40, main_v41, main_c_9, main_v42, main_v43, main_c_10, main_v44, main_v45,
    main_v46, main_v47, main_v48, main_v49, main_v50, main_c_11]
theorem writes_hostOps0_2 : Writes (Cert.KernelIdeal.Gen.hostOps0_2 (F := F)) hostOps0_2 := by
  unfold Writes hostOps0_2
  repeat (first | exact List.Forall₂.nil | refine List.Forall₂.cons rfl ?_)
theorem keys_hostOps0_2 : hostOps0_2.map key = List.range' 60 22 := by unfold hostOps0_2; decide
theorem incr_hostOps0_2 : Incr hostOps0_2 := incr_of_keys keys_hostOps0_2
theorem lo_hostOps0_2 : ∀ x ∈ hostOps0_2, 60 ≤ key x := lo_of_keys keys_hostOps0_2

/-- What `hostOps0_3` writes. -/
def hostOps0_3 : List (Ref sig .tc) :=
  [main_call1_v0, main_v51]
theorem writes_hostOps0_3 : Writes (Cert.KernelIdeal.Gen.hostOps0_3 (F := F)) hostOps0_3 := by
  unfold Writes hostOps0_3
  repeat (first | exact List.Forall₂.nil | refine List.Forall₂.cons rfl ?_)
theorem keys_hostOps0_3 : hostOps0_3.map key = List.range' 82 2 := by unfold hostOps0_3; decide
theorem incr_hostOps0_3 : Incr hostOps0_3 := incr_of_keys keys_hostOps0_3
theorem lo_hostOps0_3 : ∀ x ∈ hostOps0_3, 82 ≤ key x := lo_of_keys keys_hostOps0_3

/-- What `hostOps0_4` writes. -/
def hostOps0_4 : List (Ref sig .tc) :=
  [main_v52]
theorem writes_hostOps0_4 : Writes (Cert.KernelIdeal.Gen.hostOps0_4 (F := F)) hostOps0_4 := by
  unfold Writes hostOps0_4
  repeat (first | exact List.Forall₂.nil | refine List.Forall₂.cons rfl ?_)
theorem keys_hostOps0_4 : hostOps0_4.map key = List.range' 84 1 := by unfold hostOps0_4; decide
theorem incr_hostOps0_4 : Incr hostOps0_4 := incr_of_keys keys_hostOps0_4
theorem lo_hostOps0_4 : ∀ x ∈ hostOps0_4, 84 ≤ key x := lo_of_keys keys_hostOps0_4

/-- What `hostOps1` writes. -/
def hostOps1 : List (Ref sig .tc) :=
  [main_c_12, main_v54, main_v55, main_c_13, main_v56, main_v57, main_v58, main_v59,
    main_v60, main_v61, main_v62, main_v63, main_cst_14, main_v64, main_v65, main_v66,
    main_v67, main_v68]
theorem writes_hostOps1 : Writes (Cert.KernelIdeal.Gen.hostOps1 (F := F)) hostOps1 := by
  unfold Writes hostOps1
  repeat (first | exact List.Forall₂.nil | refine List.Forall₂.cons rfl ?_)
theorem keys_hostOps1 : hostOps1.map key = List.range' 86 18 := by unfold hostOps1; decide
theorem incr_hostOps1 : Incr hostOps1 := incr_of_keys keys_hostOps1
theorem lo_hostOps1 : ∀ x ∈ hostOps1, 86 ≤ key x := lo_of_keys keys_hostOps1

/-- What `hostOps2` writes. -/
def hostOps2 : List (Ref sig .tc) :=
  [main_c_15, main_v70, main_v71, main_c_16, main_v72, main_v73, main_v74, main_v75,
    main_v76, main_v77, main_v78, main_v79, main_cst_17, main_v80, main_v81, main_v82,
    main_v83, main_v84, main_v85, main_v86, main_v87]
theorem writes_hostOps2 : Writes (Cert.KernelIdeal.Gen.hostOps2 (F := F)) hostOps2 := by
  unfold Writes hostOps2
  repeat (first | exact List.Forall₂.nil | refine List.Forall₂.cons rfl ?_)
theorem keys_hostOps2 : hostOps2.map key = List.range' 107 21 := by unfold hostOps2; decide
theorem incr_hostOps2 : Incr hostOps2 := incr_of_keys keys_hostOps2
theorem lo_hostOps2 : ∀ x ∈ hostOps2, 107 ≤ key x := lo_of_keys keys_hostOps2

/-- What `hostOps3` writes. -/
def hostOps3 : List (Ref sig .tc) :=
  [main_cst_18, main_v89, main_v90, main_v91, main_c_19, main_v92, main_v93, main_c_20,
    main_v94, main_v95, main_v96, main_v97, main_v98, main_v99, main_v100, main_v101,
    main_cst_21, main_v102, main_v103, main_v104, main_v105, main_cst_22, main_v106, main_v107,
    main_v108]
theorem writes_hostOps3 : Writes (Cert.KernelIdeal.Gen.hostOps3 (F := F)) hostOps3 := by
  unfold Writes hostOps3
  repeat (first | exact List.Forall₂.nil | refine List.Forall₂.cons rfl ?_)
theorem keys_hostOps3 : hostOps3.map key = List.range' 130 25 := by unfold hostOps3; decide
theorem incr_hostOps3 : Incr hostOps3 := incr_of_keys keys_hostOps3
theorem lo_hostOps3 : ∀ x ∈ hostOps3, 130 ≤ key x := lo_of_keys keys_hostOps3

/-- What `hostOps4` writes. -/
def hostOps4 : List (Ref sig .tc) :=
  [main_c_23, main_v110, main_v111, main_c_24, main_v112, main_v113, main_v114, main_v115,
    main_v116, main_v117, main_cst_25, main_v118, main_v119, main_c_26, main_v120, main_v121,
    main_c_27, main_v122, main_v123, main_v124, main_v125, main_v126, main_v127, main_c_28,
    main_v128, main_v129, main_c_29, main_v130, main_v131, main_v132, main_v133, main_v134,
    main_v135, main_v136, main_c_30, main_v137, main_v138, main_c_31, main_v139, main_v140,
    main_v141, main_v142, main_v143, main_v144, main_v145, main_c_32, main_v146, main_v147,
    main_c_33, main_v148, main_v149, main_v150, main_v151, main_v152, main_v153, main_cst_34,
    main_v154, main_v155, main_v156, main_cst_35, main_v157, main_v158, main_v159, main_v160,
    main_cst_36, main_v161, main_v162, main_cst_37, main_v163, main_v164, main_v165, main_cst_38]
theorem writes_hostOps4 : Writes (Cert.KernelIdeal.Gen.hostOps4 (F := F)) hostOps4 := by
  unfold Writes hostOps4
  repeat (first | exact List.Forall₂.nil | refine List.Forall₂.cons rfl ?_)
theorem keys_hostOps4 : hostOps4.map key = List.range' 156 72 := by unfold hostOps4; decide
theorem incr_hostOps4 : Incr hostOps4 := incr_of_keys keys_hostOps4
theorem lo_hostOps4 : ∀ x ∈ hostOps4, 156 ≤ key x := lo_of_keys keys_hostOps4

/-- What `hostOps4_1` writes. -/
def hostOps4_1 : List (Ref sig .tc) :=
  [main_call2_v0, main_call2_v1, main_v166]
theorem writes_hostOps4_1 : Writes (Cert.KernelIdeal.Gen.hostOps4_1 (F := F)) hostOps4_1 := by
  unfold Writes hostOps4_1
  repeat (first | exact List.Forall₂.nil | refine List.Forall₂.cons rfl ?_)
theorem keys_hostOps4_1 : hostOps4_1.map key = List.range' 228 3 := by unfold hostOps4_1; decide
theorem incr_hostOps4_1 : Incr hostOps4_1 := incr_of_keys keys_hostOps4_1
theorem lo_hostOps4_1 : ∀ x ∈ hostOps4_1, 228 ≤ key x := lo_of_keys keys_hostOps4_1

/-- What `hostOps4_2` writes. -/
def hostOps4_2 : List (Ref sig .tc) :=
  [main_v167, main_c_39, main_v168, main_v169, main_c_40, main_v170, main_v171, main_v172,
    main_v173, main_v174, main_v175, main_v176, main_v177, main_v178, main_v179, main_v180,
    main_v181, main_v182, main_cst_41, main_v183, main_c_42, main_v184, main_v185, main_c_43,
    main_v186, main_v187, main_v188, main_v189, main_v190, main_v191, main_c_44, main_v192,
    main_v193, main_c_45, main_v194, main_v195, main_v196, main_v197, main_v198, main_v199]
theorem writes_hostOps4_2 : Writes (Cert.KernelIdeal.Gen.hostOps4_2 (F := F)) hostOps4_2 := by
  unfold Writes hostOps4_2
  repeat (first | exact List.Forall₂.nil | refine List.Forall₂.cons rfl ?_)
theorem keys_hostOps4_2 : hostOps4_2.map key = List.range' 231 40 := by unfold hostOps4_2; decide
theorem incr_hostOps4_2 : Incr hostOps4_2 := incr_of_keys keys_hostOps4_2
theorem lo_hostOps4_2 : ∀ x ∈ hostOps4_2, 231 ≤ key x := lo_of_keys keys_hostOps4_2

end Cert.Proof.Wr

end
-- ==== Proof.KerRunB.lean ====
import proofs.«408045_j39298950758801_3_alg».proof.Proof.KerRunW
import proofs.«408045_j39298950758801_3_alg».proof.Proof.KerLaunch
import proofs.«408045_j39298950758801_3_alg».proof.Proof.RegFns

set_option maxRecDepth 16384

noncomputable section

namespace Cert.Proof.Run

open Cert.KernelIdeal Cert.KernelIdeal.Gen Idealize.ShloMosaic Idealize.ShloMosaic.TcCoe Idealize.ShloMosaic.StableHlo
open Cert.Proof.Line

variable [Cert.KernelIdeal.Facts]

def launchArgs (m : (ℓ : Loc nD τ sig) → Buf (Elt Ideal) ℓ) (c : Dev nD) : Args Ideal :=
  ⟨m ((c.tc : Thread nD τ).loc main_arg0),
    m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14)⟩

variable (m : (ℓ : Loc nD τ sig) → Buf (Elt Ideal) ℓ) (ρ : Dev nD → PrngReg) (c : Dev nD)

theorem carry {ops : List (HloOp τ sig (Elt Ideal))} {wr : List (Ref sig .tc)} (hw : Writes ops wr) {lo : ℕ}
    (hlo : ∀ x ∈ wr, lo ≤ key x) (V : Valuation τ sig (Elt Ideal)) {r : Ref sig .tc} (h : key r < lo) :
    after ops V (Proc.devRef .tc r) = V (Proc.devRef .tc r) :=
  after_of_notMem hw V (notMem_of_lt hlo h)

theorem carryR0 (r : Ref sig .tc) (h : key r < 85) :
    W6 m ρ c (Proc.devRef .tc r) = W5 m ρ c (Proc.devRef .tc r) := by
  by_cases hne : ∀ w, Pipeline.arrRef spec0 w ≠ r
  · exact W6_of_ne m ρ c r hne
  · obtain ⟨w, hw⟩ := not_forall.mp hne
    obtain rfl := not_not.mp hw
    revert h
    exact (show ∀ w : Fin 3, key (Pipeline.arrRef spec0 w) < 85 →
        W6 m ρ c (Proc.devRef .tc (Pipeline.arrRef spec0 w)) = W5 m ρ c (Proc.devRef .tc (Pipeline.arrRef spec0 w)) from fun
      | 0 => fun _ => (W6_arr m ρ c 0).trans (((dat0 (V5 m ρ) c).arrAt_in 0 rfl _).trans (A_eq0 (V5 m ρ) c 0))
      | 1 => fun _ => (W6_arr m ρ c 1).trans (((dat0 (V5 m ρ) c).arrAt_in 1 rfl _).trans (A_eq0 (V5 m ρ) c 1))
      | 2 => fun h => absurd h (by decide)
      | ⟨_ + 3, h⟩ => absurd h (Nat.not_lt.2 (Nat.le_add_left _ _))) w

theorem carryR1 (r : Ref sig .tc) (h : key r < 104) :
    W8 m ρ c (Proc.devRef .tc r) = W7 m ρ c (Proc.devRef .tc r) := by
  by_cases hne : ∀ w, Pipeline.arrRef spec1 w ≠ r
  · exact W8_of_ne m ρ c r hne
  · obtain ⟨w, hw⟩ := not_forall.mp hne
    obtain rfl := not_not.mp hw
    revert h
    exact (show ∀ w : Fin 8, key (Pipeline.arrRef spec1 w) < 104 →
        W8 m ρ c (Proc.devRef .tc (Pipeline.arrRef spec1 w)) = W7 m ρ c (Proc.devRef .tc (Pipeline.arrRef spec1 w)) from fun
      | 0 => fun _ => (W8_arr m ρ c 0).trans (((dat1 (V7 m ρ) c).arrAt_in 0 rfl _).trans (A_eq1 (V7 m ρ) c 0))
      | 1 => fun _ => (W8_arr m ρ c 1).trans (((dat1 (V7 m ρ) c).arrAt_in 1 rfl _).trans (A_eq1 (V7 m ρ) c 1))
      | 2 => fun _ => (W8_arr m ρ c 2).trans (((dat1 (V7 m ρ) c).arrAt_in 2 rfl _).trans (A_eq1 (V7 m ρ) c 2))
      | 3 => fun _ => (W8_arr m ρ c 3).trans (((dat1 (V7 m ρ) c).arrAt_in 3 rfl _).trans (A_eq1 (V7 m ρ) c 3))
      | 4 => fun _ => (W8_arr m ρ c 4).trans (((dat1 (V7 m ρ) c).arrAt_in 4 rfl _).trans (A_eq1 (V7 m ρ) c 4))
      | 5 => fun h => absurd h (by decide)
      | 6 => fun h => absurd h (by decide)
      | 7 => fun h => absurd h (by decide)
      | ⟨_ + 8, h⟩ => absurd h (Nat.not_lt.2 (Nat.le_add_left _ _))) w

theorem carryR2 (r : Ref sig .tc) (h : key r < 128) :
    W10 m ρ c (Proc.devRef .tc r) = W9 m ρ c (Proc.devRef .tc r) := by
  by_cases hne : ∀ w, Pipeline.arrRef spec2 w ≠ r
  · exact W10_of_ne m ρ c r hne
  · obtain ⟨w, hw⟩ := not_forall.mp hne
    obtain rfl := not_not.mp hw
    revert h
    exact (show ∀ w : Fin 10, key (Pipeline.arrRef spec2 w) < 128 →
        W10 m ρ c (Proc.devRef .tc (Pipeline.arrRef spec2 w)) = W9 m ρ c (Proc.devRef .tc (Pipeline.arrRef spec2 w)) from fun
      | 0 => fun _ => (W10_arr m ρ c 0).trans (((dat2 (V9 m ρ) c).arrAt_in 0 rfl _).trans (A_eq2 (V9 m ρ) c 0))
      | 1 => fun _ => (W10_arr m ρ c 1).trans (((dat2 (V9 m ρ) c).arrAt_in 1 rfl _).trans (A_eq2 (V9 m ρ) c 1))
      | 2 => fun _ => (W10_arr m ρ c 2).trans (((dat2 (V9 m ρ) c).arrAt_in 2 rfl _).trans (A_eq2 (V9 m ρ) c 2))
      | 3 => fun _ => (W10_arr m ρ c 3).trans (((dat2 (V9 m ρ) c).arrAt_in 3 rfl _).trans (A_eq2 (V9 m ρ) c 3))
      | 4 => fun _ => (W10_arr m ρ c 4).trans (((dat2 (V9 m ρ) c).arrAt_in 4 rfl _).trans (A_eq2 (V9 m ρ) c 4))
      | 5 => fun _ => (W10_arr m ρ c 5).trans (((dat2 (V9 m ρ) c).arrAt_in 5 rfl _).trans (A_eq2 (V9 m ρ) c 5))
      | 6 => fun _ => (W10_arr m ρ c 6).trans (((dat2 (V9 m ρ) c).arrAt_in 6 rfl _).trans (A_eq2 (V9 m ρ) c 6))
      | 7 => fun _ => (W10_arr m ρ c 7).trans (((dat2 (V9 m ρ) c).arrAt_in 7 rfl _).trans (A_eq2 (V9 m ρ) c 7))
      | 8 => fun h => absurd h (by decide)
      | 9 => fun h => absurd h (by decide)
      | ⟨_ + 10, h⟩ => absurd h (Nat.not_lt.2 (Nat.le_add_left _ _))) w

theorem carryR3 (r : Ref sig .tc) (h : key r < 155) :
    W12 m ρ c (Proc.devRef .tc r) = W11 m ρ c (Proc.devRef .tc r) := by
  by_cases hne : ∀ w, Pipeline.arrRef spec3 w ≠ r
  · exact W12_of_ne m ρ c r hne
  · obtain ⟨w, hw⟩ := not_forall.mp hne
    obtain rfl := not_not.mp hw
    revert h
    exact (show ∀ w : Fin 6, key (Pipeline.arrRef spec3 w) < 155 →
        W12 m ρ c (Proc.devRef .tc (Pipeline.arrRef spec3 w)) = W11 m ρ c (Proc.devRef .tc (Pipeline.arrRef spec3 w)) from fun
      | 0 => fun _ => (W12_arr m ρ c 0).trans (((dat3 (V11 m ρ) c).arrAt_in 0 rfl _).trans (A_eq3 (V11 m ρ) c 0))
      | 1 => fun _ => (W12_arr m ρ c 1).trans (((dat3 (V11 m ρ) c).arrAt_in 1 rfl _).trans (A_eq3 (V11 m ρ) c 1))
      | 2 => fun _ => (W12_arr m ρ c 2).trans (((dat3 (V11 m ρ) c).arrAt_in 2 rfl _).trans (A_eq3 (V11 m ρ) c 2))
      | 3 => fun _ => (W12_arr m ρ c 3).trans (((dat3 (V11 m ρ) c).arrAt_in 3 rfl _).trans (A_eq3 (V11 m ρ) c 3))
      | 4 => fun _ => (W12_arr m ρ c 4).trans (((dat3 (V11 m ρ) c).arrAt_in 4 rfl _).trans (A_eq3 (V11 m ρ) c 4))
      | 5 => fun h => absurd h (by decide)
      | ⟨_ + 6, h⟩ => absurd h (Nat.not_lt.2 (Nat.le_add_left _ _))) w

theorem stable14 (r : Ref sig .tc) (h : key r < 231) :
    W15 m ρ c (Proc.devRef .tc r) = W14 m ρ c (Proc.devRef .tc r) :=
  carry Wr.writes_hostOps4_2 Wr.lo_hostOps4_2 (W14 m ρ c) h
theorem stable13 (r : Ref sig .tc) (h : key r < 228) :
    W15 m ρ c (Proc.devRef .tc r) = W13 m ρ c (Proc.devRef .tc r) :=
  (stable14 m ρ c r (Nat.lt_of_lt_of_le h (by decide))).trans (carry Wr.writes_hostOps4_1 Wr.lo_hostOps4_1 (W13 m ρ c) h)
theorem stable12 (r : Ref sig .tc) (h : key r < 156) :
    W15 m ρ c (Proc.devRef .tc r) = W12 m ρ c (Proc.devRef .tc r) :=
  (stable13 m ρ c r (Nat.lt_of_lt_of_le h (by decide))).trans (carry Wr.writes_hostOps4 Wr.lo_hostOps4 (W12 m ρ c) h)
theorem stable11 (r : Ref sig .tc) (h : key r < 155) :
    W15 m ρ c (Proc.devRef .tc r) = W11 m ρ c (Proc.devRef .tc r) :=
  (stable12 m ρ c r (Nat.lt_of_lt_of_le h (by decide))).trans (carryR3 m ρ c r h)
theorem stable10 (r : Ref sig .tc) (h : key r < 130) :
    W15 m ρ c (Proc.devRef .tc r) = W10 m ρ c (Proc.devRef .tc r) :=
  (stable11 m ρ c r (Nat.lt_of_lt_of_le h (by decide))).trans (carry Wr.writes_hostOps3 Wr.lo_hostOps3 (W10 m ρ c) h)
theorem stable9 (r : Ref sig .tc) (h : key r < 128) :
    W15 m ρ c (Proc.devRef .tc r) = W9 m ρ c (Proc.devRef .tc r) :=
  (stable10 m ρ c r (Nat.lt_of_lt_of_le h (by decide))).trans (carryR2 m ρ c r h)
theorem stable8 (r : Ref sig .tc) (h : key r < 107) :
    W15 m ρ c (Proc.devRef .tc r) = W8 m ρ c (Proc.devRef .tc r) :=
  (stable9 m ρ c r (Nat.lt_of_lt_of_le h (by decide))).trans (carry Wr.writes_hostOps2 Wr.lo_hostOps2 (W8 m ρ c) h)
theorem stable7 (r : Ref sig .tc) (h : key r < 104) :
    W15 m ρ c (Proc.devRef .tc r) = W7 m ρ c (Proc.devRef .tc r) :=
  (stable8 m ρ c r (Nat.lt_of_lt_of_le h (by decide))).trans (carryR1 m ρ c r h)
theorem stable6 (r : Ref sig .tc) (h : key r < 86) :
    W15 m ρ c (Proc.devRef .tc r) = W6 m ρ c (Proc.devRef .tc r) :=
  (stable7 m ρ c r (Nat.lt_of_lt_of_le h (by decide))).trans (carry Wr.writes_hostOps1 Wr.lo_hostOps1 (W6 m ρ c) h)
theorem stable5 (r : Ref sig .tc) (h : key r < 85) :
    W15 m ρ c (Proc.devRef .tc r) = W5 m ρ c (Proc.devRef .tc r) :=
  (stable6 m ρ c r (Nat.lt_of_lt_of_le h (by decide))).trans (carryR0 m ρ c r h)
theorem stable4 (r : Ref sig .tc) (h : key r < 84) :
    W15 m ρ c (Proc.devRef .tc r) = W4 m ρ c (Proc.devRef .tc r) :=
  (stable5 m ρ c r (Nat.lt_of_lt_of_le h (by decide))).trans (carry Wr.writes_hostOps0_4 Wr.lo_hostOps0_4 (W4 m ρ c) h)
theorem stable3 (r : Ref sig .tc) (h : key r < 82) :
    W15 m ρ c (Proc.devRef .tc r) = W3 m ρ c (Proc.devRef .tc r) :=
  (stable4 m ρ c r (Nat.lt_of_lt_of_le h (by decide))).trans (carry Wr.writes_hostOps0_3 Wr.lo_hostOps0_3 (W3 m ρ c) h)
theorem stable2 (r : Ref sig .tc) (h : key r < 60) :
    W15 m ρ c (Proc.devRef .tc r) = W2 m ρ c (Proc.devRef .tc r) :=
  (stable3 m ρ c r (Nat.lt_of_lt_of_le h (by decide))).trans (carry Wr.writes_hostOps0_2 Wr.lo_hostOps0_2 (W2 m ρ c) h)
theorem stable1 (r : Ref sig .tc) (h : key r < 57) :
    W15 m ρ c (Proc.devRef .tc r) = W1 m ρ c (Proc.devRef .tc r) :=
  (stable2 m ρ c r (Nat.lt_of_lt_of_le h (by decide))).trans (carry Wr.writes_hostOps0_1 Wr.lo_hostOps0_1 (W1 m ρ c) h)

theorem st_hostOps0 : Stretch (hostOps0 (F := Ideal)) Wr.hostOps0 (W0 m ρ c) (W15 m ρ c) 57 :=
  ⟨Wr.writes_hostOps0, Wr.incr_hostOps0, fun r h => stable1 m ρ c r h⟩
theorem st_hostOps0_1 : Stretch (hostOps0_1 (F := Ideal)) Wr.hostOps0_1 (W1 m ρ c) (W15 m ρ c) 60 :=
  ⟨Wr.writes_hostOps0_1, Wr.incr_hostOps0_1, fun r h => stable2 m ρ c r h⟩
theorem st_hostOps0_2 : Stretch (hostOps0_2 (F := Ideal)) Wr.hostOps0_2 (W2 m ρ c) (W15 m ρ c) 82 :=
  ⟨Wr.writes_hostOps0_2, Wr.incr_hostOps0_2, fun r h => stable3 m ρ c r h⟩
theorem st_hostOps0_3 : Stretch (hostOps0_3 (F := Ideal)) Wr.hostOps0_3 (W3 m ρ c) (W15 m ρ c) 84 :=
  ⟨Wr.writes_hostOps0_3, Wr.incr_hostOps0_3, fun r h => stable4 m ρ c r h⟩
theorem st_hostOps0_4 : Stretch (hostOps0_4 (F := Ideal)) Wr.hostOps0_4 (W4 m ρ c) (W15 m ρ c) 85 :=
  ⟨Wr.writes_hostOps0_4, Wr.incr_hostOps0_4, fun r h => stable5 m ρ c r h⟩
theorem st_hostOps1 : Stretch (hostOps1 (F := Ideal)) Wr.hostOps1 (W6 m ρ c) (W15 m ρ c) 104 :=
  ⟨Wr.writes_hostOps1, Wr.incr_hostOps1, fun r h => stable7 m ρ c r h⟩
theorem st_hostOps2 : Stretch (hostOps2 (F := Ideal)) Wr.hostOps2 (W8 m ρ c) (W15 m ρ c) 128 :=
  ⟨Wr.writes_hostOps2, Wr.incr_hostOps2, fun r h => stable9 m ρ c r h⟩
theorem st_hostOps3 : Stretch (hostOps3 (F := Ideal)) Wr.hostOps3 (W10 m ρ c) (W15 m ρ c) 155 :=
  ⟨Wr.writes_hostOps3, Wr.incr_hostOps3, fun r h => stable11 m ρ c r h⟩
theorem st_hostOps4 : Stretch (hostOps4 (F := Ideal)) Wr.hostOps4 (W12 m ρ c) (W15 m ρ c) 228 :=
  ⟨Wr.writes_hostOps4, Wr.incr_hostOps4, fun r h => stable13 m ρ c r h⟩
theorem st_hostOps4_1 : Stretch (hostOps4_1 (F := Ideal)) Wr.hostOps4_1 (W13 m ρ c) (W15 m ρ c) 231 :=
  ⟨Wr.writes_hostOps4_1, Wr.incr_hostOps4_1, fun r h => stable14 m ρ c r h⟩
theorem st_hostOps4_2 : Stretch (hostOps4_2 (F := Ideal)) Wr.hostOps4_2 (W14 m ρ c) (W15 m ρ c) 271 :=
  ⟨Wr.writes_hostOps4_2, Wr.incr_hostOps4_2, fun _ _ => rfl⟩

theorem K_main_arg0 : W15 m ρ c (Proc.devRef .tc main_arg0) = (launchArgs m c).pos := W15_main_arg0 m ρ c
theorem K_main_arg1 : W15 m ρ c (Proc.devRef .tc main_arg1) = (launchArgs m c).emb := W15_main_arg1 m ρ c
theorem K_main_arg2 : W15 m ρ c (Proc.devRef .tc main_arg2) = (launchArgs m c).W1 := W15_main_arg2 m ρ c
theorem K_main_arg3 : W15 m ρ c (Proc.devRef .tc main_arg3) = (launchArgs m c).b1 := W15_main_arg3 m ρ c
theorem K_main_arg4 : W15 m ρ c (Proc.devRef .tc main_arg4) = (launchArgs m c).Wl1 := W15_main_arg4 m ρ c
theorem K_main_arg5 : W15 m ρ c (Proc.devRef .tc main_arg5) = (launchArgs m c).bl1 := W15_main_arg5 m ρ c
theorem K_main_arg6 : W15 m ρ c (Proc.devRef .tc main_arg6) = (launchArgs m c).W2 := W15_main_arg6 m ρ c
theorem K_main_arg7 : W15 m ρ c (Proc.devRef .tc main_arg7) = (launchArgs m c).b2 := W15_main_arg7 m ρ c
theorem K_main_arg8 : W15 m ρ c (Proc.devRef .tc main_arg8) = (launchArgs m c).Wl2 := W15_main_arg8 m ρ c
theorem K_main_arg9 : W15 m ρ c (Proc.devRef .tc main_arg9) = (launchArgs m c).bl2 := W15_main_arg9 m ρ c
theorem K_main_arg10 : W15 m ρ c (Proc.devRef .tc main_arg10) = (launchArgs m c).Wl3 := W15_main_arg10 m ρ c
theorem K_main_arg11 : W15 m ρ c (Proc.devRef .tc main_arg11) = (launchArgs m c).bl3 := W15_main_arg11 m ρ c
theorem K_main_arg12 : W15 m ρ c (Proc.devRef .tc main_arg12) = (launchArgs m c).z := W15_main_arg12 m ρ c
theorem K_main_arg13 : W15 m ρ c (Proc.devRef .tc main_arg13) = (launchArgs m c).ei := W15_main_arg13 m ρ c
theorem K_main_arg14 : W15 m ρ c (Proc.devRef .tc main_arg14) = (launchArgs m c).batch := W15_main_arg14 m ρ c

end Cert.Proof.Run

end
-- ==== Proof.RegMat.lean ====
import Idealize.ShloMosaic.Lib.ValueIdx
import Idealize.ShloMosaic.PureOps.Ideal.Laws
import Idealize.ShloMosaic.Lib.KernelVsHost
import Idealize.ShloMosaic.Lib.StackMember

noncomputable section

namespace Cert.Proof.RegVal

open Idealize.ShloMosaic Idealize.ShloMosaic.TcCoe Idealize.ShloMosaic.ValueIdx

-- A plain matrix product into a zero accumulator, read at an entry, is the sum over the contracted axis.
theorem matmul_plain_at {m k n : Nat} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    matmul d none A B (constant ⟨2, ![m, n]⟩ .f32 0x00000000#32) (ix2 a b) = ∑ c : Fin k, A (ix2 a c) * B (ix2 c b) := by
  subst hd
  rw [matmul_zero_eq_dotGeneral]
  exact StackMember.dotGeneral_plain_apply none A B a b

theorem hz2 : (![0, 0] : Fin 2 → Nat) = fun _ => 0 := funext fun a => by
  match a with | ⟨0, _⟩ => rfl | ⟨1, _⟩ => rfl

end Cert.Proof.RegVal

end
-- ==== Proof.RegVal0.lean ====
import proofs.«408045_j39298950758801_3_alg».proof.Proof.Gen.KernelIdeal.Frame
import proofs.«408045_j39298950758801_3_alg».proof.Proof.RegSpec
import proofs.«408045_j39298950758801_3_alg».proof.Proof.RegMat
import Idealize.ShloMosaic.Lib.Pipeline.Value
import Idealize.ShloMosaic.Lib.ValueIdx
import Idealize.ShloMosaic.PureOps.Ideal.Laws

set_option maxRecDepth 16384

noncomputable section

namespace Cert.Proof.RegVal

open Cert.KernelIdeal Cert.KernelIdeal.Gen Idealize.ShloMosaic Idealize.ShloMosaic.TcCoe Idealize.ShloMosaic.ValueIdx
open Idealize.ShloMosaic.Pipeline (Dat Cfg Window)

namespace R0

theorem onehot_word (zw : BitVec 32) (k : Fin 128) :
    FloatOps.sitofp (F := Ideal) .f32 ((IntOp.cmpi .eq zw (BitVec.ofNat 32 k.val)).setWidth 32) = Reg.oh zw k := by
  unfold Reg.oh
  show ((((IntOp.cmpi .eq zw (BitVec.ofNat 32 k.val)).setWidth 32).toInt : ℝ) : EReal) = _
  by_cases h : zw = BitVec.ofNat 32 k.val
  · rw [if_pos h, h]
    simp [IntOp.cmpi]
  · rw [if_neg h]
    have hb : (zw == BitVec.ofNat 32 k.val) = false := beq_eq_false_iff_ne.mpr h
    simp [IntOp.cmpi, hb]

theorem iota_col (p : Fin 4000) (k : Fin 128) :
    iota .tc S4000x128 32 [1] iota_S4000x128_d1_w32 (ix2 p k) = BitVec.ofNat 32 k.val :=
  iota_single_apply .tc S4000x128 32 1 iota_S4000x128_d1_w32 (ix2 p k)

theorem bcast_col (z : IVec S4000x1 32) (p : Fin 4000) (k : Fin 128) :
    broadcastTo S4000x128 z broadcasts_S4000x1_S4000x128 (ix2 p k) = z (ix2 p 0) := by
  refine broadcastTo_apply z _ (ix2 p k) (ix2 p 0) fun a => ?_
  match a with
  | ⟨0, _⟩ => rfl
  | ⟨1, _⟩ => rfl

theorem mm_apply (A : FVec Ideal S4000x128 .f32) (B : FVec Ideal S128x16 .f32) (p : Fin 4000) (q : Fin 16) :
    matmul dot_S4000x128_S128x16_S4000x16_1_0_0_1_n_n none A B (constant S4000x16 .f32 0x00000000#32) (ix2 p q)
      = ∑ k : Fin 128, A (ix2 p k) * B (ix2 k q) := matmul_plain_at _ rfl A B p q

theorem onehot_apply (z : IVec S4000x1 32) (p : Fin 4000) (k : Fin 128) :
    (sitofp .f32 (extui 32 (cmpi .eq (broadcastTo S4000x128 z broadcasts_S4000x1_S4000x128)
        (iota .tc S4000x128 32 [1] iota_S4000x128_d1_w32)) natLt_1_32) : FVec Ideal S4000x128 .f32) (ix2 p k)
      = Reg.oh (z (ix2 p 0)) k := by
  show FloatOps.sitofp (F := Ideal) .f32 ((IntOp.cmpi .eq (broadcastTo S4000x128 z broadcasts_S4000x1_S4000x128 (ix2 p k))
      (iota .tc S4000x128 32 [1] iota_S4000x128_d1_w32 (ix2 p k))).setWidth 32) = _
  rw [bcast_col, iota_col, onehot_word]

theorem pay_apply (x0 : Vec Ideal S4000x1 .i32) (x1 : Vec Ideal S128x16 .f32) (p : Fin 4000) (q : Fin 16) :
    k0_pay1 x0 x1 (ix2 p q) = ∑ k : Fin 128, Reg.oh (x0 (ix2 p 0)) k * x1 (ix2 k q) := by
  unfold k0_pay1
  rw [shapeCast_self, shapeCast_self, mm_apply]
  refine Finset.sum_congr rfl fun k _ => ?_
  rw [onehot_apply]

theorem pay_row (z : IVec ⟨2, ![100000, 1]⟩ 32) (T : Reg.M 128 16) (x0 : Vec Ideal S4000x1 .i32) (x1 : Vec Ideal S128x16 .f32)
    (p : Fin 4000) (r : Fin 100000) (hrow : x0 (ix2 p 0) = z (ix2 r 0)) (h1 : x1 = T) (q : Fin 16) :
    k0_pay1 x0 x1 (ix2 p q) = Reg.emb z T (ix2 r q) := by
  rw [pay_apply, hrow, h1]
  rfl

theorem pay_at (z : IVec ⟨2, ![100000, 1]⟩ 32) (T : Reg.M 128 16) (x0 : Vec Ideal S4000x1 .i32) (x1 : Vec Ideal S128x16 .f32)
    (j : S4000x16.Idx) (i : S100000x16.Idx) (hrow : x0 (ix2 (j 0) 0) = z (ix2 (i 0) 0)) (hcol : (i 1).val = (j 1).val)
    (h1 : x1 = T) : k0_pay1 x0 x1 j = Reg.emb z T i := by
  obtain ⟨p, q, rfl⟩ : ∃ (p : Fin 4000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext hcol
  exact pay_row z T x0 x1 p r hrow h1 s

section Blocks
variable (V : (c : Dev nD) → (b : Ref sig .tc) → Buf (Elt Ideal) ((c : Thread nD τ).loc b)) (c : Dev nD)

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = t.val ∧ win0_2.index t (1 : Fin 2) = 0 :=
  (by decide +kernel : ∀ t : Fin grid0.N, _)

theorem iblk_1 (t : Fin cfg0.N) : (iblk0 V c 1 t : Vec Ideal S128x16 .f32) = V c main_v51 := by
  obtain ⟨e0, e1⟩ := idx_1 t
  funext y
  show V c main_v51 (((cfg0.win 1).blk t).view.emb y) = V c main_v51 y
  refine congrArg _ (funext fun a => Fin.ext ?_)
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

theorem iblk_0_row (t : Fin cfg0.N) (p : Fin 4000) (r : Fin 100000) (hr : r.val = t.val * 4000 + p.val) :
    (iblk0 V c 0 t : Vec Ideal S4000x1 .i32) (ix2 p 0) = (V c main_v52 : S100000x1.Idx → BitVec 32) (ix2 r 0) := by
  obtain ⟨e0, e1⟩ := idx_0 t
  show V c main_v52 (((cfg0.win 0).blk t).view.emb (ix2 p 0)) = V c main_v52 (ix2 r 0)
  refine congrArg _ (funext fun a => Fin.ext ?_)
  match a with
  | ⟨0, _⟩ => show win0_0.index t (0 : Fin 2) * 4000 + 1 * p.val = r.val; rw [e0, hr]; omega
  | ⟨1, _⟩ => show win0_0.index t (1 : Fin 2) * 1 + 1 * 0 = 0; rw [e1]

theorem flushed2_eq (t : Fin cfg0.N) :
    (dat0 (F := Ideal) V c).flushed 2 t
      = ((cfg0.win 2).blk t).view.read (Elt Ideal) (Reg.emb (V c main_v52) (V c main_v51)) := by
  show (cfg0.win 2).cut (grid0.coords t) ((dat0 V c).after 2 t) = _
  rw [after0_2]
  unfold out0_2
  rw [View.canon_unit_zero hz2]
  simp only [View.ld_unit_zero (S := S4000x1) hz2, View.ld_unit_zero (S := S128x16) hz2]
  obtain ⟨e0, e1⟩ := idx_2 t
  funext j
  show k0_pay1 (iblk0 V c 0 t) (iblk0 V c 1 t) j
    = Reg.emb (V c main_v52) (V c main_v51) (((cfg0.win 2).blk t).view.emb j)
  refine pay_at (V c main_v52) (V c main_v51) (iblk0 V c 0 t) (iblk0 V c 1 t) j (((cfg0.win 2).blk t).view.emb j)
    (iblk_0_row V c t (j 0) _ ?_) ?_ (iblk_1 V c t)
  · show win0_2.index t (0 : Fin 2) * 4000 + 1 * (j 0).val = t.val * 4000 + (j 0).val; rw [e0]; omega
  · show win0_2.index t (1 : Fin 2) * 16 + 1 * (j 1).val = (j 1).val; rw [e1]; omega

theorem mem_blk2 (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v53).slice (win0_2.rect t)).set ↔ _
  rw [View.set_slice_whole, Rect.mem_set_unit]
  exact Iff.rfl

theorem cover2 (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 25 := N_0
  have ht : (i 0).val / 4000 < cfg0.N := by rw [hN]; omega
  obtain ⟨e0, e1⟩ := idx_2 ⟨(i 0).val / 4000, ht⟩
  refine ⟨⟨(i 0).val / 4000, ht⟩, flush0_2 _, ?_⟩
  rw [mem_blk2]
  intro a
  match a with
  | ⟨0, _⟩ =>
    show win0_2.index ⟨(i 0).val / 4000, ht⟩ (0 : Fin 2) * 4000 ≤ (i 0).val
      ∧ (i 0).val < win0_2.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win0_2.index ⟨(i 0).val / 4000, ht⟩ (1 : Fin 2) * 16 ≤ (i 1).val
      ∧ (i 1).val < win0_2.index ⟨(i 0).val / 4000, ht⟩ (1 : Fin 2) * 16 + 16
    rw [e1]; omega

end Blocks

end R0

variable [Cert.KernelIdeal.Facts]
variable (V : (c : Dev nD) → (b : Ref sig .tc) → Buf (Elt Ideal) ((c : Thread nD τ).loc b)) (c : Dev nD)

theorem r0_2 : (dat0 (F := Ideal) V c).arrAt 2 cfg0.N = Reg.emb (V c main_v52) (V c main_v51) :=
  (dat0 V c).arrAt_eq_of_cover 2 (Reg.emb (V c main_v52) (V c main_v51)) (fun t _ => R0.flushed2_eq V c t) R0.cover2

end Cert.Proof.RegVal

end
-- ==== Proof.RegVal1.lean ====
import proofs.«408045_j39298950758801_3_alg».proof.Proof.Gen.KernelIdeal.Frame
import proofs.«408045_j39298950758801_3_alg».proof.Proof.RegSpec
import proofs.«408045_j39298950758801_3_alg».proof.Proof.RegMat
import Idealize.ShloMosaic.Lib.Pipeline.Value
import Idealize.ShloMosaic.Lib.ValueIdx
import Idealize.ShloMosaic.PureOps.Ideal.Laws

set_option maxRecDepth 16384

noncomputable section

namespace Cert.Proof.RegVal

open Cert.KernelIdeal Cert.KernelIdeal.Gen Idealize.ShloMosaic Idealize.ShloMosaic.TcCoe Idealize.ShloMosaic.ValueIdx
open Idealize.ShloMosaic.Pipeline (Dat Cfg Window)

namespace R1

theorem bcast_row (b : Vec Ideal S1x16 .f32) (p : Fin 4000) (q : Fin 16) :
    broadcastTo S4000x16 b broadcasts_S1x16_S4000x16 (ix2 p q) = b (ix2 0 q) := by
  refine broadcastTo_apply b _ (ix2 p q) (ix2 0 q) fun a => ?_
  match a with
  | ⟨0, _⟩ => rfl
  | ⟨1, _⟩ => rfl

theorem mm_apply (A : FVec Ideal S4000x16 .f32) (B : FVec Ideal S16x16 .f32) (p : Fin 4000) (q : Fin 16) :
    matmul dot_S4000x16_S16x16_S4000x16_1_0_0_1_n_n none A B (constant S4000x16 .f32 0x00000000#32) (ix2 p q)
      = ∑ k : Fin 16, A (ix2 p k) * B (ix2 k q) := matmul_plain_at _ rfl A B p q

theorem pay1_apply (x0 : Vec Ideal S4000x16 .f32) (x1 : Vec Ideal S1x16 .f32) (p : Fin 4000) (q : Fin 16) :
    k1_pay1 x0 x1 (ix2 p q) = x0 (ix2 p q) + x1 (ix2 0 q) := by
  unfold k1_pay1
  rw [shapeCast_self, shapeCast_self, addf_apply, bcast_row]

theorem pay2_apply (x0 : Vec Ideal S4000x16 .f32) (x1 : Vec Ideal S1x16 .f32) (x2 : Vec Ideal S16x16 .f32) (x3 : Vec Ideal S1x16 .f32)
    (p : Fin 4000) (q : Fin 16) :
    k1_pay2 x0 x1 x2 x3 (ix2 p q) = (∑ k : Fin 16, Reg.lk (k1_pay1 x0 x1 (ix2 p k)) * x2 (ix2 k q)) + x3 (ix2 0 q) := by
  unfold k1_pay2
  rw [shapeCast_self, addf_apply, bcast_row, mm_apply]
  rfl

theorem pay3_apply (x0 : Vec Ideal S4000x16 .f32) (x1 : Vec Ideal S1x16 .f32) (x2 : Vec Ideal S16x16 .f32) (x3 : Vec Ideal S1x16 .f32)
    (x4 : Vec Ideal S16x16 .f32) (p : Fin 4000) (q : Fin 16) :
    k1_pay3 x0 x1 x2 x3 x4 (ix2 p q) = ∑ k : Fin 16, Reg.lk (k1_pay2 x0 x1 x2 x3 (ix2 p k)) * x4 (ix2 k q) := by
  unfold k1_pay3
  rw [mm_apply]
  rfl

section Rows
variable (A : Reg.M 100000 16) (b1 : Reg.M 1 16) (Wl1 : Reg.M 16 16) (bl1 : Reg.M 1 16) (W2 : Reg.M 16 16)
variable (x0 : Vec Ideal S4000x16 .f32) (x1 : Vec Ideal S1x16 .f32) (x2 : Vec Ideal S16x16 .f32) (x3 : Vec Ideal S1x16 .f32)
  (x4 : Vec Ideal S16x16 .f32)

theorem pay1_row (p : Fin 4000) (r : Fin 100000) (hrow : ∀ k : Fin 16, x0 (ix2 p k) = A (ix2 r k)) (h1 : x1 = b1) (q : Fin 16) :
    k1_pay1 x0 x1 (ix2 p q) = Reg.y1 A b1 (ix2 r q) := by
  rw [pay1_apply, hrow q, h1]
  rfl

theorem pay2_row (p : Fin 4000) (r : Fin 100000) (hrow : ∀ k : Fin 16, x0 (ix2 p k) = A (ix2 r k)) (h1 : x1 = b1)
    (h2 : x2 = Wl1) (h3 : x3 = bl1) (q : Fin 16) :
    k1_pay2 x0 x1 x2 x3 (ix2 p q) = Reg.y2 A b1 Wl1 bl1 (ix2 r q) := by
  rw [pay2_apply, h2, h3]
  show _ = (∑ k : Fin 16, Reg.lk (Reg.y1 A b1 (ix2 r k)) * Wl1 (ix2 k q)) + bl1 (ix2 0 q)
  refine congrArg (· + bl1 (ix2 0 q)) (Finset.sum_congr rfl fun k _ => ?_)
  rw [pay1_row A b1 x0 x1 p r hrow h1 k]

theorem pay3_row (p : Fin 4000) (r : Fin 100000) (hrow : ∀ k : Fin 16, x0 (ix2 p k) = A (ix2 r k)) (h1 : x1 = b1)
    (h2 : x2 = Wl1) (h3 : x3 = bl1) (h4 : x4 = W2) (q : Fin 16) :
    k1_pay3 x0 x1 x2 x3 x4 (ix2 p q) = Reg.x2 A b1 Wl1 bl1 W2 (ix2 r q) := by
  rw [pay3_apply, h4]
  show _ = ∑ k : Fin 16, Reg.lk (Reg.y2 A b1 Wl1 bl1 (ix2 r k)) * W2 (ix2 k q)
  refine Finset.sum_congr rfl fun k _ => ?_
  rw [pay2_row A b1 Wl1 bl1 x0 x1 x2 x3 p r hrow h1 h2 h3 k]

theorem pay1_at (j : S4000x16.Idx) (i : S100000x16.Idx) (hrow : ∀ k : Fin 16, x0 (ix2 (j 0) k) = A (ix2 (i 0) k))
    (hcol : (i 1).val = (j 1).val) (h1 : x1 = b1) : k1_pay1 x0 x1 j = Reg.y1 A b1 i := by
  obtain ⟨p, q, rfl⟩ : ∃ (p : Fin 4000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext hcol
  exact pay1_row A b1 x0 x1 p r hrow h1 s

theorem pay2_at (j : S4000x16.Idx) (i : S100000x16.Idx) (hrow : ∀ k : Fin 16, x0 (ix2 (j 0) k) = A (ix2 (i 0) k))
    (hcol : (i 1).val = (j 1).val) (h1 : x1 = b1) (h2 : x2 = Wl1) (h3 : x3 = bl1) :
    k1_pay2 x0 x1 x2 x3 j = Reg.y2 A b1 Wl1 bl1 i := by
  obtain ⟨p, q, rfl⟩ : ∃ (p : Fin 4000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext hcol
  exact pay2_row A b1 Wl1 bl1 x0 x1 x2 x3 p r hrow h1 h2 h3 s

theorem pay3_at (j : S4000x16.Idx) (i : S100000x16.Idx) (hrow : ∀ k : Fin 16, x0 (ix2 (j 0) k) = A (ix2 (i 0) k))
    (hcol : (i 1).val = (j 1).val) (h1 : x1 = b1) (h2 : x2 = Wl1) (h3 : x3 = bl1) (h4 : x4 = W2) :
    k1_pay3 x0 x1 x2 x3 x4 j = Reg.x2 A b1 Wl1 bl1 W2 i := by
  obtain ⟨p, q, rfl⟩ : ∃ (p : Fin 4000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext hcol
  exact pay3_row A b1 Wl1 bl1 W2 x0 x1 x2 x3 x4 p r hrow h1 h2 h3 h4 s

end Rows

section Blocks
variable (V : (c : Dev nD) → (b : Ref sig .tc) → Buf (Elt Ideal) ((c : Thread nD τ).loc b)) (c : Dev nD)

theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = 0 ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = t.val ∧ win1_5.index t (1 : Fin 2) = 0 :=
  (by decide +kernel : ∀ t : Fin grid1.N, _)
theorem idx_6 : ∀ t : Fin cfg1.N, win1_6.index t (0 : Fin 2) = t.val ∧ win1_6.index t (1 : Fin 2) = 0 :=
  (by decide +kernel : ∀ t : Fin grid1.N, _)
theorem idx_7 : ∀ t : Fin cfg1.N, win1_7.index t (0 : Fin 2) = t.val ∧ win1_7.index t (1 : Fin 2) = 0 :=
  (by decide +kernel : ∀ t : Fin grid1.N, _)

theorem iblk_1 (t : Fin cfg1.N) : (iblk1 V c 1 t : Vec Ideal S1x16 .f32) = V c main_v67 := by
  obtain ⟨e0, e1⟩ := idx_1 t
  funext y
  show V c main_v67 (((cfg1.win 1).blk t).view.emb y) = V c main_v67 y
  refine congrArg _ (funext fun a => Fin.ext ?_)
  match a with
  | ⟨0, _⟩ => show win1_1.index t (0 : Fin 2) * 1 + 1 * (y 0).val = (y 0).val; rw [e0]; omega
  | ⟨1, _⟩ => show win1_1.index t (1 : Fin 2) * 16 + 1 * (y 1).val = (y 1).val; rw [e1]; omega

theorem iblk_2 (t : Fin cfg1.N) : (iblk1 V c 2 t : Vec Ideal S16x16 .f32) = V c main_arg4 := by
  obtain ⟨e0, e1⟩ := idx_2 t
  funext y
  show V c main_arg4 (((cfg1.win 2).blk t).view.emb y) = V c main_arg4 y
  refine congrArg _ (funext fun a => Fin.ext ?_)
  match a with
  | ⟨0, _⟩ => show win1_2.index t (0 : Fin 2) * 16 + 1 * (y 0).val = (y 0).val; rw [e0]; omega
  | ⟨1, _⟩ => show win1_2.index t (1 : Fin 2) * 16 + 1 * (y 1).val = (y 1).val; rw [e1]; omega

theorem iblk_3 (t : Fin cfg1.N) : (iblk1 V c 3 t : Vec Ideal S1x16 .f32) = V c main_v68 := by
  obtain ⟨e0, e1⟩ := idx_3 t
  funext y
  show V c main_v68 (((cfg1.win 3).blk t).view.emb y) = V c main_v68 y
  refine congrArg _ (funext fun a => Fin.ext ?_)
  match a with
  | ⟨0, _⟩ => show win1_3.index t (0 : Fin 2) * 1 + 1 * (y 0).val = (y 0).val; rw [e0]; omega
  | ⟨1, _⟩ => show win1_3.index t (1 : Fin 2) * 16 + 1 * (y 1).val = (y 1).val; rw [e1]; omega

theorem iblk_4 (t : Fin cfg1.N) : (iblk1 V c 4 t : Vec Ideal S16x16 .f32) = V c main_arg6 := by
  obtain ⟨e0, e1⟩ := idx_4 t
  funext y
  show V c main_arg6 (((cfg1.win 4).blk t).view.emb y) = V c main_arg6 y
  refine congrArg _ (funext fun a => Fin.ext ?_)
  match a with
  | ⟨0, _⟩ => show win1_4.index t (0 : Fin 2) * 16 + 1 * (y 0).val = (y 0).val; rw [e0]; omega
  | ⟨1, _⟩ => show win1_4.index t (1 : Fin 2) * 16 + 1 * (y 1).val = (y 1).val; rw [e1]; omega

theorem iblk_0_row (t : Fin cfg1.N) (p : Fin 4000) (r : Fin 100000) (hr : r.val = t.val * 4000 + p.val) (k : Fin 16) :
    (iblk1 V c 0 t : Vec Ideal S4000x16 .f32) (ix2 p k) = (V c main_v66 : S100000x16.Idx → EReal) (ix2 r k) := by
  obtain ⟨e0, e1⟩ := idx_0 t
  show V c main_v66 (((cfg1.win 0).blk t).view.emb (ix2 p k)) = V c main_v66 (ix2 r k)
  refine congrArg _ (funext fun a => Fin.ext ?_)
  match a with
  | ⟨0, _⟩ => show win1_0.index t (0 : Fin 2) * 4000 + 1 * p.val = r.val; rw [e0, hr]; omega
  | ⟨1, _⟩ => show win1_0.index t (1 : Fin 2) * 16 + 1 * k.val = k.val; rw [e1]; omega

theorem flushed5_eq (t : Fin cfg1.N) :
    (dat1 (F := Ideal) V c).flushed 5 t
      = ((cfg1.win 5).blk t).view.read (Elt Ideal) (Reg.y1 (V c main_v66) (V c main_v67)) := by
  show (cfg1.win 5).cut (grid1.coords t) ((dat1 V c).after 5 t) = _
  rw [after1_5]
  unfold out1_5
  rw [View.canon_unit_zero hz2]
  simp only [View.ld_unit_zero (S := S4000x16) hz2, View.ld_unit_zero (S := S1x16) hz2]
  obtain ⟨e0, e1⟩ := idx_5 t
  funext j
  show k1_pay1 (iblk1 V c 0 t) (iblk1 V c 1 t) j
    = Reg.y1 (V c main_v66) (V c main_v67) (((cfg1.win 5).blk t).view.emb j)
  refine pay1_at (V c main_v66) (V c main_v67) (iblk1 V c 0 t) (iblk1 V c 1 t) j (((cfg1.win 5).blk t).view.emb j)
    (fun k => iblk_0_row V c t (j 0) _ ?_ k) ?_ (iblk_1 V c t)
  · show win1_5.index t (0 : Fin 2) * 4000 + 1 * (j 0).val = t.val * 4000 + (j 0).val; rw [e0]; omega
  · show win1_5.index t (1 : Fin 2) * 16 + 1 * (j 1).val = (j 1).val; rw [e1]; omega

theorem mem_blk5 (t : Fin cfg1.N) (i : S100000x16.Idx) :
    i ∈ ((cfg1.win 5).blk t).view.set ↔ ∀ a : Fin 2, win1_5.index t a * S4000x16.size a ≤ (i a).val
      ∧ (i a).val < win1_5.index t a * S4000x16.size a + S4000x16.size a := by
  show i ∈ ((View.whole main_v69_0).slice (win1_5.rect t)).set ↔ _
  rw [View.set_slice_whole, Rect.mem_set_unit]
  exact Iff.rfl

theorem cover5 (i : S100000x16.Idx) :
    ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 25 := N_1
  have ht : (i 0).val / 4000 < cfg1.N := by rw [hN]; omega
  obtain ⟨e0, e1⟩ := idx_5 ⟨(i 0).val / 4000, ht⟩
  refine ⟨⟨(i 0).val / 4000, ht⟩, flush1_5 _, ?_⟩
  rw [mem_blk5]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_5.index ⟨(i 0).val / 4000, ht⟩ (1 : Fin 2) * 16 ≤ (i 1).val
      ∧ (i 1).val < win1_5.index ⟨(i 0).val / 4000, ht⟩ (1 : Fin 2) * 16 + 16
    rw [e1]; omega

theorem flushed6_eq (t : Fin cfg1.N) :
    (dat1 (F := Ideal) V c).flushed 6 t
      = ((cfg1.win 6).blk t).view.read (Elt Ideal) (Reg.y2 (V c main_v66) (V c main_v67) (V c main_arg4) (V c main_v68)) := by
  show (cfg1.win 6).cut (grid1.coords t) ((dat1 V c).after 6 t) = _
  rw [after1_6]
  unfold out1_6
  rw [View.canon_unit_zero hz2]
  simp only [View.ld_unit_zero (S := S4000x16) hz2, View.ld_unit_zero (S := S1x16) hz2, View.ld_unit_zero (S := S16x16) hz2]
  obtain ⟨e0, e1⟩ := idx_6 t
  funext j
  show k1_pay2 (iblk1 V c 0 t) (iblk1 V c 1 t) (iblk1 V c 2 t) (iblk1 V c 3 t) j
    = Reg.y2 (V c main_v66) (V c main_v67) (V c main_arg4) (V c main_v68) (((cfg1.win 6).blk t).view.emb j)
  refine pay2_at (V c main_v66) (V c main_v67) (V c main_arg4) (V c main_v68) (iblk1 V c 0 t) (iblk1 V c 1 t) (iblk1 V c 2 t) (iblk1 V c 3 t) j (((cfg1.win 6).blk t).view.emb j)
    (fun k => iblk_0_row V c t (j 0) _ ?_ k) ?_ (iblk_1 V c t) (iblk_2 V c t) (iblk_3 V c t)
  · show win1_6.index t (0 : Fin 2) * 4000 + 1 * (j 0).val = t.val * 4000 + (j 0).val; rw [e0]; omega
  · show win1_6.index t (1 : Fin 2) * 16 + 1 * (j 1).val = (j 1).val; rw [e1]; omega

theorem mem_blk6 (t : Fin cfg1.N) (i : S100000x16.Idx) :
    i ∈ ((cfg1.win 6).blk t).view.set ↔ ∀ a : Fin 2, win1_6.index t a * S4000x16.size a ≤ (i a).val
      ∧ (i a).val < win1_6.index t a * S4000x16.size a + S4000x16.size a := by
  show i ∈ ((View.whole main_v69_1).slice (win1_6.rect t)).set ↔ _
  rw [View.set_slice_whole, Rect.mem_set_unit]
  exact Iff.rfl

theorem cover6 (i : S100000x16.Idx) :
    ∃ t : Fin cfg1.N, (cfg1.win 6).flush t = true ∧ i ∈ ((cfg1.win 6).blk t).view.set := by
  have hi0 : (i 0).val < 100000 := (i 0).isLt
  have hi1 : (i 1).val < 16 := (i 1).isLt
  have hN : cfg1.N = 25 := N_1
  have ht : (i 0).val / 4000 < cfg1.N := by rw [hN]; omega
  obtain ⟨e0, e1⟩ := idx_6 ⟨(i 0).val / 4000, ht⟩
  refine ⟨⟨(i 0).val / 4000, ht⟩, flush1_6 _, ?_⟩
  rw [mem_blk6]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, ht⟩ (1 : Fin 2) * 16 ≤ (i 1).val
      ∧ (i 1).val < win1_6.index ⟨(i 0).val / 4000, ht⟩ (1 : Fin 2) * 16 + 16
    rw [e1]; omega

theorem flushed7_eq (t : Fin cfg1.N) :
    (dat1 (F := Ideal) V c).flushed 7 t
      = ((cfg1.win 7).blk t).view.read (Elt Ideal) (Reg.x2 (V c main_v66) (V c main_v67) (V c main_arg4) (V c main_v68) (V c main_arg6)) := by
  show (cfg1.win 7).cut (grid1.coords t) ((dat1 V c).after 7 t) = _
  rw [after1_7]
  unfold out1_7
  rw [View.canon_unit_zero hz2]
  simp only [View.ld_unit_zero (S := S4000x16) hz2, View.ld_unit_zero (S := S1x16) hz2, View.ld_unit_zero (S := S16x16) hz2]
  obtain ⟨e0, e1⟩ := idx_7 t
  funext j
  show k1_pay3 (iblk1 V c 0 t) (iblk1 V c 1 t) (iblk1 V c 2 t) (iblk1 V c 3 t) (iblk1 V c 4 t) j
    = Reg.x2 (V c main_v66) (V c main_v67) (V c main_arg4) (V c main_v68) (V c main_arg6) (((cfg1.win 7).blk t).view.emb j)
  refine pay3_at (V c main_v66) (V c main_v67) (V c main_arg4) (V c main_v68) (V c main_arg6) (iblk1 V c 0 t) (iblk1 V c 1 t) (iblk1 V c 2 t) (iblk1 V c 3 t) (iblk1 V c 4 t) j (((cfg1.win 7).blk t).view.emb j)
    (fun k => iblk_0_row V c t (j 0) _ ?_ k) ?_ (iblk_1 V c t) (iblk_2 V c t) (iblk_3 V c t) (iblk_4 V c t)
  · show win1_7.index t (0 : Fin 2) * 4000 + 1 * (j 0).val = t.val * 4000 + (j 0).val; rw [e0]; omega
  · show win1_7.index t (1 : Fin 2) * 16 + 1 * (j 1).val = (j 1).val; rw [e1]; omega

theorem mem_blk7 (t : Fin cfg1.N) (i : S100000x16.Idx) :
    i ∈ ((cfg1.win 7).blk t).view.set ↔ ∀ a : Fin 2, win1_7.index t a * S4000x16.size a ≤ (i a).val
      ∧ (i a).val < win1_7.index t a * S4000x16.size a + S4000x16.size a := by
  show i ∈ ((View.whole main_v69_2).slice (win1_7.rect t)).set ↔ _
  rw [View.set_slice_whole, Rect.mem_set_unit]
  exact Iff.rfl

theorem cover7 (i : S100000x16.Idx) :
    ∃ t : Fin cfg1.N, (cfg1.win 7).flush t = true ∧ i ∈ ((cfg1.win 7).blk t).view.set := by
  have hi0 : (i 0).val < 100000 := (i 0).isLt
  have hi1 : (i 1).val < 16 := (i 1).isLt
  have hN : cfg1.N = 25 := N_1
  have ht : (i 0).val / 4000 < cfg1.N := by rw [hN]; omega
  obtain ⟨e0, e1⟩ := idx_7 ⟨(i 0).val / 4000, ht⟩
  refine ⟨⟨(i 0).val / 4000, ht⟩, flush1_7 _, ?_⟩
  rw [mem_blk7]
  intro a
  match a with
  | ⟨0, _⟩ =>
    show win1_7.index ⟨(i 0).val / 4000, ht⟩ (0 : Fin 2) * 4000 ≤ (i 0).val
      ∧ (i 0).val < win1_7.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, ht⟩ (1 : Fin 2) * 16 ≤ (i 1).val
      ∧ (i 1).val < win1_7.index ⟨(i 0).val / 4000, ht⟩ (1 : Fin 2) * 16 + 16
    rw [e1]; omega

end Blocks

end R1

variable [Cert.KernelIdeal.Facts]
variable (V : (c : Dev nD) → (b : Ref sig .tc) → Buf (Elt Ideal) ((c : Thread nD τ).loc b)) (c : Dev nD)

theorem r1_5 : (dat1 (F := Ideal) V c).arrAt 5 cfg1.N = Reg.y1 (V c main_v66) (V c main_v67) :=
  (dat1 V c).arrAt_eq_of_cover 5 (Reg.y1 (V c main_v66) (V c main_v67)) (fun t _ => R1.flushed5_eq V c t) R1.cover5

theorem r1_6 : (dat1 (F := Ideal) V c).arrAt 6 cfg1.N = Reg.y2 (V c main_v66) (V c main_v67) (V c main_arg4) (V c main_v68) :=
  (dat1 V c).arrAt_eq_of_cover 6 (Reg.y2 (V c main_v66) (V c main_v67) (V c main_arg4) (V c main_v68))
    (fun t _ => R1.flushed6_eq V c t) R1.cover6

theorem r1_7 : (dat1 (F := Ideal) V c).arrAt 7 cfg1.N = Reg.x2 (V c main_v66) (V c main_v67) (V c main_arg4) (V c main_v68) (V c main_arg6) :=
  (dat1 V c).arrAt_eq_of_cover 7 (Reg.x2 (V c main_v66) (V c main_v67) (V c main_arg4) (V c main_v68) (V c main_arg6))
    (fun t _ => R1.flushed7_eq V c t) R1.cover7

end Cert.Proof.RegVal

end
-- ==== Proof.RegVal2.lean ====
import proofs.«408045_j39298950758801_3_alg».proof.Proof.Gen.KernelIdeal.Frame
import proofs.«408045_j39298950758801_3_alg».proof.Proof.RegSpec
import proofs.«408045_j39298950758801_3_alg».proof.Proof.RegMat
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.StackMember

set_option maxRecDepth 16384

noncomputable section

namespace Cert.Proof.RegVal

open Cert.KernelIdeal Cert.KernelIdeal.Gen Idealize.ShloMosaic Idealize.ShloMosaic.TcCoe Idealize.ShloMosaic.ValueIdx
open Idealize.ShloMosaic.Pipeline (Dat Cfg Window)

namespace R2

theorem mm_16_4 (A : FVec Ideal S4000x16 .f32) (B : FVec Ideal S16x4 .f32) (a : Fin 4000) (b : Fin 4) :
    matmul dot_S4000x16_S16x4_S4000x4_1_0_0_1_n_n none A B (constant S4000x4 .f32 0x00000000#32) (ix2 a b)
      = ∑ c : Fin 16, A (ix2 a c) * B (ix2 c b) := matmul_plain_at _ rfl A B a b
theorem mm_4_1 (A : FVec Ideal S4000x4 .f32) (B : FVec Ideal S4x1 .f32) (a : Fin 4000) (b : Fin 1) :
    matmul dot_S4000x4_S4x1_S4000x1_1_0_0_1_n_n none A B (constant S4000x1 .f32 0x00000000#32) (ix2 a b)
      = ∑ c : Fin 4, A (ix2 a c) * B (ix2 c b) := matmul_plain_at _ rfl A B a b
theorem mm_1_4 (A : FVec Ideal S4000x1 .f32) (B : FVec Ideal S1x4 .f32) (a : Fin 4000) (b : Fin 4) :
    matmul dot_S4000x1_S1x4_S4000x4_1_0_0_1_n_n none A B (constant S4000x4 .f32 0x00000000#32) (ix2 a b)
      = ∑ c : Fin 1, A (ix2 a c) * B (ix2 c b) := matmul_plain_at _ rfl A B a b
theorem mm_4_16 (A : FVec Ideal S4000x4 .f32) (B : FVec Ideal S4x16 .f32) (a : Fin 4000) (b : Fin 16) :
    matmul dot_S4000x4_S4x16_S4000x16_1_0_0_1_n_n none A B (constant S4000x16 .f32 0x00000000#32) (ix2 a b)
      = ∑ c : Fin 4, A (ix2 a c) * B (ix2 c b) := matmul_plain_at _ rfl A B a b

theorem pay2_at (v0 : Vec Ideal S4000x16 .f32) (v2 : Vec Ideal S1x16 .f32) (p : Fin 4000) (q : Fin 16) :
    k2_pay2 (F := Ideal) v0 v2 (ix2 p q) = v0 (ix2 p q) + v2 (ix2 (0 : Fin 1) q) := by
  unfold k2_pay2
  simp only [shapeCast_self]
  rw [addf_apply, broadcastTo_1b_ab_apply]

theorem pay3_at (v0 : Vec Ideal S4000x16 .f32) (v2 : Vec Ideal S1x16 .f32) (v11 : Vec Ideal S16x4 .f32)
    (v13 : Vec Ideal S1x4 .f32) (p : Fin 4000) (q : Fin 4) :
    k2_pay3 (F := Ideal) v0 v2 v11 v13 (ix2 p q)
      = (∑ k : Fin 16, Reg.lk (k2_pay2 (F := Ideal) v0 v2 (ix2 p k)) * v11 (ix2 k q)) + v13 (ix2 (0 : Fin 1) q) := by
  unfold k2_pay3
  simp only [shapeCast_self]
  rw [addf_apply, mm_16_4, broadcastTo_1b_ab_apply]
  rfl

theorem pay4_at (v0 : Vec Ideal S4000x16 .f32) (v2 : Vec Ideal S1x16 .f32) (v11 : Vec Ideal S16x4 .f32)
    (v13 : Vec Ideal S1x4 .f32) (v22 : Vec Ideal S4x1 .f32) (v24 : Vec Ideal S1x1 .f32) (p : Fin 4000) (q : Fin 1) :
    k2_pay4 (F := Ideal) v0 v2 v11 v13 v22 v24 (ix2 p q)
      = (∑ k : Fin 4, Reg.lk (k2_pay3 (F := Ideal) v0 v2 v11 v13 (ix2 p k)) * v22 (ix2 k q)) + v24 (ix2 (0 : Fin 1) q) := by
  unfold k2_pay4
  simp only [shapeCast_self]
  rw [addf_apply, mm_4_1, broadcastTo_1b_ab_apply]
  rfl

theorem pay5_at (v0 : Vec Ideal S4000x16 .f32) (v2 : Vec Ideal S1x16 .f32) (v11 : Vec Ideal S16x4 .f32)
    (v13 : Vec Ideal S1x4 .f32) (v22 : Vec Ideal S4x1 .f32) (v24 : Vec Ideal S1x1 .f32) (p : Fin 4000) (q : Fin 1) :
    k2_pay5 (F := Ideal) v0 v2 v11 v13 v22 v24 (ix2 p q) = Reg.lk (k2_pay4 (F := Ideal) v0 v2 v11 v13 v22 v24 (ix2 p q)) := by
  rfl

theorem pay1_at (v5 : FVec Ideal S4000x16 .f32) (v16 : FVec Ideal S4000x4 .f32) (y5 : FVec Ideal S4000x1 .f32)
    (v38 : Vec Ideal S1x4 .f32) (v47 : Vec Ideal S4x16 .f32) (p : Fin 4000) (q : Fin 16) :
    k2_pay1 (F := Ideal) v5 v16 (cmpf .oge y5 (broadcast S4000x1 (Scalar.ofBits .f32 0x00000000#32)))
        (Scalar.ofBits .f32 0x3C23D70A#32) (k2_pay7 (F := Ideal)) v38 v47 (ix2 p q)
      = (∑ k : Fin 4, ((∑ j : Fin 1, Reg.lkg (y5 (ix2 p j)) * v38 (ix2 j k)) * Reg.lkg (v16 (ix2 p k))) * v47 (ix2 k q))
          * Reg.lkg (v5 (ix2 p q)) := by
  unfold k2_pay1
  simp only [shapeCast_self]
  rw [mulf_apply, mm_4_16]
  refine congrArg₂ (· * ·) (Finset.sum_congr rfl fun k _ => ?_) ?_
  · rw [mulf_apply, mm_1_4]
    rfl
  · rfl

theorem pay6_eq (v0 : Vec Ideal S4000x16 .f32) (v2 : Vec Ideal S1x16 .f32) (v11 : Vec Ideal S16x4 .f32)
    (v13 : Vec Ideal S1x4 .f32) (v22 : Vec Ideal S4x1 .f32) (v24 : Vec Ideal S1x1 .f32) :
    k2_pay6 (F := Ideal) v0 v2 v11 v13 v22 v24
      = cmpf .oge (k2_pay4 (F := Ideal) v0 v2 v11 v13 v22 v24) (broadcast S4000x1 (Scalar.ofBits .f32 0x00000000#32)) := rfl

section Spec
variable (X : Reg.M 100000 16) (b2 : Reg.M 1 16) (Wl2 : Reg.M 16 4) (bl2 : Reg.M 1 4) (Wl3 : Reg.M 4 1) (bl3 : Reg.M 1 1)
  (Wl2T : Reg.M 4 16) (Wl3T : Reg.M 1 4) (r : Fin 100000)

theorem y3_at (q : Fin 16) : Reg.y3 X b2 (ix2 r q) = X (ix2 r q) + b2 (ix2 (0 : Fin 1) q) := rfl
theorem y4_at (q : Fin 4) : Reg.y4 X b2 Wl2 bl2 (ix2 r q)
    = (∑ k : Fin 16, Reg.lk (Reg.y3 X b2 (ix2 r k)) * Wl2 (ix2 k q)) + bl2 (ix2 (0 : Fin 1) q) := rfl
theorem y5_at (q : Fin 1) : Reg.y5 X b2 Wl2 bl2 Wl3 bl3 (ix2 r q)
    = (∑ k : Fin 4, Reg.lk (Reg.y4 X b2 Wl2 bl2 (ix2 r k)) * Wl3 (ix2 k q)) + bl3 (ix2 (0 : Fin 1) q) := rfl
theorem h5_at (q : Fin 1) : Reg.h5 X b2 Wl2 bl2 Wl3 bl3 (ix2 r q) = Reg.lk (Reg.y5 X b2 Wl2 bl2 Wl3 bl3 (ix2 r q)) := rfl
theorem gy3_at (q : Fin 16) : Reg.gy3 X b2 Wl2 bl2 Wl3 bl3 Wl2T Wl3T (ix2 r q)
    = (∑ k : Fin 4, ((∑ j : Fin 1, Reg.lkg (Reg.y5 X b2 Wl2 bl2 Wl3 bl3 (ix2 r j)) * Wl3T (ix2 j k))
          * Reg.lkg (Reg.y4 X b2 Wl2 bl2 (ix2 r k))) * Wl2T (ix2 k q)) * Reg.lkg (Reg.y3 X b2 (ix2 r q)) := rfl

variable (x0 : Vec Ideal S4000x16 .f32) (p : Fin 4000) (h0 : ∀ l : Fin 16, x0 (ix2 p l) = X (ix2 r l))
include h0

theorem row_y3 (q : Fin 16) : k2_pay2 (F := Ideal) x0 b2 (ix2 p q) = Reg.y3 X b2 (ix2 r q) := by
  rw [pay2_at, y3_at, h0]

theorem row_y4 (q : Fin 4) : k2_pay3 (F := Ideal) x0 b2 Wl2 bl2 (ix2 p q) = Reg.y4 X b2 Wl2 bl2 (ix2 r q) := by
  rw [pay3_at, y4_at]
  simp only [row_y3 X b2 r x0 p h0]

theorem row_y5 (q : Fin 1) : k2_pay4 (F := Ideal) x0 b2 Wl2 bl2 Wl3 bl3 (ix2 p q) = Reg.y5 X b2 Wl2 bl2 Wl3 bl3 (ix2 r q) := by
  rw [pay4_at, y5_at]
  simp only [row_y4 X b2 Wl2 bl2 r x0 p h0]

theorem row_h5 (q : Fin 1) : k2_pay5 (F := Ideal) x0 b2 Wl2 bl2 Wl3 bl3 (ix2 p q) = Reg.h5 X b2 Wl2 bl2 Wl3 bl3 (ix2 r q) := by
  rw [pay5_at, h5_at, row_y5 X b2 Wl2 bl2 Wl3 bl3 r x0 p h0]

theorem row_gy3 (q : Fin 16) :
    k2_pay1 (F := Ideal) (k2_pay2 x0 b2) (k2_pay3 x0 b2 Wl2 bl2) (k2_pay6 x0 b2 Wl2 bl2 Wl3 bl3)
        (Scalar.ofBits .f32 0x3C23D70A#32) (k2_pay7 (F := Ideal)) Wl3T Wl2T (ix2 p q)
      = Reg.gy3 X b2 Wl2 bl2 Wl3 bl3 Wl2T Wl3T (ix2 r q) := by
  rw [pay6_eq, pay1_at, gy3_at]
  simp only [row_y3 X b2 r x0 p h0, row_y4 X b2 Wl2 bl2 r x0 p h0, row_y5 X b2 Wl2 bl2 Wl3 bl3 r x0 p h0]

end Spec

theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0 :=
  (by decide +kernel : ∀ t : Fin grid2.N, _)

theorem lt25 (t : Fin cfg2.N) : t.val < 25 := Nat.lt_of_lt_of_eq t.isLt N_2

section Blocks
variable (V : (c : Dev nD) → (b : Ref sig .tc) → Buf (Elt Ideal) ((c : Thread nD τ).loc b)) (c : Dev nD)

theorem blk2_0 (t : Fin cfg2.N) (p : Fin 4000) (l : Fin 16) (r : Fin 100000) (hr : r.val = 4000 * t.val + p.val) :
    (iblk2 V c 0 t : Vec Ideal S4000x16 .f32) (ix2 p l) = (V c main_v82 : Reg.M 100000 16) (ix2 r l) := by
  obtain ⟨e0, e1, -⟩ := idx2 t
  unfold iblk2
  rw [View.read_apply]
  show V c main_v82 _ = V c main_v82 _
  refine congrArg _ (funext fun a => Fin.ext ?_)
  match a with
  | ⟨0, _⟩ => show win2_0.index t (0 : Fin 2) * 4000 + 1 * p.val = r.val; rw [e0, hr]; omega
  | ⟨1, _⟩ => show win2_0.index t (1 : Fin 2) * 16 + 1 * l.val = l.val; rw [e1]; omega

theorem blk2_1 (t : Fin cfg2.N) : (iblk2 V c 1 t : Vec Ideal S1x16 .f32) = (V c main_v85 : Reg.M 1 16) := by
  obtain ⟨-, -, e0, e1, -⟩ := idx2 t
  funext y
  unfold iblk2
  rw [View.read_apply]
  show V c main_v85 _ = V c main_v85 _
  refine congrArg _ (funext fun a => Fin.ext ?_)
  match a with
  | ⟨0, _⟩ => show win2_1.index t (0 : Fin 2) * 1 + 1 * (y 0).val = (y 0).val; rw [e0]; omega
  | ⟨1, _⟩ => show win2_1.index t (1 : Fin 2) * 16 + 1 * (y 1).val = (y 1).val; rw [e1]; omega

theorem blk2_2 (t : Fin cfg2.N) : (iblk2 V c 2 t : Vec Ideal S16x4 .f32) = (V c main_arg8 : Reg.M 16 4) := by
  obtain ⟨-, -, -, -, e0, e1, -⟩ := idx2 t
  funext y
  unfold iblk2
  rw [View.read_apply]
  show V c main_arg8 _ = V c main_arg8 _
  refine congrArg _ (funext fun a => Fin.ext ?_)
  match a with
  | ⟨0, _⟩ => show win2_2.index t (0 : Fin 2) * 16 + 1 * (y 0).val = (y 0).val; rw [e0]; omega
  | ⟨1, _⟩ => show win2_2.index t (1 : Fin 2) * 4 + 1 * (y 1).val = (y 1).val; rw [e1]; omega

theorem blk2_3 (t : Fin cfg2.N) : (iblk2 V c 3 t : Vec Ideal S1x4 .f32) = (V c main_v86 : Reg.M 1 4) := by
  obtain ⟨-, -, -, -, -, -, e0, e1, -⟩ := idx2 t
  funext y
  unfold iblk2
  rw [View.read_apply]
  show V c main_v86 _ = V c main_v86 _
  refine congrArg _ (funext fun a => Fin.ext ?_)
  match a with
  | ⟨0, _⟩ => show win2_3.index t (0 : Fin 2) * 1 + 1 * (y 0).val = (y 0).val; rw [e0]; omega
  | ⟨1, _⟩ => show win2_3.index t (1 : Fin 2) * 4 + 1 * (y 1).val = (y 1).val; rw [e1]; omega

theorem blk2_4 (t : Fin cfg2.N) : (iblk2 V c 4 t : Vec Ideal S4x1 .f32) = (V c main_arg10 : Reg.M 4 1) := by
  obtain ⟨-, -, -, -, -, -, -, -, e0, e1, -⟩ := idx2 t
  funext y
  unfold iblk2
  rw [View.read_apply]
  show V c main_arg10 _ = V c main_arg10 _
  refine congrArg _ (funext fun a => Fin.ext ?_)
  match a with
  | ⟨0, _⟩ => show win2_4.index t (0 : Fin 2) * 4 + 1 * (y 0).val = (y 0).val; rw [e0]; omega
  | ⟨1, _⟩ => show win2_4.index t (1 : Fin 2) * 1 + 1 * (y 1).val = (y 1).val; rw [e1]; omega

theorem blk2_5 (t : Fin cfg2.N) : (iblk2 V c 5 t : Vec Ideal S1x1 .f32) = (V c main_v87 : Reg.M 1 1) := by
  obtain ⟨-, -, -, -, -, -, -, -, -, -, e0, e1, -⟩ := idx2 t
  funext y
  unfold iblk2
  rw [View.read_apply]
  show V c main_v87 _ = V c main_v87 _
  refine congrArg _ (funext fun a => Fin.ext ?_)
  match a with
  | ⟨0, _⟩ => show win2_5.index t (0 : Fin 2) * 1 + 1 * (y 0).val = (y 0).val; rw [e0]; omega
  | ⟨1, _⟩ => show win2_5.index t (1 : Fin 2) * 1 + 1 * (y 1).val = (y 1).val; rw [e1]; omega

theorem blk2_6 (t : Fin cfg2.N) : (iblk2 V c 6 t : Vec Ideal S4x16 .f32) = (V c main_v83 : Reg.M 4 16) := by
  obtain ⟨-, -, -, -, -, -, -, -, -, -, -, -, e0, e1, -⟩ := idx2 t
  funext y
  unfold iblk2
  rw [View.read_apply]
  show V c main_v83 _ = V c main_v83 _
  refine congrArg _ (funext fun a => Fin.ext ?_)
  match a with
  | ⟨0, _⟩ => show win2_6.index t (0 : Fin 2) * 4 + 1 * (y 0).val = (y 0).val; rw [e0]; omega
  | ⟨1, _⟩ => show win2_6.index t (1 : Fin 2) * 16 + 1 * (y 1).val = (y 1).val; rw [e1]; omega

theorem blk2_7 (t : Fin cfg2.N) : (iblk2 V c 7 t : Vec Ideal S1x4 .f32) = (V c main_v84 : Reg.M 1 4) := by
  obtain ⟨-, -, -, -, -, -, -, -, -, -, -, -, -, -, e0, e1, -⟩ := idx2 t
  funext y
  unfold iblk2
  rw [View.read_apply]
  show V c main_v84 _ = V c main_v84 _
  refine congrArg _ (funext fun a => Fin.ext ?_)
  match a with
  | ⟨0, _⟩ => show win2_7.index t (0 : Fin 2) * 1 + 1 * (y 0).val = (y 0).val; rw [e0]; omega
  | ⟨1, _⟩ => show win2_7.index t (1 : Fin 2) * 4 + 1 * (y 1).val = (y 1).val; rw [e1]; omega

abbrev G8 : Reg.M 100000 16 :=
  Reg.gy3 (V c main_v82) (V c main_v85) (V c main_arg8) (V c main_v86) (V c main_arg10) (V c main_v87) (V c main_v83) (V c main_v84)
abbrev G9 : Reg.M 100000 1 :=
  Reg.h5 (V c main_v82) (V c main_v85) (V c main_arg8) (V c main_v86) (V c main_arg10) (V c main_v87)

theorem flushed2_8 (t : Fin cfg2.N) :
    (dat2 (F := Ideal) V c).flushed 8 t = ((cfg2.win 8).blk t).view.read (Elt Ideal) (G8 V c) := by
  have ht := lt25 t
  obtain ⟨-, -, -, -, -, -, -, -, -, -, -, -, -, -, -, -, e0, e1, -⟩ := idx2 t
  show (cfg2.win 8).cut (grid2.coords t) ((dat2 V c).after 8 t) = _
  rw [after2_8]
  unfold out2_8
  rw [View.canon_unit_zero hz2]
  simp only [View.ld_unit_zero (S := S4000x16) hz2, View.ld_unit_zero (S := S1x16) hz2, View.ld_unit_zero (S := S16x4) hz2,
    View.ld_unit_zero (S := S1x4) hz2, View.ld_unit_zero (S := S4x1) hz2, View.ld_unit_zero (S := S1x1) hz2,
    View.ld_unit_zero (S := S4x16) hz2]
  rw [blk2_1 V c t, blk2_2 V c t, blk2_3 V c t, blk2_4 V c t, blk2_5 V c t, blk2_6 V c t, blk2_7 V c t]
  funext j
  rw [View.read_apply]
  have hj0 : (j 0).val < 4000 := (j 0).isLt
  have hj1 : (j 1).val < 16 := (j 1).isLt
  have hx : (cfg2.win 8).xinj (grid2.coords t) j = ix2 (⟨(j 0).val, hj0⟩ : Fin 4000) (⟨(j 1).val, hj1⟩ : Fin 16) := by
    funext a
    match a with | ⟨0, _⟩ => rfl | ⟨1, _⟩ => rfl
  have he : ((cfg2.win 8).blk t).view.emb j
      = ix2 (⟨4000 * t.val + (j 0).val, by omega⟩ : Fin 100000) (⟨(j 1).val, hj1⟩ : Fin 16) := by
    funext a
    apply Fin.ext
    match a with
    | ⟨0, _⟩ => show win2_8.index t (0 : Fin 2) * 4000 + 1 * (j 0).val = 4000 * t.val + (j 0).val; rw [e0]; omega
    | ⟨1, _⟩ => show win2_8.index t (1 : Fin 2) * 16 + 1 * (j 1).val = (j 1).val; rw [e1]; omega
  show k2_pay1 (F := Ideal) (k2_pay2 (iblk2 V c 0 t) (V c main_v85)) (k2_pay3 (iblk2 V c 0 t) (V c main_v85) (V c main_arg8) (V c main_v86))
      (k2_pay6 (iblk2 V c 0 t) (V c main_v85) (V c main_arg8) (V c main_v86) (V c main_arg10) (V c main_v87))
      (Scalar.ofBits .f32 0x3C23D70A#32) (k2_pay7 (F := Ideal)) (V c main_v84) (V c main_v83)
      ((cfg2.win 8).xinj (grid2.coords t) j) = G8 V c (((cfg2.win 8).blk t).view.emb j)
  rw [hx, he]
  exact row_gy3 (V c main_v82) (V c main_v85) (V c main_arg8) (V c main_v86) (V c main_arg10) (V c main_v87) (V c main_v83)
    (V c main_v84) _ (iblk2 V c 0 t) _ (fun l => blk2_0 V c t _ l _ rfl) _

theorem flushed2_9 (t : Fin cfg2.N) :
    (dat2 (F := Ideal) V c).flushed 9 t = ((cfg2.win 9).blk t).view.read (Elt Ideal) (G9 V c) := by
  have ht := lt25 t
  obtain ⟨-, -, -, -, -, -, -, -, -, -, -, -, -, -, -, -, -, -, e0, e1⟩ := idx2 t
  show (cfg2.win 9).cut (grid2.coords t) ((dat2 V c).after 9 t) = _
  rw [after2_9]
  unfold out2_9
  rw [View.canon_unit_zero hz2]
  simp only [View.ld_unit_zero (S := S4000x16) hz2, View.ld_unit_zero (S := S1x16) hz2, View.ld_unit_zero (S := S16x4) hz2,
    View.ld_unit_zero (S := S1x4) hz2, View.ld_unit_zero (S := S4x1) hz2, View.ld_unit_zero (S := S1x1) hz2]
  rw [blk2_1 V c t, blk2_2 V c t, blk2_3 V c t, blk2_4 V c t, blk2_5 V c t]
  funext j
  rw [View.read_apply]
  have hj0 : (j 0).val < 4000 := (j 0).isLt
  have hj1 : (j 1).val < 1 := (j 1).isLt
  have hx : (cfg2.win 9).xinj (grid2.coords t) j = ix2 (⟨(j 0).val, hj0⟩ : Fin 4000) (⟨(j 1).val, hj1⟩ : Fin 1) := by
    funext a
    match a with | ⟨0, _⟩ => rfl | ⟨1, _⟩ => rfl
  have he : ((cfg2.win 9).blk t).view.emb j
      = ix2 (⟨4000 * t.val + (j 0).val, by omega⟩ : Fin 100000) (⟨(j 1).val, hj1⟩ : Fin 1) := by
    funext a
    apply Fin.ext
    match a with
    | ⟨0, _⟩ => show win2_9.index t (0 : Fin 2) * 4000 + 1 * (j 0).val = 4000 * t.val + (j 0).val; rw [e0]; omega
    | ⟨1, _⟩ => show win2_9.index t (1 : Fin 2) * 1 + 1 * (j 1).val = (j 1).val; rw [e1]; omega
  show k2_pay5 (F := Ideal) (iblk2 V c 0 t) (V c main_v85) (V c main_arg8) (V c main_v86) (V c main_arg10) (V c main_v87)
      ((cfg2.win 9).xinj (grid2.coords t) j) = G9 V c (((cfg2.win 9).blk t).view.emb j)
  rw [hx, he]
  exact row_h5 (V c main_v82) (V c main_v85) (V c main_arg8) (V c main_v86) (V c main_arg10) (V c main_v87)
    _ (iblk2 V c 0 t) _ (fun l => blk2_0 V c t _ l _ rfl) _

theorem cover2_8a (i : S100000x16.Idx) :
    ∃ t : Fin cfg2.N, (cfg2.win 8).flush t = true ∧ i ∈ ((cfg2.win 8).blk t).view.set := by
  have hi0 : (i 0).val < 100000 := (i 0).isLt
  have hi1 : (i 1).val < 16 := (i 1).isLt
  have hN : cfg2.N = 25 := N_2
  let t : Fin cfg2.N := ⟨(i 0).val / 4000, by rw [hN]; omega⟩
  have htv : t.val = (i 0).val / 4000 := rfl
  obtain ⟨-, -, -, -, -, -, -, -, -, -, -, -, -, -, -, -, e0, e1, -⟩ := idx2 t
  refine ⟨t, flush2_8 t, ?_⟩
  show i ∈ ((View.whole main_v88_0).slice (win2_8.rect t)).set
  rw [View.set_slice_whole, Rect.mem_set_unit]
  intro a
  match a with
  | ⟨0, _⟩ =>
    show win2_8.index t (0 : Fin 2) * 4000 ≤ (i 0).val ∧ (i 0).val < win2_8.index t (0 : Fin 2) * 4000 + 4000
    rw [e0, htv]; omega
  | ⟨1, _⟩ =>
    show win2_8.index t (1 : Fin 2) * 16 ≤ (i 1).val ∧ (i 1).val < win2_8.index t (1 : Fin 2) * 16 + 16
    rw [e1]; omega

theorem cover2_9a (i : S100000x1.Idx) :
    ∃ t : Fin cfg2.N, (cfg2.win 9).flush t = true ∧ i ∈ ((cfg2.win 9).blk t).view.set := by
  have hi0 : (i 0).val < 100000 := (i 0).isLt
  have hi1 : (i 1).val < 1 := (i 1).isLt
  have hN : cfg2.N = 25 := N_2
  let t : Fin cfg2.N := ⟨(i 0).val / 4000, by rw [hN]; omega⟩
  have htv : t.val = (i 0).val / 4000 := rfl
  obtain ⟨-, -, -, -, -, -, -, -, -, -, -, -, -, -, -, -, -, -, e0, e1⟩ := idx2 t
  refine ⟨t, flush2_9 t, ?_⟩
  show i ∈ ((View.whole main_v88_1).slice (win2_9.rect t)).set
  rw [View.set_slice_whole, Rect.mem_set_unit]
  intro a
  match a with
  | ⟨0, _⟩ =>
    show win2_9.index t (0 : Fin 2) * 4000 ≤ (i 0).val ∧ (i 0).val < win2_9.index t (0 : Fin 2) * 4000 + 4000
    rw [e0, htv]; omega
  | ⟨1, _⟩ =>
    show win2_9.index t (1 : Fin 2) * 1 ≤ (i 1).val ∧ (i 1).val < win2_9.index t (1 : Fin 2) * 1 + 1
    rw [e1]; omega

theorem arr2_8 : (dat2 (F := Ideal) V c).arrAt 8 cfg2.N = G8 V c :=
  (dat2 (F := Ideal) V c).arrAt_eq_of_cover 8 (G8 V c) (fun t _ => flushed2_8 V c t) cover2_8a

theorem arr2_9 : (dat2 (F := Ideal) V c).arrAt 9 cfg2.N = G9 V c :=
  (dat2 (F := Ideal) V c).arrAt_eq_of_cover 9 (G9 V c) (fun t _ => flushed2_9 V c t) cover2_9a

end Blocks

end R2

variable [Cert.KernelIdeal.Facts]
variable (V : (c : Dev nD) → (b : Ref sig .tc) → Buf (Elt Ideal) ((c : Thread nD τ).loc b)) (c : Dev nD)

theorem r2_8 : (dat2 (F := Ideal) V c).arrAt 8 cfg2.N = Reg.gy3 (V c main_v82) (V c main_v85) (V c main_arg8) (V c main_v86) (V c main_arg10) (V c main_v87) (V c main_v83) (V c main_v84) :=
  R2.arr2_8 V c

theorem r2_9 : (dat2 (F := Ideal) V c).arrAt 9 cfg2.N = Reg.h5 (V c main_v82) (V c main_v85) (V c main_arg8) (V c main_v86) (V c main_arg10) (V c main_v87) :=
  R2.arr2_9 V c

end Cert.Proof.RegVal

end
-- ==== Proof.RegVal3.lean ====
import proofs.«408045_j39298950758801_3_alg».proof.Proof.Gen.KernelIdeal.Frame
import proofs.«408045_j39298950758801_3_alg».proof.Proof.RegSpec
import proofs.«408045_j39298950758801_3_alg».proof.Proof.RegMat
import Idealize.ShloMosaic.Lib.Pipeline.Value
import Idealize.ShloMosaic.Lib.ValueIdx
import Idealize.ShloMosaic.PureOps.Ideal.Laws
import Idealize.ShloMosaic.Lib.KernelVsHost
import Idealize.ShloMosaic.Lib.StackMember

set_option maxRecDepth 16384

noncomputable section

namespace Cert.Proof.RegVal

open Cert.KernelIdeal Cert.KernelIdeal.Gen Idealize.ShloMosaic Idealize.ShloMosaic.TcCoe Idealize.ShloMosaic.ValueIdx
open Idealize.ShloMosaic.Pipeline (Dat Cfg Window)

namespace R3

theorem mm_16_16 (A : FVec Ideal S4000x16 .f32) (B : FVec Ideal S16x16 .f32) (a : Fin 4000) (b : Fin 16) :
    matmul dot_S4000x16_S16x16_S4000x16_1_0_0_1_n_n none A B (constant S4000x16 .f32 0x00000000#32) (ix2 a b)
      = ∑ c : Fin 16, A (ix2 a c) * B (ix2 c b) := matmul_plain_at _ rfl A B a b

theorem pay3_at (v0 : Vec Ideal S4000x16 .f32) (v2 : Vec Ideal S16x16 .f32) (v5 : Vec Ideal S4000x16 .f32)
    (v13 : Vec Ideal S16x16 .f32) (v16 : Vec Ideal S4000x16 .f32) (p : Fin 4000) (q : Fin 16) :
    k3_pay1 (F := Ideal) v0 v2 v5 v13 v16 (ix2 p q)
      = (∑ k : Fin 16, ((∑ l : Fin 16, v0 (ix2 p l) * v2 (ix2 l k)) * Reg.lkg (v5 (ix2 p k))) * v13 (ix2 k q))
          * Reg.lkg (v16 (ix2 p q)) := by
  unfold k3_pay1
  simp only [shapeCast_self]
  rw [mulf_apply, mm_16_16]
  refine congrArg₂ (· * ·) (Finset.sum_congr rfl fun k _ => ?_) ?_
  · rw [mulf_apply, mm_16_16]
    rfl
  · rfl

theorem pay3_is_gy1 (x0 x1 x2 : Vec Ideal S4000x16 .f32) (x3 x4 : Vec Ideal S16x16 .f32)
    (A0 A1 A2 : Reg.M 100000 16) (p : Fin 4000) (q : Fin 16) (r : Fin 100000)
    (h0 : ∀ l : Fin 16, x0 (ix2 p l) = A0 (ix2 r l))
    (h1 : x1 (ix2 p q) = A1 (ix2 r q))
    (h2 : ∀ k : Fin 16, x2 (ix2 p k) = A2 (ix2 r k)) :
    k3_pay1 (F := Ideal) x0 x4 x2 x3 x1 (ix2 p q) = Reg.gy1 A0 A1 A2 x3 x4 (ix2 r q) := by
  rw [pay3_at]
  unfold Reg.gy1 Reg.gy2
  simp only [h0, h1, h2]

theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt25 (t : Fin cfg3.N) : t.val < 25 := Nat.lt_of_lt_of_eq t.isLt N_3

section Blocks
variable (V : (c : Dev nD) → (b : Ref sig .tc) → Buf (Elt Ideal) ((c : Thread nD τ).loc b)) (c : Dev nD)

theorem blk3_0 (t : Fin cfg3.N) (p : Fin 4000) (l : Fin 16) (r : Fin 100000) (hr : r.val = 4000 * t.val + p.val) :
    (iblk3 V c 0 t : Vec Ideal S4000x16 .f32) (ix2 p l) = (V c main_v104 : Reg.M 100000 16) (ix2 r l) := by
  obtain ⟨e0, e1, -⟩ := idx3 t
  unfold iblk3
  rw [View.read_apply]
  show V c main_v104 _ = V c main_v104 _
  refine congrArg _ (funext fun a => Fin.ext ?_)
  match a with
  | ⟨0, _⟩ => show win3_0.index t (0 : Fin 2) * 4000 + 1 * p.val = r.val; rw [e0, hr]; omega
  | ⟨1, _⟩ => show win3_0.index t (1 : Fin 2) * 16 + 1 * l.val = l.val; rw [e1]; omega

theorem blk3_1 (t : Fin cfg3.N) (p : Fin 4000) (l : Fin 16) (r : Fin 100000) (hr : r.val = 4000 * t.val + p.val) :
    (iblk3 V c 1 t : Vec Ideal S4000x16 .f32) (ix2 p l) = (V c main_v69_0 : Reg.M 100000 16) (ix2 r l) := by
  obtain ⟨-, -, e0, e1, -⟩ := idx3 t
  unfold iblk3
  rw [View.read_apply]
  show V c main_v69_0 _ = V c main_v69_0 _
  refine congrArg _ (funext fun a => Fin.ext ?_)
  match a with
  | ⟨0, _⟩ => show win3_1.index t (0 : Fin 2) * 4000 + 1 * p.val = r.val; rw [e0, hr]; omega
  | ⟨1, _⟩ => show win3_1.index t (1 : Fin 2) * 16 + 1 * l.val = l.val; rw [e1]; omega

theorem blk3_2 (t : Fin cfg3.N) (p : Fin 4000) (l : Fin 16) (r : Fin 100000) (hr : r.val = 4000 * t.val + p.val) :
    (iblk3 V c 2 t : Vec Ideal S4000x16 .f32) (ix2 p l) = (V c main_v69_1 : Reg.M 100000 16) (ix2 r l) := by
  obtain ⟨-, -, -, -, e0, e1, -⟩ := idx3 t
  unfold iblk3
  rw [View.read_apply]
  show V c main_v69_1 _ = V c main_v69_1 _
  refine congrArg _ (funext fun a => Fin.ext ?_)
  match a with
  | ⟨0, _⟩ => show win3_2.index t (0 : Fin 2) * 4000 + 1 * p.val = r.val; rw [e0, hr]; omega
  | ⟨1, _⟩ => show win3_2.index t (1 : Fin 2) * 16 + 1 * l.val = l.val; rw [e1]; omega

theorem blk3_3 (t : Fin cfg3.N) : (iblk3 V c 3 t : Vec Ideal S16x16 .f32) = (V c main_v107 : Reg.M 16 16) := by
  obtain ⟨-, -, -, -, -, -, e0, e1, -⟩ := idx3 t
  funext y
  unfold iblk3
  rw [View.read_apply]
  show V c main_v107 _ = V c main_v107 _
  refine congrArg _ (funext fun a => Fin.ext ?_)
  match a with
  | ⟨0, _⟩ => show win3_3.index t (0 : Fin 2) * 16 + 1 * (y 0).val = (y 0).val; rw [e0]; omega
  | ⟨1, _⟩ => show win3_3.index t (1 : Fin 2) * 16 + 1 * (y 1).val = (y 1).val; rw [e1]; omega

theorem blk3_4 (t : Fin cfg3.N) : (iblk3 V c 4 t : Vec Ideal S16x16 .f32) = (V c main_v108 : Reg.M 16 16) := by
  obtain ⟨-, -, -, -, -, -, -, -, e0, e1, -⟩ := idx3 t
  funext y
  unfold iblk3
  rw [View.read_apply]
  show V c main_v108 _ = V c main_v108 _
  refine congrArg _ (funext fun a => Fin.ext ?_)
  match a with
  | ⟨0, _⟩ => show win3_4.index t (0 : Fin 2) * 16 + 1 * (y 0).val = (y 0).val; rw [e0]; omega
  | ⟨1, _⟩ => show win3_4.index t (1 : Fin 2) * 16 + 1 * (y 1).val = (y 1).val; rw [e1]; omega

abbrev G3 : Reg.M 100000 16 :=
  Reg.gy1 (V c main_v104) (V c main_v69_0) (V c main_v69_1) (V c main_v107) (V c main_v108)

theorem flushed3_5 (t : Fin cfg3.N) :
    (dat3 (F := Ideal) V c).flushed 5 t = ((cfg3.win 5).blk t).view.read (Elt Ideal) (G3 V c) := by
  have ht := lt25 t
  obtain ⟨-, -, -, -, -, -, -, -, -, -, e0, e1⟩ := idx3 t
  show (cfg3.win 5).cut (grid3.coords t) ((dat3 V c).after 5 t) = _
  rw [after3_5]
  unfold out3_5
  rw [View.canon_unit_zero hz2]
  simp only [View.ld_unit_zero (S := S4000x16) hz2, View.ld_unit_zero (S := S16x16) hz2]
  rw [blk3_3 V c t, blk3_4 V c t]
  funext j
  rw [View.read_apply]
  have hj0 : (j 0).val < 4000 := (j 0).isLt
  have hj1 : (j 1).val < 16 := (j 1).isLt
  have hx : (cfg3.win 5).xinj (grid3.coords t) j = ix2 (⟨(j 0).val, hj0⟩ : Fin 4000) (⟨(j 1).val, hj1⟩ : Fin 16) := by
    funext a
    match a with | ⟨0, _⟩ => rfl | ⟨1, _⟩ => rfl
  have he : ((cfg3.win 5).blk t).view.emb j
      = ix2 (⟨4000 * t.val + (j 0).val, by omega⟩ : Fin 100000) (⟨(j 1).val, hj1⟩ : Fin 16) := by
    funext a
    apply Fin.ext
    match a with
    | ⟨0, _⟩ => show win3_5.index t (0 : Fin 2) * 4000 + 1 * (j 0).val = 4000 * t.val + (j 0).val; rw [e0]; omega
    | ⟨1, _⟩ => show win3_5.index t (1 : Fin 2) * 16 + 1 * (j 1).val = (j 1).val; rw [e1]; omega
  show k3_pay1 (F := Ideal) (iblk3 V c 0 t) (V c main_v108) (iblk3 V c 2 t) (V c main_v107) (iblk3 V c 1 t)
      ((cfg3.win 5).xinj (grid3.coords t) j) = G3 V c (((cfg3.win 5).blk t).view.emb j)
  rw [hx, he]
  exact pay3_is_gy1 (iblk3 V c 0 t) (iblk3 V c 1 t) (iblk3 V c 2 t) (V c main_v107) (V c main_v108)
    (V c main_v104) (V c main_v69_0) (V c main_v69_1) _ _ _
    (fun l => blk3_0 V c t _ l _ rfl) (blk3_1 V c t _ _ _ rfl) (fun k => blk3_2 V c t _ k _ rfl)

theorem cover3_5a (i : S100000x16.Idx) :
    ∃ t : Fin cfg3.N, (cfg3.win 5).flush t = true ∧ i ∈ ((cfg3.win 5).blk t).view.set := by
  have hi0 : (i 0).val < 100000 := (i 0).isLt
  have hi1 : (i 1).val < 16 := (i 1).isLt
  have hN : cfg3.N = 25 := N_3
  let t : Fin cfg3.N := ⟨(i 0).val / 4000, by rw [hN]; omega⟩
  have htv : t.val = (i 0).val / 4000 := rfl
  obtain ⟨-, -, -, -, -, -, -, -, -, -, e0, e1⟩ := idx3 t
  refine ⟨t, flush3_5 t, ?_⟩
  show i ∈ ((View.whole main_v109).slice (win3_5.rect t)).set
  rw [View.set_slice_whole, Rect.mem_set_unit]
  intro a
  match a with
  | ⟨0, _⟩ =>
    show win3_5.index t (0 : Fin 2) * 4000 ≤ (i 0).val ∧ (i 0).val < win3_5.index t (0 : Fin 2) * 4000 + 4000
    rw [e0, htv]; omega
  | ⟨1, _⟩ =>
    show win3_5.index t (1 : Fin 2) * 16 ≤ (i 1).val ∧ (i 1).val < win3_5.index t (1 : Fin 2) * 16 + 16
    rw [e1]; omega

theorem arr3_5 : (dat3 (F := Ideal) V c).arrAt 5 cfg3.N = G3 V c :=
  (dat3 (F := Ideal) V c).arrAt_eq_of_cover 5 (G3 V c) (fun t _ => flushed3_5 V c t) cover3_5a

end Blocks

end R3

variable [Cert.KernelIdeal.Facts]
variable (V : (c : Dev nD) → (b : Ref sig .tc) → Buf (Elt Ideal) ((c : Thread nD τ).loc b)) (c : Dev nD)

theorem r3_5 : (dat3 (F := Ideal) V c).arrAt 5 cfg3.N = Reg.gy1 (V c main_v104) (V c main_v69_0) (V c main_v69_1) (V c main_v107) (V c main_v108) :=
  R3.arr3_5 V c

end Cert.Proof.RegVal

end
-- ==== Proof.KerRunC.lean ====
import proofs.«408045_j39298950758801_3_alg».proof.Proof.KerRunB
import proofs.«408045_j39298950758801_3_alg».proof.Proof.RegVal0
import proofs.«408045_j39298950758801_3_alg».proof.Proof.RegVal1
import proofs.«408045_j39298950758801_3_alg».proof.Proof.RegVal2
import proofs.«408045_j39298950758801_3_alg».proof.Proof.RegVal3

set_option maxRecDepth 16384

noncomputable section

namespace Cert.Proof.Run

open Cert.KernelIdeal Cert.KernelIdeal.Gen Idealize.ShloMosaic Idealize.ShloMosaic.TcCoe Idealize.ShloMosaic.StableHlo
open Cert.Proof.Line

variable [Cert.KernelIdeal.Facts]
variable (m : (ℓ : Loc nD τ sig) → Buf (Elt Ideal) ℓ) (ρ : Dev nD → PrngReg) (c : Dev nD)

theorem R_main_v53 : W15 m ρ c (Proc.devRef .tc main_v53)
    = Reg.emb (W15 m ρ c (Proc.devRef .tc main_v52)) (W15 m ρ c (Proc.devRef .tc main_v51)) := by
  have h52 : V5 m ρ c main_v52 = W15 m ρ c (Proc.devRef .tc main_v52) := (stable5 m ρ c main_v52 (by decide)).symm
  have h51 : V5 m ρ c main_v51 = W15 m ρ c (Proc.devRef .tc main_v51) := (stable5 m ρ c main_v51 (by decide)).symm
  rw [← h52, ← h51]
  exact (stable6 m ρ c main_v53 (by decide)).trans ((W6_arr m ρ c 2).trans (RegVal.r0_2 (V5 m ρ) c))

theorem R_main_v69_0 : W15 m ρ c (Proc.devRef .tc main_v69_0)
    = Reg.y1 (W15 m ρ c (Proc.devRef .tc main_v66)) (W15 m ρ c (Proc.devRef .tc main_v67)) := by
  have h66 : V7 m ρ c main_v66 = W15 m ρ c (Proc.devRef .tc main_v66) := (stable7 m ρ c main_v66 (by decide)).symm
  have h67 : V7 m ρ c main_v67 = W15 m ρ c (Proc.devRef .tc main_v67) := (stable7 m ρ c main_v67 (by decide)).symm
  rw [← h66, ← h67]
  exact (stable8 m ρ c main_v69_0 (by decide)).trans ((W8_arr m ρ c 5).trans (RegVal.r1_5 (V7 m ρ) c))

theorem R_main_v69_1 : W15 m ρ c (Proc.devRef .tc main_v69_1)
    = Reg.y2 (W15 m ρ c (Proc.devRef .tc main_v66)) (W15 m ρ c (Proc.devRef .tc main_v67))
        (W15 m ρ c (Proc.devRef .tc main_arg4)) (W15 m ρ c (Proc.devRef .tc main_v68)) := by
  have h66 : V7 m ρ c main_v66 = W15 m ρ c (Proc.devRef .tc main_v66) := (stable7 m ρ c main_v66 (by decide)).symm
  have h67 : V7 m ρ c main_v67 = W15 m ρ c (Proc.devRef .tc main_v67) := (stable7 m ρ c main_v67 (by decide)).symm
  have h4 : V7 m ρ c main_arg4 = W15 m ρ c (Proc.devRef .tc main_arg4) := (stable7 m ρ c main_arg4 (by decide)).symm
  have h68 : V7 m ρ c main_v68 = W15 m ρ c (Proc.devRef .tc main_v68) := (stable7 m ρ c main_v68 (by decide)).symm
  rw [← h66, ← h67, ← h4, ← h68]
  exact (stable8 m ρ c main_v69_1 (by decide)).trans ((W8_arr m ρ c 6).trans (RegVal.r1_6 (V7 m ρ) c))

theorem R_main_v69_2 : W15 m ρ c (Proc.devRef .tc main_v69_2)
    = Reg.x2 (W15 m ρ c (Proc.devRef .tc main_v66)) (W15 m ρ c (Proc.devRef .tc main_v67))
        (W15 m ρ c (Proc.devRef .tc main_arg4)) (W15 m ρ c (Proc.devRef .tc main_v68))
        (W15 m ρ c (Proc.devRef .tc main_arg6)) := by
  have h66 : V7 m ρ c main_v66 = W15 m ρ c (Proc.devRef .tc main_v66) := (stable7 m ρ c main_v66 (by decide)).symm
  have h67 : V7 m ρ c main_v67 = W15 m ρ c (Proc.devRef .tc main_v67) := (stable7 m ρ c main_v67 (by decide)).symm
  have h4 : V7 m ρ c main_arg4 = W15 m ρ c (Proc.devRef .tc main_arg4) := (stable7 m ρ c main_arg4 (by decide)).symm
  have h68 : V7 m ρ c main_v68 = W15 m ρ c (Proc.devRef .tc main_v68) := (stable7 m ρ c main_v68 (by decide)).symm
  have h6 : V7 m ρ c main_arg6 = W15 m ρ c (Proc.devRef .tc main_arg6) := (stable7 m ρ c main_arg6 (by decide)).symm
  rw [← h66, ← h67, ← h4, ← h68, ← h6]
  exact (stable8 m ρ c main_v69_2 (by decide)).trans ((W8_arr m ρ c 7).trans (RegVal.r1_7 (V7 m ρ) c))

theorem R_main_v88_0 : W15 m ρ c (Proc.devRef .tc main_v88_0)
    = Reg.gy3 (W15 m ρ c (Proc.devRef .tc main_v82)) (W15 m ρ c (Proc.devRef .tc main_v85))
        (W15 m ρ c (Proc.devRef .tc main_arg8)) (W15 m ρ c (Proc.devRef .tc main_v86))
        (W15 m ρ c (Proc.devRef .tc main_arg10)) (W15 m ρ c (Proc.devRef .tc main_v87))
        (W15 m ρ c (Proc.devRef .tc main_v83)) (W15 m ρ c (Proc.devRef .tc main_v84)) := by
  have h82 : V9 m ρ c main_v82 = W15 m ρ c (Proc.devRef .tc main_v82) := (stable9 m ρ c main_v82 (by decide)).symm
  have h85 : V9 m ρ c main_v85 = W15 m ρ c (Proc.devRef .tc main_v85) := (stable9 m ρ c main_v85 (by decide)).symm
  have h8 : V9 m ρ c main_arg8 = W15 m ρ c (Proc.devRef .tc main_arg8) := (stable9 m ρ c main_arg8 (by decide)).symm
  have h86 : V9 m ρ c main_v86 = W15 m ρ c (Proc.devRef .tc main_v86) := (stable9 m ρ c main_v86 (by decide)).symm
  have h10 : V9 m ρ c main_arg10 = W15 m ρ c (Proc.devRef .tc main_arg10) := (stable9 m ρ c main_arg10 (by decide)).symm
  have h87 : V9 m ρ c main_v87 = W15 m ρ c (Proc.devRef .tc main_v87) := (stable9 m ρ c main_v87 (by decide)).symm
  have h83 : V9 m ρ c main_v83 = W15 m ρ c (Proc.devRef .tc main_v83) := (stable9 m ρ c main_v83 (by decide)).symm
  have h84 : V9 m ρ c main_v84 = W15 m ρ c (Proc.devRef .tc main_v84) := (stable9 m ρ c main_v84 (by decide)).symm
  rw [← h82, ← h85, ← h8, ← h86, ← h10, ← h87, ← h83, ← h84]
  exact (stable10 m ρ c main_v88_0 (by decide)).trans ((W10_arr m ρ c 8).trans (RegVal.r2_8 (V9 m ρ) c))

theorem R_main_v88_1 : W15 m ρ c (Proc.devRef .tc main_v88_1)
    = Reg.h5 (W15 m ρ c (Proc.devRef .tc main_v82)) (W15 m ρ c (Proc.devRef .tc main_v85))
        (W15 m ρ c (Proc.devRef .tc main_arg8)) (W15 m ρ c (Proc.devRef .tc main_v86))
        (W15 m ρ c (Proc.devRef .tc main_arg10)) (W15 m ρ c (Proc.devRef .tc main_v87)) := by
  have h82 : V9 m ρ c main_v82 = W15 m ρ c (Proc.devRef .tc main_v82) := (stable9 m ρ c main_v82 (by decide)).symm
  have h85 : V9 m ρ c main_v85 = W15 m ρ c (Proc.devRef .tc main_v85) := (stable9 m ρ c main_v85 (by decide)).symm
  have h8 : V9 m ρ c main_arg8 = W15 m ρ c (Proc.devRef .tc main_arg8) := (stable9 m ρ c main_arg8 (by decide)).symm
  have h86 : V9 m ρ c main_v86 = W15 m ρ c (Proc.devRef .tc main_v86) := (stable9 m ρ c main_v86 (by decide)).symm
  have h10 : V9 m ρ c main_arg10 = W15 m ρ c (Proc.devRef .tc main_arg10) := (stable9 m ρ c main_arg10 (by decide)).symm
  have h87 : V9 m ρ c main_v87 = W15 m ρ c (Proc.devRef .tc main_v87) := (stable9 m ρ c main_v87 (by decide)).symm
  rw [← h82, ← h85, ← h8, ← h86, ← h10, ← h87]
  exact (stable10 m ρ c main_v88_1 (by decide)).trans ((W10_arr m ρ c 9).trans (RegVal.r2_9 (V9 m ρ) c))

theorem R_main_v109 : W15 m ρ c (Proc.devRef .tc main_v109)
    = Reg.gy1 (W15 m ρ c (Proc.devRef .tc main_v104)) (W15 m ρ c (Proc.devRef .tc main_v69_0))
        (W15 m ρ c (Proc.devRef .tc main_v69_1)) (W15 m ρ c (Proc.devRef .tc main_v107))
        (W15 m ρ c (Proc.devRef .tc main_v108)) := by
  have h104 : V11 m ρ c main_v104 = W15 m ρ c (Proc.devRef .tc main_v104) := (stable11 m ρ c main_v104 (by decide)).symm
  have h690 : V11 m ρ c main_v69_0 = W15 m ρ c (Proc.devRef .tc main_v69_0) := (stable11 m ρ c main_v69_0 (by decide)).symm
  have h691 : V11 m ρ c main_v69_1 = W15 m ρ c (Proc.devRef .tc main_v69_1) := (stable11 m ρ c main_v69_1 (by decide)).symm
  have h107 : V11 m ρ c main_v107 = W15 m ρ c (Proc.devRef .tc main_v107) := (stable11 m ρ c main_v107 (by decide)).symm
  have h108 : V11 m ρ c main_v108 = W15 m ρ c (Proc.devRef .tc main_v108) := (stable11 m ρ c main_v108 (by decide)).symm
  rw [← h104, ← h690, ← h691, ← h107, ← h108]
  exact (stable12 m ρ c main_v109 (by decide)).trans ((W12_arr m ρ c 5).trans (RegVal.r3_5 (V11 m ρ) c))

end Cert.Proof.Run

end
-- ==== Proof.KerRunD.lean ====
import Mathlib.Logic.Basic

namespace Cert.Proof.Run

theorem cast_fn1 {A0 A : Type} (g : A0 → A) (h0 : A0 = A0) (h : A = A) (x0 : A0) :
    cast h (g (cast h0 x0)) = g x0 := by rw [cast_eq, cast_eq]

theorem cast_fn3 {A0 A1 A2 A : Type} (g : A0 → A1 → A2 → A) (h0 : A0 = A0) (h1 : A1 = A1) (h2 : A2 = A2) (h : A = A)
    (x0 : A0) (x1 : A1) (x2 : A2) :
    cast h (g (cast h0 x0) (cast h1 x1) (cast h2 x2)) = g x0 x1 x2 := by rw [cast_eq, cast_eq, cast_eq, cast_eq]

end Cert.Proof.Run
-- ==== Proof.KerRunT.lean ====
import proofs.«408045_j39298950758801_3_alg».proof.Proof.KerRunC
import proofs.«408045_j39298950758801_3_alg».proof.Proof.KerRunD

set_option maxRecDepth 16384

noncomputable section

namespace Cert.Proof.Run

open Cert.KernelIdeal Cert.KernelIdeal.Gen Idealize.ShloMosaic Idealize.ShloMosaic.TcCoe Cert.Proof.Line

variable [Cert.KernelIdeal.Facts]
variable (m : (ℓ : Loc nD τ sig) → Buf (Elt Ideal) ℓ) (ρ : Dev nD → PrngReg) (c : Dev nD)

theorem K_main_v0 : W15 m ρ c (Proc.devRef .tc main_v0) = Kv.main_v0 Reg.fns (launchArgs m c) :=
  ((st_hostOps0 m ρ c).unary 0 rfl (by decide) (by decide)).trans (by rw [K_main_arg13 m ρ c]; rfl)
theorem K_main_v1 : W15 m ρ c (Proc.devRef .tc main_v1) = Kv.main_v1 Reg.fns (launchArgs m c) :=
  ((st_hostOps0 m ρ c).reshape 1 rfl (by decide) (by decide)).trans (by rw [K_main_v0 m ρ c]; rfl)
theorem K_main_v2 : W15 m ρ c (Proc.devRef .tc main_v2) = Kv.main_v2 Reg.fns (launchArgs m c) :=
  ((st_hostOps0 m ρ c).unary 2 rfl (by decide) (by decide)).trans (by rw [K_main_arg13 m ρ c]; rfl)
theorem K_main_v3 : W15 m ρ c (Proc.devRef .tc main_v3) = Kv.main_v3 Reg.fns (launchArgs m c) :=
  ((st_hostOps0 m ρ c).reshape 3 rfl (by decide) (by decide)).trans (by rw [K_main_v2 m ρ c]; rfl)
theorem K_main_c : W15 m ρ c (Proc.devRef .tc main_c) = Kv.main_c Reg.fns (launchArgs m c) :=
  ((st_hostOps0 m ρ c).nullary 4 rfl (by decide)).trans (rfl)
theorem K_main_v4 : W15 m ρ c (Proc.devRef .tc main_v4) = Kv.main_v4 Reg.fns (launchArgs m c) :=
  ((st_hostOps0 m ρ c).unary 5 rfl (by decide) (by decide)).trans (by rw [K_main_c m ρ c]; rfl)
theorem K_main_v5 : W15 m ρ c (Proc.devRef .tc main_v5) = Kv.main_v5 Reg.fns (launchArgs m c) :=
  ((st_hostOps0 m ρ c).binary 6 rfl (by decide) (by decide) (by decide)).trans (by rw [K_main_v1 m ρ c, K_main_v4 m ρ c]; rfl)
theorem K_main_c_0 : W15 m ρ c (Proc.devRef .tc main_c_0) = Kv.main_c_0 Reg.fns (launchArgs m c) :=
  ((st_hostOps0 m ρ c).nullary 7 rfl (by decide)).trans (rfl)
theorem K_main_v6 : W15 m ρ c (Proc.devRef .tc main_v6) = Kv.main_v6 Reg.fns (launchArgs m c) :=
  ((st_hostOps0 m ρ c).unary 8 rfl (by decide) (by decide)).trans (by rw [K_main_c_0 m ρ c]; rfl)
theorem K_main_v7 : W15 m ρ c (Proc.devRef .tc main_v7) = Kv.main_v7 Reg.fns (launchArgs m c) :=
  ((st_hostOps0 m ρ c).binary 9 rfl (by decide) (by decide) (by decide)).trans (by rw [K_main_v1 m ρ c, K_main_v6 m ρ c]; rfl)
theorem K_main_v8 : W15 m ρ c (Proc.devRef .tc main_v8) = Kv.main_v8 Reg.fns (launchArgs m c) :=
  ((st_hostOps0 m ρ c).ternary 10 rfl (by decide) (by decide) (by decide) (by decide)).trans (by rw [K_main_v5 m ρ c, K_main_v7 m ρ c, K_main_v1 m ρ c]; rfl)
theorem K_main_v9 : W15 m ρ c (Proc.devRef .tc main_v9) = Kv.main_v9 Reg.fns (launchArgs m c) :=
  ((st_hostOps0 m ρ c).unary 11 rfl (by decide) (by decide)).trans (by rw [K_main_v8 m ρ c]; rfl)
theorem K_main_v10 : W15 m ρ c (Proc.devRef .tc main_v10) = Kv.main_v10 Reg.fns (launchArgs m c) :=
  ((st_hostOps0 m ρ c).binary 12 rfl (by decide) (by decide) (by decide)).trans (by rw [K_main_arg0 m ρ c, K_main_v9 m ρ c]; rfl)
theorem K_main_c_1 : W15 m ρ c (Proc.devRef .tc main_c_1) = Kv.main_c_1 Reg.fns (launchArgs m c) :=
  ((st_hostOps0 m ρ c).nullary 13 rfl (by decide)).trans (rfl)
theorem K_main_v11 : W15 m ρ c (Proc.devRef .tc main_v11) = Kv.main_v11 Reg.fns (launchArgs m c) :=
  ((st_hostOps0 m ρ c).unary 14 rfl (by decide) (by decide)).trans (by rw [K_main_c_1 m ρ c]; rfl)
theorem K_main_v12 : W15 m ρ c (Proc.devRef .tc main_v12) = Kv.main_v12 Reg.fns (launchArgs m c) :=
  ((st_hostOps0 m ρ c).binary 15 rfl (by decide) (by decide) (by decide)).trans (by rw [K_main_v3 m ρ c, K_main_v11 m ρ c]; rfl)
theorem K_main_c_2 : W15 m ρ c (Proc.devRef .tc main_c_2) = Kv.main_c_2 Reg.fns (launchArgs m c) :=
  ((st_hostOps0 m ρ c).nullary 16 rfl (by decide)).trans (rfl)
theorem K_main_v13 : W15 m ρ c (Proc.devRef .tc main_v13) = Kv.main_v13 Reg.fns (launchArgs m c) :=
  ((st_hostOps0 m ρ c).unary 17 rfl (by decide) (by decide)).trans (by rw [K_main_c_2 m ρ c]; rfl)
theorem K_main_v14 : W15 m ρ c (Proc.devRef .tc main_v14) = Kv.main_v14 Reg.fns (launchArgs m c) :=
  ((st_hostOps0 m ρ c).binary 18 rfl (by decide) (by decide) (by decide)).trans (by rw [K_main_v3 m ρ c, K_main_v13 m ρ c]; rfl)
theorem K_main_v15 : W15 m ρ c (Proc.devRef .tc main_v15) = Kv.main_v15 Reg.fns (launchArgs m c) :=
  ((st_hostOps0 m ρ c).ternary 19 rfl (by decide) (by decide) (by decide) (by decide)).trans (by rw [K_main_v12 m ρ c, K_main_v14 m ρ c, K_main_v3 m ρ c]; rfl)
theorem K_main_v16 : W15 m ρ c (Proc.devRef .tc main_v16) = Kv.main_v16 Reg.fns (launchArgs m c) :=
  ((st_hostOps0 m ρ c).unary 20 rfl (by decide) (by decide)).trans (by rw [K_main_v15 m ρ c]; rfl)
theorem K_main_v17 : W15 m ρ c (Proc.devRef .tc main_v17) = Kv.main_v17 Reg.fns (launchArgs m c) :=
  ((st_hostOps0 m ρ c).binary 21 rfl (by decide) (by decide) (by decide)).trans (by rw [K_main_arg0 m ρ c, K_main_v16 m ρ c]; rfl)
theorem K_main_v18 : W15 m ρ c (Proc.devRef .tc main_v18) = Kv.main_v18 Reg.fns (launchArgs m c) :=
  ((st_hostOps0 m ρ c).binary 22 rfl (by decide) (by decide) (by decide)).trans (by rw [K_main_v10 m ρ c, K_main_v17 m ρ c]; rfl)
theorem K_main_v19 : W15 m ρ c (Proc.devRef .tc main_v19) = Kv.main_v19 Reg.fns (launchArgs m c) :=
  ((st_hostOps0 m ρ c).binary 23 rfl (by decide) (by decide) (by decide)).trans (by rw [K_main_v18 m ρ c]; rfl)
theorem K_main_cst : W15 m ρ c (Proc.devRef .tc main_cst) = Kv.main_cst Reg.fns (launchArgs m c) :=
  ((st_hostOps0 m ρ c).nullary 24 rfl (by decide)).trans (rfl)
theorem K_main_v20 : W15 m ρ c (Proc.devRef .tc main_v20) = Kv.main_v20 Reg.fns (launchArgs m c) :=
  ((st_hostOps0 m ρ c).binary 25 rfl (by decide) (by decide) (by decide)).trans (by rw [K_main_v19 m ρ c, K_main_cst m ρ c]; rfl)
theorem K_main_v21 : W15 m ρ c (Proc.devRef .tc main_v21) = Kv.main_v21 Reg.fns (launchArgs m c) :=
  ((st_hostOps0 m ρ c).unary 26 rfl (by decide) (by decide)).trans (by rw [K_main_v20 m ρ c]; rfl)
theorem K_main_v22 : W15 m ρ c (Proc.devRef .tc main_v22) = Kv.main_v22 Reg.fns (launchArgs m c) :=
  ((st_hostOps0 m ρ c).nullary 27 rfl (by decide)).trans (rfl)
theorem K_main_v23 : W15 m ρ c (Proc.devRef .tc main_v23) = Kv.main_v23 Reg.fns (launchArgs m c) :=
  ((st_hostOps0 m ρ c).binary 28 rfl (by decide) (by decide) (by decide)).trans (by rw [K_main_v1 m ρ c, K_main_v22 m ρ c]; rfl)
theorem K_main_v24 : W15 m ρ c (Proc.devRef .tc main_v24) = Kv.main_v24 Reg.fns (launchArgs m c) :=
  ((st_hostOps0 m ρ c).binary 29 rfl (by decide) (by decide) (by decide)).trans (by rw [K_main_v3 m ρ c, K_main_v22 m ρ c]; rfl)
theorem K_main_cst_3 : W15 m ρ c (Proc.devRef .tc main_cst_3) = Kv.main_cst_3 Reg.fns (launchArgs m c) :=
  ((st_hostOps0 m ρ c).nullary 30 rfl (by decide)).trans (rfl)
theorem K_main_v25 : W15 m ρ c (Proc.devRef .tc main_v25) = Kv.main_v25 Reg.fns (launchArgs m c) :=
  ((st_hostOps0 m ρ c).unary 31 rfl (by decide) (by decide)).trans (by rw [K_main_cst_3 m ρ c]; rfl)
theorem K_main_v26 : W15 m ρ c (Proc.devRef .tc main_v26) = Kv.main_v26 Reg.fns (launchArgs m c) :=
  ((st_hostOps0 m ρ c).binary 32 rfl (by decide) (by decide) (by decide)).trans (by rw [K_main_v21 m ρ c, K_main_v25 m ρ c]; rfl)
theorem K_main_cst_4 : W15 m ρ c (Proc.devRef .tc main_cst_4) = Kv.main_cst_4 Reg.fns (launchArgs m c) :=
  ((st_hostOps0 m ρ c).nullary 33 rfl (by decide)).trans (rfl)
theorem K_main_v27 : W15 m ρ c (Proc.devRef .tc main_v27) = Kv.main_v27 Reg.fns (launchArgs m c) :=
  ((st_hostOps0 m ρ c).unary 34 rfl (by decide) (by decide)).trans (by rw [K_main_cst_4 m ρ c]; rfl)
theorem K_main_v28 : W15 m ρ c (Proc.devRef .tc main_v28) = Kv.main_v28 Reg.fns (launchArgs m c) :=
  ((st_hostOps0 m ρ c).unary 35 rfl (by decide) (by decide)).trans (by rw [K_main_v24 m ρ c]; rfl)
theorem K_main_v29 : W15 m ρ c (Proc.devRef .tc main_v29) = Kv.main_v29 Reg.fns (launchArgs m c) :=
  ((st_hostOps0 m ρ c).ternary 36 rfl (by decide) (by decide) (by decide) (by decide)).trans (by rw [K_main_v27 m ρ c, K_main_v28 m ρ c, K_main_v26 m ρ c]; rfl)
theorem K_main_cst_5 : W15 m ρ c (Proc.devRef .tc main_cst_5) = Kv.main_cst_5 Reg.fns (launchArgs m c) :=
  ((st_hostOps0 m ρ c).nullary 37 rfl (by decide)).trans (rfl)
theorem K_main_v30 : W15 m ρ c (Proc.devRef .tc main_v30) = Kv.main_v30 Reg.fns (launchArgs m c) :=
  ((st_hostOps0 m ρ c).unary 38 rfl (by decide) (by decide)).trans (by rw [K_main_cst_5 m ρ c]; rfl)
theorem K_main_v31 : W15 m ρ c (Proc.devRef .tc main_v31) = Kv.main_v31 Reg.fns (launchArgs m c) :=
  ((st_hostOps0 m ρ c).binary 39 rfl (by decide) (by decide) (by decide)).trans (by rw [K_main_v29 m ρ c, K_main_v30 m ρ c]; rfl)
theorem K_main_v32 : W15 m ρ c (Proc.devRef .tc main_v32) = Kv.main_v32 Reg.fns (launchArgs m c) :=
  ((st_hostOps0 m ρ c).unary 40 rfl (by decide) (by decide)).trans (by rw [K_main_v29 m ρ c]; rfl)
theorem K_main_cst_6 : W15 m ρ c (Proc.devRef .tc main_cst_6) = Kv.main_cst_6 Reg.fns (launchArgs m c) :=
  ((st_hostOps0 m ρ c).nullary 41 rfl (by decide)).trans (rfl)

theorem K_main_call0_v0 : W15 m ρ c (Proc.devRef .tc main_call0_v0) = Kv.main_call0_v0 Reg.fns (launchArgs m c) :=
  ((st_hostOps0_1 m ρ c).unary 0 rfl (by decide) (by decide)).trans (by rw [K_main_cst_6 m ρ c]; unfold Kv.main_call0_v0; exact cast_fn1 _ _ _ _)
theorem K_main_call0_v1 : W15 m ρ c (Proc.devRef .tc main_call0_v1) = Kv.main_call0_v1 Reg.fns (launchArgs m c) :=
  ((st_hostOps0_1 m ρ c).unary 1 rfl (by decide) (by decide)).trans (by rw [K_main_call0_v0 m ρ c]; unfold Kv.main_call0_v1; exact cast_fn1 _ _ _ _)
theorem K_main_v33 : W15 m ρ c (Proc.devRef .tc main_v33) = Kv.main_v33 Reg.fns (launchArgs m c) :=
  ((st_hostOps0_1 m ρ c).ternary 2 rfl (by decide) (by decide) (by decide) (by decide)).trans (by rw [K_main_v31 m ρ c, K_main_v32 m ρ c, K_main_call0_v1 m ρ c]; unfold Kv.main_v33; exact cast_fn3 _ _ _ _ _ _ _ _)

theorem K_main_c_7 : W15 m ρ c (Proc.devRef .tc main_c_7) = Kv.main_c_7 Reg.fns (launchArgs m c) :=
  ((st_hostOps0_2 m ρ c).nullary 0 rfl (by decide)).trans (rfl)
theorem K_main_v34 : W15 m ρ c (Proc.devRef .tc main_v34) = Kv.main_v34 Reg.fns (launchArgs m c) :=
  ((st_hostOps0_2 m ρ c).unary 1 rfl (by decide) (by decide)).trans (by rw [K_main_c_7 m ρ c]; rfl)
theorem K_main_v35 : W15 m ρ c (Proc.devRef .tc main_v35) = Kv.main_v35 Reg.fns (launchArgs m c) :=
  ((st_hostOps0_2 m ρ c).binary 2 rfl (by decide) (by decide) (by decide)).trans (by rw [K_main_v23 m ρ c, K_main_v34 m ρ c]; rfl)
theorem K_main_c_8 : W15 m ρ c (Proc.devRef .tc main_c_8) = Kv.main_c_8 Reg.fns (launchArgs m c) :=
  ((st_hostOps0_2 m ρ c).nullary 3 rfl (by decide)).trans (rfl)
theorem K_main_v36 : W15 m ρ c (Proc.devRef .tc main_v36) = Kv.main_v36 Reg.fns (launchArgs m c) :=
  ((st_hostOps0_2 m ρ c).unary 4 rfl (by decide) (by decide)).trans (by rw [K_main_c_8 m ρ c]; rfl)
theorem K_main_v37 : W15 m ρ c (Proc.devRef .tc main_v37) = Kv.main_v37 Reg.fns (launchArgs m c) :=
  ((st_hostOps0_2 m ρ c).binary 5 rfl (by decide) (by decide) (by decide)).trans (by rw [K_main_v23 m ρ c, K_main_v36 m ρ c]; rfl)
theorem K_main_v38 : W15 m ρ c (Proc.devRef .tc main_v38) = Kv.main_v38 Reg.fns (launchArgs m c) :=
  ((st_hostOps0_2 m ρ c).ternary 6 rfl (by decide) (by decide) (by decide) (by decide)).trans (by rw [K_main_v35 m ρ c, K_main_v37 m ρ c, K_main_v23 m ρ c]; rfl)
theorem K_main_v39 : W15 m ρ c (Proc.devRef .tc main_v39) = Kv.main_v39 Reg.fns (launchArgs m c) :=
  ((st_hostOps0_2 m ρ c).unary 7 rfl (by decide) (by decide)).trans (by rw [K_main_v38 m ρ c]; rfl)
theorem K_main_v40 : W15 m ρ c (Proc.devRef .tc main_v40) = Kv.main_v40 Reg.fns (launchArgs m c) :=
  ((st_hostOps0_2 m ρ c).binary 8 rfl (by decide) (by decide) (by decide)).trans (by rw [K_main_v33 m ρ c, K_main_v39 m ρ c]; rfl)
theorem K_main_v41 : W15 m ρ c (Proc.devRef .tc main_v41) = Kv.main_v41 Reg.fns (launchArgs m c) :=
  ((st_hostOps0_2 m ρ c).binary 9 rfl (by decide) (by decide) (by decide)).trans (by rw [K_main_v40 m ρ c, K_main_v26 m ρ c]; rfl)
theorem K_main_c_9 : W15 m ρ c (Proc.devRef .tc main_c_9) = Kv.main_c_9 Reg.fns (launchArgs m c) :=
  ((st_hostOps0_2 m ρ c).nullary 10 rfl (by decide)).trans (rfl)
theorem K_main_v42 : W15 m ρ c (Proc.devRef .tc main_v42) = Kv.main_v42 Reg.fns (launchArgs m c) :=
  ((st_hostOps0_2 m ρ c).unary 11 rfl (by decide) (by decide)).trans (by rw [K_main_c_9 m ρ c]; rfl)
theorem K_main_v43 : W15 m ρ c (Proc.devRef .tc main_v43) = Kv.main_v43 Reg.fns (launchArgs m c) :=
  ((st_hostOps0_2 m ρ c).binary 12 rfl (by decide) (by decide) (by decide)).trans (by rw [K_main_v24 m ρ c, K_main_v42 m ρ c]; rfl)
theorem K_main_c_10 : W15 m ρ c (Proc.devRef .tc main_c_10) = Kv.main_c_10 Reg.fns (launchArgs m c) :=
  ((st_hostOps0_2 m ρ c).nullary 13 rfl (by decide)).trans (rfl)
theorem K_main_v44 : W15 m ρ c (Proc.devRef .tc main_v44) = Kv.main_v44 Reg.fns (launchArgs m c) :=
  ((st_hostOps0_2 m ρ c).unary 14 rfl (by decide) (by decide)).trans (by rw [K_main_c_10 m ρ c]; rfl)
theorem K_main_v45 : W15 m ρ c (Proc.devRef .tc main_v45) = Kv.main_v45 Reg.fns (launchArgs m c) :=
  ((st_hostOps0_2 m ρ c).binary 15 rfl (by decide) (by decide) (by decide)).trans (by rw [K_main_v24 m ρ c, K_main_v44 m ρ c]; rfl)
theorem K_main_v46 : W15 m ρ c (Proc.devRef .tc main_v46) = Kv.main_v46 Reg.fns (launchArgs m c) :=
  ((st_hostOps0_2 m ρ c).ternary 16 rfl (by decide) (by decide) (by decide) (by decide)).trans (by rw [K_main_v43 m ρ c, K_main_v45 m ρ c, K_main_v24 m ρ c]; rfl)
theorem K_main_v47 : W15 m ρ c (Proc.devRef .tc main_v47) = Kv.main_v47 Reg.fns (launchArgs m c) :=
  ((st_hostOps0_2 m ρ c).unary 17 rfl (by decide) (by decide)).trans (by rw [K_main_v46 m ρ c]; rfl)
theorem K_main_v48 : W15 m ρ c (Proc.devRef .tc main_v48) = Kv.main_v48 Reg.fns (launchArgs m c) :=
  ((st_hostOps0_2 m ρ c).binary 18 rfl (by decide) (by decide) (by decide)).trans (by rw [K_main_v33 m ρ c, K_main_v47 m ρ c]; rfl)
theorem K_main_v49 : W15 m ρ c (Proc.devRef .tc main_v49) = Kv.main_v49 Reg.fns (launchArgs m c) :=
  ((st_hostOps0_2 m ρ c).binary 19 rfl (by decide) (by decide) (by decide)).trans (by rw [K_main_v41 m ρ c, K_main_v48 m ρ c]; rfl)
theorem K_main_v50 : W15 m ρ c (Proc.devRef .tc main_v50) = Kv.main_v50 Reg.fns (launchArgs m c) :=
  ((st_hostOps0_2 m ρ c).binary 20 rfl (by decide) (by decide) (by decide)).trans (by rw [K_main_arg1 m ρ c, K_main_arg2 m ρ c]; rfl)
theorem K_main_c_11 : W15 m ρ c (Proc.devRef .tc main_c_11) = Kv.main_c_11 Reg.fns (launchArgs m c) :=
  ((st_hostOps0_2 m ρ c).nullary 21 rfl (by decide)).trans (rfl)

theorem K_main_call1_v0 : W15 m ρ c (Proc.devRef .tc main_call1_v0) = Kv.main_call1_v0 Reg.fns (launchArgs m c) :=
  ((st_hostOps0_3 m ρ c).unary 0 rfl (by decide) (by decide)).trans (by rw [K_main_c_11 m ρ c]; unfold Kv.main_call1_v0; exact cast_fn1 _ _ _ _)
theorem K_main_v51 : W15 m ρ c (Proc.devRef .tc main_v51) = Kv.main_v51 Reg.fns (launchArgs m c) :=
  ((st_hostOps0_3 m ρ c).binary 1 rfl (by decide) (by decide) (by decide)).trans (by rw [K_main_v50 m ρ c, K_main_call1_v0 m ρ c]; unfold Kv.main_v51; generalize Kv.main_v50 Reg.fns (launchArgs m c) = x0; generalize Kv.main_call1_v0 Reg.fns (launchArgs m c) = x1; rfl)

theorem K_main_v52 : W15 m ρ c (Proc.devRef .tc main_v52) = Kv.main_v52 Reg.fns (launchArgs m c) :=
  ((st_hostOps0_4 m ρ c).reshape 0 rfl (by decide) (by decide)).trans (by rw [K_main_arg12 m ρ c]; rfl)

theorem K_main_v53 : W15 m ρ c (Proc.devRef .tc main_v53) = Kv.main_v53 Reg.fns (launchArgs m c) :=
  (R_main_v53 m ρ c).trans (by rw [K_main_v52 m ρ c, K_main_v51 m ρ c]; unfold Kv.main_v53; generalize Kv.main_v52 Reg.fns (launchArgs m c) = x0; generalize Kv.main_v51 Reg.fns (launchArgs m c) = x1; rfl)

theorem K_main_c_12 : W15 m ρ c (Proc.devRef .tc main_c_12) = Kv.main_c_12 Reg.fns (launchArgs m c) :=
  ((st_hostOps1 m ρ c).nullary 0 rfl (by decide)).trans (rfl)
theorem K_main_v54 : W15 m ρ c (Proc.devRef .tc main_v54) = Kv.main_v54 Reg.fns (launchArgs m c) :=
  ((st_hostOps1 m ρ c).unary 1 rfl (by decide) (by decide)).trans (by rw [K_main_c_12 m ρ c]; rfl)
theorem K_main_v55 : W15 m ρ c (Proc.devRef .tc main_v55) = Kv.main_v55 Reg.fns (launchArgs m c) :=
  ((st_hostOps1 m ρ c).binary 2 rfl (by decide) (by decide) (by decide)).trans (by rw [K_main_v23 m ρ c, K_main_v54 m ρ c]; rfl)
theorem K_main_c_13 : W15 m ρ c (Proc.devRef .tc main_c_13) = Kv.main_c_13 Reg.fns (launchArgs m c) :=
  ((st_hostOps1 m ρ c).nullary 3 rfl (by decide)).trans (rfl)
theorem K_main_v56 : W15 m ρ c (Proc.devRef .tc main_v56) = Kv.main_v56 Reg.fns (launchArgs m c) :=
  ((st_hostOps1 m ρ c).unary 4 rfl (by decide) (by decide)).trans (by rw [K_main_c_13 m ρ c]; rfl)
theorem K_main_v57 : W15 m ρ c (Proc.devRef .tc main_v57) = Kv.main_v57 Reg.fns (launchArgs m c) :=
  ((st_hostOps1 m ρ c).binary 5 rfl (by decide) (by decide) (by decide)).trans (by rw [K_main_v23 m ρ c, K_main_v56 m ρ c]; rfl)
theorem K_main_v58 : W15 m ρ c (Proc.devRef .tc main_v58) = Kv.main_v58 Reg.fns (launchArgs m c) :=
  ((st_hostOps1 m ρ c).ternary 6 rfl (by decide) (by decide) (by decide) (by decide)).trans (by rw [K_main_v55 m ρ c, K_main_v57 m ρ c, K_main_v23 m ρ c]; rfl)
theorem K_main_v59 : W15 m ρ c (Proc.devRef .tc main_v59) = Kv.main_v59 Reg.fns (launchArgs m c) :=
  ((st_hostOps1 m ρ c).unary 7 rfl (by decide) (by decide)).trans (by rw [K_main_v58 m ρ c]; rfl)
theorem K_main_v60 : W15 m ρ c (Proc.devRef .tc main_v60) = Kv.main_v60 Reg.fns (launchArgs m c) :=
  ((st_hostOps1 m ρ c).binary 8 rfl (by decide) (by decide) (by decide)).trans (by rw [K_main_v53 m ρ c, K_main_v59 m ρ c]; rfl)
theorem K_main_v61 : W15 m ρ c (Proc.devRef .tc main_v61) = Kv.main_v61 Reg.fns (launchArgs m c) :=
  ((st_hostOps1 m ρ c).unary 9 rfl (by decide) (by decide)).trans (by rw [K_main_v49 m ρ c]; rfl)
theorem K_main_v62 : W15 m ρ c (Proc.devRef .tc main_v62) = Kv.main_v62 Reg.fns (launchArgs m c) :=
  ((st_hostOps1 m ρ c).unary 10 rfl (by decide) (by decide)).trans (by rw [K_main_v61 m ρ c]; rfl)
theorem K_main_v63 : W15 m ρ c (Proc.devRef .tc main_v63) = Kv.main_v63 Reg.fns (launchArgs m c) :=
  ((st_hostOps1 m ρ c).binary 11 rfl (by decide) (by decide) (by decide)).trans (by rw [K_main_v60 m ρ c, K_main_v62 m ρ c]; rfl)
theorem K_main_cst_14 : W15 m ρ c (Proc.devRef .tc main_cst_14) = Kv.main_cst_14 Reg.fns (launchArgs m c) :=
  ((st_hostOps1 m ρ c).nullary 12 rfl (by decide)).trans (rfl)
theorem K_main_v64 : W15 m ρ c (Proc.devRef .tc main_v64) = Kv.main_v64 Reg.fns (launchArgs m c) :=
  ((st_hostOps1 m ρ c).unary 13 rfl (by decide) (by decide)).trans (by rw [K_main_cst_14 m ρ c]; rfl)
theorem K_main_v65 : W15 m ρ c (Proc.devRef .tc main_v65) = Kv.main_v65 Reg.fns (launchArgs m c) :=
  ((st_hostOps1 m ρ c).unary 14 rfl (by decide) (by decide)).trans (by rw [K_main_v24 m ρ c]; rfl)
theorem K_main_v66 : W15 m ρ c (Proc.devRef .tc main_v66) = Kv.main_v66 Reg.fns (launchArgs m c) :=
  ((st_hostOps1 m ρ c).ternary 15 rfl (by decide) (by decide) (by decide) (by decide)).trans (by rw [K_main_v64 m ρ c, K_main_v65 m ρ c, K_main_v63 m ρ c]; rfl)
theorem K_main_v67 : W15 m ρ c (Proc.devRef .tc main_v67) = Kv.main_v67 Reg.fns (launchArgs m c) :=
  ((st_hostOps1 m ρ c).reshape 16 rfl (by decide) (by decide)).trans (by rw [K_main_arg3 m ρ c]; rfl)
theorem K_main_v68 : W15 m ρ c (Proc.devRef .tc main_v68) = Kv.main_v68 Reg.fns (launchArgs m c) :=
  ((st_hostOps1 m ρ c).reshape 17 rfl (by decide) (by decide)).trans (by rw [K_main_arg5 m ρ c]; rfl)

theorem K_main_v69_0 : W15 m ρ c (Proc.devRef .tc main_v69_0) = Kv.main_v69_0 Reg.fns (launchArgs m c) :=
  (R_main_v69_0 m ρ c).trans (by rw [K_main_v66 m ρ c, K_main_v67 m ρ c]; unfold Kv.main_v69_0; generalize Kv.main_v66 Reg.fns (launchArgs m c) = x0; generalize Kv.main_v67 Reg.fns (launchArgs m c) = x1; rfl)
theorem K_main_v69_1 : W15 m ρ c (Proc.devRef .tc main_v69_1) = Kv.main_v69_1 Reg.fns (launchArgs m c) :=
  (R_main_v69_1 m ρ c).trans (by rw [K_main_v66 m ρ c, K_main_v67 m ρ c, K_main_arg4 m ρ c, K_main_v68 m ρ c]; unfold Kv.main_v69_1; generalize Kv.main_v66 Reg.fns (launchArgs m c) = x0; generalize Kv.main_v67 Reg.fns (launchArgs m c) = x1; generalize (launchArgs m c).Wl1 = x2; generalize Kv.main_v68 Reg.fns (launchArgs m c) = x3; rfl)
theorem K_main_v69_2 : W15 m ρ c (Proc.devRef .tc main_v69_2) = Kv.main_v69_2 Reg.fns (launchArgs m c) :=
  (R_main_v69_2 m ρ c).trans (by rw [K_main_v66 m ρ c, K_main_v67 m ρ c, K_main_arg4 m ρ c, K_main_v68 m ρ c, K_main_arg6 m ρ c]; unfold Kv.main_v69_2; generalize Kv.main_v66 Reg.fns (launchArgs m c) = x0; generalize Kv.main_v67 Reg.fns (launchArgs m c) = x1; generalize (launchArgs m c).Wl1 = x2; generalize Kv.main_v68 Reg.fns (launchArgs m c) = x3; generalize (launchArgs m c).W2 = x4; rfl)

theorem K_main_c_15 : W15 m ρ c (Proc.devRef .tc main_c_15) = Kv.main_c_15 Reg.fns (launchArgs m c) :=
  ((st_hostOps2 m ρ c).nullary 0 rfl (by decide)).trans (rfl)
theorem K_main_v70 : W15 m ρ c (Proc.devRef .tc main_v70) = Kv.main_v70 Reg.fns (launchArgs m c) :=
  ((st_hostOps2 m ρ c).unary 1 rfl (by decide) (by decide)).trans (by rw [K_main_c_15 m ρ c]; rfl)
theorem K_main_v71 : W15 m ρ c (Proc.devRef .tc main_v71) = Kv.main_v71 Reg.fns (launchArgs m c) :=
  ((st_hostOps2 m ρ c).binary 2 rfl (by decide) (by decide) (by decide)).trans (by rw [K_main_v23 m ρ c, K_main_v70 m ρ c]; rfl)
theorem K_main_c_16 : W15 m ρ c (Proc.devRef .tc main_c_16) = Kv.main_c_16 Reg.fns (launchArgs m c) :=
  ((st_hostOps2 m ρ c).nullary 3 rfl (by decide)).trans (rfl)
theorem K_main_v72 : W15 m ρ c (Proc.devRef .tc main_v72) = Kv.main_v72 Reg.fns (launchArgs m c) :=
  ((st_hostOps2 m ρ c).unary 4 rfl (by decide) (by decide)).trans (by rw [K_main_c_16 m ρ c]; rfl)
theorem K_main_v73 : W15 m ρ c (Proc.devRef .tc main_v73) = Kv.main_v73 Reg.fns (launchArgs m c) :=
  ((st_hostOps2 m ρ c).binary 5 rfl (by decide) (by decide) (by decide)).trans (by rw [K_main_v23 m ρ c, K_main_v72 m ρ c]; rfl)
theorem K_main_v74 : W15 m ρ c (Proc.devRef .tc main_v74) = Kv.main_v74 Reg.fns (launchArgs m c) :=
  ((st_hostOps2 m ρ c).ternary 6 rfl (by decide) (by decide) (by decide) (by decide)).trans (by rw [K_main_v71 m ρ c, K_main_v73 m ρ c, K_main_v23 m ρ c]; rfl)
theorem K_main_v75 : W15 m ρ c (Proc.devRef .tc main_v75) = Kv.main_v75 Reg.fns (launchArgs m c) :=
  ((st_hostOps2 m ρ c).unary 7 rfl (by decide) (by decide)).trans (by rw [K_main_v74 m ρ c]; rfl)
theorem K_main_v76 : W15 m ρ c (Proc.devRef .tc main_v76) = Kv.main_v76 Reg.fns (launchArgs m c) :=
  ((st_hostOps2 m ρ c).binary 8 rfl (by decide) (by decide) (by decide)).trans (by rw [K_main_v69_2 m ρ c, K_main_v75 m ρ c]; rfl)
theorem K_main_v77 : W15 m ρ c (Proc.devRef .tc main_v77) = Kv.main_v77 Reg.fns (launchArgs m c) :=
  ((st_hostOps2 m ρ c).unary 9 rfl (by decide) (by decide)).trans (by rw [K_main_v49 m ρ c]; rfl)
theorem K_main_v78 : W15 m ρ c (Proc.devRef .tc main_v78) = Kv.main_v78 Reg.fns (launchArgs m c) :=
  ((st_hostOps2 m ρ c).unary 10 rfl (by decide) (by decide)).trans (by rw [K_main_v77 m ρ c]; rfl)
theorem K_main_v79 : W15 m ρ c (Proc.devRef .tc main_v79) = Kv.main_v79 Reg.fns (launchArgs m c) :=
  ((st_hostOps2 m ρ c).binary 11 rfl (by decide) (by decide) (by decide)).trans (by rw [K_main_v76 m ρ c, K_main_v78 m ρ c]; rfl)
theorem K_main_cst_17 : W15 m ρ c (Proc.devRef .tc main_cst_17) = Kv.main_cst_17 Reg.fns (launchArgs m c) :=
  ((st_hostOps2 m ρ c).nullary 12 rfl (by decide)).trans (rfl)
theorem K_main_v80 : W15 m ρ c (Proc.devRef .tc main_v80) = Kv.main_v80 Reg.fns (launchArgs m c) :=
  ((st_hostOps2 m ρ c).unary 13 rfl (by decide) (by decide)).trans (by rw [K_main_cst_17 m ρ c]; rfl)
theorem K_main_v81 : W15 m ρ c (Proc.devRef .tc main_v81) = Kv.main_v81 Reg.fns (launchArgs m c) :=
  ((st_hostOps2 m ρ c).unary 14 rfl (by decide) (by decide)).trans (by rw [K_main_v24 m ρ c]; rfl)
theorem K_main_v82 : W15 m ρ c (Proc.devRef .tc main_v82) = Kv.main_v82 Reg.fns (launchArgs m c) :=
  ((st_hostOps2 m ρ c).ternary 15 rfl (by decide) (by decide) (by decide) (by decide)).trans (by rw [K_main_v80 m ρ c, K_main_v81 m ρ c, K_main_v79 m ρ c]; rfl)
theorem K_main_v83 : W15 m ρ c (Proc.devRef .tc main_v83) = Kv.main_v83 Reg.fns (launchArgs m c) :=
  ((st_hostOps2 m ρ c).unary 16 rfl (by decide) (by decide)).trans (by rw [K_main_arg8 m ρ c]; rfl)
theorem K_main_v84 : W15 m ρ c (Proc.devRef .tc main_v84) = Kv.main_v84 Reg.fns (launchArgs m c) :=
  ((st_hostOps2 m ρ c).unary 17 rfl (by decide) (by decide)).trans (by rw [K_main_arg10 m ρ c]; rfl)
theorem K_main_v85 : W15 m ρ c (Proc.devRef .tc main_v85) = Kv.main_v85 Reg.fns (launchArgs m c) :=
  ((st_hostOps2 m ρ c).reshape 18 rfl (by decide) (by decide)).trans (by rw [K_main_arg7 m ρ c]; rfl)
theorem K_main_v86 : W15 m ρ c (Proc.devRef .tc main_v86) = Kv.main_v86 Reg.fns (launchArgs m c) :=
  ((st_hostOps2 m ρ c).reshape 19 rfl (by decide) (by decide)).trans (by rw [K_main_arg9 m ρ c]; rfl)
theorem K_main_v87 : W15 m ρ c (Proc.devRef .tc main_v87) = Kv.main_v87 Reg.fns (launchArgs m c) :=
  ((st_hostOps2 m ρ c).reshape 20 rfl (by decide) (by decide)).trans (by rw [K_main_arg11 m ρ c]; rfl)

theorem K_main_v88_0 : W15 m ρ c (Proc.devRef .tc main_v88_0) = Kv.main_v88_0 Reg.fns (launchArgs m c) :=
  (R_main_v88_0 m ρ c).trans (by rw [K_main_v82 m ρ c, K_main_v85 m ρ c, K_main_arg8 m ρ c, K_main_v86 m ρ c, K_main_arg10 m ρ c, K_main_v87 m ρ c, K_main_v83 m ρ c, K_main_v84 m ρ c]; unfold Kv.main_v88_0; generalize Kv.main_v82 Reg.fns (launchArgs m c) = x0; generalize Kv.main_v85 Reg.fns (launchArgs m c) = x1; generalize (launchArgs m c).Wl2 = x2; generalize Kv.main_v86 Reg.fns (launchArgs m c) = x3; generalize (launchArgs m c).Wl3 = x4; generalize Kv.main_v87 Reg.fns (launchArgs m c) = x5; generalize Kv.main_v83 Reg.fns (launchArgs m c) = x6; generalize Kv.main_v84 Reg.fns (launchArgs m c) = x7; rfl)
theorem K_main_v88_1 : W15 m ρ c (Proc.devRef .tc main_v88_1) = Kv.main_v88_1 Reg.fns (launchArgs m c) :=
  (R_main_v88_1 m ρ c).trans (by rw [K_main_v82 m ρ c, K_main_v85 m ρ c, K_main_arg8 m ρ c, K_main_v86 m ρ c, K_main_arg10 m ρ c, K_main_v87 m ρ c]; unfold Kv.main_v88_1; generalize Kv.main_v82 Reg.fns (launchArgs m c) = x0; generalize Kv.main_v85 Reg.fns (launchArgs m c) = x1; generalize (launchArgs m c).Wl2 = x2; generalize Kv.main_v86 Reg.fns (launchArgs m c) = x3; generalize (launchArgs m c).Wl3 = x4; generalize Kv.main_v87 Reg.fns (launchArgs m c) = x5; rfl)

theorem K_main_cst_18 : W15 m ρ c (Proc.devRef .tc main_cst_18) = Kv.main_cst_18 Reg.fns (launchArgs m c) :=
  ((st_hostOps3 m ρ c).nullary 0 rfl (by decide)).trans (rfl)
theorem K_main_v89 : W15 m ρ c (Proc.devRef .tc main_v89) = Kv.main_v89 Reg.fns (launchArgs m c) :=
  ((st_hostOps3 m ρ c).unary 1 rfl (by decide) (by decide)).trans (by rw [K_main_cst_18 m ρ c]; rfl)
theorem K_main_v90 : W15 m ρ c (Proc.devRef .tc main_v90) = Kv.main_v90 Reg.fns (launchArgs m c) :=
  ((st_hostOps3 m ρ c).unary 2 rfl (by decide) (by decide)).trans (by rw [K_main_arg14 m ρ c]; rfl)
theorem K_main_v91 : W15 m ρ c (Proc.devRef .tc main_v91) = Kv.main_v91 Reg.fns (launchArgs m c) :=
  ((st_hostOps3 m ρ c).ternary 3 rfl (by decide) (by decide) (by decide) (by decide)).trans (by rw [K_main_v89 m ρ c, K_main_v90 m ρ c, K_main_v88_1 m ρ c]; rfl)
theorem K_main_c_19 : W15 m ρ c (Proc.devRef .tc main_c_19) = Kv.main_c_19 Reg.fns (launchArgs m c) :=
  ((st_hostOps3 m ρ c).nullary 4 rfl (by decide)).trans (rfl)
theorem K_main_v92 : W15 m ρ c (Proc.devRef .tc main_v92) = Kv.main_v92 Reg.fns (launchArgs m c) :=
  ((st_hostOps3 m ρ c).unary 5 rfl (by decide) (by decide)).trans (by rw [K_main_c_19 m ρ c]; rfl)
theorem K_main_v93 : W15 m ρ c (Proc.devRef .tc main_v93) = Kv.main_v93 Reg.fns (launchArgs m c) :=
  ((st_hostOps3 m ρ c).binary 6 rfl (by decide) (by decide) (by decide)).trans (by rw [K_main_v24 m ρ c, K_main_v92 m ρ c]; rfl)
theorem K_main_c_20 : W15 m ρ c (Proc.devRef .tc main_c_20) = Kv.main_c_20 Reg.fns (launchArgs m c) :=
  ((st_hostOps3 m ρ c).nullary 7 rfl (by decide)).trans (rfl)
theorem K_main_v94 : W15 m ρ c (Proc.devRef .tc main_v94) = Kv.main_v94 Reg.fns (launchArgs m c) :=
  ((st_hostOps3 m ρ c).unary 8 rfl (by decide) (by decide)).trans (by rw [K_main_c_20 m ρ c]; rfl)
theorem K_main_v95 : W15 m ρ c (Proc.devRef .tc main_v95) = Kv.main_v95 Reg.fns (launchArgs m c) :=
  ((st_hostOps3 m ρ c).binary 9 rfl (by decide) (by decide) (by decide)).trans (by rw [K_main_v24 m ρ c, K_main_v94 m ρ c]; rfl)
theorem K_main_v96 : W15 m ρ c (Proc.devRef .tc main_v96) = Kv.main_v96 Reg.fns (launchArgs m c) :=
  ((st_hostOps3 m ρ c).ternary 10 rfl (by decide) (by decide) (by decide) (by decide)).trans (by rw [K_main_v93 m ρ c, K_main_v95 m ρ c, K_main_v24 m ρ c]; rfl)
theorem K_main_v97 : W15 m ρ c (Proc.devRef .tc main_v97) = Kv.main_v97 Reg.fns (launchArgs m c) :=
  ((st_hostOps3 m ρ c).unary 11 rfl (by decide) (by decide)).trans (by rw [K_main_v96 m ρ c]; rfl)
theorem K_main_v98 : W15 m ρ c (Proc.devRef .tc main_v98) = Kv.main_v98 Reg.fns (launchArgs m c) :=
  ((st_hostOps3 m ρ c).binary 12 rfl (by decide) (by decide) (by decide)).trans (by rw [K_main_v88_0 m ρ c, K_main_v97 m ρ c]; rfl)
theorem K_main_v99 : W15 m ρ c (Proc.devRef .tc main_v99) = Kv.main_v99 Reg.fns (launchArgs m c) :=
  ((st_hostOps3 m ρ c).unary 13 rfl (by decide) (by decide)).trans (by rw [K_main_v49 m ρ c]; rfl)
theorem K_main_v100 : W15 m ρ c (Proc.devRef .tc main_v100) = Kv.main_v100 Reg.fns (launchArgs m c) :=
  ((st_hostOps3 m ρ c).unary 14 rfl (by decide) (by decide)).trans (by rw [K_main_v99 m ρ c]; rfl)
theorem K_main_v101 : W15 m ρ c (Proc.devRef .tc main_v101) = Kv.main_v101 Reg.fns (launchArgs m c) :=
  ((st_hostOps3 m ρ c).binary 15 rfl (by decide) (by decide) (by decide)).trans (by rw [K_main_v98 m ρ c, K_main_v100 m ρ c]; rfl)
theorem K_main_cst_21 : W15 m ρ c (Proc.devRef .tc main_cst_21) = Kv.main_cst_21 Reg.fns (launchArgs m c) :=
  ((st_hostOps3 m ρ c).nullary 16 rfl (by decide)).trans (rfl)
theorem K_main_v102 : W15 m ρ c (Proc.devRef .tc main_v102) = Kv.main_v102 Reg.fns (launchArgs m c) :=
  ((st_hostOps3 m ρ c).unary 17 rfl (by decide) (by decide)).trans (by rw [K_main_cst_21 m ρ c]; rfl)
theorem K_main_v103 : W15 m ρ c (Proc.devRef .tc main_v103) = Kv.main_v103 Reg.fns (launchArgs m c) :=
  ((st_hostOps3 m ρ c).unary 18 rfl (by decide) (by decide)).trans (by rw [K_main_v23 m ρ c]; rfl)
theorem K_main_v104 : W15 m ρ c (Proc.devRef .tc main_v104) = Kv.main_v104 Reg.fns (launchArgs m c) :=
  ((st_hostOps3 m ρ c).ternary 19 rfl (by decide) (by decide) (by decide) (by decide)).trans (by rw [K_main_v102 m ρ c, K_main_v103 m ρ c, K_main_v101 m ρ c]; rfl)
theorem K_main_v105 : W15 m ρ c (Proc.devRef .tc main_v105) = Kv.main_v105 Reg.fns (launchArgs m c) :=
  ((st_hostOps3 m ρ c).binary 20 rfl (by decide) (by decide) (by decide)).trans (by rw [K_main_v98 m ρ c, K_main_v76 m ρ c]; rfl)
theorem K_main_cst_22 : W15 m ρ c (Proc.devRef .tc main_cst_22) = Kv.main_cst_22 Reg.fns (launchArgs m c) :=
  ((st_hostOps3 m ρ c).nullary 21 rfl (by decide)).trans (rfl)
theorem K_main_v106 : W15 m ρ c (Proc.devRef .tc main_v106) = Kv.main_v106 Reg.fns (launchArgs m c) :=
  ((st_hostOps3 m ρ c).binary 22 rfl (by decide) (by decide) (by decide)).trans (by rw [K_main_v105 m ρ c, K_main_cst_22 m ρ c]; rfl)
theorem K_main_v107 : W15 m ρ c (Proc.devRef .tc main_v107) = Kv.main_v107 Reg.fns (launchArgs m c) :=
  ((st_hostOps3 m ρ c).unary 23 rfl (by decide) (by decide)).trans (by rw [K_main_arg4 m ρ c]; rfl)
theorem K_main_v108 : W15 m ρ c (Proc.devRef .tc main_v108) = Kv.main_v108 Reg.fns (launchArgs m c) :=
  ((st_hostOps3 m ρ c).unary 24 rfl (by decide) (by decide)).trans (by rw [K_main_arg6 m ρ c]; rfl)

theorem K_main_v109 : W15 m ρ c (Proc.devRef .tc main_v109) = Kv.main_v109 Reg.fns (launchArgs m c) :=
  (R_main_v109 m ρ c).trans (by rw [K_main_v104 m ρ c, K_main_v69_0 m ρ c, K_main_v69_1 m ρ c, K_main_v107 m ρ c, K_main_v108 m ρ c]; unfold Kv.main_v109; generalize Kv.main_v104 Reg.fns (launchArgs m c) = x0; generalize Kv.main_v69_0 Reg.fns (launchArgs m c) = x1; generalize Kv.main_v69_1 Reg.fns (launchArgs m c) = x2; generalize Kv.main_v107 Reg.fns (launchArgs m c) = x3; generalize Kv.main_v108 Reg.fns (launchArgs m c) = x4; rfl)

theorem K_main_c_23 : W15 m ρ c (Proc.devRef .tc main_c_23) = Kv.main_c_23 Reg.fns (launchArgs m c) :=
  ((st_hostOps4 m ρ c).nullary 0 rfl (by decide)).trans (rfl)
theorem K_main_v110 : W15 m ρ c (Proc.devRef .tc main_v110) = Kv.main_v110 Reg.fns (launchArgs m c) :=
  ((st_hostOps4 m ρ c).unary 1 rfl (by decide) (by decide)).trans (by rw [K_main_c_23 m ρ c]; rfl)
theorem K_main_v111 : W15 m ρ c (Proc.devRef .tc main_v111) = Kv.main_v111 Reg.fns (launchArgs m c) :=
  ((st_hostOps4 m ρ c).binary 2 rfl (by decide) (by decide) (by decide)).trans (by rw [K_main_v24 m ρ c, K_main_v110 m ρ c]; rfl)
theorem K_main_c_24 : W15 m ρ c (Proc.devRef .tc main_c_24) = Kv.main_c_24 Reg.fns (launchArgs m c) :=
  ((st_hostOps4 m ρ c).nullary 3 rfl (by decide)).trans (rfl)
theorem K_main_v112 : W15 m ρ c (Proc.devRef .tc main_v112) = Kv.main_v112 Reg.fns (launchArgs m c) :=
  ((st_hostOps4 m ρ c).unary 4 rfl (by decide) (by decide)).trans (by rw [K_main_c_24 m ρ c]; rfl)
theorem K_main_v113 : W15 m ρ c (Proc.devRef .tc main_v113) = Kv.main_v113 Reg.fns (launchArgs m c) :=
  ((st_hostOps4 m ρ c).binary 5 rfl (by decide) (by decide) (by decide)).trans (by rw [K_main_v24 m ρ c, K_main_v112 m ρ c]; rfl)
theorem K_main_v114 : W15 m ρ c (Proc.devRef .tc main_v114) = Kv.main_v114 Reg.fns (launchArgs m c) :=
  ((st_hostOps4 m ρ c).ternary 6 rfl (by decide) (by decide) (by decide) (by decide)).trans (by rw [K_main_v111 m ρ c, K_main_v113 m ρ c, K_main_v24 m ρ c]; rfl)
theorem K_main_v115 : W15 m ρ c (Proc.devRef .tc main_v115) = Kv.main_v115 Reg.fns (launchArgs m c) :=
  ((st_hostOps4 m ρ c).unary 7 rfl (by decide) (by decide)).trans (by rw [K_main_v114 m ρ c]; rfl)
theorem K_main_v116 : W15 m ρ c (Proc.devRef .tc main_v116) = Kv.main_v116 Reg.fns (launchArgs m c) :=
  ((st_hostOps4 m ρ c).binary 8 rfl (by decide) (by decide) (by decide)).trans (by rw [K_main_v109 m ρ c, K_main_v115 m ρ c]; rfl)
theorem K_main_v117 : W15 m ρ c (Proc.devRef .tc main_v117) = Kv.main_v117 Reg.fns (launchArgs m c) :=
  ((st_hostOps4 m ρ c).binary 9 rfl (by decide) (by decide) (by decide)).trans (by rw [K_main_v116 m ρ c, K_main_v60 m ρ c]; rfl)
theorem K_main_cst_25 : W15 m ρ c (Proc.devRef .tc main_cst_25) = Kv.main_cst_25 Reg.fns (launchArgs m c) :=
  ((st_hostOps4 m ρ c).nullary 10 rfl (by decide)).trans (rfl)
theorem K_main_v118 : W15 m ρ c (Proc.devRef .tc main_v118) = Kv.main_v118 Reg.fns (launchArgs m c) :=
  ((st_hostOps4 m ρ c).binary 11 rfl (by decide) (by decide) (by decide)).trans (by rw [K_main_v117 m ρ c, K_main_cst_25 m ρ c]; rfl)
theorem K_main_v119 : W15 m ρ c (Proc.devRef .tc main_v119) = Kv.main_v119 Reg.fns (launchArgs m c) :=
  ((st_hostOps4 m ρ c).binary 12 rfl (by decide) (by decide) (by decide)).trans (by rw [K_main_v118 m ρ c, K_main_v106 m ρ c]; rfl)
theorem K_main_c_26 : W15 m ρ c (Proc.devRef .tc main_c_26) = Kv.main_c_26 Reg.fns (launchArgs m c) :=
  ((st_hostOps4 m ρ c).nullary 13 rfl (by decide)).trans (rfl)
theorem K_main_v120 : W15 m ρ c (Proc.devRef .tc main_v120) = Kv.main_v120 Reg.fns (launchArgs m c) :=
  ((st_hostOps4 m ρ c).unary 14 rfl (by decide) (by decide)).trans (by rw [K_main_c_26 m ρ c]; rfl)
theorem K_main_v121 : W15 m ρ c (Proc.devRef .tc main_v121) = Kv.main_v121 Reg.fns (launchArgs m c) :=
  ((st_hostOps4 m ρ c).binary 15 rfl (by decide) (by decide) (by decide)).trans (by rw [K_main_v23 m ρ c, K_main_v120 m ρ c]; rfl)
theorem K_main_c_27 : W15 m ρ c (Proc.devRef .tc main_c_27) = Kv.main_c_27 Reg.fns (launchArgs m c) :=
  ((st_hostOps4 m ρ c).nullary 16 rfl (by decide)).trans (rfl)
theorem K_main_v122 : W15 m ρ c (Proc.devRef .tc main_v122) = Kv.main_v122 Reg.fns (launchArgs m c) :=
  ((st_hostOps4 m ρ c).unary 17 rfl (by decide) (by decide)).trans (by rw [K_main_c_27 m ρ c]; rfl)
theorem K_main_v123 : W15 m ρ c (Proc.devRef .tc main_v123) = Kv.main_v123 Reg.fns (launchArgs m c) :=
  ((st_hostOps4 m ρ c).binary 18 rfl (by decide) (by decide) (by decide)).trans (by rw [K_main_v23 m ρ c, K_main_v122 m ρ c]; rfl)
theorem K_main_v124 : W15 m ρ c (Proc.devRef .tc main_v124) = Kv.main_v124 Reg.fns (launchArgs m c) :=
  ((st_hostOps4 m ρ c).ternary 19 rfl (by decide) (by decide) (by decide) (by decide)).trans (by rw [K_main_v121 m ρ c, K_main_v123 m ρ c, K_main_v23 m ρ c]; rfl)
theorem K_main_v125 : W15 m ρ c (Proc.devRef .tc main_v125) = Kv.main_v125 Reg.fns (launchArgs m c) :=
  ((st_hostOps4 m ρ c).unary 20 rfl (by decide) (by decide)).trans (by rw [K_main_v124 m ρ c]; rfl)
theorem K_main_v126 : W15 m ρ c (Proc.devRef .tc main_v126) = Kv.main_v126 Reg.fns (launchArgs m c) :=
  ((st_hostOps4 m ρ c).binary 21 rfl (by decide) (by decide) (by decide)).trans (by rw [K_main_v33 m ρ c, K_main_v125 m ρ c]; rfl)
theorem K_main_v127 : W15 m ρ c (Proc.devRef .tc main_v127) = Kv.main_v127 Reg.fns (launchArgs m c) :=
  ((st_hostOps4 m ρ c).binary 22 rfl (by decide) (by decide) (by decide)).trans (by rw [K_main_v119 m ρ c, K_main_v126 m ρ c]; rfl)
theorem K_main_c_28 : W15 m ρ c (Proc.devRef .tc main_c_28) = Kv.main_c_28 Reg.fns (launchArgs m c) :=
  ((st_hostOps4 m ρ c).nullary 23 rfl (by decide)).trans (rfl)
theorem K_main_v128 : W15 m ρ c (Proc.devRef .tc main_v128) = Kv.main_v128 Reg.fns (launchArgs m c) :=
  ((st_hostOps4 m ρ c).unary 24 rfl (by decide) (by decide)).trans (by rw [K_main_c_28 m ρ c]; rfl)
theorem K_main_v129 : W15 m ρ c (Proc.devRef .tc main_v129) = Kv.main_v129 Reg.fns (launchArgs m c) :=
  ((st_hostOps4 m ρ c).binary 25 rfl (by decide) (by decide) (by decide)).trans (by rw [K_main_v24 m ρ c, K_main_v128 m ρ c]; rfl)
theorem K_main_c_29 : W15 m ρ c (Proc.devRef .tc main_c_29) = Kv.main_c_29 Reg.fns (launchArgs m c) :=
  ((st_hostOps4 m ρ c).nullary 26 rfl (by decide)).trans (rfl)
theorem K_main_v130 : W15 m ρ c (Proc.devRef .tc main_v130) = Kv.main_v130 Reg.fns (launchArgs m c) :=
  ((st_hostOps4 m ρ c).unary 27 rfl (by decide) (by decide)).trans (by rw [K_main_c_29 m ρ c]; rfl)
theorem K_main_v131 : W15 m ρ c (Proc.devRef .tc main_v131) = Kv.main_v131 Reg.fns (launchArgs m c) :=
  ((st_hostOps4 m ρ c).binary 28 rfl (by decide) (by decide) (by decide)).trans (by rw [K_main_v24 m ρ c, K_main_v130 m ρ c]; rfl)
theorem K_main_v132 : W15 m ρ c (Proc.devRef .tc main_v132) = Kv.main_v132 Reg.fns (launchArgs m c) :=
  ((st_hostOps4 m ρ c).ternary 29 rfl (by decide) (by decide) (by decide) (by decide)).trans (by rw [K_main_v129 m ρ c, K_main_v131 m ρ c, K_main_v24 m ρ c]; rfl)
theorem K_main_v133 : W15 m ρ c (Proc.devRef .tc main_v133) = Kv.main_v133 Reg.fns (launchArgs m c) :=
  ((st_hostOps4 m ρ c).unary 30 rfl (by decide) (by decide)).trans (by rw [K_main_v132 m ρ c]; rfl)
theorem K_main_v134 : W15 m ρ c (Proc.devRef .tc main_v134) = Kv.main_v134 Reg.fns (launchArgs m c) :=
  ((st_hostOps4 m ρ c).binary 31 rfl (by decide) (by decide) (by decide)).trans (by rw [K_main_v33 m ρ c, K_main_v133 m ρ c]; rfl)
theorem K_main_v135 : W15 m ρ c (Proc.devRef .tc main_v135) = Kv.main_v135 Reg.fns (launchArgs m c) :=
  ((st_hostOps4 m ρ c).binary 32 rfl (by decide) (by decide) (by decide)).trans (by rw [K_main_v127 m ρ c, K_main_v134 m ρ c]; rfl)
theorem K_main_v136 : W15 m ρ c (Proc.devRef .tc main_v136) = Kv.main_v136 Reg.fns (launchArgs m c) :=
  ((st_hostOps4 m ρ c).binary 33 rfl (by decide) (by decide) (by decide)).trans (by rw [K_main_v119 m ρ c, K_main_v26 m ρ c]; rfl)
theorem K_main_c_30 : W15 m ρ c (Proc.devRef .tc main_c_30) = Kv.main_c_30 Reg.fns (launchArgs m c) :=
  ((st_hostOps4 m ρ c).nullary 34 rfl (by decide)).trans (rfl)
theorem K_main_v137 : W15 m ρ c (Proc.devRef .tc main_v137) = Kv.main_v137 Reg.fns (launchArgs m c) :=
  ((st_hostOps4 m ρ c).unary 35 rfl (by decide) (by decide)).trans (by rw [K_main_c_30 m ρ c]; rfl)
theorem K_main_v138 : W15 m ρ c (Proc.devRef .tc main_v138) = Kv.main_v138 Reg.fns (launchArgs m c) :=
  ((st_hostOps4 m ρ c).binary 36 rfl (by decide) (by decide) (by decide)).trans (by rw [K_main_v24 m ρ c, K_main_v137 m ρ c]; rfl)
theorem K_main_c_31 : W15 m ρ c (Proc.devRef .tc main_c_31) = Kv.main_c_31 Reg.fns (launchArgs m c) :=
  ((st_hostOps4 m ρ c).nullary 37 rfl (by decide)).trans (rfl)
theorem K_main_v139 : W15 m ρ c (Proc.devRef .tc main_v139) = Kv.main_v139 Reg.fns (launchArgs m c) :=
  ((st_hostOps4 m ρ c).unary 38 rfl (by decide) (by decide)).trans (by rw [K_main_c_31 m ρ c]; rfl)
theorem K_main_v140 : W15 m ρ c (Proc.devRef .tc main_v140) = Kv.main_v140 Reg.fns (launchArgs m c) :=
  ((st_hostOps4 m ρ c).binary 39 rfl (by decide) (by decide) (by decide)).trans (by rw [K_main_v24 m ρ c, K_main_v139 m ρ c]; rfl)
theorem K_main_v141 : W15 m ρ c (Proc.devRef .tc main_v141) = Kv.main_v141 Reg.fns (launchArgs m c) :=
  ((st_hostOps4 m ρ c).ternary 40 rfl (by decide) (by decide) (by decide) (by decide)).trans (by rw [K_main_v138 m ρ c, K_main_v140 m ρ c, K_main_v24 m ρ c]; rfl)
theorem K_main_v142 : W15 m ρ c (Proc.devRef .tc main_v142) = Kv.main_v142 Reg.fns (launchArgs m c) :=
  ((st_hostOps4 m ρ c).unary 41 rfl (by decide) (by decide)).trans (by rw [K_main_v141 m ρ c]; rfl)
theorem K_main_v143 : W15 m ρ c (Proc.devRef .tc main_v143) = Kv.main_v143 Reg.fns (launchArgs m c) :=
  ((st_hostOps4 m ρ c).binary 42 rfl (by decide) (by decide) (by decide)).trans (by rw [K_main_v33 m ρ c, K_main_v142 m ρ c]; rfl)
theorem K_main_v144 : W15 m ρ c (Proc.devRef .tc main_v144) = Kv.main_v144 Reg.fns (launchArgs m c) :=
  ((st_hostOps4 m ρ c).binary 43 rfl (by decide) (by decide) (by decide)).trans (by rw [K_main_v136 m ρ c, K_main_v143 m ρ c]; rfl)
theorem K_main_v145 : W15 m ρ c (Proc.devRef .tc main_v145) = Kv.main_v145 Reg.fns (launchArgs m c) :=
  ((st_hostOps4 m ρ c).binary 44 rfl (by decide) (by decide) (by decide)).trans (by rw [K_main_v119 m ρ c, K_main_v26 m ρ c]; rfl)
theorem K_main_c_32 : W15 m ρ c (Proc.devRef .tc main_c_32) = Kv.main_c_32 Reg.fns (launchArgs m c) :=
  ((st_hostOps4 m ρ c).nullary 45 rfl (by decide)).trans (rfl)
theorem K_main_v146 : W15 m ρ c (Proc.devRef .tc main_v146) = Kv.main_v146 Reg.fns (launchArgs m c) :=
  ((st_hostOps4 m ρ c).unary 46 rfl (by decide) (by decide)).trans (by rw [K_main_c_32 m ρ c]; rfl)
theorem K_main_v147 : W15 m ρ c (Proc.devRef .tc main_v147) = Kv.main_v147 Reg.fns (launchArgs m c) :=
  ((st_hostOps4 m ρ c).binary 47 rfl (by decide) (by decide) (by decide)).trans (by rw [K_main_v23 m ρ c, K_main_v146 m ρ c]; rfl)
theorem K_main_c_33 : W15 m ρ c (Proc.devRef .tc main_c_33) = Kv.main_c_33 Reg.fns (launchArgs m c) :=
  ((st_hostOps4 m ρ c).nullary 48 rfl (by decide)).trans (rfl)
theorem K_main_v148 : W15 m ρ c (Proc.devRef .tc main_v148) = Kv.main_v148 Reg.fns (launchArgs m c) :=
  ((st_hostOps4 m ρ c).unary 49 rfl (by decide) (by decide)).trans (by rw [K_main_c_33 m ρ c]; rfl)
theorem K_main_v149 : W15 m ρ c (Proc.devRef .tc main_v149) = Kv.main_v149 Reg.fns (launchArgs m c) :=
  ((st_hostOps4 m ρ c).binary 50 rfl (by decide) (by decide) (by decide)).trans (by rw [K_main_v23 m ρ c, K_main_v148 m ρ c]; rfl)
theorem K_main_v150 : W15 m ρ c (Proc.devRef .tc main_v150) = Kv.main_v150 Reg.fns (launchArgs m c) :=
  ((st_hostOps4 m ρ c).ternary 51 rfl (by decide) (by decide) (by decide) (by decide)).trans (by rw [K_main_v147 m ρ c, K_main_v149 m ρ c, K_main_v23 m ρ c]; rfl)
theorem K_main_v151 : W15 m ρ c (Proc.devRef .tc main_v151) = Kv.main_v151 Reg.fns (launchArgs m c) :=
  ((st_hostOps4 m ρ c).unary 52 rfl (by decide) (by decide)).trans (by rw [K_main_v150 m ρ c]; rfl)
theorem K_main_v152 : W15 m ρ c (Proc.devRef .tc main_v152) = Kv.main_v152 Reg.fns (launchArgs m c) :=
  ((st_hostOps4 m ρ c).binary 53 rfl (by decide) (by decide) (by decide)).trans (by rw [K_main_v33 m ρ c, K_main_v151 m ρ c]; rfl)
theorem K_main_v153 : W15 m ρ c (Proc.devRef .tc main_v153) = Kv.main_v153 Reg.fns (launchArgs m c) :=
  ((st_hostOps4 m ρ c).binary 54 rfl (by decide) (by decide) (by decide)).trans (by rw [K_main_v145 m ρ c, K_main_v152 m ρ c]; rfl)
theorem K_main_cst_34 : W15 m ρ c (Proc.devRef .tc main_cst_34) = Kv.main_cst_34 Reg.fns (launchArgs m c) :=
  ((st_hostOps4 m ρ c).nullary 55 rfl (by decide)).trans (rfl)
theorem K_main_v154 : W15 m ρ c (Proc.devRef .tc main_v154) = Kv.main_v154 Reg.fns (launchArgs m c) :=
  ((st_hostOps4 m ρ c).unary 56 rfl (by decide) (by decide)).trans (by rw [K_main_cst_34 m ρ c]; rfl)
theorem K_main_v155 : W15 m ρ c (Proc.devRef .tc main_v155) = Kv.main_v155 Reg.fns (launchArgs m c) :=
  ((st_hostOps4 m ρ c).unary 57 rfl (by decide) (by decide)).trans (by rw [K_main_v23 m ρ c]; rfl)
theorem K_main_v156 : W15 m ρ c (Proc.devRef .tc main_v156) = Kv.main_v156 Reg.fns (launchArgs m c) :=
  ((st_hostOps4 m ρ c).ternary 58 rfl (by decide) (by decide) (by decide) (by decide)).trans (by rw [K_main_v154 m ρ c, K_main_v155 m ρ c, K_main_v144 m ρ c]; rfl)
theorem K_main_cst_35 : W15 m ρ c (Proc.devRef .tc main_cst_35) = Kv.main_cst_35 Reg.fns (launchArgs m c) :=
  ((st_hostOps4 m ρ c).nullary 59 rfl (by decide)).trans (rfl)
theorem K_main_v157 : W15 m ρ c (Proc.devRef .tc main_v157) = Kv.main_v157 Reg.fns (launchArgs m c) :=
  ((st_hostOps4 m ρ c).unary 60 rfl (by decide) (by decide)).trans (by rw [K_main_cst_35 m ρ c]; rfl)
theorem K_main_v158 : W15 m ρ c (Proc.devRef .tc main_v158) = Kv.main_v158 Reg.fns (launchArgs m c) :=
  ((st_hostOps4 m ρ c).unary 61 rfl (by decide) (by decide)).trans (by rw [K_main_v24 m ρ c]; rfl)
theorem K_main_v159 : W15 m ρ c (Proc.devRef .tc main_v159) = Kv.main_v159 Reg.fns (launchArgs m c) :=
  ((st_hostOps4 m ρ c).ternary 62 rfl (by decide) (by decide) (by decide) (by decide)).trans (by rw [K_main_v157 m ρ c, K_main_v158 m ρ c, K_main_v153 m ρ c]; rfl)
theorem K_main_v160 : W15 m ρ c (Proc.devRef .tc main_v160) = Kv.main_v160 Reg.fns (launchArgs m c) :=
  ((st_hostOps4 m ρ c).binary 63 rfl (by decide) (by decide) (by decide)).trans (by rw [K_main_v156 m ρ c, K_main_v159 m ρ c]; rfl)
theorem K_main_cst_36 : W15 m ρ c (Proc.devRef .tc main_cst_36) = Kv.main_cst_36 Reg.fns (launchArgs m c) :=
  ((st_hostOps4 m ρ c).nullary 64 rfl (by decide)).trans (rfl)
theorem K_main_v161 : W15 m ρ c (Proc.devRef .tc main_v161) = Kv.main_v161 Reg.fns (launchArgs m c) :=
  ((st_hostOps4 m ρ c).unary 65 rfl (by decide) (by decide)).trans (by rw [K_main_cst_36 m ρ c]; rfl)
theorem K_main_v162 : W15 m ρ c (Proc.devRef .tc main_v162) = Kv.main_v162 Reg.fns (launchArgs m c) :=
  ((st_hostOps4 m ρ c).binary 66 rfl (by decide) (by decide) (by decide)).trans (by rw [K_main_v29 m ρ c, K_main_v161 m ρ c]; rfl)
theorem K_main_cst_37 : W15 m ρ c (Proc.devRef .tc main_cst_37) = Kv.main_cst_37 Reg.fns (launchArgs m c) :=
  ((st_hostOps4 m ρ c).nullary 67 rfl (by decide)).trans (rfl)
theorem K_main_v163 : W15 m ρ c (Proc.devRef .tc main_v163) = Kv.main_v163 Reg.fns (launchArgs m c) :=
  ((st_hostOps4 m ρ c).unary 68 rfl (by decide) (by decide)).trans (by rw [K_main_cst_37 m ρ c]; rfl)
theorem K_main_v164 : W15 m ρ c (Proc.devRef .tc main_v164) = Kv.main_v164 Reg.fns (launchArgs m c) :=
  ((st_hostOps4 m ρ c).binary 69 rfl (by decide) (by decide) (by decide)).trans (by rw [K_main_v163 m ρ c, K_main_v33 m ρ c]; rfl)
theorem K_main_v165 : W15 m ρ c (Proc.devRef .tc main_v165) = Kv.main_v165 Reg.fns (launchArgs m c) :=
  ((st_hostOps4 m ρ c).binary 70 rfl (by decide) (by decide) (by decide)).trans (by rw [K_main_v164 m ρ c, K_main_v29 m ρ c]; rfl)
theorem K_main_cst_38 : W15 m ρ c (Proc.devRef .tc main_cst_38) = Kv.main_cst_38 Reg.fns (launchArgs m c) :=
  ((st_hostOps4 m ρ c).nullary 71 rfl (by decide)).trans (rfl)

theorem K_main_call2_v0 : W15 m ρ c (Proc.devRef .tc main_call2_v0) = Kv.main_call2_v0 Reg.fns (launchArgs m c) :=
  ((st_hostOps4_1 m ρ c).unary 0 rfl (by decide) (by decide)).trans (by rw [K_main_cst_38 m ρ c]; unfold Kv.main_call2_v0; exact cast_fn1 _ _ _ _)
theorem K_main_call2_v1 : W15 m ρ c (Proc.devRef .tc main_call2_v1) = Kv.main_call2_v1 Reg.fns (launchArgs m c) :=
  ((st_hostOps4_1 m ρ c).unary 1 rfl (by decide) (by decide)).trans (by rw [K_main_call2_v0 m ρ c]; unfold Kv.main_call2_v1; exact cast_fn1 _ _ _ _)
theorem K_main_v166 : W15 m ρ c (Proc.devRef .tc main_v166) = Kv.main_v166 Reg.fns (launchArgs m c) :=
  ((st_hostOps4_1 m ρ c).ternary 2 rfl (by decide) (by decide) (by decide) (by decide)).trans (by rw [K_main_v162 m ρ c, K_main_v165 m ρ c, K_main_call2_v1 m ρ c]; unfold Kv.main_v166; exact cast_fn3 _ _ _ _ _ _ _ _)

theorem K_main_v167 : W15 m ρ c (Proc.devRef .tc main_v167) = Kv.main_v167 Reg.fns (launchArgs m c) :=
  ((st_hostOps4_2 m ρ c).binary 0 rfl (by decide) (by decide) (by decide)).trans (by rw [K_main_v160 m ρ c, K_main_v166 m ρ c]; rfl)
theorem K_main_c_39 : W15 m ρ c (Proc.devRef .tc main_c_39) = Kv.main_c_39 Reg.fns (launchArgs m c) :=
  ((st_hostOps4_2 m ρ c).nullary 1 rfl (by decide)).trans (rfl)
theorem K_main_v168 : W15 m ρ c (Proc.devRef .tc main_v168) = Kv.main_v168 Reg.fns (launchArgs m c) :=
  ((st_hostOps4_2 m ρ c).unary 2 rfl (by decide) (by decide)).trans (by rw [K_main_c_39 m ρ c]; rfl)
theorem K_main_v169 : W15 m ρ c (Proc.devRef .tc main_v169) = Kv.main_v169 Reg.fns (launchArgs m c) :=
  ((st_hostOps4_2 m ρ c).binary 3 rfl (by decide) (by decide) (by decide)).trans (by rw [K_main_v24 m ρ c, K_main_v168 m ρ c]; rfl)
theorem K_main_c_40 : W15 m ρ c (Proc.devRef .tc main_c_40) = Kv.main_c_40 Reg.fns (launchArgs m c) :=
  ((st_hostOps4_2 m ρ c).nullary 4 rfl (by decide)).trans (rfl)
theorem K_main_v170 : W15 m ρ c (Proc.devRef .tc main_v170) = Kv.main_v170 Reg.fns (launchArgs m c) :=
  ((st_hostOps4_2 m ρ c).unary 5 rfl (by decide) (by decide)).trans (by rw [K_main_c_40 m ρ c]; rfl)
theorem K_main_v171 : W15 m ρ c (Proc.devRef .tc main_v171) = Kv.main_v171 Reg.fns (launchArgs m c) :=
  ((st_hostOps4_2 m ρ c).binary 6 rfl (by decide) (by decide) (by decide)).trans (by rw [K_main_v24 m ρ c, K_main_v170 m ρ c]; rfl)
theorem K_main_v172 : W15 m ρ c (Proc.devRef .tc main_v172) = Kv.main_v172 Reg.fns (launchArgs m c) :=
  ((st_hostOps4_2 m ρ c).ternary 7 rfl (by decide) (by decide) (by decide) (by decide)).trans (by rw [K_main_v169 m ρ c, K_main_v171 m ρ c, K_main_v24 m ρ c]; rfl)
theorem K_main_v173 : W15 m ρ c (Proc.devRef .tc main_v173) = Kv.main_v173 Reg.fns (launchArgs m c) :=
  ((st_hostOps4_2 m ρ c).unary 8 rfl (by decide) (by decide)).trans (by rw [K_main_v172 m ρ c]; rfl)
theorem K_main_v174 : W15 m ρ c (Proc.devRef .tc main_v174) = Kv.main_v174 Reg.fns (launchArgs m c) :=
  ((st_hostOps4_2 m ρ c).binary 9 rfl (by decide) (by decide) (by decide)).trans (by rw [K_main_v167 m ρ c, K_main_v173 m ρ c]; rfl)
theorem K_main_v175 : W15 m ρ c (Proc.devRef .tc main_v175) = Kv.main_v175 Reg.fns (launchArgs m c) :=
  ((st_hostOps4_2 m ρ c).binary 10 rfl (by decide) (by decide) (by decide)).trans (by rw [K_main_v135 m ρ c, K_main_v174 m ρ c]; rfl)
theorem K_main_v176 : W15 m ρ c (Proc.devRef .tc main_v176) = Kv.main_v176 Reg.fns (launchArgs m c) :=
  ((st_hostOps4_2 m ρ c).unary 11 rfl (by decide) (by decide)).trans (by rw [K_main_v175 m ρ c]; rfl)
theorem K_main_v177 : W15 m ρ c (Proc.devRef .tc main_v177) = Kv.main_v177 Reg.fns (launchArgs m c) :=
  ((st_hostOps4_2 m ρ c).unary 12 rfl (by decide) (by decide)).trans (by rw [K_main_v176 m ρ c]; rfl)
theorem K_main_v178 : W15 m ρ c (Proc.devRef .tc main_v178) = Kv.main_v178 Reg.fns (launchArgs m c) :=
  ((st_hostOps4_2 m ρ c).unary 13 rfl (by decide) (by decide)).trans (by rw [K_main_v177 m ρ c]; rfl)
theorem K_main_v179 : W15 m ρ c (Proc.devRef .tc main_v179) = Kv.main_v179 Reg.fns (launchArgs m c) :=
  ((st_hostOps4_2 m ρ c).binary 14 rfl (by decide) (by decide) (by decide)).trans (by rw [K_main_v178 m ρ c, K_main_v18 m ρ c]; rfl)
theorem K_main_v180 : W15 m ρ c (Proc.devRef .tc main_v180) = Kv.main_v180 Reg.fns (launchArgs m c) :=
  ((st_hostOps4_2 m ρ c).unary 15 rfl (by decide) (by decide)).trans (by rw [K_main_v21 m ρ c]; rfl)
theorem K_main_v181 : W15 m ρ c (Proc.devRef .tc main_v181) = Kv.main_v181 Reg.fns (launchArgs m c) :=
  ((st_hostOps4_2 m ρ c).unary 16 rfl (by decide) (by decide)).trans (by rw [K_main_v180 m ρ c]; rfl)
theorem K_main_v182 : W15 m ρ c (Proc.devRef .tc main_v182) = Kv.main_v182 Reg.fns (launchArgs m c) :=
  ((st_hostOps4_2 m ρ c).binary 17 rfl (by decide) (by decide) (by decide)).trans (by rw [K_main_v179 m ρ c, K_main_v181 m ρ c]; rfl)
theorem K_main_cst_41 : W15 m ρ c (Proc.devRef .tc main_cst_41) = Kv.main_cst_41 Reg.fns (launchArgs m c) :=
  ((st_hostOps4_2 m ρ c).nullary 18 rfl (by decide)).trans (rfl)
theorem K_main_v183 : W15 m ρ c (Proc.devRef .tc main_v183) = Kv.main_v183 Reg.fns (launchArgs m c) :=
  ((st_hostOps4_2 m ρ c).unary 19 rfl (by decide) (by decide)).trans (by rw [K_main_cst_41 m ρ c]; rfl)
theorem K_main_c_42 : W15 m ρ c (Proc.devRef .tc main_c_42) = Kv.main_c_42 Reg.fns (launchArgs m c) :=
  ((st_hostOps4_2 m ρ c).nullary 20 rfl (by decide)).trans (rfl)
theorem K_main_v184 : W15 m ρ c (Proc.devRef .tc main_v184) = Kv.main_v184 Reg.fns (launchArgs m c) :=
  ((st_hostOps4_2 m ρ c).unary 21 rfl (by decide) (by decide)).trans (by rw [K_main_c_42 m ρ c]; rfl)
theorem K_main_v185 : W15 m ρ c (Proc.devRef .tc main_v185) = Kv.main_v185 Reg.fns (launchArgs m c) :=
  ((st_hostOps4_2 m ρ c).binary 22 rfl (by decide) (by decide) (by decide)).trans (by rw [K_main_v1 m ρ c, K_main_v184 m ρ c]; rfl)
theorem K_main_c_43 : W15 m ρ c (Proc.devRef .tc main_c_43) = Kv.main_c_43 Reg.fns (launchArgs m c) :=
  ((st_hostOps4_2 m ρ c).nullary 23 rfl (by decide)).trans (rfl)
theorem K_main_v186 : W15 m ρ c (Proc.devRef .tc main_v186) = Kv.main_v186 Reg.fns (launchArgs m c) :=
  ((st_hostOps4_2 m ρ c).unary 24 rfl (by decide) (by decide)).trans (by rw [K_main_c_43 m ρ c]; rfl)
theorem K_main_v187 : W15 m ρ c (Proc.devRef .tc main_v187) = Kv.main_v187 Reg.fns (launchArgs m c) :=
  ((st_hostOps4_2 m ρ c).binary 25 rfl (by decide) (by decide) (by decide)).trans (by rw [K_main_v1 m ρ c, K_main_v186 m ρ c]; rfl)
theorem K_main_v188 : W15 m ρ c (Proc.devRef .tc main_v188) = Kv.main_v188 Reg.fns (launchArgs m c) :=
  ((st_hostOps4_2 m ρ c).ternary 26 rfl (by decide) (by decide) (by decide) (by decide)).trans (by rw [K_main_v185 m ρ c, K_main_v187 m ρ c, K_main_v1 m ρ c]; rfl)
theorem K_main_v189 : W15 m ρ c (Proc.devRef .tc main_v189) = Kv.main_v189 Reg.fns (launchArgs m c) :=
  ((st_hostOps4_2 m ρ c).unary 27 rfl (by decide) (by decide)).trans (by rw [K_main_v188 m ρ c]; rfl)
theorem K_main_v190 : W15 m ρ c (Proc.devRef .tc main_v190) = Kv.main_v190 Reg.fns (launchArgs m c) :=
  ((st_hostOps4_2 m ρ c).ternary 28 rfl (by decide) (by decide) (by decide) (by decide)).trans (by rw [K_main_v183 m ρ c, K_main_v189 m ρ c, K_main_v182 m ρ c]; rfl)
theorem K_main_v191 : W15 m ρ c (Proc.devRef .tc main_v191) = Kv.main_v191 Reg.fns (launchArgs m c) :=
  ((st_hostOps4_2 m ρ c).unary 29 rfl (by decide) (by decide)).trans (by rw [K_main_v182 m ρ c]; rfl)
theorem K_main_c_44 : W15 m ρ c (Proc.devRef .tc main_c_44) = Kv.main_c_44 Reg.fns (launchArgs m c) :=
  ((st_hostOps4_2 m ρ c).nullary 30 rfl (by decide)).trans (rfl)
theorem K_main_v192 : W15 m ρ c (Proc.devRef .tc main_v192) = Kv.main_v192 Reg.fns (launchArgs m c) :=
  ((st_hostOps4_2 m ρ c).unary 31 rfl (by decide) (by decide)).trans (by rw [K_main_c_44 m ρ c]; rfl)
theorem K_main_v193 : W15 m ρ c (Proc.devRef .tc main_v193) = Kv.main_v193 Reg.fns (launchArgs m c) :=
  ((st_hostOps4_2 m ρ c).binary 32 rfl (by decide) (by decide) (by decide)).trans (by rw [K_main_v3 m ρ c, K_main_v192 m ρ c]; rfl)
theorem K_main_c_45 : W15 m ρ c (Proc.devRef .tc main_c_45) = Kv.main_c_45 Reg.fns (launchArgs m c) :=
  ((st_hostOps4_2 m ρ c).nullary 33 rfl (by decide)).trans (rfl)
theorem K_main_v194 : W15 m ρ c (Proc.devRef .tc main_v194) = Kv.main_v194 Reg.fns (launchArgs m c) :=
  ((st_hostOps4_2 m ρ c).unary 34 rfl (by decide) (by decide)).trans (by rw [K_main_c_45 m ρ c]; rfl)
theorem K_main_v195 : W15 m ρ c (Proc.devRef .tc main_v195) = Kv.main_v195 Reg.fns (launchArgs m c) :=
  ((st_hostOps4_2 m ρ c).binary 35 rfl (by decide) (by decide) (by decide)).trans (by rw [K_main_v3 m ρ c, K_main_v194 m ρ c]; rfl)
theorem K_main_v196 : W15 m ρ c (Proc.devRef .tc main_v196) = Kv.main_v196 Reg.fns (launchArgs m c) :=
  ((st_hostOps4_2 m ρ c).ternary 36 rfl (by decide) (by decide) (by decide) (by decide)).trans (by rw [K_main_v193 m ρ c, K_main_v195 m ρ c, K_main_v3 m ρ c]; rfl)
theorem K_main_v197 : W15 m ρ c (Proc.devRef .tc main_v197) = Kv.main_v197 Reg.fns (launchArgs m c) :=
  ((st_hostOps4_2 m ρ c).unary 37 rfl (by decide) (by decide)).trans (by rw [K_main_v196 m ρ c]; rfl)
theorem K_main_v198 : W15 m ρ c (Proc.devRef .tc main_v198) = Kv.main_v198 Reg.fns (launchArgs m c) :=
  ((st_hostOps4_2 m ρ c).ternary 38 rfl (by decide) (by decide) (by decide) (by decide)).trans (by rw [K_main_v190 m ρ c, K_main_v197 m ρ c, K_main_v191 m ρ c]; rfl)
theorem K_main_v199 : W15 m ρ c (Proc.devRef .tc main_v199) = Kv.main_v199 Reg.fns (launchArgs m c) :=
  ((st_hostOps4_2 m ρ c).unary 39 rfl (by decide) (by decide)).trans (by rw [K_main_v198 m ρ c]; rfl)

end Cert.Proof.Run

end
-- ==== Proof.KerRun.lean ====
import proofs.«408045_j39298950758801_3_alg».proof.Proof.RegFns
import proofs.«408045_j39298950758801_3_alg».proof.Proof.Gen.KernelIdeal.Frame
import proofs.«408045_j39298950758801_3_alg».proof.Proof.KerRunT

noncomputable section

namespace Cert.Proof

open Idealize.ShloMosaic Idealize.ShloMosaic.TcCoe Idealize.SL.Sem

def kerArgs (m : (ℓ : Loc Cert.KernelIdeal.nD Cert.KernelIdeal.τ Cert.KernelIdeal.sig) → Buf (Elt Ideal) ℓ) (c : Dev Cert.KernelIdeal.nD) : Args Ideal :=
  ⟨m ((c.tc : Thread Cert.KernelIdeal.nD Cert.KernelIdeal.τ).loc Cert.KernelIdeal.main_arg0),
    m ((c.tc : Thread Cert.KernelIdeal.nD Cert.KernelIdeal.τ).loc Cert.KernelIdeal.main_arg1),
    m ((c.tc : Thread Cert.KernelIdeal.nD Cert.KernelIdeal.τ).loc Cert.KernelIdeal.main_arg2),
    m ((c.tc : Thread Cert.KernelIdeal.nD Cert.KernelIdeal.τ).loc Cert.KernelIdeal.main_arg3),
    m ((c.tc : Thread Cert.KernelIdeal.nD Cert.KernelIdeal.τ).loc Cert.KernelIdeal.main_arg4),
    m ((c.tc : Thread Cert.KernelIdeal.nD Cert.KernelIdeal.τ).loc Cert.KernelIdeal.main_arg5),
    m ((c.tc : Thread Cert.KernelIdeal.nD Cert.KernelIdeal.τ).loc Cert.KernelIdeal.main_arg6),
    m ((c.tc : Thread Cert.KernelIdeal.nD Cert.KernelIdeal.τ).loc Cert.KernelIdeal.main_arg7),
    m ((c.tc : Thread Cert.KernelIdeal.nD Cert.KernelIdeal.τ).loc Cert.KernelIdeal.main_arg8),
    m ((c.tc : Thread Cert.KernelIdeal.nD Cert.KernelIdeal.τ).loc Cert.KernelIdeal.main_arg9),
    m ((c.tc : Thread Cert.KernelIdeal.nD Cert.KernelIdeal.τ).loc Cert.KernelIdeal.main_arg10),
    m ((c.tc : Thread Cert.KernelIdeal.nD Cert.KernelIdeal.τ).loc Cert.KernelIdeal.main_arg11),
    m ((c.tc : Thread Cert.KernelIdeal.nD Cert.KernelIdeal.τ).loc Cert.KernelIdeal.main_arg12),
    m ((c.tc : Thread Cert.KernelIdeal.nD Cert.KernelIdeal.τ).loc Cert.KernelIdeal.main_arg13),
    m ((c.tc : Thread Cert.KernelIdeal.nD Cert.KernelIdeal.τ).loc Cert.KernelIdeal.main_arg14)⟩

theorem Ker.run [Cert.KernelIdeal.Facts] (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v91) = Kv.main_v91 Reg.fns (kerArgs m c)
      ∧ r.2.mem ((c.tc : Thread Cert.KernelIdeal.nD Cert.KernelIdeal.τ).loc Cert.KernelIdeal.main_v199) = Kv.main_v199 Reg.fns (kerArgs m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) := by
  refine (θ_run _ _ _).mono (fun r h c => ?_) (Cert.KernelIdeal.Gen.frame_results (F := Ideal) m ρ)
  obtain ⟨h91, h199, hargs⟩ := h c
  exact ⟨h91.trans (Run.K_main_v91 m ρ c), h199.trans (Run.K_main_v199 m ρ c), hargs⟩

end Cert.Proof

end
-- ==== Proof.Good.lean ====
import proofs.«408045_j39298950758801_3_alg».proof.Proof.Args
import proofs.«408045_j39298950758801_3_alg».proof.Proof.RegFns

noncomputable section

namespace Cert.Proof

open Idealize.ShloMosaic

def IsReal (x : EReal) : Prop := x ≠ ⊤ ∧ x ≠ ⊥

structure Good [Cert.KernelIdeal.Facts] (A : Args Ideal) : Prop where
  pos : ∀ i, IsReal (A.pos i)
  emb : ∀ i, IsReal (A.emb i)
  W1 : ∀ i, IsReal (A.W1 i)
  b1 : ∀ i, IsReal (A.b1 i)
  Wl1 : ∀ i, IsReal (A.Wl1 i)
  bl1 : ∀ i, IsReal (A.bl1 i)
  W2 : ∀ i, IsReal (A.W2 i)
  b2 : ∀ i, IsReal (A.b2 i)
  Wl2 : ∀ i, IsReal (A.Wl2 i)
  bl2 : ∀ i, IsReal (A.bl2 i)
  Wl3 : ∀ i, IsReal (A.Wl3 i)
  bl3 : ∀ i, IsReal (A.bl3 i)
  z : ∀ i, 0 ≤ (A.z i).toInt ∧ (A.z i).toInt < 118
  ei : ∀ i, 0 ≤ (A.ei i).toInt ∧ (A.ei i).toInt < 100000
  batch : ∀ i, 0 ≤ (A.batch i).toInt ∧ (A.batch i).toInt < 512
  edge : ∀ e, (0 : EReal) < Kv.main_v20 Reg.fns A e

end Cert.Proof

end
-- ==== Proof.PreDecode.lean ====
import proofs.«408045_j39298950758801_3_alg».proof.Defs
import proofs.«408045_j39298950758801_3_alg».proof.Proof.Gen.Pre_finite_inputs
import proofs.«408045_j39298950758801_3_alg».proof.Proof.Good
import proofs.«408045_j39298950758801_3_alg».proof.Proof.KerRun
import Idealize.ShloMosaic.Lib.ReduceAll

set_option maxRecDepth 16384

noncomputable section

namespace Cert.Proof

open Idealize.ShloMosaic Idealize.ShloMosaic.TcCoe Idealize.SL.Sem

namespace PreDecode

open Cert.Pre_finite_inputs

theorem subsingleton_S_ : Subsingleton S_.Idx := ⟨fun _ _ => funext fun d => d.elim0⟩

theorem ofBool_eq_one (b : Bool) : BitVec.ofBool b = 1#1 ↔ b = true := by cases b <;> decide

theorem ofBits_inf : Ideal.ofBits .f32 0x7F800000#32 = (⊤ : EReal) := by
  simp [Ideal.ofBits, Ideal.ieee]

theorem ofBits_zero : Ideal.ofBits .f32 0x00000000#32 = (0 : EReal) := by
  simp [Ideal.ofBits, Ideal.ieee]

theorem isReal_of_abs_lt_top (x : EReal) (h : max x (-x) < ⊤) : IsReal x := by
  induction x using EReal.rec with
  | bot => simp at h
  | top => simp at h
  | coe r => exact ⟨EReal.coe_ne_top r, EReal.coe_ne_bot r⟩

theorem real_of_all {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi (cmpf .olt (Host.absf x) (broadcastInDim s ![] hb (constant S_ .f32 0x7F800000#32)))
          (constantI S_ 1 1#1) hr hS ValueIdx.ix0 = 1#1) (i : s.Idx) : IsReal (x i) := by
  haveI := subsingleton_S_
  have e := Host.reduce_andi_all _ _ hr hS _ h i
  have e' : BitVec.ofBool (decide (max (x i) (-(x i)) < Ideal.ofBits .f32 0x7F800000#32)) = 1#1 := e
  rw [ofBits_inf, ofBool_eq_one, decide_eq_true_eq] at e'
  exact isReal_of_abs_lt_top _ e'

theorem range_of_all {s : Shape} {axes : List (Fin s.rank)} (x : IVec s 32) (n : BitVec 32)
    (hb : S_.BroadcastsInDim s (![] : Fin 0 → Fin s.rank)) (hr : s.ReducesTo axes S_) (hS : 0 < S_.numel)
    (h : Host.reduce IntOp.andi
          (andi (cmpi .sge x (broadcastInDim s ![] hb (constantI S_ 32 0#32)))
                (cmpi .slt x (broadcastInDim s ![] hb (constantI S_ 32 n))))
          (constantI S_ 1 1#1) hr hS ValueIdx.ix0 = 1#1) (i : s.Idx) :
    0 ≤ (x i).toInt ∧ (x i).toInt < n.toInt := by
  haveI := subsingleton_S_
  have e := Host.reduce_andi_all _ _ hr hS _ h i
  have e' : IntOp.andi (IntOp.cmpi .sge (x i) 0#32) (IntOp.cmpi .slt (x i) n) = 1#1 := e
  rw [IntOp.andi_eq_one, IntOp.cmpi_sge, IntOp.cmpi_slt] at e'
  exact ⟨by simpa using e'.1, e'.2⟩

theorem pos_of_all {s : Shape} {axes : List (Fin s.rank)} (x : FVec Ideal s .f32)
    (hb : S_.BroadcastsInDim s (![] : Fin 0 → Fin s.rank)) (hr : s.ReducesTo axes S_) (hS : 0 < S_.numel)
    (h : Host.reduce IntOp.andi (cmpf .ogt x (broadcastInDim s ![] hb (constant S_ .f32 0x00000000#32)))
          (constantI S_ 1 1#1) hr hS ValueIdx.ix0 = 1#1) (i : s.Idx) : (0 : EReal) < x i := by
  haveI := subsingleton_S_
  have e := Host.reduce_andi_all _ _ hr hS _ h i
  have e' : BitVec.ofBool (decide (Ideal.ofBits .f32 0x00000000#32 < x i)) = 1#1 := e
  rw [ofBits_zero, ofBool_eq_one, decide_eq_true_eq] at e'
  exact e'

section Edge
variable [Cert.Pre_finite_inputs.Facts] [Cert.KernelIdeal.Facts]

def rowOf (A : Args Ideal) (r : Nat) (hs : S2x3200000.Slices ![r, 0] S1x3200000) : IVec S3200000 32 :=
  shapeCast S3200000 (extractStridedSlice S1x3200000 ![r, 0] A.ei hs) Facts.shapeCasts_S1x3200000_S3200000

def wrap (x : IVec S3200000 32) : IVec S3200000 32 :=
  select (cmpi .slt x (broadcastInDim S3200000 ![] Facts.bcast_S_S3200000 (constantI S_ 32 0#32)))
    (addi x (broadcastInDim S3200000 ![] Facts.bcast_S_S3200000 (constantI S_ 32 100000#32))) x

def rowsAt (A : Args Ideal) (x : IVec S3200000 32) : FVec Ideal S3200000x3 .f32 :=
  Host.gather gather_S100000x3_S3200000x1_S3200000x3_1_0_n_n_0_1_13 A.pos
    (broadcastInDim S3200000x1 ![0] Facts.bcast_S3200000_S3200000x1_0 x)

def sum3 (v : FVec Ideal S3200000x3 .f32) : FVec Ideal S3200000 .f32 :=
  Host.reduceAdd v (constant S_ .f32 0x00000000#32) Facts.reducesTo_S3200000x3_S3200000_d1 Facts.h_S_

def sqLen (A : Args Ideal) : FVec Ideal S3200000 .f32 :=
  sum3 (mulf
    (subf (rowsAt A (wrap (rowOf A 0 Facts.slices_S2x3200000_S1x3200000_0_0))) (rowsAt A (wrap (rowOf A 1 Facts.slices_S2x3200000_S1x3200000_1_0))))
    (subf (rowsAt A (wrap (rowOf A 0 Facts.slices_S2x3200000_S1x3200000_0_0))) (rowsAt A (wrap (rowOf A 1 Facts.slices_S2x3200000_S1x3200000_1_0)))))

theorem src_eq (R : Kv.RegFns Ideal) (A : Args Ideal) : rowOf A 0 Facts.slices_S2x3200000_S1x3200000_0_0 = Kv.main_v1 R A := rfl
theorem dst_eq (R : Kv.RegFns Ideal) (A : Args Ideal) : rowOf A 1 Facts.slices_S2x3200000_S1x3200000_1_0 = Kv.main_v3 R A := rfl
theorem wrap_src_eq (R : Kv.RegFns Ideal) (A : Args Ideal) : wrap (Kv.main_v1 R A) = Kv.main_v8 R A := rfl
theorem wrap_dst_eq (R : Kv.RegFns Ideal) (A : Args Ideal) : wrap (Kv.main_v3 R A) = Kv.main_v15 R A := rfl
theorem rows_src_eq (R : Kv.RegFns Ideal) (A : Args Ideal) : rowsAt A (Kv.main_v8 R A) = Kv.main_v10 R A := rfl
theorem rows_dst_eq (R : Kv.RegFns Ideal) (A : Args Ideal) : rowsAt A (Kv.main_v15 R A) = Kv.main_v17 R A := rfl
theorem sub_eq (R : Kv.RegFns Ideal) (A : Args Ideal) :
    (subf (Kv.main_v10 R A) (Kv.main_v17 R A) : FVec Ideal S3200000x3 .f32) = Kv.main_v18 R A := rfl
theorem sq_eq (R : Kv.RegFns Ideal) (A : Args Ideal) :
    (mulf (Kv.main_v18 R A) (Kv.main_v18 R A) : FVec Ideal S3200000x3 .f32) = Kv.main_v19 R A := rfl
theorem sum_eq (R : Kv.RegFns Ideal) (A : Args Ideal) : sum3 (Kv.main_v19 R A) = Kv.main_v20 R A := rfl

theorem sqLen_eq (R : Kv.RegFns Ideal) (A : Args Ideal) : sqLen A = Kv.main_v20 R A := by
  unfold sqLen
  rw [src_eq R, dst_eq R, wrap_src_eq, wrap_dst_eq, rows_src_eq, rows_dst_eq, sub_eq, sq_eq, sum_eq]

end Edge

end PreDecode

open PreDecode in
theorem good_of_pre [Cert.Pre_finite_inputs.Facts] [Cert.KernelIdeal.Facts] (m : (ℓ : Loc Cert.KernelIdeal.nD Cert.KernelIdeal.τ Cert.KernelIdeal.sig) → Buf (Elt Ideal) ℓ)
    (h : Cert.Pre_KernelIdeal m) (c : Dev Cert.KernelIdeal.nD) : Good (kerArgs m c) := by
  have h0 := congrFun (h c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5, Cert.Pre_finite_inputs.fn_part6] at h0
  have h1 : ∀ (a b : IVec Cert.Pre_finite_inputs.S_ 1), andi a b ValueIdx.ix0 = 1#1 ↔ a ValueIdx.ix0 = 1#1 ∧ b ValueIdx.ix0 = 1#1 :=
    fun a b => IntOp.andi_eq_one
  simp only [h1] at h0
  obtain ⟨⟨⟨⟨⟨⟨⟨⟨⟨⟨⟨⟨⟨⟨⟨hpos, hemb⟩, hW1⟩, hb1⟩, hWl1⟩, hbl1⟩, hW2⟩, hb2⟩, hWl2⟩, hbl2⟩, hWl3⟩, hbl3⟩, hz⟩, hei⟩, hbatch⟩, hedge⟩ := h0
  refine ⟨real_of_all _ _ _ _ hpos, real_of_all _ _ _ _ hemb, real_of_all _ _ _ _ hW1, real_of_all _ _ _ _ hb1,
    real_of_all _ _ _ _ hWl1, real_of_all _ _ _ _ hbl1, real_of_all _ _ _ _ hW2, real_of_all _ _ _ _ hb2,
    real_of_all _ _ _ _ hWl2, real_of_all _ _ _ _ hbl2, real_of_all _ _ _ _ hWl3, real_of_all _ _ _ _ hbl3,
    range_of_all _ _ _ _ _ hz, range_of_all _ _ _ _ _ hei, range_of_all _ _ _ _ _ hbatch, ?_⟩
  intro e
  have e1 : (0 : EReal) < sqLen (kerArgs m c) e := pos_of_all _ _ _ _ hedge e
  rw [sqLen_eq Reg.fns] at e1
  exact e1

end Cert.Proof

end
-- ==== Proof.FwdEdge.lean ====
import proofs.«408045_j39298950758801_3_alg».proof.Proof.Good
import proofs.«408045_j39298950758801_3_alg».proof.Proof.RefVals

noncomputable section

namespace Cert.Proof.Fwd

open Idealize.ShloMosaic

variable [Cert.KernelIdeal.Facts] [Cert.ReferenceIdeal.Facts]

theorem v0 (A : Args Ideal) : Kv.main_v0 Reg.fns A = Rv.main_v0 A := by
  unfold Kv.main_v0 Rv.main_v0
  rfl

theorem row (A : Args Ideal) : Kv.main_v1 Reg.fns A = Rv.main_v1 A := by
  unfold Kv.main_v1 Rv.main_v1
  rw [v0] <;> rfl

theorem v2 (A : Args Ideal) : Kv.main_v2 Reg.fns A = Rv.main_v2 A := by
  unfold Kv.main_v2 Rv.main_v2
  rfl

theorem col (A : Args Ideal) : Kv.main_v3 Reg.fns A = Rv.main_v3 A := by
  unfold Kv.main_v3 Rv.main_v3
  rw [v2] <;> rfl

theorem v8 (A : Args Ideal) : Kv.main_v8 Reg.fns A = Rv.main_v8 A := by
  unfold Kv.main_v8 Rv.main_v8 Kv.main_v5 Rv.main_v5 Kv.main_v7 Rv.main_v7 Kv.main_v4 Rv.main_v4
    Kv.main_v6 Rv.main_v6 Kv.main_c Rv.main_c Kv.main_c_0 Rv.main_c_0
  rw [row] <;> rfl

theorem v9 (A : Args Ideal) : Kv.main_v9 Reg.fns A = Rv.main_v9 A := by
  unfold Kv.main_v9 Rv.main_v9
  rw [v8] <;> rfl

theorem v10 (A : Args Ideal) : Kv.main_v10 Reg.fns A = Rv.main_v10 A := by
  unfold Kv.main_v10 Rv.main_v10
  rw [v9] <;> rfl

theorem v15 (A : Args Ideal) : Kv.main_v15 Reg.fns A = Rv.main_v15 A := by
  unfold Kv.main_v15 Rv.main_v15 Kv.main_v12 Rv.main_v12 Kv.main_v14 Rv.main_v14 Kv.main_v11 Rv.main_v11
    Kv.main_v13 Rv.main_v13 Kv.main_c_1 Rv.main_c_1 Kv.main_c_2 Rv.main_c_2
  rw [col] <;> rfl

theorem v16 (A : Args Ideal) : Kv.main_v16 Reg.fns A = Rv.main_v16 A := by
  unfold Kv.main_v16 Rv.main_v16
  rw [v15] <;> rfl

theorem v17 (A : Args Ideal) : Kv.main_v17 Reg.fns A = Rv.main_v17 A := by
  unfold Kv.main_v17 Rv.main_v17
  rw [v16] <;> rfl

theorem diff (A : Args Ideal) : Kv.main_v18 Reg.fns A = Rv.main_v18 A := by
  unfold Kv.main_v18 Rv.main_v18
  rw [v10, v17] <;> rfl

theorem v19 (A : Args Ideal) : Kv.main_v19 Reg.fns A = Rv.main_v19 A := by
  unfold Kv.main_v19 Rv.main_v19
  rw [diff] <;> rfl

theorem sq (A : Args Ideal) : Kv.main_v20 Reg.fns A = Rv.main_v20 A := by
  unfold Kv.main_v20 Rv.main_v20 Kv.main_cst Rv.main_cst
  rw [v19] <;> rfl

theorem ea (A : Args Ideal) : Kv.main_v21 Reg.fns A = Rv.main_v21 A := by
  unfold Kv.main_v21 Rv.main_v21
  rw [sq] <;> rfl

theorem v22 (A : Args Ideal) : Kv.main_v22 Reg.fns A = Rv.main_v32 A := by
  unfold Kv.main_v22 Rv.main_v32
  rfl

theorem v22' (A : Args Ideal) : Kv.main_v22 Reg.fns A = Rv.main_v89 A := by
  unfold Kv.main_v22 Rv.main_v89
  rfl

theorem rowf (A : Args Ideal) : Kv.main_v23 Reg.fns A = Rv.main_v33 A := by
  unfold Kv.main_v23 Rv.main_v33
  rw [row, v22] <;> rfl

theorem rowf' (A : Args Ideal) : Kv.main_v23 Reg.fns A = Rv.main_v90 A := by
  unfold Kv.main_v23 Rv.main_v90
  rw [row, v22'] <;> rfl

theorem colf (A : Args Ideal) : Kv.main_v24 Reg.fns A = Rv.main_v34 A := by
  unfold Kv.main_v24 Rv.main_v34
  rw [col, v22] <;> rfl

theorem colf' (A : Args Ideal) : Kv.main_v24 Reg.fns A = Rv.main_v91 A := by
  unfold Kv.main_v24 Rv.main_v91
  rw [col, v22'] <;> rfl

theorem v25 (A : Args Ideal) : Kv.main_v25 Reg.fns A = Rv.main_v35 A := by
  unfold Kv.main_v25 Rv.main_v35 Kv.main_cst_3 Rv.main_cst_6
  rfl

theorem v25' (A : Args Ideal) : Kv.main_v25 Reg.fns A = Rv.main_v92 A := by
  unfold Kv.main_v25 Rv.main_v92 Kv.main_cst_3 Rv.main_cst_23
  rfl

theorem wf (A : Args Ideal) : Kv.main_v26 Reg.fns A = Rv.main_v36 A := by
  unfold Kv.main_v26 Rv.main_v36
  rw [ea, v25] <;> rfl

theorem wf' (A : Args Ideal) : Kv.main_v26 Reg.fns A = Rv.main_v93 A := by
  unfold Kv.main_v26 Rv.main_v93
  rw [ea, v25'] <;> rfl

theorem v27 (A : Args Ideal) : Kv.main_v27 Reg.fns A = Rv.main_v38 A := by
  unfold Kv.main_v27 Rv.main_v38 Kv.main_cst_4 Rv.main_cst_8
  rfl

theorem v27' (A : Args Ideal) : Kv.main_v27 Reg.fns A = Rv.main_v95 A := by
  unfold Kv.main_v27 Rv.main_v95 Kv.main_cst_4 Rv.main_cst_25
  rfl

theorem v28 (A : Args Ideal) : Kv.main_v28 Reg.fns A = Rv.main_v39 A := by
  unfold Kv.main_v28 Rv.main_v39
  rw [colf] <;> rfl

theorem v28' (A : Args Ideal) : Kv.main_v28 Reg.fns A = Rv.main_v96 A := by
  unfold Kv.main_v28 Rv.main_v96
  rw [colf'] <;> rfl

theorem deg (A : Args Ideal) : Kv.main_v29 Reg.fns A = Rv.main_v40 A := by
  unfold Kv.main_v29 Rv.main_v40
  rw [v27, v28, wf] <;> rfl

theorem deg' (A : Args Ideal) : Kv.main_v29 Reg.fns A = Rv.main_v97 A := by
  unfold Kv.main_v29 Rv.main_v97
  rw [v27', v28', wf'] <;> rfl

theorem v31 (A : Args Ideal) : Kv.main_v31 Reg.fns A = Rv.main_v43 A := by
  unfold Kv.main_v31 Rv.main_v43 Kv.main_v30 Rv.main_v42 Kv.main_cst_5 Rv.main_cst_10
  rw [deg] <;> rfl

theorem v31' (A : Args Ideal) : Kv.main_v31 Reg.fns A = Rv.main_v100 A := by
  unfold Kv.main_v31 Rv.main_v100 Kv.main_v30 Rv.main_v99 Kv.main_cst_5 Rv.main_cst_27
  rw [deg'] <;> rfl

theorem v32 (A : Args Ideal) : Kv.main_v32 Reg.fns A = Rv.main_v44 A := by
  unfold Kv.main_v32 Rv.main_v44
  rw [deg] <;> rfl

theorem v32' (A : Args Ideal) : Kv.main_v32 Reg.fns A = Rv.main_v101 A := by
  unfold Kv.main_v32 Rv.main_v101
  rw [deg'] <;> rfl

theorem dinv (A : Args Ideal) : Kv.main_v33 Reg.fns A = Rv.main_v48_0 A := by
  unfold Kv.main_v33 Rv.main_v48_0 Kv.main_call0_v1 Rv.main_call0_v1 Kv.main_call0_v0 Rv.main_call0_v0
    Kv.main_cst_6 Rv.main_cst_12
  rw [v31, v32] <;> rfl

theorem dinv' (A : Args Ideal) : Kv.main_v33 Reg.fns A = Rv.main_v105_0 A := by
  unfold Kv.main_v33 Rv.main_v105_0 Kv.main_call0_v1 Rv.main_call3_v1 Kv.main_call0_v0 Rv.main_call3_v0
    Kv.main_cst_6 Rv.main_cst_29
  rw [v31', v32'] <;> rfl

theorem v38 (A : Args Ideal) : Kv.main_v38 Reg.fns A = Rv.main_v53 A := by
  unfold Kv.main_v38 Rv.main_v53 Kv.main_v35 Rv.main_v50 Kv.main_v37 Rv.main_v52 Kv.main_v34 Rv.main_v49
    Kv.main_v36 Rv.main_v51 Kv.main_c_7 Rv.main_c_13 Kv.main_c_8 Rv.main_c_14
  rw [rowf] <;> rfl

theorem v38' (A : Args Ideal) : Kv.main_v38 Reg.fns A = Rv.main_v110 A := by
  unfold Kv.main_v38 Rv.main_v110 Kv.main_v35 Rv.main_v107 Kv.main_v37 Rv.main_v109 Kv.main_v34 Rv.main_v106
    Kv.main_v36 Rv.main_v108 Kv.main_c_7 Rv.main_c_30 Kv.main_c_8 Rv.main_c_31
  rw [rowf'] <;> rfl

theorem v39 (A : Args Ideal) : Kv.main_v39 Reg.fns A = Rv.main_v54 A := by
  unfold Kv.main_v39 Rv.main_v54
  rw [v38] <;> rfl

theorem v39' (A : Args Ideal) : Kv.main_v39 Reg.fns A = Rv.main_v111 A := by
  unfold Kv.main_v39 Rv.main_v111
  rw [v38'] <;> rfl

theorem v40 (A : Args Ideal) : Kv.main_v40 Reg.fns A = Rv.main_v55 A := by
  unfold Kv.main_v40 Rv.main_v55
  rw [dinv, v39] <;> rfl

theorem v40' (A : Args Ideal) : Kv.main_v40 Reg.fns A = Rv.main_v112 A := by
  unfold Kv.main_v40 Rv.main_v112
  rw [dinv', v39'] <;> rfl

theorem v41 (A : Args Ideal) : Kv.main_v41 Reg.fns A = Rv.main_v56 A := by
  unfold Kv.main_v41 Rv.main_v56
  rw [v40, wf] <;> rfl

theorem v41' (A : Args Ideal) : Kv.main_v41 Reg.fns A = Rv.main_v113 A := by
  unfold Kv.main_v41 Rv.main_v113
  rw [v40', wf'] <;> rfl

theorem v46 (A : Args Ideal) : Kv.main_v46 Reg.fns A = Rv.main_v61 A := by
  unfold Kv.main_v46 Rv.main_v61 Kv.main_v43 Rv.main_v58 Kv.main_v45 Rv.main_v60 Kv.main_v42 Rv.main_v57
    Kv.main_v44 Rv.main_v59 Kv.main_c_9 Rv.main_c_15 Kv.main_c_10 Rv.main_c_16
  rw [colf] <;> rfl

theorem v46' (A : Args Ideal) : Kv.main_v46 Reg.fns A = Rv.main_v118 A := by
  unfold Kv.main_v46 Rv.main_v118 Kv.main_v43 Rv.main_v115 Kv.main_v45 Rv.main_v117 Kv.main_v42 Rv.main_v114
    Kv.main_v44 Rv.main_v116 Kv.main_c_9 Rv.main_c_32 Kv.main_c_10 Rv.main_c_33
  rw [colf'] <;> rfl

theorem v47 (A : Args Ideal) : Kv.main_v47 Reg.fns A = Rv.main_v62 A := by
  unfold Kv.main_v47 Rv.main_v62
  rw [v46] <;> rfl

theorem v47' (A : Args Ideal) : Kv.main_v47 Reg.fns A = Rv.main_v119 A := by
  unfold Kv.main_v47 Rv.main_v119
  rw [v46'] <;> rfl

theorem v48 (A : Args Ideal) : Kv.main_v48 Reg.fns A = Rv.main_v63 A := by
  unfold Kv.main_v48 Rv.main_v63
  rw [dinv, v47] <;> rfl

theorem v48' (A : Args Ideal) : Kv.main_v48 Reg.fns A = Rv.main_v120 A := by
  unfold Kv.main_v48 Rv.main_v120
  rw [dinv', v47'] <;> rfl

theorem norm (A : Args Ideal) : Kv.main_v49 Reg.fns A = Rv.main_v64 A := by
  unfold Kv.main_v49 Rv.main_v64
  rw [v41, v48] <;> rfl

theorem norm' (A : Args Ideal) : Kv.main_v49 Reg.fns A = Rv.main_v121 A := by
  unfold Kv.main_v49 Rv.main_v121
  rw [v41', v48'] <;> rfl

theorem v58 (A : Args Ideal) : Kv.main_v58 Reg.fns A = Rv.main_v69 A := by
  unfold Kv.main_v58 Rv.main_v69 Kv.main_v55 Rv.main_v66 Kv.main_v57 Rv.main_v68 Kv.main_v54 Rv.main_v65
    Kv.main_v56 Rv.main_v67 Kv.main_c_12 Rv.main_c_17 Kv.main_c_13 Rv.main_c_18
  rw [rowf] <;> rfl

theorem v59 (A : Args Ideal) : Kv.main_v59 Reg.fns A = Rv.main_v70 A := by
  unfold Kv.main_v59 Rv.main_v70
  rw [v58] <;> rfl

theorem v65 (A : Args Ideal) : Kv.main_v65 Reg.fns A = Rv.main_v76 A := by
  unfold Kv.main_v65 Rv.main_v76
  rw [colf] <;> rfl

theorem v74 (A : Args Ideal) : Kv.main_v74 Reg.fns A = Rv.main_v126 A := by
  unfold Kv.main_v74 Rv.main_v126 Kv.main_v71 Rv.main_v123 Kv.main_v73 Rv.main_v125 Kv.main_v70 Rv.main_v122
    Kv.main_v72 Rv.main_v124 Kv.main_c_15 Rv.main_c_34 Kv.main_c_16 Rv.main_c_35
  rw [rowf'] <;> rfl

theorem v75 (A : Args Ideal) : Kv.main_v75 Reg.fns A = Rv.main_v127 A := by
  unfold Kv.main_v75 Rv.main_v127
  rw [v74] <;> rfl

theorem v81 (A : Args Ideal) : Kv.main_v81 Reg.fns A = Rv.main_v133 A := by
  unfold Kv.main_v81 Rv.main_v133
  rw [colf'] <;> rfl

theorem k125 (A : Args Ideal) : Kv.main_v125 Reg.fns A = Kv.main_v39 Reg.fns A := by
  unfold Kv.main_v125 Kv.main_v39 Kv.main_v124 Kv.main_v38 Kv.main_v121 Kv.main_v35 Kv.main_v123 Kv.main_v37
    Kv.main_v120 Kv.main_v34 Kv.main_v122 Kv.main_v36 Kv.main_c_26 Kv.main_c_7 Kv.main_c_27 Kv.main_c_8
  rfl

theorem k151 (A : Args Ideal) : Kv.main_v151 Reg.fns A = Kv.main_v39 Reg.fns A := by
  unfold Kv.main_v151 Kv.main_v39 Kv.main_v150 Kv.main_v38 Kv.main_v147 Kv.main_v35 Kv.main_v149 Kv.main_v37
    Kv.main_v146 Kv.main_v34 Kv.main_v148 Kv.main_v36 Kv.main_c_32 Kv.main_c_7 Kv.main_c_33 Kv.main_c_8
  rfl

theorem k133 (A : Args Ideal) : Kv.main_v133 Reg.fns A = Kv.main_v47 Reg.fns A := by
  unfold Kv.main_v133 Kv.main_v47 Kv.main_v132 Kv.main_v46 Kv.main_v129 Kv.main_v43 Kv.main_v131 Kv.main_v45
    Kv.main_v128 Kv.main_v42 Kv.main_v130 Kv.main_v44 Kv.main_c_28 Kv.main_c_9 Kv.main_c_29 Kv.main_c_10
  rfl

theorem k142 (A : Args Ideal) : Kv.main_v142 Reg.fns A = Kv.main_v47 Reg.fns A := by
  unfold Kv.main_v142 Kv.main_v47 Kv.main_v141 Kv.main_v46 Kv.main_v138 Kv.main_v43 Kv.main_v140 Kv.main_v45
    Kv.main_v137 Kv.main_v42 Kv.main_v139 Kv.main_v44 Kv.main_c_30 Kv.main_c_9 Kv.main_c_31 Kv.main_c_10
  rfl

theorem k173 (A : Args Ideal) : Kv.main_v173 Reg.fns A = Kv.main_v47 Reg.fns A := by
  unfold Kv.main_v173 Kv.main_v47 Kv.main_v172 Kv.main_v46 Kv.main_v169 Kv.main_v43 Kv.main_v171 Kv.main_v45
    Kv.main_v168 Kv.main_v42 Kv.main_v170 Kv.main_v44 Kv.main_c_39 Kv.main_c_9 Kv.main_c_40 Kv.main_c_10
  rfl

theorem k158 (A : Args Ideal) : Kv.main_v158 Reg.fns A = Kv.main_v28 Reg.fns A := by
  unfold Kv.main_v158 Kv.main_v28
  rfl

theorem k155 (A : Args Ideal) : Kv.main_v155 Reg.fns A = Kv.main_v103 Reg.fns A := by
  unfold Kv.main_v155 Kv.main_v103
  rfl

theorem v189 (A : Args Ideal) : Kv.main_v189 Reg.fns A = Rv.main_v9 A := by
  rw [← v9]
  unfold Kv.main_v189 Kv.main_v9 Kv.main_v188 Kv.main_v8 Kv.main_v185 Kv.main_v5 Kv.main_v187 Kv.main_v7
    Kv.main_v184 Kv.main_v4 Kv.main_v186 Kv.main_v6 Kv.main_c_42 Kv.main_c Kv.main_c_43 Kv.main_c_0
  rfl

theorem v197 (A : Args Ideal) : Kv.main_v197 Reg.fns A = Rv.main_v16 A := by
  rw [← v16]
  unfold Kv.main_v197 Kv.main_v16 Kv.main_v196 Kv.main_v15 Kv.main_v193 Kv.main_v12 Kv.main_v195 Kv.main_v14
    Kv.main_v192 Kv.main_v11 Kv.main_v194 Kv.main_v13 Kv.main_c_44 Kv.main_c_1 Kv.main_c_45 Kv.main_c_2
  rfl

end Cert.Proof.Fwd

end
-- ==== Proof.FwdX.lean ====
import proofs.«408045_j39298950758801_3_alg».proof.Proof.FwdEdge
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.Lib.Affine

set_option maxRecDepth 16384

noncomputable section

namespace Cert.Proof.Fwd

open Idealize.ShloMosaic Idealize.ShloMosaic.TcCoe Idealize.ShloMosaic.ValueIdx

variable [Cert.KernelIdeal.Facts] [Cert.ReferenceIdeal.Facts]

namespace X

section Reads
variable {α : Type}

abbrev rowsDims (N n C : Nat) (sib : List (Fin 2)) (ss : Fin 2 → Nat)
    (wf : GatherDims.WF ⟨2, ![N, C]⟩ ⟨2, ![n, 1]⟩ ⟨2, ![n, C]⟩ [1] [0] [] [0] sib 1 ss) :
    GatherDims ⟨2, ![N, C]⟩ ⟨2, ![n, 1]⟩ ⟨2, ![n, C]⟩ :=
  ⟨[1], [0], [], sib, [0], 1, ss, wf⟩

theorem gather_rows_apply' {N n C w : Nat} (sib : List (Fin 2)) (ss : Fin 2 → Nat)
    (wf : GatherDims.WF ⟨2, ![N, C]⟩ ⟨2, ![n, 1]⟩ ⟨2, ![n, C]⟩ [1] [0] [] [0] sib 1 ss)
    (x : (⟨2, ![N, C]⟩ : Shape).Idx → α) (idx : IVec ⟨2, ![n, 1]⟩ w) (p : Fin n) (q : Fin C) (hN : 0 < N) :
    Host.gather (rowsDims N n C sib ss wf) x idx (ix2 p q)
      = x (ix2 ⟨min (idx (ix2 p 0)).toInt.toNat (N - 1), by omega⟩ q) := by
  unfold Host.gather
  refine congrArg x (funext fun a => Fin.ext ?_)
  match a with
  | ⟨0, _⟩ =>
    have hss : ss 0 = 1 := (rowsDims N n C sib ss wf).slice_collapsed 0 (List.mem_singleton.mpr rfl)
    show (rowsDims N n C sib ss wf).start (ix2 p q) idx 0 + (rowsDims N n C sib ss wf).batchCoord (ix2 p q) 0
        + (rowsDims N n C sib ss wf).offCoord (ix2 p q) 0 = min (idx (ix2 p 0)).toInt.toNat (N - 1)
    rw [GatherDims.batchCoord_eq_zero _ _ _ List.not_mem_nil,
      GatherDims.offCoord_eq_zero _ _ _ (fun hm => ((GatherDims.mem_sKept _ _).mp hm).1 (List.mem_singleton.mpr rfl))]
    unfold GatherDims.start
    rw [dif_pos (show (0 : Fin 2) ∈ (rowsDims N n C sib ss wf).startIndexMap from List.mem_singleton.mpr rfl)]
    have hsi : ∀ c, (rowsDims N n C sib ss wf).siIdx (ix2 p q) c = ix2 p 0 := fun c => by
      funext b; refine Fin.ext ?_
      match b with
      | ⟨0, _⟩ => rfl
      | ⟨1, _⟩ =>
        show c.val = 0
        have := c.isLt
        have e : (rowsDims N n C sib ss wf).startIndexMap.length = 1 := rfl
        omega
    rw [hsi]
    show min _ (N - ss 0) + 0 + 0 = _
    rw [hss]
    rfl
  | ⟨1, _⟩ =>
    show (rowsDims N n C sib ss wf).start (ix2 p q) idx 1 + (rowsDims N n C sib ss wf).batchCoord (ix2 p q) 1
        + (rowsDims N n C sib ss wf).offCoord (ix2 p q) 1 = q.val
    rw [GatherDims.batchCoord_eq_zero _ _ _ List.not_mem_nil]
    unfold GatherDims.start
    rw [dif_neg (show ¬(1 : Fin 2) ∈ (rowsDims N n C sib ss wf).startIndexMap from
      (show ¬(1 : Fin 2) ∈ ([0] : List (Fin 2)) by decide))]
    unfold GatherDims.offCoord
    rw [dif_pos (show (1 : Fin 2) ∈ (rowsDims N n C sib ss wf).sKept from
      (GatherDims.mem_sKept _ _).mpr ⟨(show ¬(1 : Fin 2) ∈ ([0] : List (Fin 2)) by decide), List.not_mem_nil⟩)]
    show 0 + 0 + q.val = q.val
    omega

theorem gather_rows_apply {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p 0)).toInt.toNat (N - 1), by omega⟩ q) := by
  obtain ⟨off, coll, ob, sib, sim, ivd, ss, wf⟩ := d
  dsimp only at hoff hcoll hob hsim hivd
  subst hoff hcoll hob hsim hivd
  exact gather_rows_apply' sib ss wf x idx p q hN

theorem bcast_col_apply {n : Nat} (hb : (⟨1, ![n]⟩ : Shape).BroadcastsInDim ⟨2, ![n, 1]⟩ ![0])
    (v : (⟨1, ![n]⟩ : Shape).Idx → α) (p : Fin n) (u : Fin 1) :
    broadcastInDim ⟨2, ![n, 1]⟩ ![0] hb v (ix2 p u) = v (ix1 p) := by
  refine broadcastInDim_apply ![0] hb v (ix2 p u) (ix1 p) fun a => ?_
  match a with
  | ⟨0, _⟩ =>
    show p.val = if n = 1 then 0 else p.val
    split
    · have := p.isLt; omega
    · rfl

theorem shapeCast_col_apply {n : Nat} (h : (⟨1, ![n]⟩ : Shape).ShapeCasts ⟨2, ![n, 1]⟩)
    (v : (⟨1, ![n]⟩ : Shape).Idx → α) (p : Fin n) (u : Fin 1) :
    shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    omega)

theorem bcast_row_apply {c : Nat} (hb : (⟨1, ![c]⟩ : Shape).BroadcastsInDim ⟨2, ![1, c]⟩ ![1])
    (v : (⟨1, ![c]⟩ : Shape).Idx → α) (u : Fin 1) (q : Fin c) :
    broadcastInDim ⟨2, ![1, c]⟩ ![1] hb v (ix2 u q) = v (ix1 q) := by
  refine broadcastInDim_apply ![1] hb v (ix2 u q) (ix1 q) fun a => ?_
  match a with
  | ⟨0, _⟩ =>
    show q.val = if c = 1 then 0 else q.val
    split
    · have := q.isLt; omega
    · rfl

theorem dot_plain_at {m k n : Nat} (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (a : Fin m) (b : Fin n) :
    Host.dotGeneral d none A B (ix2 a b) = ∑ c : Fin k, A (ix2 a c) * B (ix2 c b) := by
  subst hd
  exact StackMember.dotGeneral_plain_apply none A B a b

end Reads

theorem z_nat (A : Args Ideal) (h : Good A) (n : Fin 100000) :
    (A.z (ix1 n)).toNat < 118 ∧ (A.z (ix1 n)).toInt = ((A.z (ix1 n)).toNat : Int) := by
  obtain ⟨h0, h1⟩ := h.z (ix1 n)
  have hlt : (A.z (ix1 n)).toNat < 2 ^ 32 := (A.z (ix1 n)).isLt
  have hc := BitVec.toInt_eq_toNat_cond (A.z (ix1 n))
  by_cases hh : 2 * (A.z (ix1 n)).toNat < 2 ^ 32
  · rw [if_pos hh] at hc; constructor <;> omega
  · rw [if_neg hh] at hc; omega

def embW (A : Args Ideal) (r : Fin 118) (j : Fin 16) : EReal := ∑ c : Fin 16, A.emb (ix2 r c) * A.W1 (ix2 c j)

theorem x1_ker (A : Args Ideal) (h : Good A) (n : Fin 100000) (j : Fin 16) :
    Kv.main_v53 Reg.fns A (ix2 n j) = embW A ⟨(A.z (ix1 n)).toNat, (z_nat A h n).1⟩ j := by
  have hz := (z_nat A h n).1
  show Reg.emb (Kv.main_v52 Reg.fns A) (Kv.main_v51 Reg.fns A) (ix2 n j) = _
  unfold Reg.emb
  show ∑ k : Fin 128, Reg.oh (Kv.main_v52 Reg.fns A (ix2 n 0)) k * Kv.main_v51 Reg.fns A (ix2 k j) = _
  have hzv : Kv.main_v52 Reg.fns A (ix2 n 0) = A.z (ix1 n) := by
    unfold Kv.main_v52
    exact shapeCast_col_apply _ _ n 0
  rw [hzv, Finset.sum_eq_single (⟨(A.z (ix1 n)).toNat, by omega⟩ : Fin 128)]
  · have hoh : Reg.oh (A.z (ix1 n)) ⟨(A.z (ix1 n)).toNat, by omega⟩ = 1 := by
      unfold Reg.oh
      rw [if_pos (BitVec.eq_of_toNat_eq (by rw [BitVec.toNat_ofNat]; exact (Nat.mod_eq_of_lt (A.z (ix1 n)).isLt).symm))]
    rw [hoh, one_mul]
    unfold Kv.main_v51
    beta_reduce
    refine (pad_apply_of_inside _ _ _ _ _ _ _ (ix2 ⟨(A.z (ix1 n)).toNat, by omega⟩ j)
      (ix2 (⟨(A.z (ix1 n)).toNat, hz⟩ : Fin 118) j) fun a => ?_).trans ?_
    · match a with
      | ⟨0, _⟩ => show (A.z (ix1 n)).toNat = 0 + (A.z (ix1 n)).toNat * (0 + 1); omega
      | ⟨1, _⟩ => show j.val = 0 + j.val * (0 + 1); omega
    · unfold Kv.main_v50
      exact dot_plain_at Cert.KernelIdeal.dot_S118x16_S16x16_S118x16_1_0_0_1_n_n rfl _ _ _ _
  · intro k _ hk
    have hoh : Reg.oh (A.z (ix1 n)) k = 0 := by
      unfold Reg.oh
      rw [if_neg fun e => hk (Fin.ext (by
        have e' := congrArg BitVec.toNat e
        rw [BitVec.toNat_ofNat, Nat.mod_eq_of_lt (by have := k.isLt; omega)] at e'
        exact e'.symm))]
    rw [hoh, zero_mul]
  · intro hn; exact absurd (Finset.mem_univ _) hn

theorem x1_ref (A : Args Ideal) (h : Good A) (n : Fin 100000) (j : Fin 16) :
    Rv.main_v31 A (ix2 n j) = embW A ⟨(A.z (ix1 n)).toNat, (z_nat A h n).1⟩ j := by
  obtain ⟨hz, hzi⟩ := z_nat A h n
  have hidx : Rv.main_v29 A (ix2 n 0) = A.z (ix1 n) := by
    unfold Rv.main_v29
    rw [bcast_col_apply]
    unfold Rv.main_v28
    rw [select_apply]
    have hc : Rv.main_v25 A (ix1 n) = 0#1 := by
      refine eq_zero_of_ne_one fun e => ?_
      have e' : IntOp.cmpi .slt (A.z (ix1 n)) 0#32 = 1#1 := e
      rw [IntOp.cmpi_slt, hzi] at e'
      have : (0#32 : BitVec 32).toInt = 0 := by decide
      omega
    rw [hc, select_zero]
  unfold Rv.main_v31 embW
  show Host.dotGeneral _ none (Rv.main_v30 A) A.W1 (ix2 n j) = _
  rw [dot_plain_at Cert.ReferenceIdeal.dot_S100000x16_S16x16_S100000x16_1_0_0_1_n_n rfl]
  refine Finset.sum_congr rfl fun c _ => ?_
  refine congrArg (· * A.W1 (ix2 c j)) ?_
  unfold Rv.main_v30
  show Host.gather _ A.emb (Rv.main_v29 A) (ix2 n c) = _
  rw [gather_rows_apply Cert.ReferenceIdeal.gather_S118x16_S100000x1_S100000x16_1_0_n_n_0_1_116 rfl rfl rfl rfl rfl A.emb _ n c (by decide)]
  refine congrArg A.emb (congrArg (fun r => ix2 r c) (Fin.ext ?_))
  show min (Rv.main_v29 A (ix2 n 0)).toInt.toNat (118 - 1) = (A.z (ix1 n)).toNat
  rw [hidx, hzi, Int.toNat_natCast]
  omega

section Rowwise
open Cert.ReferenceIdeal Cert.ReferenceIdeal.Facts Cert.ReferenceIdeal.Facts₀

theorem add_row_at (x : FVec Ideal S100000x16 .f32) (b : FVec Ideal S1x16 .f32) (p : Fin 100000) (q : Fin 16) :
    addf x (broadcastInDim S100000x16 ![0, 1] bcast_S1x16_S100000x16_0_1 b) (ix2 p q) = x (ix2 p q) + b (ix2 0 q) := by
  rw [addf_apply, broadcastInDim_oneRow_apply]

theorem lrelu_at (v : FVec Ideal S100000x16 .f32) (i : S100000x16.Idx) :
    select (cmpf .oge v (broadcastInDim S100000x16 ![] bcast_S_S100000x16 (constant S_ .f32 0x00000000#32))) v
      (mulf (broadcastInDim S100000x16 ![] bcast_S_S100000x16 (id (constant S_ .f32 0x3C23D70A#32))) v) i
      = Reg.lk (v i) := rfl

end Rowwise

theorem y1_at (x : Reg.M 100000 16) (b : Reg.M 1 16) (p : Fin 100000) (q : Fin 16) :
    Reg.y1 x b (ix2 p q) = x (ix2 p q) + b (ix2 0 q) := rfl
theorem y2_at (x : Reg.M 100000 16) (b : Reg.M 1 16) (W : Reg.M 16 16) (bl : Reg.M 1 16) (p : Fin 100000) (q : Fin 16) :
    Reg.y2 x b W bl (ix2 p q) = (∑ k : Fin 16, Reg.lk (Reg.y1 x b (ix2 p k)) * W (ix2 k q)) + bl (ix2 0 q) := rfl
theorem x2_at (x : Reg.M 100000 16) (b : Reg.M 1 16) (W : Reg.M 16 16) (bl : Reg.M 1 16) (W' : Reg.M 16 16)
    (p : Fin 100000) (q : Fin 16) :
    Reg.x2 x b W bl W' (ix2 p q) = ∑ k : Fin 16, Reg.lk (Reg.y2 x b W bl (ix2 p k)) * W' (ix2 k q) := rfl

theorem b1row (A : Args Ideal) : Rv.main_v79 A = Kv.main_v67 Reg.fns A := by
  funext i
  obtain ⟨u, q, rfl⟩ : ∃ (u : Fin 1) (q : Fin 16), i = ix2 u q := ⟨i 0, i 1, eq_ix2 i⟩
  unfold Rv.main_v79 Kv.main_v67
  exact (bcast_row_apply _ A.b1 u q).trans (shapeCast_a_1a_apply A.b1 _ u q).symm

theorem bl1row (A : Args Ideal) : Rv.main_v84 A = Kv.main_v68 Reg.fns A := by
  funext i
  obtain ⟨u, q, rfl⟩ : ∃ (u : Fin 1) (q : Fin 16), i = ix2 u q := ⟨i 0, i 1, eq_ix2 i⟩
  unfold Rv.main_v84 Kv.main_v68
  exact (bcast_row_apply _ A.bl1 u q).trans (shapeCast_a_1a_apply A.bl1 _ u q).symm

theorem r82 (A : Args Ideal) (i : Cert.ReferenceIdeal.S100000x16.Idx) :
    Rv.main_v82_0 A i = Reg.lk (Rv.main_v81 A i) := by
  unfold Rv.main_v82_0 Rv.main_v82_2 Rv.main_call1_v4 Rv.main_call1_v3 Rv.main_v82_1 Rv.main_cst_21 Rv.main_call1_v0
    Rv.main_call1_cst
  generalize Rv.main_v81 A = v
  exact lrelu_at v i

theorem r87 (A : Args Ideal) (i : Cert.ReferenceIdeal.S100000x16.Idx) :
    Rv.main_v87_0 A i = Reg.lk (Rv.main_v86 A i) := by
  unfold Rv.main_v87_0 Rv.main_v87_2 Rv.main_call2_v4 Rv.main_call2_v3 Rv.main_v87_1 Rv.main_cst_22 Rv.main_call2_v0
    Rv.main_call2_cst
  generalize Rv.main_v86 A = v
  exact lrelu_at v i

end X

open X

theorem x1 (A : Args Ideal) (h : Good A) : Kv.main_v53 Reg.fns A = Rv.main_v31 A := by
  funext i
  obtain ⟨n, j, rfl⟩ : ∃ (n : Fin 100000) (j : Fin 16), i = ix2 n j := ⟨i 0, i 1, eq_ix2 i⟩
  exact (x1_ker A h n j).trans (x1_ref A h n j).symm

theorem x1row (A : Args Ideal) (h : Good A) : Kv.main_v60 Reg.fns A = Rv.main_v71 A := by
  unfold Kv.main_v60 Rv.main_v71
  rw [v59 A, x1 A h]
  rfl

theorem xWide1 (A : Args Ideal) : Kv.main_v62 Reg.fns A = Rv.main_v73 A := by
  unfold Kv.main_v62 Rv.main_v73 Kv.main_v61 Rv.main_v72
  rw [norm A]

theorem xMsg1 (A : Args Ideal) (h : Good A) : Kv.main_v63 Reg.fns A = Rv.main_v74 A := by
  unfold Kv.main_v63 Rv.main_v74
  rw [x1row A h, xWide1 A]

theorem y1pre (A : Args Ideal) (h : Good A) : Kv.main_v66 Reg.fns A = Rv.main_v77 A := by
  unfold Kv.main_v66 Rv.main_v77
  rw [xMsg1 A h, v65 A, show Kv.main_v64 Reg.fns A = Rv.main_v75 A from rfl]
  rfl

theorem y1 (A : Args Ideal) (h : Good A) : Kv.main_v69_0 Reg.fns A = Rv.main_v81 A := by
  have hk : Kv.main_v69_0 Reg.fns A = Reg.y1 (Kv.main_v66 Reg.fns A) (Kv.main_v67 Reg.fns A) := rfl
  rw [hk, y1pre A h, ← b1row A]
  unfold Rv.main_v81 Rv.main_v80
  generalize Rv.main_v77 A = x
  generalize Rv.main_v79 A = b
  funext i
  obtain ⟨p, q, rfl⟩ : ∃ (p : Fin 100000) (q : Fin 16), i = ix2 p q := ⟨i 0, i 1, eq_ix2 i⟩
  exact (y1_at x b p q).trans (add_row_at x b p q).symm

theorem y2 (A : Args Ideal) (h : Good A) : Kv.main_v69_1 Reg.fns A = Rv.main_v86 A := by
  have hk : Kv.main_v69_1 Reg.fns A
      = Reg.y2 (Kv.main_v66 Reg.fns A) (Kv.main_v67 Reg.fns A) A.Wl1 (Kv.main_v68 Reg.fns A) := rfl
  have hy : Reg.y1 (Kv.main_v66 Reg.fns A) (Kv.main_v67 Reg.fns A) = Rv.main_v81 A := y1 A h
  rw [hk, ← bl1row A]
  funext i
  obtain ⟨p, q, rfl⟩ : ∃ (p : Fin 100000) (q : Fin 16), i = ix2 p q := ⟨i 0, i 1, eq_ix2 i⟩
  unfold Rv.main_v86 Rv.main_v85 Rv.main_v83
  beta_reduce
  rw [add_row_at, dot_plain_at Cert.ReferenceIdeal.dot_S100000x16_S16x16_S100000x16_1_0_0_1_n_n rfl, y2_at]
  refine congrArg (· + Rv.main_v84 A (ix2 0 q)) (Finset.sum_congr rfl fun k _ => ?_)
  rw [r82, hy]

theorem x2 (A : Args Ideal) (h : Good A) : Kv.main_v69_2 Reg.fns A = Rv.main_v88 A := by
  have hk : Kv.main_v69_2 Reg.fns A
      = Reg.x2 (Kv.main_v66 Reg.fns A) (Kv.main_v67 Reg.fns A) A.Wl1 (Kv.main_v68 Reg.fns A) A.W2 := rfl
  have hy : Reg.y2 (Kv.main_v66 Reg.fns A) (Kv.main_v67 Reg.fns A) A.Wl1 (Kv.main_v68 Reg.fns A) = Rv.main_v86 A := y2 A h
  rw [hk]
  funext i
  obtain ⟨p, q, rfl⟩ : ∃ (p : Fin 100000) (q : Fin 16), i = ix2 p q := ⟨i 0, i 1, eq_ix2 i⟩
  unfold Rv.main_v88
  beta_reduce
  rw [dot_plain_at Cert.ReferenceIdeal.dot_S100000x16_S16x16_S100000x16_1_0_0_1_n_n rfl, x2_at]
  refine Finset.sum_congr rfl fun k _ => ?_
  rw [r87, hy]

theorem x2row (A : Args Ideal) (h : Good A) : Kv.main_v76 Reg.fns A = Rv.main_v128 A := by
  unfold Kv.main_v76 Rv.main_v128
  rw [v75 A, x2 A h]
  rfl

theorem xWide2 (A : Args Ideal) : Kv.main_v78 Reg.fns A = Rv.main_v130 A := by
  unfold Kv.main_v78 Rv.main_v130 Kv.main_v77 Rv.main_v129
  rw [norm' A]

theorem xMsg2 (A : Args Ideal) (h : Good A) : Kv.main_v79 Reg.fns A = Rv.main_v131 A := by
  unfold Kv.main_v79 Rv.main_v131
  rw [x2row A h, xWide2 A]

theorem y3pre (A : Args Ideal) (h : Good A) : Kv.main_v82 Reg.fns A = Rv.main_v134 A := by
  unfold Kv.main_v82 Rv.main_v134
  rw [xMsg2 A h, v81 A, show Kv.main_v80 Reg.fns A = Rv.main_v132 A from rfl]
  rfl

end Cert.Proof.Fwd

end
-- ==== Proof.FwdTail.lean ====
import proofs.«408045_j39298950758801_3_alg».proof.Proof.FwdEdge
import Idealize.ShloMosaic.Lib.ValueIdx
import Idealize.ShloMosaic.Lib.ValueLayout
import Idealize.ShloMosaic.Lib.KernelVsHost
import Idealize.ShloMosaic.Lib.StackMember
import Idealize.ShloMosaic.Lib.IdealHost
import Idealize.ShloMosaic.Lib.Affine
import Idealize.ShloMosaic.PureOps.Ideal.Laws
import Idealize.ShloMosaic.PureOps.Reduce

set_option maxRecDepth 16384

noncomputable section

namespace Cert.Proof.Fwd

open Idealize.ShloMosaic Idealize.ShloMosaic.ValueIdx
open scoped BigOperators

namespace Tail

section Layout
variable {α : Type}

theorem bcast_vecRow {n : Nat} (h : (⟨1, ![n]⟩ : Shape).BroadcastsInDim ⟨2, ![1, n]⟩ ![1])
    (v : (⟨1, ![n]⟩ : Shape).Idx → α) (u : Fin 1) (q : Fin n) :
    broadcastInDim ⟨2, ![1, n]⟩ ![1] h v (ix2 u q) = v (ix1 q) := by
  refine broadcastInDim_apply ![1] h v (ix2 u q) (ix1 q) fun a => ?_
  match a with
  | ⟨0, _⟩ =>
    show q.val = if n = 1 then 0 else q.val
    split
    · have := q.isLt; omega
    · rfl

theorem bias_apply {m n : Nat} (h₁ : (⟨1, ![n]⟩ : Shape).BroadcastsInDim ⟨2, ![1, n]⟩ ![1])
    (h₂ : (⟨2, ![1, n]⟩ : Shape).BroadcastsInDim ⟨2, ![m, n]⟩ ![0, 1])
    (hc : (⟨1, ![n]⟩ : Shape).ShapeCasts ⟨2, ![1, n]⟩)
    (v : (⟨1, ![n]⟩ : Shape).Idx → α) (i : (⟨2, ![m, n]⟩ : Shape).Idx) :
    broadcastInDim ⟨2, ![m, n]⟩ ![0, 1] h₂ (broadcastInDim ⟨2, ![1, n]⟩ ![1] h₁ v) i
      = shapeCast ⟨2, ![1, n]⟩ v hc (ix2 0 (i 1)) := by
  obtain ⟨a, b, rfl⟩ : ∃ (a : Fin m) (b : Fin n), i = ix2 a b := ⟨i 0, i 1, eq_ix2 i⟩
  rw [broadcastInDim_oneRow_apply, bcast_vecRow]
  exact (shapeCast_a_1a_apply v hc 0 b).symm

theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b := rfl

end Layout

section Dots
variable {m k n : Nat}

theorem dot_plain_apply (d : DotDims ⟨2, ![m, k]⟩ ⟨2, ![k, n]⟩ ⟨2, ![m, n]⟩) (hd : d = DotDims.plain m k n)
    (A : FVec Ideal ⟨2, ![m, k]⟩ .f32) (B : FVec Ideal ⟨2, ![k, n]⟩ .f32) (i : (⟨2, ![m, n]⟩ : Shape).Idx) :
    Host.dotGeneral d none A B i = ∑ c : Fin k, A (ix2 (i 0) c) * B (ix2 c (i 1)) := by
  subst hd
  obtain ⟨a, b, rfl⟩ : ∃ (a : Fin m) (b : Fin n), i = ix2 a b := ⟨i 0, i 1, eq_ix2 i⟩
  exact StackMember.dotGeneral_plain_apply none A B a b

theorem dot_transposedRhs_apply (d : DotDims ⟨2, ![m, k]⟩ ⟨2, ![n, k]⟩ ⟨2, ![m, n]⟩) (hd : d = DotDims.transposedRhs m k n)
    (A : FVec Ideal ⟨2, ![m, k]⟩ .f32) (B : FVec Ideal ⟨2, ![n, k]⟩ .f32) (i : (⟨2, ![m, n]⟩ : Shape).Idx) :
    Host.dotGeneral d none A B i = ∑ c : Fin k, A (ix2 (i 0) c) * B (ix2 (i 1) c) := by
  subst hd
  obtain ⟨a, b, rfl⟩ : ∃ (a : Fin m) (b : Fin n), i = ix2 a b := ⟨i 0, i 1, eq_ix2 i⟩
  show FloatOps.dotGeneral _ none _ A B (ix2 a b) = _
  rw [Ideal.dotGeneral_apply, ← Equiv.sum_comp (contrEquiv1 (DotDims.transposedRhs m k n) k rfl rfl).symm]
  refine Finset.sum_congr rfl fun c _ => ?_
  have hc := contrEquiv1_symm_val (DotDims.transposedRhs m k n) k rfl rfl c
  have hl : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => exact ((DotDims.transposedRhs m k n).lhsIdx_val_of_single rfl _ _).trans hc
  have hr : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => exact ((DotDims.transposedRhs m k n).rhsIdx_val_of_single rfl _ _).trans hc
  rw [hl, hr]
  rfl

end Dots

theorem lkback (y g : EReal) :
    Scalar.select (FloatOps.cmpf (F := Ideal) (φ := .f32) .oge y Reg.zeroLit) g Reg.zeroLit
        + Reg.slope * Scalar.select (FloatOps.cmpf (F := Ideal) (φ := .f32) .oge y Reg.zeroLit) Reg.zeroLit g
      = g * Reg.lkg y := by
  have h1 : Reg.oneLit = 1 := IdealRules.sign_bit.ideal_onePat .f32
  have h0 : Reg.zeroLit = 0 := Ideal.ofBits_zero_f32
  unfold Reg.lkg
  generalize FloatOps.cmpf (F := Ideal) (φ := .f32) .oge y Reg.zeroLit = c
  rcases BitVec.eq_zero_or_eq_one c with hc | hc
  · subst hc
    rw [select_zero, select_zero, select_zero, h0, zero_add, mul_comm]
  · subst hc
    rw [select_one, select_one, select_one, h0, h1, mul_zero, add_zero, mul_one]

theorem one_lkg (y : EReal) : Reg.oneLit * Reg.lkg y = Reg.lkg y := by
  rw [show Reg.oneLit = 1 from IdealRules.sign_bit.ideal_onePat .f32, one_mul]

section Rect
variable {s : Shape}

theorem lk_ref (hb : (⟨0, ![]⟩ : Shape).BroadcastsInDim s ![]) (c : IVec s 1) (Y : FVec Ideal s .f32)
    (hc : c = fun i => FloatOps.cmpf (F := Ideal) (φ := .f32) .oge (Y i) Reg.zeroLit) :
    select c Y (mulf (broadcastInDim s ![] hb (constant (F := Ideal) ⟨0, ![]⟩ .f32 0x3C23D70A#32)) Y) = fun i => Reg.lk (Y i) := by
  subst hc
  funext i
  rw [select_apply, mulf_apply, splat_apply]
  rfl

theorem lkback_ref (hb : (⟨0, ![]⟩ : Shape).BroadcastsInDim s ![]) (c : IVec s 1) (Y G : FVec Ideal s .f32)
    (hc : c = fun i => FloatOps.cmpf (F := Ideal) (φ := .f32) .oge (Y i) Reg.zeroLit) :
    addf (select c G (broadcastInDim s ![] hb (constant (F := Ideal) ⟨0, ![]⟩ .f32 0x00000000#32)))
        (mulf (broadcastInDim s ![] hb (constant (F := Ideal) ⟨0, ![]⟩ .f32 0x3C23D70A#32))
          (select c (broadcastInDim s ![] hb (constant (F := Ideal) ⟨0, ![]⟩ .f32 0x00000000#32)) G))
      = fun i => G i * Reg.lkg (Y i) := by
  subst hc
  funext i
  rw [addf_apply, mulf_apply, select_apply, select_apply, splat_apply, splat_apply]
  exact lkback (Y i) (G i)

end Rect

theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ fun n hn => hl n (List.mem_cons_of_mem _ hn)
    exact IntOp.andi_eq_one.2 ⟨h, hl a List.mem_cons_self⟩

theorem reduce_andi_ones {s t u : Shape} {axes : List (Fin s.rank)} (x : s.Idx → BitVec 1) (init : u.Idx → BitVec 1)
    (h : s.ReducesTo axes t) (hu : 0 < u.numel) (hi : init (Shape.Idx.first hu) = 1#1) (hx : ∀ i, x i = 1#1) (j : t.Idx) :
    Host.reduce IntOp.andi x init h hu j = 1#1 := by
  rw [Host.reduce_eq_foldl]
  exact foldl_andi_ones x _ _ hi fun n _ => hx n

theorem bcast_mem {s t : Shape} {α : Type} (dims : Fin s.rank → Fin t.rank) (h : s.BroadcastsInDim t dims) (x : s.Idx → α)
    (j : t.Idx) : ∃ k, broadcastInDim t dims h x j = x k := ⟨_, rfl⟩

theorem inrange_one (x : BitVec 32) (h0 : 0 ≤ x.toInt) (h1 : x.toInt < 512) :
    IntOp.andi (IntOp.cmpi .sge x 0#32) (IntOp.cmpi .sle x 511#32) = 1#1 := by
  refine IntOp.andi_eq_one.2 ⟨IntOp.cmpi_sge.2 ?_, IntOp.cmpi_sle.2 ?_⟩
  · rw [show (0#32 : BitVec 32).toInt = 0 from by decide]; exact h0
  · rw [show (511#32 : BitVec 32).toInt = 511 from by decide]; omega

section Chain
variable [Cert.KernelIdeal.Facts] [Cert.ReferenceIdeal.Facts] (A : Args Ideal)

local notation "Y3" => Reg.y3 (Rv.main_v134 A) (Kv.main_v85 Reg.fns A)
local notation "Y4" => Reg.y4 (Rv.main_v134 A) (Kv.main_v85 Reg.fns A) A.Wl2 (Kv.main_v86 Reg.fns A)
local notation "Y5" => Reg.y5 (Rv.main_v134 A) (Kv.main_v85 Reg.fns A) A.Wl2 (Kv.main_v86 Reg.fns A) A.Wl3 (Kv.main_v87 Reg.fns A)

theorem y3_eq : Rv.main_v138 A = Y3 := by
  unfold Rv.main_v138 Rv.main_v137 Rv.main_v136 Kv.main_v85
  generalize Rv.main_v134 A = X
  funext i
  unfold Reg.y3
  rw [addf_apply, bias_apply Cert.ReferenceIdeal.Facts₀.bcast_S16_S1x16_1 Cert.ReferenceIdeal.Facts₀.bcast_S1x16_S100000x16_0_1
    Cert.KernelIdeal.Facts₀.shapeCasts_S16_S1x16 A.b2 i]

theorem m3_eq : Rv.main_v139_2 A = fun i => FloatOps.cmpf (F := Ideal) (φ := .f32) .oge (Y3 i) Reg.zeroLit := by
  unfold Rv.main_v139_2 Rv.main_call4_v0 Rv.main_call4_cst
  rw [y3_eq]
  generalize Y3 = Y
  rfl

theorem lk3_eq : Rv.main_v139_0 A = fun i => Reg.lk (Y3 i) := by
  unfold Rv.main_v139_0 Rv.main_call4_v4 Rv.main_call4_v3 Rv.main_v139_1 Rv.main_cst_38
  rw [y3_eq]
  have hm := m3_eq A
  generalize Y3 = Y at hm ⊢
  generalize Rv.main_v139_2 A = c at hm ⊢
  exact lk_ref Cert.ReferenceIdeal.Facts₀.bcast_S_S100000x16 c Y hm

theorem y4_eq : Rv.main_v143 A = Y4 := by
  unfold Rv.main_v143 Rv.main_v142 Rv.main_v141 Rv.main_v140 Kv.main_v86
  rw [lk3_eq]
  unfold Reg.y4
  generalize Y3 = Y
  funext i
  beta_reduce
  rw [addf_apply, bias_apply Cert.ReferenceIdeal.Facts₀.bcast_S4_S1x4_1 Cert.ReferenceIdeal.Facts₀.bcast_S1x4_S100000x4_0_1
    Cert.KernelIdeal.Facts₀.shapeCasts_S4_S1x4 A.bl2 i,
    dot_plain_apply Cert.ReferenceIdeal.dot_S100000x16_S16x4_S100000x4_1_0_0_1_n_n rfl (fun i => Reg.lk (Y i)) A.Wl2 i]

theorem m4_eq : Rv.main_v144_2 A = fun i => FloatOps.cmpf (F := Ideal) (φ := .f32) .oge (Y4 i) Reg.zeroLit := by
  unfold Rv.main_v144_2 Rv.main_call5_v0 Rv.main_call5_cst
  rw [y4_eq]
  generalize Y4 = Y
  rfl

theorem lk4_eq : Rv.main_v144_0 A = fun i => Reg.lk (Y4 i) := by
  unfold Rv.main_v144_0 Rv.main_call5_v4 Rv.main_call5_v3 Rv.main_v144_1 Rv.main_cst_39
  rw [y4_eq]
  have hm := m4_eq A
  generalize Y4 = Y at hm ⊢
  generalize Rv.main_v144_2 A = c at hm ⊢
  exact lk_ref Cert.ReferenceIdeal.Facts₀.bcast_S_S100000x4 c Y hm

theorem y5_eq : Rv.main_v148 A = Y5 := by
  unfold Rv.main_v148 Rv.main_v147 Rv.main_v146 Rv.main_v145 Kv.main_v87
  rw [lk4_eq]
  unfold Reg.y5
  generalize Y4 = Y
  funext i
  beta_reduce
  rw [addf_apply, bias_apply Cert.ReferenceIdeal.Facts₀.bcast_S1_S1x1_1 Cert.ReferenceIdeal.Facts₀.bcast_S1x1_S100000x1_0_1
    Cert.KernelIdeal.Facts₀.shapeCasts_S1_S1x1 A.bl3 i,
    dot_plain_apply Cert.ReferenceIdeal.dot_S100000x4_S4x1_S100000x1_1_0_0_1_n_n rfl (fun i => Reg.lk (Y i)) A.Wl3 i]

theorem m5_eq : Rv.main_v149_2 A = fun i => FloatOps.cmpf (F := Ideal) (φ := .f32) .oge (Y5 i) Reg.zeroLit := by
  unfold Rv.main_v149_2 Rv.main_call6_v0 Rv.main_call6_cst
  rw [y5_eq]
  generalize Y5 = Y
  rfl

theorem h5_ref : Rv.main_v149_0 A
    = Reg.h5 (Rv.main_v134 A) (Kv.main_v85 Reg.fns A) A.Wl2 (Kv.main_v86 Reg.fns A) A.Wl3 (Kv.main_v87 Reg.fns A) := by
  unfold Rv.main_v149_0 Rv.main_call6_v4 Rv.main_call6_v3 Rv.main_v149_1 Rv.main_cst_40
  rw [y5_eq]
  unfold Reg.h5
  have hm := m5_eq A
  generalize Y5 = Y at hm ⊢
  generalize Rv.main_v149_2 A = c at hm ⊢
  exact lk_ref Cert.ReferenceIdeal.Facts₀.bcast_S_S100000x1 c Y hm

local notation "G5" => Reg.gy5 (Rv.main_v134 A) (Kv.main_v85 Reg.fns A) A.Wl2 (Kv.main_v86 Reg.fns A) A.Wl3 (Kv.main_v87 Reg.fns A)
local notation "G4" => Reg.gy4 (Rv.main_v134 A) (Kv.main_v85 Reg.fns A) A.Wl2 (Kv.main_v86 Reg.fns A) A.Wl3 (Kv.main_v87 Reg.fns A) (Kv.main_v84 Reg.fns A)

theorem ones162 : Rv.main_v162 A = fun _ => Reg.oneLit := by
  unfold Rv.main_v162 Rv.main_v154 Rv.main_cst_43
  generalize Rv.main_v151 A = idx
  rfl

theorem m160 (h : Good A) (i) : Rv.main_v160 A i = 1#1 := by
  unfold Rv.main_v160 Rv.main_v156 Rv.main_v159 Rv.main_v155 Rv.main_v158 Rv.main_v157 Rv.main_c_44 Rv.main_c_45 Rv.main_v151
  obtain ⟨k, hk⟩ := bcast_mem ![0] Cert.ReferenceIdeal.Facts₀.bcast_S100000_S100000x1_0 A.batch i
  show IntOp.andi
      (IntOp.cmpi .sge (broadcastInDim Cert.ReferenceIdeal.S100000x1 ![0] Cert.ReferenceIdeal.Facts₀.bcast_S100000_S100000x1_0 A.batch i) 0#32)
      (IntOp.cmpi .sle (broadcastInDim Cert.ReferenceIdeal.S100000x1 ![0] Cert.ReferenceIdeal.Facts₀.bcast_S100000_S100000x1_0 A.batch i) 511#32)
    = 1#1
  rw [hk]
  exact inrange_one _ (h.batch k).1 (h.batch k).2

theorem m161 (h : Good A) (j) : Rv.main_v161 A j = 1#1 := by
  unfold Rv.main_v161
  beta_reduce
  exact reduce_andi_ones (Rv.main_v160 A) (Rv.main_c_46 A) Cert.ReferenceIdeal.Facts₀.reducesTo_S100000x1_S100000_d1
    Cert.ReferenceIdeal.Facts₀.h_S_ rfl (m160 A h) j

theorem ones165 (h : Good A) : Rv.main_v165 A = fun _ => Reg.oneLit := by
  unfold Rv.main_v165 Rv.main_v163 Rv.main_v164 Rv.main_cst_47
  rw [ones162]
  funext i
  obtain ⟨k, hk⟩ := bcast_mem ![0] Cert.ReferenceIdeal.Facts₀.bcast_S100000_S100000x1_0 (Rv.main_v161 A) i
  rw [select_apply, hk, m161 A h k, select_one]

theorem g5_eq (h : Good A) : Rv.main_v166 A = G5 := by
  unfold Rv.main_v166 Rv.main_call7_v2 Rv.main_call7_v1 Rv.main_call7_v0_0 Rv.main_call7_v0_1 Rv.main_call7_call0_v0
    Rv.main_call7_call0_cst Rv.main_v149_1 Rv.main_cst_40
  rw [ones165 A h]
  unfold Reg.gy5
  have hm := m5_eq A
  generalize Y5 = Y at hm ⊢
  generalize Rv.main_v149_2 A = c at hm ⊢
  refine (lkback_ref Cert.ReferenceIdeal.Facts₀.bcast_S_S100000x1 c Y (fun _ => Reg.oneLit) hm).trans ?_
  funext i
  exact one_lkg (Y i)

theorem g4_eq (h : Good A) : Rv.main_v168 A = G4 := by
  unfold Rv.main_v168 Rv.main_call8_v2 Rv.main_call8_v1 Rv.main_call8_v0_0 Rv.main_call8_v0_1 Rv.main_call8_call0_v0
    Rv.main_call8_call0_cst Rv.main_v144_1 Rv.main_cst_39 Rv.main_v167
  rw [g5_eq A h]
  unfold Reg.gy4
  have hm := m4_eq A
  have hT : Kv.main_v84 Reg.fns A = fun j => A.Wl3 (ix2 (j 1) (j 0)) := funext fun j => by
    obtain ⟨k, q, rfl⟩ : ∃ (k : Fin 1) (q : Fin 4), j = ix2 k q := ⟨j 0, j 1, eq_ix2 j⟩
    exact transpose_ix2_apply A.Wl3 Cert.KernelIdeal.Facts₀.transposes_S4x1_S1x4_1_0 k q
  rw [hT]
  generalize Y4 = Y at hm ⊢
  generalize G5 = G
  generalize Rv.main_v144_2 A = c at hm ⊢
  refine (lkback_ref Cert.ReferenceIdeal.Facts₀.bcast_S_S100000x4 c Y _ hm).trans ?_
  funext i
  beta_reduce
  rw [dot_transposedRhs_apply Cert.ReferenceIdeal.dot_S100000x1_S4x1_S100000x4_1_1_0_0_n_n rfl G A.Wl3 i]

theorem g3_eq (h : Good A) : Rv.main_v170 A
    = Reg.gy3 (Rv.main_v134 A) (Kv.main_v85 Reg.fns A) A.Wl2 (Kv.main_v86 Reg.fns A) A.Wl3 (Kv.main_v87 Reg.fns A)
        (Kv.main_v83 Reg.fns A) (Kv.main_v84 Reg.fns A) := by
  unfold Rv.main_v170 Rv.main_call9_v2 Rv.main_call9_v1 Rv.main_call9_v0_0 Rv.main_call9_v0_1 Rv.main_call9_call0_v0
    Rv.main_call9_call0_cst Rv.main_v139_1 Rv.main_cst_38 Rv.main_v169
  rw [g4_eq A h]
  unfold Reg.gy3
  have hm := m3_eq A
  have hT : Kv.main_v83 Reg.fns A = fun j => A.Wl2 (ix2 (j 1) (j 0)) := funext fun j => by
    obtain ⟨k, q, rfl⟩ : ∃ (k : Fin 4) (q : Fin 16), j = ix2 k q := ⟨j 0, j 1, eq_ix2 j⟩
    exact transpose_ix2_apply A.Wl2 Cert.KernelIdeal.Facts₀.transposes_S16x4_S4x16_1_0 k q
  rw [hT]
  generalize Y3 = Y at hm ⊢
  generalize G4 = G
  generalize Rv.main_v139_2 A = c at hm ⊢
  refine (lkback_ref Cert.ReferenceIdeal.Facts₀.bcast_S_S100000x16 c Y _ hm).trans ?_
  funext i
  beta_reduce
  rw [dot_transposedRhs_apply Cert.ReferenceIdeal.dot_S100000x4_S16x4_S100000x16_1_1_0_0_n_n rfl G A.Wl2 i]

theorem ker_h5 : Kv.main_v88_1 Reg.fns A
    = Reg.h5 (Kv.main_v82 Reg.fns A) (Kv.main_v85 Reg.fns A) A.Wl2 (Kv.main_v86 Reg.fns A) A.Wl3 (Kv.main_v87 Reg.fns A) := by
  unfold Kv.main_v88_1
  generalize Kv.main_v82 Reg.fns A = X
  generalize Kv.main_v85 Reg.fns A = b2
  generalize Kv.main_v86 Reg.fns A = bl2
  generalize Kv.main_v87 Reg.fns A = bl3
  rfl

theorem ker_gy3 : Kv.main_v88_0 Reg.fns A
    = Reg.gy3 (Kv.main_v82 Reg.fns A) (Kv.main_v85 Reg.fns A) A.Wl2 (Kv.main_v86 Reg.fns A) A.Wl3 (Kv.main_v87 Reg.fns A)
        (Kv.main_v83 Reg.fns A) (Kv.main_v84 Reg.fns A) := by
  unfold Kv.main_v88_0
  generalize Kv.main_v82 Reg.fns A = X
  generalize Kv.main_v85 Reg.fns A = b2
  generalize Kv.main_v86 Reg.fns A = bl2
  generalize Kv.main_v87 Reg.fns A = bl3
  generalize Kv.main_v83 Reg.fns A = w2
  generalize Kv.main_v84 Reg.fns A = w3
  rfl

end Chain

end Tail

variable [Cert.KernelIdeal.Facts] [Cert.ReferenceIdeal.Facts]

theorem h5 (A : Args Ideal) (h : Good A) (hy : Kv.main_v82 Reg.fns A = Rv.main_v134 A) : Kv.main_v88_1 Reg.fns A = Rv.main_v149_0 A := by
  rw [Tail.ker_h5 A, hy, Tail.h5_ref A]

theorem gy3 (A : Args Ideal) (h : Good A) (hy : Kv.main_v82 Reg.fns A = Rv.main_v134 A) : Kv.main_v88_0 Reg.fns A = Rv.main_v170 A := by
  rw [Tail.ker_gy3 A, hy, Tail.g3_eq A h]

end Cert.Proof.Fwd

end
-- ==== Proof.EqE.lean ====
import proofs.«408045_j39298950758801_3_alg».proof.Proof.FwdX
import proofs.«408045_j39298950758801_3_alg».proof.Proof.FwdTail

noncomputable section

namespace Cert.Proof

open Idealize.ShloMosaic

theorem E_eq [Cert.KernelIdeal.Facts] [Cert.ReferenceIdeal.Facts] (A : Args Ideal) (h : Good A) : Kv.main_v91 Reg.fns A = Rv.main_v152 A := by
  have hs : Kv.main_v88_1 Reg.fns A = Rv.main_v149_0 A := Fwd.h5 A h (Fwd.y3pre A h)
  unfold Kv.main_v91 Rv.main_v152 Kv.main_v89 Rv.main_v150 Kv.main_cst_18 Rv.main_cst_41 Kv.main_v90 Rv.main_v151
  rw [hs] <;> rfl

end Cert.Proof

end
-- ==== Proof.BwdY.lean ====
import proofs.«408045_j39298950758801_3_alg».proof.Proof.FwdX
import Idealize.ShloMosaic.PureOps.Ideal.Laws
import Idealize.ShloMosaic.Lib.ValueIdx
import Idealize.ShloMosaic.Lib.ValueLayout

set_option maxRecDepth 16384

noncomputable section

namespace Cert.Proof.Bwd

open Idealize.ShloMosaic

variable [Cert.KernelIdeal.Facts] [Cert.ReferenceIdeal.Facts]

namespace Y

open Idealize.ShloMosaic.ValueIdx

theorem oneLit_eq : Reg.oneLit = (1 : EReal) := by
  simp [Reg.oneLit, Ideal.ofBits, Ideal.ieee]
  rw [← EReal.coe_mul, ← EReal.coe_one]
  congr 1
  norm_num

theorem zeroLit_eq : Reg.zeroLit = (0 : EReal) := Ideal.ofBits_zero_f32

theorem slope_scale (c : BitVec 1) (g : EReal) :
    Scalar.select c g Reg.zeroLit + Reg.slope * Scalar.select c Reg.zeroLit g = g * Scalar.select c Reg.oneLit Reg.slope := by
  rcases BitVec.eq_zero_or_eq_one c with rfl | rfl
  · rw [select_zero, select_zero, select_zero, zeroLit_eq, zero_add, mul_comm]
  · rw [select_one, select_one, select_one, zeroLit_eq, oneLit_eq, mul_zero, add_zero, mul_one]

theorem lkg_eq (y : EReal) :
    Reg.lkg y = Scalar.select (FloatOps.cmpf (F := Ideal) (φ := .f32) .oge y Reg.zeroLit) Reg.oneLit Reg.slope := rfl

theorem bcast_const_apply {t : Shape} (hb : (⟨0, ![]⟩ : Shape).BroadcastsInDim t (![] : Fin 0 → Fin t.rank)) (b : BitVec 32) (i : t.Idx) :
    broadcastInDim t ![] hb (constant (F := Ideal) (⟨0, ![]⟩ : Shape) .f32 b) i = Ideal.ofBits .f32 b := rfl

theorem dotT_apply (l : FVec Ideal Cert.ReferenceIdeal.S100000x16 .f32) (r : FVec Ideal Cert.ReferenceIdeal.S16x16 .f32)
    (n : Fin 100000) (j : Fin 16) :
    Host.dotGeneral Cert.ReferenceIdeal.dot_S100000x16_S16x16_S100000x16_1_1_0_0_n_n none l r (ix2 n j)
      = ∑ k : Fin 16, l (ix2 n k) * r (ix2 j k) := by
  show FloatOps.dotGeneral _ none _ l r (ix2 n j) = _
  rw [Ideal.dotGeneral_apply,
    ← Equiv.sum_comp (contrEquiv1 Cert.ReferenceIdeal.dot_S100000x16_S16x16_S100000x16_1_1_0_0_n_n 16 rfl rfl).symm]
  refine Finset.sum_congr rfl fun k _ => ?_
  have ck := contrEquiv1_symm_val Cert.ReferenceIdeal.dot_S100000x16_S16x16_S100000x16_1_1_0_0_n_n 16 rfl rfl k
  have hl : Cert.ReferenceIdeal.dot_S100000x16_S16x16_S100000x16_1_1_0_0_n_n.lhsIdx (ix2 n j)
      ((contrEquiv1 _ 16 rfl rfl).symm k) = ix2 n k := by
    funext ax; apply Fin.ext
    match ax with
    | ⟨0, _⟩ => simp [DotDims.lhsIdx, Cert.ReferenceIdeal.dot_S100000x16_S16x16_S100000x16_1_1_0_0_n_n]; rfl
    | ⟨1, _⟩ => simp [DotDims.lhsIdx, Cert.ReferenceIdeal.dot_S100000x16_S16x16_S100000x16_1_1_0_0_n_n]; exact ck
  have hr : Cert.ReferenceIdeal.dot_S100000x16_S16x16_S100000x16_1_1_0_0_n_n.rhsIdx (ix2 n j)
      ((contrEquiv1 _ 16 rfl rfl).symm k) = ix2 j k := by
    funext ax; apply Fin.ext
    match ax with
    | ⟨0, _⟩ => simp [DotDims.rhsIdx, Cert.ReferenceIdeal.dot_S100000x16_S16x16_S100000x16_1_1_0_0_n_n]; rfl
    | ⟨1, _⟩ => simp [DotDims.rhsIdx, Cert.ReferenceIdeal.dot_S100000x16_S16x16_S100000x16_1_1_0_0_n_n]; exact ck
  rw [hl, hr]

theorem k109 (A : Args Ideal) :
    Kv.main_v109 Reg.fns A = Reg.gy1 (Kv.main_v104 Reg.fns A) (Kv.main_v69_0 Reg.fns A) (Kv.main_v69_1 Reg.fns A)
      (Kv.main_v107 Reg.fns A) (Kv.main_v108 Reg.fns A) := rfl

theorem k107_apply (A : Args Ideal) (k j : Fin 16) : Kv.main_v107 Reg.fns A (ix2 k j) = A.Wl1 (ix2 j k) :=
  transpose_ix2_apply A.Wl1 _ k j

theorem k108_apply (A : Args Ideal) (k j : Fin 16) : Kv.main_v108 Reg.fns A (ix2 k j) = A.W2 (ix2 j k) :=
  transpose_ix2_apply A.W2 _ k j

theorem gy1_apply (gx2 y1v y2v : Reg.M 100000 16) (Wl1T W2T : Reg.M 16 16) (n : Fin 100000) (j : Fin 16) :
    Reg.gy1 gx2 y1v y2v Wl1T W2T (ix2 n j)
      = (∑ k : Fin 16, Reg.gy2 gx2 y2v W2T (ix2 n k) * Wl1T (ix2 k j)) * Reg.lkg (y1v (ix2 n j)) := rfl

theorem gy2_apply (gx2 y2v : Reg.M 100000 16) (W2T : Reg.M 16 16) (n : Fin 100000) (k : Fin 16) :
    Reg.gy2 gx2 y2v W2T (ix2 n k) = (∑ k' : Fin 16, gx2 (ix2 n k') * W2T (ix2 k' k)) * Reg.lkg (y2v (ix2 n k)) := rfl

section RefDefs
variable (A : Args Ideal)
open Cert.ReferenceIdeal Cert.ReferenceIdeal.Facts Cert.ReferenceIdeal.Facts₀

theorem r82_2_def : Rv.main_v82_2 A = cmpf .oge (Rv.main_v81 A) (Rv.main_call1_v0 A) := rfl
theorem r87_2_def : Rv.main_v87_2 A = cmpf .oge (Rv.main_v86 A) (Rv.main_call2_v0 A) := rfl
theorem c1_v0_def : Rv.main_call1_v0 A = broadcastInDim S100000x16 ![] bcast_S_S100000x16 (Rv.main_call1_cst A) := rfl
theorem c2_v0_def : Rv.main_call2_v0 A = broadcastInDim S100000x16 ![] bcast_S_S100000x16 (Rv.main_call2_cst A) := rfl
theorem c1_cst_def : Rv.main_call1_cst A = constant (F := Ideal) S_ .f32 0x00000000#32 := rfl
theorem c2_cst_def : Rv.main_call2_cst A = constant (F := Ideal) S_ .f32 0x00000000#32 := rfl
theorem r82_1_def : Rv.main_v82_1 A = Rv.main_cst_21 A := rfl
theorem r87_1_def : Rv.main_v87_1 A = Rv.main_cst_22 A := rfl
theorem cst21_def : Rv.main_cst_21 A = constant (F := Ideal) S_ .f32 0x3C23D70A#32 := rfl
theorem cst22_def : Rv.main_cst_22 A = constant (F := Ideal) S_ .f32 0x3C23D70A#32 := rfl

theorem r214_def : Rv.main_v214 A = Host.dotGeneral dot_S100000x16_S16x16_S100000x16_1_1_0_0_n_n none (Rv.main_v189 A) A.W2 := rfl
theorem r215_def : Rv.main_v215 A = addf (Rv.main_call11_v0_0 A) (Rv.main_call11_v2 A) := rfl
theorem c11_v00_def : Rv.main_call11_v0_0 A = select (Rv.main_v87_2 A) (Rv.main_v214 A) (Rv.main_call11_call0_v0 A) := rfl
theorem c11_v01_def : Rv.main_call11_v0_1 A = select (Rv.main_v87_2 A) (Rv.main_call11_call0_v0 A) (Rv.main_v214 A) := rfl
theorem c11_v2_def : Rv.main_call11_v2 A = mulf (Rv.main_call11_v1 A) (Rv.main_call11_v0_1 A) := rfl
theorem c11_v1_def : Rv.main_call11_v1 A = broadcastInDim S100000x16 ![] bcast_S_S100000x16 (Rv.main_v87_1 A) := rfl
theorem c11_z_def : Rv.main_call11_call0_v0 A = broadcastInDim S100000x16 ![] bcast_S_S100000x16 (Rv.main_call11_call0_cst A) := rfl
theorem c11_zc_def : Rv.main_call11_call0_cst A = constant (F := Ideal) S_ .f32 0x00000000#32 := rfl

theorem r216_def : Rv.main_v216 A = Host.dotGeneral dot_S100000x16_S16x16_S100000x16_1_1_0_0_n_n none (Rv.main_v215 A) A.Wl1 := rfl
theorem r217_def : Rv.main_v217 A = addf (Rv.main_call12_v0_0 A) (Rv.main_call12_v2 A) := rfl
theorem c12_v00_def : Rv.main_call12_v0_0 A = select (Rv.main_v82_2 A) (Rv.main_v216 A) (Rv.main_call12_call0_v0 A) := rfl
theorem c12_v01_def : Rv.main_call12_v0_1 A = select (Rv.main_v82_2 A) (Rv.main_call12_call0_v0 A) (Rv.main_v216 A) := rfl
theorem c12_v2_def : Rv.main_call12_v2 A = mulf (Rv.main_call12_v1 A) (Rv.main_call12_v0_1 A) := rfl
theorem c12_v1_def : Rv.main_call12_v1 A = broadcastInDim S100000x16 ![] bcast_S_S100000x16 (Rv.main_v82_1 A) := rfl
theorem c12_z_def : Rv.main_call12_call0_v0 A = broadcastInDim S100000x16 ![] bcast_S_S100000x16 (Rv.main_call12_call0_cst A) := rfl
theorem c12_zc_def : Rv.main_call12_call0_cst A = constant (F := Ideal) S_ .f32 0x00000000#32 := rfl

end RefDefs

section RefApply
variable (A : Args Ideal) (i : Cert.ReferenceIdeal.S100000x16.Idx)

theorem r215_apply : Rv.main_v215 A i = Rv.main_v214 A i * Reg.lkg (Rv.main_v86 A i) := by
  rw [r215_def, addf_apply, c11_v00_def, c11_v2_def, mulf_apply, c11_v01_def, select_apply, select_apply,
    c11_v1_def, r87_1_def, cst22_def, bcast_const_apply, c11_z_def, c11_zc_def, bcast_const_apply,
    r87_2_def, cmpf_apply, c2_v0_def, c2_cst_def, bcast_const_apply, lkg_eq]
  exact slope_scale _ _

theorem r217_apply : Rv.main_v217 A i = Rv.main_v216 A i * Reg.lkg (Rv.main_v81 A i) := by
  rw [r217_def, addf_apply, c12_v00_def, c12_v2_def, mulf_apply, c12_v01_def, select_apply, select_apply,
    c12_v1_def, r82_1_def, cst21_def, bcast_const_apply, c12_z_def, c12_zc_def, bcast_const_apply,
    r82_2_def, cmpf_apply, c1_v0_def, c1_cst_def, bcast_const_apply, lkg_eq]
  exact slope_scale _ _

end RefApply

theorem r214_apply (A : Args Ideal) (n : Fin 100000) (k : Fin 16) :
    Rv.main_v214 A (ix2 n k) = ∑ k' : Fin 16, Rv.main_v189 A (ix2 n k') * A.W2 (ix2 k k') := by
  rw [r214_def]
  exact dotT_apply _ _ n k

theorem r216_apply (A : Args Ideal) (n : Fin 100000) (j : Fin 16) :
    Rv.main_v216 A (ix2 n j) = ∑ k : Fin 16, Rv.main_v215 A (ix2 n k) * A.Wl1 (ix2 j k) := by
  rw [r216_def]
  exact dotT_apply _ _ n j

end Y

open Idealize.ShloMosaic.ValueIdx in
theorem gy1_of (A : Args Ideal) (h : Good A) (hg : Kv.main_v104 Reg.fns A = Rv.main_v189 A) : Kv.main_v109 Reg.fns A = Rv.main_v217 A := by
  rw [Y.k109, hg, Fwd.y1 A h, Fwd.y2 A h]
  funext i
  obtain ⟨n, j, rfl⟩ : ∃ (n : Fin 100000) (j : Fin 16), i = ix2 n j := ⟨i 0, i 1, eq_ix2 i⟩
  rw [Y.gy1_apply, Y.r217_apply, Y.r216_apply]
  have hs : ∀ k : Fin 16,
      Reg.gy2 (Rv.main_v189 A) (Rv.main_v86 A) (Kv.main_v108 Reg.fns A) (ix2 n k) * Kv.main_v107 Reg.fns A (ix2 k j)
        = Rv.main_v215 A (ix2 n k) * A.Wl1 (ix2 j k) := by
    intro k
    rw [Y.k107_apply, Y.gy2_apply, Y.r215_apply, Y.r214_apply]
    simp only [Y.k108_apply]
  simp only [hs]

end Cert.Proof.Bwd

end
-- ==== Proof.Bwd.lean ====
import proofs.«408045_j39298950758801_3_alg».proof.Proof.FwdX
import proofs.«408045_j39298950758801_3_alg».proof.Proof.FwdTail
import proofs.«408045_j39298950758801_3_alg».proof.Proof.BwdY
import Idealize.ShloMosaic.Lib.Pipeline.Value
import Idealize.ShloMosaic.Lib.ReduceAll
import Idealize.ShloMosaic.Lib.ValueIdx
import Idealize.ShloMosaic.PureOps.Ideal.Laws

set_option maxRecDepth 16384

noncomputable section

namespace Cert.Proof.Bwd

open Idealize.ShloMosaic Idealize.ShloMosaic.ValueIdx

variable [Cert.KernelIdeal.Facts] [Cert.ReferenceIdeal.Facts]

namespace Conv
theorem toInt_ofNat_small (k : Nat) (hk : k < 2 ^ 31) : (BitVec.ofNat 32 k).toInt = (k : Int) := by
  rw [BitVec.toInt_ofNat']
  exact Int.bmod_eq_of_le (by omega) (by omega)

theorem concat_pair_all {n₁ n₂ n : Nat} {α : Type} (x : (⟨1, ![n₁]⟩ : Shape).Idx → α) (y : (⟨1, ![n₂]⟩ : Shape).Idx → α)
    (hc : Shape.Concatenates [⟨1, ![n₁]⟩, ⟨1, ![n₂]⟩] ⟨1, ![n]⟩ 0) (P : α → Prop) (hx : ∀ i, P (x i)) (hy : ∀ i, P (y i))
    (i : (⟨1, ![n]⟩ : Shape).Idx) : P (concatenate ⟨1, ![n]⟩ 0 [⟨⟨1, ![n₁]⟩, x⟩, ⟨⟨1, ![n₂]⟩, y⟩] hc i) := by
  have hn : n₁ + n₂ = n := by have := hc.2.2; simpa using this
  have hin : (i 0).val < n := (i 0).isLt
  by_cases hi : (i 0).val < n₁
  · rw [concatenate_pair_apply_left 0 x y hc i rfl (ix1 ⟨(i 0).val, hi⟩)
      (fun b => by obtain rfl : b = 0 := Subsingleton.elim _ _; rfl)]
    exact hx _
  · rw [concatenate_pair_apply_right 0 x y hc i rfl rfl (ix1 ⟨(i 0).val - n₁, by omega⟩)
      (fun b hb => absurd (Subsingleton.elim _ _) hb) (by show (i 0).val - n₁ + n₁ = (i 0).val; omega)]
    exact hy _

theorem colf_range (A : Args Ideal) (h : Good A) (i : Cert.KernelIdeal.S3300000.Idx) :
    0 ≤ (Kv.main_v24 Reg.fns A i).toInt ∧ (Kv.main_v24 Reg.fns A i).toInt < 100000 := by
  unfold Kv.main_v24
  refine concat_pair_all (Kv.main_v3 Reg.fns A) (Kv.main_v22 Reg.fns A) _ (fun w => 0 ≤ w.toInt ∧ w.toInt < 100000) (fun j => h.ei _) (fun j => ?_) i
  have hj : (j 0).val < 100000 := (j 0).isLt
  show 0 ≤ (BitVec.ofNat 32 (j 0).val).toInt ∧ (BitVec.ofNat 32 (j 0).val).toInt < 100000
  rw [toInt_ofNat_small _ (by omega)]
  omega

theorem rowf_range (A : Args Ideal) (h : Good A) (i : Cert.KernelIdeal.S3300000.Idx) :
    0 ≤ (Kv.main_v23 Reg.fns A i).toInt ∧ (Kv.main_v23 Reg.fns A i).toInt < 100000 := by
  unfold Kv.main_v23
  refine concat_pair_all (Kv.main_v1 Reg.fns A) (Kv.main_v22 Reg.fns A) _ (fun w => 0 ≤ w.toInt ∧ w.toInt < 100000) (fun j => h.ei _) (fun j => ?_) i
  have hj : (j 0).val < 100000 := (j 0).isLt
  show 0 ≤ (BitVec.ofNat 32 (j 0).val).toInt ∧ (BitVec.ofNat 32 (j 0).val).toInt < 100000
  rw [toInt_ofNat_small _ (by omega)]
  omega

theorem wrap_id {s : Shape} (x z y : IVec s 32) (hz : ∀ i, z i = 0#32) (hx : ∀ i, 0 ≤ (x i).toInt) :
    select (cmpi .slt x z) (addi x y) x = x := by
  funext i
  show Scalar.select (IntOp.cmpi .slt (x i) (z i)) _ (x i) = x i
  have h0 : (0#32 : BitVec 32).toInt = 0 := by decide
  have : IntOp.cmpi .slt (x i) (z i) = 0#1 := eq_zero_of_ne_one (fun e => by
    have e' := IntOp.cmpi_slt.1 e; rw [hz i, h0] at e'; have := hx i; omega)
  rw [this]; exact select_zero _ _

theorem inrange_one {s : Shape} (x z n : IVec s 32) (hz : ∀ i, z i = 0#32) (hn : ∀ i, n i = 99999#32)
    (hx : ∀ i, 0 ≤ (x i).toInt ∧ (x i).toInt < 100000) (i : s.Idx) : andi (cmpi .sge x z) (cmpi .sle x n) i = 1#1 := by
  show IntOp.andi (IntOp.cmpi .sge (x i) (z i)) (IntOp.cmpi .sle (x i) (n i)) = 1#1
  have h0 : (0#32 : BitVec 32).toInt = 0 := by decide
  have h9 : (99999#32 : BitVec 32).toInt = 99999 := by decide
  rw [IntOp.andi_eq_one, IntOp.cmpi_sge, IntOp.cmpi_sle, hz, hn, h0, h9]
  have := hx i; omega

theorem foldl_andi_ones {ι : Type} (f : ι → BitVec 1) (hf : ∀ n, f n = 1#1) :
    ∀ l : List ι, l.foldl (fun r n => IntOp.andi r (f n)) 1#1 = 1#1
  | [] => rfl
  | a :: l => by
    have h1 : IntOp.andi 1#1 1#1 = 1#1 := by decide
    rw [List.foldl_cons, hf a, h1]; exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

theorem mask_ones {s t u : Shape} {axes : List (Fin s.rank)} (x z n : IVec s 32) (init : u.Idx → BitVec 1)
    (h : s.ReducesTo axes t) (hu : 0 < u.numel) (hz : ∀ i, z i = 0#32) (hn : ∀ i, n i = 99999#32)
    (hx : ∀ i, 0 ≤ (x i).toInt ∧ (x i).toInt < 100000) (hi : ∀ k, init k = 1#1) (j : t.Idx) :
    Host.reduce IntOp.andi (andi (cmpi .sge x z) (cmpi .sle x n)) init h hu j = 1#1 :=
  reduce_andi_ones _ _ _ _ (inrange_one x z n hz hn hx) hi j

theorem bcast_all {s t : Shape} {α : Type} (dims : Fin s.rank → Fin t.rank) (hb : s.BroadcastsInDim t dims) (x : s.Idx → α)
    (P : α → Prop) (hx : ∀ i, P (x i)) (j : t.Idx) : P (broadcastInDim t dims hb x j) := hx _

theorem colf'_range (A : Args Ideal) (h : Good A) (i : Cert.ReferenceIdeal.S3300000.Idx) :
    0 ≤ (Rv.main_v91 A i).toInt ∧ (Rv.main_v91 A i).toInt < 100000 := by
  rw [← Fwd.colf' A]; exact colf_range A h i

theorem v133_range (A : Args Ideal) (h : Good A) (i : Cert.ReferenceIdeal.S3300000x1.Idx) :
    0 ≤ (Rv.main_v133 A i).toInt ∧ (Rv.main_v133 A i).toInt < 100000 := by
  unfold Rv.main_v133
  exact bcast_all _ _ _ (fun w : BitVec 32 => 0 ≤ w.toInt ∧ w.toInt < 100000) (colf'_range A h) i

theorem v171_zero (A : Args Ideal) (i : Cert.ReferenceIdeal.S3300000x1.Idx) : Rv.main_v171 A i = 0#32 := rfl
theorem v174_top (A : Args Ideal) (i : Cert.ReferenceIdeal.S3300000x1.Idx) : Rv.main_v174 A i = 99999#32 := rfl
theorem c50_one (A : Args Ideal) (k : Cert.ReferenceIdeal.S_.Idx) : Rv.main_c_50 A k = 1#1 := rfl

theorem mask2 (A : Args Ideal) (h : Good A) (j : Cert.ReferenceIdeal.S3300000.Idx) : Rv.main_v177 A j = 1#1 := by
  unfold Rv.main_v177 Rv.main_v176 Rv.main_v172 Rv.main_v175
  exact mask_ones _ _ _ _ _ _ (v171_zero A) (v174_top A) (v133_range A h) (c50_one A) j

theorem gmsg2_ref (A : Args Ideal) (h : Good A) : Rv.main_v181 A = Rv.main_v178 A := by
  funext i
  unfold Rv.main_v181 Rv.main_v179
  show Scalar.select (Rv.main_v177 A _) (Rv.main_v178 A i) _ = _
  rw [mask2 A h]; exact select_one _ _

theorem v92_zero (A : Args Ideal) (i : Cert.KernelIdeal.S3300000.Idx) : Kv.main_v92 Reg.fns A i = 0#32 := rfl

theorem wrapcol2 (A : Args Ideal) (h : Good A) : Kv.main_v96 Reg.fns A = Kv.main_v24 Reg.fns A := by
  unfold Kv.main_v96 Kv.main_v93 Kv.main_v95
  exact wrap_id _ _ _ (v92_zero A) (fun i => (colf_range A h i).1)

end Conv

open Conv

theorem gmsg2 (A : Args Ideal) (h : Good A) : Kv.main_v98 Reg.fns A = Rv.main_v181 A := by
  rw [gmsg2_ref A h]
  unfold Kv.main_v98 Rv.main_v178 Kv.main_v97 Rv.main_v133
  rw [Fwd.gy3 A h (Fwd.y3pre A h), wrapcol2 A h, Fwd.colf' A]
  rfl

namespace Conv

theorem rowf'_range (A : Args Ideal) (h : Good A) (i : Cert.ReferenceIdeal.S3300000.Idx) :
    0 ≤ (Rv.main_v90 A i).toInt ∧ (Rv.main_v90 A i).toInt < 100000 := by
  rw [← Fwd.rowf' A]; exact rowf_range A h i

theorem v122_zero (A : Args Ideal) (i : Cert.ReferenceIdeal.S3300000.Idx) : Rv.main_v122 A i = 0#32 := rfl

theorem wraprow2_ref (A : Args Ideal) (h : Good A) : Rv.main_v126 A = Rv.main_v90 A := by
  unfold Rv.main_v126 Rv.main_v123 Rv.main_v125
  exact wrap_id _ _ _ (v122_zero A) (fun i => (rowf'_range A h i).1)

end Conv

theorem gx2 (A : Args Ideal) (h : Good A) : Kv.main_v104 Reg.fns A = Rv.main_v189 A := by
  unfold Kv.main_v104 Rv.main_v189 Kv.main_v101 Rv.main_v186 Kv.main_v100 Rv.main_v185 Kv.main_v99 Rv.main_v129
    Kv.main_v103 Rv.main_v127
  rw [gmsg2 A h, Fwd.norm' A, Fwd.rowf' A, wraprow2_ref A h]
  rfl

namespace Conv

theorem mulf_comm' {s : Shape} (a b : FVec Ideal s .f32) : mulf a b = mulf b a :=
  funext fun i => show a i * b i = b i * a i from mul_comm _ _

theorem reduceAdd_unit (x : FVec Ideal ⟨1, ![3300000]⟩ .f32) (init : (⟨0, ![]⟩ : Shape).Idx → Ideal .f32)
    (hs : (⟨1, ![3300000]⟩ : Shape).ShapeCasts ⟨2, ![3300000, 1]⟩)
    (hr : (⟨2, ![3300000, 1]⟩ : Shape).ReducesTo [1] ⟨1, ![3300000]⟩)
    (hu : 0 < (⟨0, ![]⟩ : Shape).numel) (h0 : ∀ k, init k = 0) :
    Host.reduceAdd (fun i => shapeCast ⟨2, ![3300000, 1]⟩ x hs i) init hr hu = x := by
  have hR : Shape.Reduces ⟨2, ![3300000, 1]⟩ [1] ⟨1, ![3300000]⟩ := by decide
  funext j
  have key : ∀ k : Fin ((⟨2, ![3300000, 1]⟩ : Shape).size 1), shapeCast ⟨2, ![3300000, 1]⟩ x hs (hR.lift j k) = x j := by
    intro k
    refine shapeCast_apply x hs _ j ?_
    rw [Shape.rowMajor_val_one, Shape.rowMajor_val_two]
    have hk : k.val = 0 := by have : k.val < 1 := k.isLt; omega
    have e0 : (hR.lift j k 0).val = (j 0).val := rfl
    have e1 : (hR.lift j k 1).val = k.val := rfl
    rw [e0, e1, hk]
    simp
  show Ideal.hostReduceAdd hr _ (init _) j = x j
  rw [Ideal.hostReduceAdd_single hr hR, h0, zero_add]
  show ∑ k : Fin 1, shapeCast ⟨2, ![3300000, 1]⟩ x hs (hR.lift j k) = x j
  rw [Fin.sum_univ_one]
  exact key (0 : Fin 1)

theorem gn2_ref (A : Args Ideal) : Rv.main_v187 A = Rv.main_v183 A := by
  unfold Rv.main_v187 Rv.main_v184
  exact reduceAdd_unit _ _ _ _ _ (fun _ => Ideal.ofBits_zero_f32)

end Conv

theorem gn2 (A : Args Ideal) (h : Good A) : Kv.main_v106 Reg.fns A = Rv.main_v187 A := by
  rw [gn2_ref A]
  unfold Kv.main_v106 Rv.main_v183 Kv.main_v105 Rv.main_v182
  rw [gmsg2 A h, Fwd.x2row A h, mulf_comm']
  rfl

theorem gy1 (A : Args Ideal) (h : Good A) : Kv.main_v109 Reg.fns A = Rv.main_v217 A :=
  gy1_of A h (gx2 A h)

namespace Conv

theorem colf1_range (A : Args Ideal) (h : Good A) (i : Cert.ReferenceIdeal.S3300000.Idx) :
    0 ≤ (Rv.main_v34 A i).toInt ∧ (Rv.main_v34 A i).toInt < 100000 := by
  rw [← Fwd.colf A]; exact colf_range A h i

theorem v76_range (A : Args Ideal) (h : Good A) (i : Cert.ReferenceIdeal.S3300000x1.Idx) :
    0 ≤ (Rv.main_v76 A i).toInt ∧ (Rv.main_v76 A i).toInt < 100000 := by
  unfold Rv.main_v76
  exact bcast_all _ _ _ (fun w : BitVec 32 => 0 ≤ w.toInt ∧ w.toInt < 100000) (colf1_range A h) i

theorem v218_zero (A : Args Ideal) (i : Cert.ReferenceIdeal.S3300000x1.Idx) : Rv.main_v218 A i = 0#32 := rfl
theorem v221_top (A : Args Ideal) (i : Cert.ReferenceIdeal.S3300000x1.Idx) : Rv.main_v221 A i = 99999#32 := rfl
theorem c63_one (A : Args Ideal) (k : Cert.ReferenceIdeal.S_.Idx) : Rv.main_c_63 A k = 1#1 := rfl

theorem mask1 (A : Args Ideal) (h : Good A) (j : Cert.ReferenceIdeal.S3300000.Idx) : Rv.main_v224 A j = 1#1 := by
  unfold Rv.main_v224 Rv.main_v223 Rv.main_v219 Rv.main_v222
  exact mask_ones _ _ _ _ _ _ (v218_zero A) (v221_top A) (v76_range A h) (c63_one A) j

theorem gmsg1_ref (A : Args Ideal) (h : Good A) : Rv.main_v228 A = Rv.main_v225 A := by
  funext i
  unfold Rv.main_v228 Rv.main_v226
  show Scalar.select (Rv.main_v224 A _) (Rv.main_v225 A i) _ = _
  rw [mask1 A h]; exact select_one _ _

theorem v110_zero (A : Args Ideal) (i : Cert.KernelIdeal.S3300000.Idx) : Kv.main_v110 Reg.fns A i = 0#32 := rfl

theorem wrapcol1 (A : Args Ideal) (h : Good A) : Kv.main_v114 Reg.fns A = Kv.main_v24 Reg.fns A := by
  unfold Kv.main_v114 Kv.main_v111 Kv.main_v113
  exact wrap_id _ _ _ (v110_zero A) (fun i => (colf_range A h i).1)

theorem gmsg1_of (A : Args Ideal) (h : Good A) (hg : Kv.main_v109 Reg.fns A = Rv.main_v217 A) :
    Kv.main_v116 Reg.fns A = Rv.main_v228 A := by
  rw [gmsg1_ref A h]
  unfold Kv.main_v116 Rv.main_v225 Kv.main_v115 Rv.main_v76
  rw [hg, wrapcol1 A h, Fwd.colf A]
  rfl

theorem gn1_ref (A : Args Ideal) : Rv.main_v232 A = Rv.main_v230 A := by
  unfold Rv.main_v232 Rv.main_v231
  exact reduceAdd_unit _ _ _ _ _ (fun _ => Ideal.ofBits_zero_f32)

theorem gn1_of (A : Args Ideal) (h : Good A) (hm : Kv.main_v116 Reg.fns A = Rv.main_v228 A) :
    Kv.main_v118 Reg.fns A = Rv.main_v232 A := by
  rw [gn1_ref A]
  unfold Kv.main_v118 Rv.main_v230 Kv.main_v117 Rv.main_v229
  rw [hm, Fwd.x1row A h, mulf_comm']
  rfl

end Conv

theorem gmsg1 (A : Args Ideal) (h : Good A) : Kv.main_v116 Reg.fns A = Rv.main_v228 A :=
  gmsg1_of A h (gy1 A h)

theorem gn1 (A : Args Ideal) (h : Good A) : Kv.main_v118 Reg.fns A = Rv.main_v232 A :=
  gn1_of A h (gmsg1 A h)

end Cert.Proof.Bwd

end
-- ==== Proof.FinG.lean ====
import proofs.«408045_j39298950758801_3_alg».proof.Proof.Good
import Idealize.ShloMosaic.PureOps.Ideal.Laws
import Idealize.ShloMosaic.Lib.Pipeline.Value
import Idealize.ShloMosaic.Lib.ValueIdx

noncomputable section

namespace Cert.Proof.Fin

open Idealize.ShloMosaic Idealize.ShloMosaic.ValueIdx

theorem isReal_coe (r : ℝ) : IsReal (r : EReal) := ⟨EReal.coe_ne_top r, EReal.coe_ne_bot r⟩

theorem exists_coe_of_isReal {x : EReal} (h : IsReal x) : ∃ r : ℝ, x = (r : EReal) := by
  lift x to ℝ using ⟨h.1, h.2⟩
  exact ⟨x, rfl⟩

theorem isReal_zero : IsReal (0 : EReal) := by
  rw [← EReal.coe_zero]; exact isReal_coe 0

theorem isReal_one : IsReal (1 : EReal) := by
  rw [← EReal.coe_one]; exact isReal_coe 1

theorem isReal_add {x y : EReal} (hx : IsReal x) (hy : IsReal y) : IsReal (x + y) := by
  obtain ⟨a, rfl⟩ := exists_coe_of_isReal hx
  obtain ⟨b, rfl⟩ := exists_coe_of_isReal hy
  rw [← EReal.coe_add]; exact isReal_coe _

theorem isReal_sub {x y : EReal} (hx : IsReal x) (hy : IsReal y) : IsReal (x - y) := by
  obtain ⟨a, rfl⟩ := exists_coe_of_isReal hx
  obtain ⟨b, rfl⟩ := exists_coe_of_isReal hy
  rw [← EReal.coe_sub]; exact isReal_coe _

theorem isReal_mul {x y : EReal} (hx : IsReal x) (hy : IsReal y) : IsReal (x * y) := by
  obtain ⟨a, rfl⟩ := exists_coe_of_isReal hx
  obtain ⟨b, rfl⟩ := exists_coe_of_isReal hy
  rw [← EReal.coe_mul]; exact isReal_coe _

theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact isReal_add (h a (Finset.mem_insert_self a s)) (ih fun i hi => h i (Finset.mem_insert_of_mem hi))

theorem isReal_ieee_f32 (b : BitVec 32) (h : (b.extractLsb' 23 8).toNat ≠ 2 ^ 8 - 1) :
    IsReal (Ideal.ofBits .f32 b) := by
  show IsReal (Ideal.ieee 8 23 b)
  unfold Ideal.ieee
  simp only []
  rw [if_neg h]
  split <;> exact isReal_coe _

theorem isReal_lit_zero : IsReal (Ideal.ofBits .f32 0x00000000#32) := isReal_ieee_f32 _ (by decide)
theorem isReal_lit_one : IsReal (Ideal.ofBits .f32 0x3F800000#32) := isReal_ieee_f32 _ (by decide)
theorem isReal_lit_slope : IsReal (Ideal.ofBits .f32 0x3C23D70A#32) := isReal_ieee_f32 _ (by decide)
theorem isReal_sitofp {w : Nat} (b : BitVec w) : IsReal (FloatOps.sitofp (F := Ideal) .f32 b) :=
  isReal_coe _

theorem isReal_sqrt {x : EReal} (hx : IsReal x) (h0 : 0 ≤ x) : IsReal (Ideal.sqrt x) := by
  obtain ⟨r, rfl⟩ := exists_coe_of_isReal hx
  rw [Ideal.sqrt_coe, if_neg (not_lt.mpr (EReal.coe_nonneg.mp h0))]
  exact isReal_coe _

theorem isReal_rsqrt {x : EReal} (hx : IsReal x) (h0 : 0 < x) : IsReal (Ideal.rsqrt x) := by
  obtain ⟨r, rfl⟩ := exists_coe_of_isReal hx
  have hr : 0 < r := EReal.coe_pos.mp h0
  rw [Ideal.rsqrt_coe, if_neg (not_lt.mpr hr.le), if_neg hr.ne']
  exact isReal_coe _

section Moves
variable {α : Type} {P : α → Prop}

theorem gather_all {s si t : Shape} {w : Nat} (d : GatherDims s si t) (x : s.Idx → α) (idx : IVec si w)
    (h : ∀ i, P (x i)) : ∀ j, P (Host.gather d x idx j) := fun _ => h _

theorem bcast_all {s t : Shape} (dims : Fin s.rank → Fin t.rank) (hb : s.BroadcastsInDim t dims) (x : s.Idx → α)
    (h : ∀ i, P (x i)) : ∀ j, P (broadcastInDim t dims hb x j) := fun _ => h _

theorem shapeCast_all {s t : Shape} (x : s.Idx → α) (hc : s.ShapeCasts t) (h : ∀ i, P (x i)) :
    ∀ j, P (shapeCast t x hc j) := fun _ => h _

theorem transpose_all {s t : Shape} (perm : List (Fin s.rank)) (x : s.Idx → α) (ht : s.Transposes perm t)
    (h : ∀ i, P (x i)) : ∀ j, P (transpose t perm x ht j) := fun _ => h _

theorem pad_all {s t u : Shape} (lo hi interior : Fin s.rank → Nat) (x : s.Idx → α) (v : u.Idx → α)
    (hp : s.Pads lo hi interior t) (hu : 0 < u.numel) (hx : ∀ i, P (x i)) (hv : ∀ i, P (v i)) :
    ∀ j, P (pad t lo hi interior x v hp hu j) := by
  intro j
  unfold pad
  split
  · exact hx _
  · exact hv _

theorem concat_all {t : Shape} (a : Fin t.rank) (xs : List ((s : Shape) × (s.Idx → α)))
    (hc : Shape.Concatenates (xs.map (·.1)) t a) (hx : ∀ p ∈ xs, ∀ i, P (p.2 i)) :
    ∀ j, P (concatenate t a xs hc j) := by
  intro j
  unfold concatenate
  exact hx _ (List.getElem_mem _) _

end Moves

section Arith
variable {s : Shape}

theorem constant_real (b : BitVec 32) (h : IsReal (Ideal.ofBits .f32 b)) :
    ∀ i, IsReal (constant (F := Ideal) s .f32 b i) := fun _ => h

theorem subf_real (x y : FVec Ideal s .f32) (hx : ∀ i, IsReal (x i)) (hy : ∀ i, IsReal (y i)) :
    ∀ i, IsReal (subf x y i) := fun i => isReal_sub (hx i) (hy i)

theorem mulf_real (x y : FVec Ideal s .f32) (hx : ∀ i, IsReal (x i)) (hy : ∀ i, IsReal (y i)) :
    ∀ i, IsReal (mulf x y i) := fun i => isReal_mul (hx i) (hy i)

theorem reduceAdd_real {t u : Shape} {axes : List (Fin s.rank)} (x : FVec Ideal s .f32) (init : u.Idx → Ideal .f32)
    (hr : s.ReducesTo axes t) (hu : 0 < u.numel) (hx : ∀ i, IsReal (x i)) (hi : ∀ i, IsReal (init i)) :
    ∀ j, IsReal (Host.reduceAdd x init hr hu j) := by
  intro j
  unfold Host.reduceAdd
  rw [Ideal.hostReduceAdd_def]
  unfold Ideal.hostReduceAdd
  exact isReal_add (hi _) (isReal_sum _ _ fun i _ => hx i)

theorem scatterAdd_real {si u : Shape} {w : Nat} (d : ScatterDims s si u) (x : FVec Ideal s .f32) (idx : IVec si w)
    (upd : FVec Ideal u .f32) (hx : ∀ i, IsReal (x i)) (hupd : ∀ j, IsReal (upd j)) :
    ∀ i, IsReal (Host.scatterAdd d x idx upd i) := by
  intro i
  unfold Host.scatterAdd
  rw [Ideal.hostScatterAdd_def]
  unfold Ideal.hostScatterAdd
  exact isReal_add (hx i) (isReal_sum _ _ fun j _ => hupd j)

theorem dotGeneral_real {sl sr so : Shape} (d : DotDims sl sr so) (prec : Option ContractPrecision)
    (l : FVec Ideal sl .f32) (r : FVec Ideal sr .f32) (hl : ∀ i, IsReal (l i)) (hr : ∀ i, IsReal (r i)) :
    ∀ j, IsReal (Host.dotGeneral d prec l r j) := by
  intro j
  show IsReal (FloatOps.dotGeneral d prec .single l r j)
  rw [Ideal.dotGeneral_apply]
  exact isReal_sum _ _ fun k _ => isReal_mul (hl _) (hr _)

theorem sqrt_real (x : FVec Ideal s .f32) (hx : ∀ i, IsReal (x i)) (h0 : ∀ i, 0 ≤ x i) :
    ∀ i, IsReal (Host.sqrt x i) := fun i => isReal_sqrt (hx i) (h0 i)

theorem rsqrt_select_real (x zero other : FVec Ideal s .f32) (hx : ∀ i, IsReal (x i)) (hz : ∀ i, zero i = 0)
    (ho : ∀ i, IsReal (other i)) : ∀ i, IsReal (select (cmpf .ogt x zero) (Host.rsqrt x) other i) := by
  intro i
  unfold select Scalar.select
  split
  · rename_i hc
    have hpos : 0 < x i := by
      have hc' : BitVec.ofBool (decide (zero i < x i)) = 1 := hc
      rw [hz i] at hc'
      by_contra hn
      rw [decide_eq_false hn] at hc'
      exact absurd hc' (by decide)
    exact isReal_rsqrt (hx i) hpos
  · exact ho i

end Arith

theorem pos_sqrt {x : EReal} (hx : IsReal x) (h0 : 0 < x) : 0 < Ideal.sqrt x := by
  obtain ⟨r, rfl⟩ := exists_coe_of_isReal hx
  have hr : 0 < r := EReal.coe_pos.mp h0
  rw [Ideal.sqrt_coe, if_neg (not_lt.mpr hr.le)]
  exact EReal.coe_pos.mpr (Real.sqrt_pos.mpr hr)

theorem sqrt_pos_arr {s : Shape} (x : FVec Ideal s .f32) (hx : ∀ i, IsReal (x i)) (h0 : ∀ i, 0 < x i) :
    ∀ i, (0 : EReal) < Host.sqrt x i := by
  intro i
  show (0 : EReal) < Ideal.sqrt (x i)
  exact pos_sqrt (hx i) (h0 i)

theorem lit_one_eq : Ideal.ofBits .f32 0x3F800000#32 = 1 := by
  simp [Ideal.ofBits, Ideal.ieee, -EReal.coe_mul]; norm_num

theorem resultIdx?_eq_some {s si u : Shape} (d : ScatterDims s si u) {w : Nat} (j : u.Idx) (idx : IVec si w)
    (i : s.Idx) (hsw : ∀ a, d.start j idx a + (d.window j a : Int) = ((i a).val : Int)) :
    d.resultIdx? j idx = some i := by
  unfold ScatterDims.resultIdx?
  have hc : ∀ a, 0 ≤ d.start j idx a + (d.window j a : Int)
      ∧ d.start j idx a + (d.window j a : Int) < s.size a := by
    intro a
    rw [hsw a]
    exact ⟨Int.natCast_nonneg _, by exact_mod_cast (i a).isLt⟩
  rw [dif_pos hc]
  congr 1
  funext a
  apply Fin.ext
  show (d.start j idx a + (d.window j a : Int)).toNat = (i a).val
  rw [hsw a]
  exact Int.toNat_natCast _

theorem concat_right_1d {α : Type} {N1 N2 N : Nat} (x₁ : (⟨1, ![N1]⟩ : Shape).Idx → α)
    (x₂ : (⟨1, ![N2]⟩ : Shape).Idx → α)
    (h : Shape.Concatenates [(⟨1, ![N1]⟩ : Shape), ⟨1, ![N2]⟩] ⟨1, ![N]⟩ 0) (i : (⟨1, ![N2]⟩ : Shape).Idx)
    (hlt : N1 + (i 0).val < N) :
    concatenate (⟨1, ![N]⟩ : Shape) 0 [⟨⟨1, ![N1]⟩, x₁⟩, ⟨⟨1, ![N2]⟩, x₂⟩] h (ix1 ⟨N1 + (i 0).val, hlt⟩) = x₂ i :=
  concatenate_pair_apply_right (t := ⟨1, ![N]⟩) (s₁ := ⟨1, ![N1]⟩) (s₂ := ⟨1, ![N2]⟩) (0 : Fin 1) x₁ x₂ h
    (ix1 ⟨N1 + (i 0).val, hlt⟩) rfl rfl i
    (fun b hb => absurd (Subsingleton.elim (b.cast rfl) (0 : Fin 1)) hb)
    (by show (i 0).val + N1 = N1 + (i 0).val; omega)

theorem bcast_col_apply {α : Type} {N : Nat} (hN : N ≠ 1)
    (hb : (⟨1, ![N]⟩ : Shape).BroadcastsInDim ⟨2, ![N, 1]⟩ ![0]) (x : (⟨1, ![N]⟩ : Shape).Idx → α)
    (k : (⟨2, ![N, 1]⟩ : Shape).Idx) :
    broadcastInDim (⟨2, ![N, 1]⟩ : Shape) ![0] hb x k = x (ix1 (k 0)) := by
  unfold broadcastInDim
  congr 1
  funext a
  match a with
  | ⟨0, _⟩ =>
    split
    · rename_i h1
      exact absurd h1 hN
    · rfl

theorem scatterAdd_pos {s si u : Shape} {w : Nat} (d : ScatterDims s si u) (x : FVec Ideal s .f32) (idx : IVec si w)
    (upd : FVec Ideal u .f32) (i : s.Idx) (j : u.Idx) (hx : x i = 0) (hupd : ∀ k, (0 : EReal) ≤ upd k)
    (hland : d.resultIdx? j idx = some i) (hj : (0 : EReal) < upd j) :
    (0 : EReal) < Host.scatterAdd d x idx upd i := by
  unfold Host.scatterAdd
  rw [Ideal.hostScatterAdd_def]
  unfold Ideal.hostScatterAdd
  rw [hx, zero_add]
  refine lt_of_lt_of_le hj (Finset.single_le_sum (fun k _ => hupd k) ?_)
  exact Finset.mem_filter.2 ⟨Finset.mem_univ _, hland⟩

theorem toInt_ofNat_small (m : Nat) (hm : m < 100000) : (BitVec.ofNat 32 m).toInt = (m : Int) := by
  rw [BitVec.toInt_eq_toNat_cond]
  simp only [BitVec.toNat_ofNat]
  have hmod : m % 2 ^ 32 = m := Nat.mod_eq_of_lt (by omega)
  rw [hmod, if_pos (by omega)]

section Regions
open Cert.Proof.Reg

theorem oh_real (zw : BitVec 32) (k : Fin 128) : IsReal (Reg.oh zw k) := by
  unfold Reg.oh
  split
  · exact isReal_one
  · exact isReal_zero

theorem lk_real {x : EReal} (hx : IsReal x) : IsReal (Reg.lk x) := by
  unfold Reg.lk Scalar.select
  split
  · exact hx
  · exact isReal_mul isReal_lit_slope hx

theorem lkg_real (x : EReal) : IsReal (Reg.lkg x) := by
  unfold Reg.lkg Scalar.select
  split
  · exact isReal_lit_one
  · exact isReal_lit_slope

theorem emb_real (z : IVec ⟨2, ![100000, 1]⟩ 32) (T : Reg.M 128 16) (hT : ∀ i, IsReal (T i)) :
    ∀ i, IsReal (Reg.emb z T i) := by
  intro i
  unfold Reg.emb
  exact isReal_sum _ _ fun k _ => isReal_mul (oh_real _ _) (hT _)

theorem y1_real (x : Reg.M 100000 16) (b1 : Reg.M 1 16) (hx : ∀ i, IsReal (x i)) (hb1 : ∀ i, IsReal (b1 i)) :
    ∀ i, IsReal (Reg.y1 x b1 i) := by
  intro i
  unfold Reg.y1
  exact isReal_add (hx _) (hb1 _)

theorem y2_real (x : Reg.M 100000 16) (b1 : Reg.M 1 16) (Wl1 : Reg.M 16 16) (bl1 : Reg.M 1 16)
    (hx : ∀ i, IsReal (x i)) (hb1 : ∀ i, IsReal (b1 i)) (hWl1 : ∀ i, IsReal (Wl1 i)) (hbl1 : ∀ i, IsReal (bl1 i)) :
    ∀ i, IsReal (Reg.y2 x b1 Wl1 bl1 i) := by
  intro i
  unfold Reg.y2
  exact isReal_add (isReal_sum _ _ fun k _ => isReal_mul (lk_real (y1_real x b1 hx hb1 _)) (hWl1 _)) (hbl1 _)

theorem x2_real (x : Reg.M 100000 16) (b1 : Reg.M 1 16) (Wl1 : Reg.M 16 16) (bl1 : Reg.M 1 16) (W2 : Reg.M 16 16)
    (hx : ∀ i, IsReal (x i)) (hb1 : ∀ i, IsReal (b1 i)) (hWl1 : ∀ i, IsReal (Wl1 i)) (hbl1 : ∀ i, IsReal (bl1 i))
    (hW2 : ∀ i, IsReal (W2 i)) : ∀ i, IsReal (Reg.x2 x b1 Wl1 bl1 W2 i) := by
  intro i
  unfold Reg.x2
  exact isReal_sum _ _ fun k _ => isReal_mul (lk_real (y2_real x b1 Wl1 bl1 hx hb1 hWl1 hbl1 _)) (hW2 _)

theorem gy5_real (x : Reg.M 100000 16) (b2 : Reg.M 1 16) (Wl2 : Reg.M 16 4) (bl2 : Reg.M 1 4) (Wl3 : Reg.M 4 1)
    (bl3 : Reg.M 1 1) : ∀ i, IsReal (Reg.gy5 x b2 Wl2 bl2 Wl3 bl3 i) := by
  intro i
  unfold Reg.gy5
  exact lkg_real _

theorem gy4_real (x : Reg.M 100000 16) (b2 : Reg.M 1 16) (Wl2 : Reg.M 16 4) (bl2 : Reg.M 1 4) (Wl3 : Reg.M 4 1)
    (bl3 : Reg.M 1 1) (Wl3T : Reg.M 1 4) (hWl3T : ∀ i, IsReal (Wl3T i)) :
    ∀ i, IsReal (Reg.gy4 x b2 Wl2 bl2 Wl3 bl3 Wl3T i) := by
  intro i
  unfold Reg.gy4
  exact isReal_mul (isReal_sum _ _ fun k _ => isReal_mul (gy5_real x b2 Wl2 bl2 Wl3 bl3 _) (hWl3T _)) (lkg_real _)

theorem gy3_real (x : Reg.M 100000 16) (b2 : Reg.M 1 16) (Wl2 : Reg.M 16 4) (bl2 : Reg.M 1 4) (Wl3 : Reg.M 4 1)
    (bl3 : Reg.M 1 1) (Wl2T : Reg.M 4 16) (Wl3T : Reg.M 1 4) (hWl2T : ∀ i, IsReal (Wl2T i))
    (hWl3T : ∀ i, IsReal (Wl3T i)) : ∀ i, IsReal (Reg.gy3 x b2 Wl2 bl2 Wl3 bl3 Wl2T Wl3T i) := by
  intro i
  unfold Reg.gy3
  exact isReal_mul
    (isReal_sum _ _ fun k _ => isReal_mul (gy4_real x b2 Wl2 bl2 Wl3 bl3 Wl3T hWl3T _) (hWl2T _)) (lkg_real _)

theorem gy2_real (gx2 y2v : Reg.M 100000 16) (W2T : Reg.M 16 16) (hgx2 : ∀ i, IsReal (gx2 i))
    (hW2T : ∀ i, IsReal (W2T i)) : ∀ i, IsReal (Reg.gy2 gx2 y2v W2T i) := by
  intro i
  unfold Reg.gy2
  exact isReal_mul (isReal_sum _ _ fun k _ => isReal_mul (hgx2 _) (hW2T _)) (lkg_real _)

theorem gy1_real (gx2 y1v y2v : Reg.M 100000 16) (Wl1T W2T : Reg.M 16 16) (hgx2 : ∀ i, IsReal (gx2 i))
    (hWl1T : ∀ i, IsReal (Wl1T i)) (hW2T : ∀ i, IsReal (W2T i)) :
    ∀ i, IsReal (Reg.gy1 gx2 y1v y2v Wl1T W2T i) := by
  intro i
  unfold Reg.gy1
  exact isReal_mul
    (isReal_sum _ _ fun k _ => isReal_mul (gy2_real gx2 y2v W2T hgx2 hW2T _) (hWl1T _)) (lkg_real _)

end Regions

section Chain
variable [Cert.KernelIdeal.Facts]

theorem real_main_cst (A : Args Ideal) : ∀ i, IsReal (Kv.main_cst Reg.fns A i) := by
  intro i
  unfold Kv.main_cst
  exact constant_real _ isReal_lit_zero i

theorem real_main_cst_3 (A : Args Ideal) : ∀ i, IsReal (Kv.main_cst_3 Reg.fns A i) := by
  intro i
  unfold Kv.main_cst_3
  exact constant_real _ isReal_lit_one i

theorem real_main_cst_4 (A : Args Ideal) : ∀ i, IsReal (Kv.main_cst_4 Reg.fns A i) := by
  intro i
  unfold Kv.main_cst_4
  exact constant_real _ isReal_lit_zero i

theorem real_main_cst_6 (A : Args Ideal) : ∀ i, IsReal (Kv.main_cst_6 Reg.fns A i) := by
  intro i
  unfold Kv.main_cst_6
  exact constant_real _ isReal_lit_zero i

theorem real_main_cst_14 (A : Args Ideal) : ∀ i, IsReal (Kv.main_cst_14 Reg.fns A i) := by
  intro i
  unfold Kv.main_cst_14
  exact constant_real _ isReal_lit_zero i

theorem real_main_cst_21 (A : Args Ideal) : ∀ i, IsReal (Kv.main_cst_21 Reg.fns A i) := by
  intro i
  unfold Kv.main_cst_21
  exact constant_real _ isReal_lit_zero i

theorem real_main_cst_22 (A : Args Ideal) : ∀ i, IsReal (Kv.main_cst_22 Reg.fns A i) := by
  intro i
  unfold Kv.main_cst_22
  exact constant_real _ isReal_lit_zero i

theorem real_main_cst_25 (A : Args Ideal) : ∀ i, IsReal (Kv.main_cst_25 Reg.fns A i) := by
  intro i
  unfold Kv.main_cst_25
  exact constant_real _ isReal_lit_zero i

theorem real_main_v10 (A : Args Ideal) (h : Good A) : ∀ i, IsReal (Kv.main_v10 Reg.fns A i) := by
  intro i
  unfold Kv.main_v10
  exact gather_all (P := IsReal) _ _ _ h.pos i

theorem real_main_v17 (A : Args Ideal) (h : Good A) : ∀ i, IsReal (Kv.main_v17 Reg.fns A i) := by
  intro i
  unfold Kv.main_v17
  exact gather_all (P := IsReal) _ _ _ h.pos i

theorem real_diff (A : Args Ideal) (h : Good A) : ∀ i, IsReal (Kv.main_v18 Reg.fns A i) := by
  intro i
  unfold Kv.main_v18
  exact subf_real _ _ (real_main_v10 A h) (real_main_v17 A h) i

theorem real_main_v19 (A : Args Ideal) (h : Good A) : ∀ i, IsReal (Kv.main_v19 Reg.fns A i) := by
  intro i
  unfold Kv.main_v19
  exact mulf_real _ _ (real_diff A h) (real_diff A h) i

theorem real_main_v20 (A : Args Ideal) (h : Good A) : ∀ i, IsReal (Kv.main_v20 Reg.fns A i) := by
  intro i
  unfold Kv.main_v20
  exact reduceAdd_real _ _ _ _ (real_main_v19 A h) (real_main_cst A) i

theorem real_len (A : Args Ideal) (h : Good A) : ∀ e, IsReal (Kv.main_v21 Reg.fns A e) := by
  intro e
  unfold Kv.main_v21
  exact sqrt_real _ (real_main_v20 A h) (fun i => (h.edge i).le) e

theorem len_pos (A : Args Ideal) (h : Good A) : ∀ e, (0 : EReal) < Kv.main_v21 Reg.fns A e := by
  intro e
  unfold Kv.main_v21
  exact sqrt_pos_arr _ (real_main_v20 A h) h.edge e

theorem real_main_v25 (A : Args Ideal) : ∀ i, IsReal (Kv.main_v25 Reg.fns A i) := by
  intro i
  unfold Kv.main_v25
  exact bcast_all (P := IsReal) _ _ _ (real_main_cst_3 A) i

theorem real_w (A : Args Ideal) (h : Good A) : ∀ j, IsReal (Kv.main_v26 Reg.fns A j) := by
  intro j
  unfold Kv.main_v26
  refine concat_all (P := IsReal) _ _ _ ?_ j
  intro p hp
  rcases List.mem_cons.1 hp with rfl | hp
  · exact real_len A h
  · rcases List.mem_singleton.1 hp with rfl
    exact real_main_v25 A

theorem real_main_v27 (A : Args Ideal) : ∀ i, IsReal (Kv.main_v27 Reg.fns A i) := by
  intro i
  unfold Kv.main_v27
  exact bcast_all (P := IsReal) _ _ _ (real_main_cst_4 A) i

theorem real_deg (A : Args Ideal) (h : Good A) : ∀ n, IsReal (Kv.main_v29 Reg.fns A n) := by
  intro n
  unfold Kv.main_v29
  exact scatterAdd_real _ _ _ _ (real_main_v27 A) (real_w A h) n

section Deg
open Cert.KernelIdeal

def slot (n : S100000.Idx) : S3300000.Idx :=
  ix1 ⟨3200000 + (n 0).val, by have : (n 0).val < 100000 := (n 0).isLt; omega⟩

theorem w_slot (A : Args Ideal) (n : S100000.Idx) : Kv.main_v26 Reg.fns A (slot n) = 1 := by
  unfold Kv.main_v26
  refine (concat_right_1d _ _ _ n _).trans ?_
  unfold Kv.main_v25 Kv.main_cst_3
  exact lit_one_eq

theorem colf_slot (A : Args Ideal) (n : S100000.Idx) :
    Kv.main_v24 Reg.fns A (slot n) = BitVec.ofNat 32 (n 0).val := by
  unfold Kv.main_v24
  refine (concat_right_1d _ _ _ n _).trans ?_
  unfold Kv.main_v22
  rfl

theorem v28_apply (A : Args Ideal) (k : S3300000x1.Idx) :
    Kv.main_v28 Reg.fns A k = Kv.main_v24 Reg.fns A (ix1 (k 0)) := by
  unfold Kv.main_v28
  exact bcast_col_apply (by decide) _ _ k

theorem siIdx_eq (j : S3300000.Idx)
    (c : Fin scatter_S100000_S3300000x1_S3300000_n_0_0_1.scatterDimsToOperandDims.length) :
    scatter_S100000_S3300000x1_S3300000_n_0_0_1.siIdx j c = ix2 (n0 := 3300000) (n1 := 1) (j 0) 0 := by
  funext b
  match b with
  | ⟨0, hb0⟩ =>
    apply Fin.ext
    have hne : ¬ ((⟨0, hb0⟩ : Fin S3300000x1.rank).val = scatter_S100000_S3300000x1_S3300000_n_0_0_1.indexVectorDim) := Nat.zero_ne_one
    unfold ScatterDims.siIdx
    rw [dif_neg hne]
    unfold ScatterDims.siCoord
    show (j _).val = (j 0).val
    exact congrArg (fun x => (j x).val) (Subsingleton.elim _ (0 : Fin S3300000.rank))
  | ⟨1, hb1⟩ =>
    apply Fin.ext
    have h1 : (scatter_S100000_S3300000x1_S3300000_n_0_0_1.siIdx j c ⟨1, hb1⟩).val < 1 :=
      (scatter_S100000_S3300000x1_S3300000_n_0_0_1.siIdx j c ⟨1, hb1⟩).isLt
    have h2 : ((ix2 (n0 := 3300000) (n1 := 1) (j 0) 0) ⟨1, hb1⟩).val < 1 :=
      ((ix2 (n0 := 3300000) (n1 := 1) (j 0) 0) ⟨1, hb1⟩).isLt
    omega

theorem landing (idx : IVec S3300000x1 32) (j : S3300000.Idx) (n : S100000.Idx)
    (hidx : (idx (ix2 (n0 := 3300000) (n1 := 1) (j 0) 0)).toInt = ((n 0).val : Int)) :
    scatter_S100000_S3300000x1_S3300000_n_0_0_1.resultIdx? j idx = some n := by
  apply resultIdx?_eq_some
  intro a
  have ha : a = 0 := Subsingleton.elim _ _
  subst ha
  have h0 : (0 : Fin S100000.rank) ∉ scatter_S100000_S3300000x1_S3300000_n_0_0_1.sKept := fun hmem =>
    of_decide_eq_true (List.mem_filter.1 hmem).2 (List.mem_cons_self ..)
  have h3 : (0 : Fin S100000.rank) ∈ scatter_S100000_S3300000x1_S3300000_n_0_0_1.scatterDimsToOperandDims := List.mem_cons_self ..
  have hw : scatter_S100000_S3300000x1_S3300000_n_0_0_1.window j 0 = 0 := by
    unfold ScatterDims.window
    exact dif_neg h0
  have hs : scatter_S100000_S3300000x1_S3300000_n_0_0_1.start j idx 0
      = (idx (ix2 (n0 := 3300000) (n1 := 1) (j 0) 0)).toInt := by
    unfold ScatterDims.start
    rw [dif_pos h3, siIdx_eq]
  rw [hw, hs, hidx]
  simp

theorem nonneg_w (A : Args Ideal) (h : Good A) : ∀ j, (0 : EReal) ≤ Kv.main_v26 Reg.fns A j := by
  intro j
  unfold Kv.main_v26
  refine concat_all (P := fun x : EReal => 0 ≤ x) _ _ _ ?_ j
  intro p hp
  rcases List.mem_cons.1 hp with rfl | hp
  · exact fun e => (len_pos A h e).le
  · rcases List.mem_singleton.1 hp with rfl
    intro i
    unfold Kv.main_v25 Kv.main_cst_3
    show (0 : EReal) ≤ Ideal.ofBits .f32 0x3F800000#32
    rw [lit_one_eq]
    exact zero_le_one

theorem main_v27_eq_zero (A : Args Ideal) : ∀ i, Kv.main_v27 Reg.fns A i = 0 := by
  intro i
  unfold Kv.main_v27 Kv.main_cst_4
  exact Ideal.ofBits_zero_f32

theorem colf_landing (A : Args Ideal) (n : S100000.Idx) :
    (Kv.main_v28 Reg.fns A (ix2 (n0 := 3300000) (n1 := 1) (slot n 0) 0)).toInt = ((n 0).val : Int) := by
  rw [v28_apply]
  have hrow : (ix1 ((ix2 (n0 := 3300000) (n1 := 1) (slot n 0) 0) 0) : S3300000.Idx) = slot n :=
    (eq_ix1 (slot n)).symm
  rw [hrow, colf_slot]
  exact toInt_ofNat_small _ (n 0).isLt

theorem deg_pos (A : Args Ideal) (h : Good A) : ∀ n, (0 : EReal) < Kv.main_v29 Reg.fns A n := by
  intro n
  unfold Kv.main_v29
  refine scatterAdd_pos _ _ _ _ n (slot n) (main_v27_eq_zero A n) (nonneg_w A h)
    (landing _ _ _ (colf_landing A n)) ?_
  rw [w_slot A n]
  exact zero_lt_one

end Deg

theorem main_v30_eq_zero (A : Args Ideal) : ∀ i, Kv.main_v30 Reg.fns A i = 0 := by
  intro i
  unfold Kv.main_v30 Kv.main_cst_5
  exact Ideal.ofBits_zero_f32

theorem real_main_call0_v1 (A : Args Ideal) : ∀ i, IsReal (Kv.main_call0_v1 Reg.fns A i) := by
  intro i
  unfold Kv.main_call0_v1
  exact bcast_all (P := IsReal) _ _ _ (fun j => real_main_cst_6 A j) i

theorem real_dinv (A : Args Ideal) (h : Good A) : ∀ n, IsReal (Kv.main_v33 Reg.fns A n) := by
  intro n
  unfold Kv.main_v33 Kv.main_v31 Kv.main_v32
  exact rsqrt_select_real _ _ _ (real_deg A h) (main_v30_eq_zero A) (real_main_call0_v1 A) n

theorem real_main_v40 (A : Args Ideal) (h : Good A) : ∀ i, IsReal (Kv.main_v40 Reg.fns A i) := by
  intro i
  unfold Kv.main_v40
  exact gather_all (P := IsReal) _ _ _ (real_dinv A h) i

theorem real_main_v41 (A : Args Ideal) (h : Good A) : ∀ i, IsReal (Kv.main_v41 Reg.fns A i) := by
  intro i
  unfold Kv.main_v41
  exact mulf_real _ _ (real_main_v40 A h) (real_w A h) i

theorem real_main_v48 (A : Args Ideal) (h : Good A) : ∀ i, IsReal (Kv.main_v48 Reg.fns A i) := by
  intro i
  unfold Kv.main_v48
  exact gather_all (P := IsReal) _ _ _ (real_dinv A h) i

theorem real_main_v49 (A : Args Ideal) (h : Good A) : ∀ i, IsReal (Kv.main_v49 Reg.fns A i) := by
  intro i
  unfold Kv.main_v49
  exact mulf_real _ _ (real_main_v41 A h) (real_main_v48 A h) i

theorem real_main_v50 (A : Args Ideal) (h : Good A) : ∀ i, IsReal (Kv.main_v50 Reg.fns A i) := by
  intro i
  unfold Kv.main_v50
  exact dotGeneral_real _ _ _ _ h.emb h.W1 i

theorem real_main_call1_v0 (A : Args Ideal) : ∀ i, IsReal (Kv.main_call1_v0 Reg.fns A i) := by
  intro i
  unfold Kv.main_call1_v0
  exact isReal_sitofp _

theorem real_main_v51 (A : Args Ideal) (h : Good A) : ∀ i, IsReal (Kv.main_v51 Reg.fns A i) := by
  intro i
  unfold Kv.main_v51
  exact pad_all (P := IsReal) _ _ _ _ _ _ _ (real_main_v50 A h) (real_main_call1_v0 A) i

theorem real_main_v53 (A : Args Ideal) (h : Good A) : ∀ i, IsReal (Kv.main_v53 Reg.fns A i) := by
  intro i
  unfold Kv.main_v53
  exact emb_real _ _ (real_main_v51 A h) i

theorem real_main_v60 (A : Args Ideal) (h : Good A) : ∀ i, IsReal (Kv.main_v60 Reg.fns A i) := by
  intro i
  unfold Kv.main_v60
  exact gather_all (P := IsReal) _ _ _ (real_main_v53 A h) i

theorem real_main_v61 (A : Args Ideal) (h : Good A) : ∀ i, IsReal (Kv.main_v61 Reg.fns A i) := by
  intro i
  unfold Kv.main_v61
  exact bcast_all (P := IsReal) _ _ _ (real_main_v49 A h) i

theorem real_main_v62 (A : Args Ideal) (h : Good A) : ∀ i, IsReal (Kv.main_v62 Reg.fns A i) := by
  intro i
  unfold Kv.main_v62
  exact bcast_all (P := IsReal) _ _ _ (real_main_v61 A h) i

theorem real_main_v63 (A : Args Ideal) (h : Good A) : ∀ i, IsReal (Kv.main_v63 Reg.fns A i) := by
  intro i
  unfold Kv.main_v63
  exact mulf_real _ _ (real_main_v60 A h) (real_main_v62 A h) i

theorem real_main_v64 (A : Args Ideal) : ∀ i, IsReal (Kv.main_v64 Reg.fns A i) := by
  intro i
  unfold Kv.main_v64
  exact bcast_all (P := IsReal) _ _ _ (real_main_cst_14 A) i

theorem real_main_v66 (A : Args Ideal) (h : Good A) : ∀ i, IsReal (Kv.main_v66 Reg.fns A i) := by
  intro i
  unfold Kv.main_v66
  exact scatterAdd_real _ _ _ _ (real_main_v64 A) (real_main_v63 A h) i

theorem real_main_v67 (A : Args Ideal) (h : Good A) : ∀ i, IsReal (Kv.main_v67 Reg.fns A i) := by
  intro i
  unfold Kv.main_v67
  exact shapeCast_all (P := IsReal) _ _ h.b1 i

theorem real_main_v68 (A : Args Ideal) (h : Good A) : ∀ i, IsReal (Kv.main_v68 Reg.fns A i) := by
  intro i
  unfold Kv.main_v68
  exact shapeCast_all (P := IsReal) _ _ h.bl1 i

theorem real_main_v69_2 (A : Args Ideal) (h : Good A) : ∀ i, IsReal (Kv.main_v69_2 Reg.fns A i) := by
  intro i
  unfold Kv.main_v69_2
  exact x2_real _ _ _ _ _ (real_main_v66 A h) (real_main_v67 A h) h.Wl1 (real_main_v68 A h) h.W2 i

theorem real_main_v76 (A : Args Ideal) (h : Good A) : ∀ i, IsReal (Kv.main_v76 Reg.fns A i) := by
  intro i
  unfold Kv.main_v76
  exact gather_all (P := IsReal) _ _ _ (real_main_v69_2 A h) i

theorem real_main_v83 (A : Args Ideal) (h : Good A) : ∀ i, IsReal (Kv.main_v83 Reg.fns A i) := by
  intro i
  unfold Kv.main_v83
  exact transpose_all (P := IsReal) _ _ _ h.Wl2 i

theorem real_main_v84 (A : Args Ideal) (h : Good A) : ∀ i, IsReal (Kv.main_v84 Reg.fns A i) := by
  intro i
  unfold Kv.main_v84
  exact transpose_all (P := IsReal) _ _ _ h.Wl3 i

theorem real_main_v88_0 (A : Args Ideal) (h : Good A) : ∀ i, IsReal (Kv.main_v88_0 Reg.fns A i) := by
  intro i
  unfold Kv.main_v88_0
  exact gy3_real _ _ _ _ _ _ _ _ (real_main_v83 A h) (real_main_v84 A h) i

theorem real_main_v98 (A : Args Ideal) (h : Good A) : ∀ i, IsReal (Kv.main_v98 Reg.fns A i) := by
  intro i
  unfold Kv.main_v98
  exact gather_all (P := IsReal) _ _ _ (real_main_v88_0 A h) i

theorem real_main_v99 (A : Args Ideal) (h : Good A) : ∀ i, IsReal (Kv.main_v99 Reg.fns A i) := by
  intro i
  unfold Kv.main_v99
  exact bcast_all (P := IsReal) _ _ _ (real_main_v49 A h) i

theorem real_main_v100 (A : Args Ideal) (h : Good A) : ∀ i, IsReal (Kv.main_v100 Reg.fns A i) := by
  intro i
  unfold Kv.main_v100
  exact bcast_all (P := IsReal) _ _ _ (real_main_v99 A h) i

theorem real_main_v101 (A : Args Ideal) (h : Good A) : ∀ i, IsReal (Kv.main_v101 Reg.fns A i) := by
  intro i
  unfold Kv.main_v101
  exact mulf_real _ _ (real_main_v98 A h) (real_main_v100 A h) i

theorem real_main_v102 (A : Args Ideal) : ∀ i, IsReal (Kv.main_v102 Reg.fns A i) := by
  intro i
  unfold Kv.main_v102
  exact bcast_all (P := IsReal) _ _ _ (real_main_cst_21 A) i

theorem real_main_v104 (A : Args Ideal) (h : Good A) : ∀ i, IsReal (Kv.main_v104 Reg.fns A i) := by
  intro i
  unfold Kv.main_v104
  exact scatterAdd_real _ _ _ _ (real_main_v102 A) (real_main_v101 A h) i

theorem real_main_v105 (A : Args Ideal) (h : Good A) : ∀ i, IsReal (Kv.main_v105 Reg.fns A i) := by
  intro i
  unfold Kv.main_v105
  exact mulf_real _ _ (real_main_v98 A h) (real_main_v76 A h) i

theorem g2 (A : Args Ideal) (h : Good A) : ∀ j, IsReal (Kv.main_v106 Reg.fns A j) := by
  intro j
  unfold Kv.main_v106
  exact reduceAdd_real _ _ _ _ (real_main_v105 A h) (real_main_cst_22 A) j

theorem real_main_v107 (A : Args Ideal) (h : Good A) : ∀ i, IsReal (Kv.main_v107 Reg.fns A i) := by
  intro i
  unfold Kv.main_v107
  exact transpose_all (P := IsReal) _ _ _ h.Wl1 i

theorem real_main_v108 (A : Args Ideal) (h : Good A) : ∀ i, IsReal (Kv.main_v108 Reg.fns A i) := by
  intro i
  unfold Kv.main_v108
  exact transpose_all (P := IsReal) _ _ _ h.W2 i

theorem real_main_v109 (A : Args Ideal) (h : Good A) : ∀ i, IsReal (Kv.main_v109 Reg.fns A i) := by
  intro i
  unfold Kv.main_v109
  exact gy1_real _ _ _ _ _ (real_main_v104 A h) (real_main_v107 A h) (real_main_v108 A h) i

theorem real_main_v116 (A : Args Ideal) (h : Good A) : ∀ i, IsReal (Kv.main_v116 Reg.fns A i) := by
  intro i
  unfold Kv.main_v116
  exact gather_all (P := IsReal) _ _ _ (real_main_v109 A h) i

theorem real_main_v117 (A : Args Ideal) (h : Good A) : ∀ i, IsReal (Kv.main_v117 Reg.fns A i) := by
  intro i
  unfold Kv.main_v117
  exact mulf_real _ _ (real_main_v116 A h) (real_main_v60 A h) i

theorem g1 (A : Args Ideal) (h : Good A) : ∀ j, IsReal (Kv.main_v118 Reg.fns A j) := by
  intro j
  unfold Kv.main_v118
  exact reduceAdd_real _ _ _ _ (real_main_v117 A h) (real_main_cst_25 A) j

end Chain

end Cert.Proof.Fin

end
-- ==== Proof.IdxFacts.lean ====
import proofs.«408045_j39298950758801_3_alg».proof.Proof.FwdEdge
import Idealize.ShloMosaic.Lib.StableHlo.Predicate
import Idealize.ShloMosaic.Lib.ValueIdx

noncomputable section

namespace Cert.Proof.Idx

open Idealize.ShloMosaic

variable [Cert.KernelIdeal.Facts] [Cert.ReferenceIdeal.Facts]

def InR (n : Int) (x : BitVec 32) : Prop := 0 ≤ x.toInt ∧ x.toInt < n

theorem cmpi_slt_zero {x c : BitVec 32} (h : c.toInt ≤ x.toInt) : IntOp.cmpi .slt x c = 0#1 := by
  show BitVec.ofBool (x.slt c) = 0#1
  have e : x.slt c = false := decide_eq_false (by omega)
  rw [e]; rfl

theorem cmpi_sge_one {x c : BitVec 32} (h : c.toInt ≤ x.toInt) : IntOp.cmpi .sge x c = 1#1 := by
  show BitVec.ofBool (c.sle x) = 1#1
  have e : c.sle x = true := decide_eq_true h
  rw [e]; rfl

theorem cmpi_sle_one {x c : BitVec 32} (h : x.toInt ≤ c.toInt) : IntOp.cmpi .sle x c = 1#1 := by
  show BitVec.ofBool (x.sle c) = 1#1
  have e : x.sle c = true := decide_eq_true h
  rw [e]; rfl

theorem toInt_zero32 : (0#32 : BitVec 32).toInt = 0 := by decide
theorem wrap_id {x y : BitVec 32} (h : 0 ≤ x.toInt) : Scalar.select (IntOp.cmpi .slt x 0#32) y x = x := by
  rw [cmpi_slt_zero (by rw [toInt_zero32]; exact h), ValueIdx.select_zero]

theorem inrange_one {x c : BitVec 32} (h0 : 0 ≤ x.toInt) (hc : x.toInt ≤ c.toInt) :
    IntOp.andi (IntOp.cmpi .sge x 0#32) (IntOp.cmpi .sle x c) = 1#1 := by
  rw [cmpi_sge_one (by rw [toInt_zero32]; exact h0), cmpi_sle_one hc]; rfl

theorem foldl_andi_one {ι : Type} (l : List ι) (b : BitVec 1) : l.foldl (fun r _ => IntOp.andi r 1#1) b = b := by
  induction l generalizing b with
  | nil => rfl
  | cons a l ih =>
    rw [List.foldl_cons, ih]
    revert b; decide

theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  obtain rfl : x = fun _ => 1#1 := funext hx
  rw [Host.reduce_eq_foldl, hi]
  exact foldl_andi_one _ _

theorem concatenate_forall {α : Type} (P : α → Prop) (t : Shape) (a : Fin t.rank) (xs : List ((s : Shape) × (s.Idx → α)))
    (h : Shape.Concatenates (xs.map (·.1)) t a) (hP : ∀ p ∈ xs, ∀ i, P (p.2 i)) (j : t.Idx) : P (concatenate t a xs h j) := by
  unfold concatenate
  exact hP _ (List.getElem_mem _) _

theorem broadcastInDim_forall {α : Type} {s t : Shape} (P : α → Prop) (dims : Fin s.rank → Fin t.rank)
    (h : s.BroadcastsInDim t dims) (x : s.Idx → α) (hx : ∀ j, P (x j)) (i : t.Idx) : P (broadcastInDim t dims h x i) := hx _

theorem select_of_ones {α : Type} {s : Shape} (c : IVec s 1) (a b : s.Idx → α) (hc : ∀ i, c i = 1#1) : select c a b = a := by
  funext i
  rw [ValueIdx.select_apply, hc i, ValueIdx.select_one]

theorem mask_one {s t u : Shape} {axes : List (Fin s.rank)} (idx lo hi : IVec s 32) (init : IVec u 1)
    (h : s.ReducesTo axes t) (hu : 0 < u.numel) (N : Int) (c : BitVec 32) (hc : N ≤ c.toInt + 1)
    (hidx : ∀ i, InR N (idx i)) (hlo : ∀ i, lo i = 0#32) (hhi : ∀ i, hi i = c)
    (hinit : init (Shape.Idx.first hu) = 1#1) (j : t.Idx) :
    Host.reduce IntOp.andi (andi (cmpi .sge idx lo) (cmpi .sle idx hi)) init h hu j = 1#1 := by
  refine reduce_andi_one _ _ _ _ j hinit (fun i => ?_)
  show IntOp.andi (IntOp.cmpi .sge (idx i) (lo i)) (IntOp.cmpi .sle (idx i) (hi i)) = 1#1
  rw [hlo, hhi]
  exact inrange_one (hidx i).1 (by have := (hidx i).2; omega)

theorem k1_inR (A : Args Ideal) (h : Good A) (i) : InR 100000 (Kv.main_v1 Reg.fns A i) := h.ei _

theorem k3_inR (A : Args Ideal) (h : Good A) (i) : InR 100000 (Kv.main_v3 Reg.fns A i) := h.ei _

theorem k22_inR (A : Args Ideal) (i) : InR 100000 (Kv.main_v22 Reg.fns A i) := by
  have hlt : (i 0).val < 100000 := (i 0).isLt
  show InR 100000 (BitVec.ofNat 32 (i 0).val)
  unfold InR
  rw [StableHlo.Predicate.toInt_ofNat_small _ (by omega)]
  omega

theorem k23_inR (A : Args Ideal) (h : Good A) (j) : InR 100000 (Kv.main_v23 Reg.fns A j) := by
  unfold Kv.main_v23
  refine concatenate_forall (InR 100000) _ _ _ _ ?_ j
  intro p hp i
  simp only [List.mem_cons, List.not_mem_nil, or_false] at hp
  rcases hp with rfl | rfl
  · exact k1_inR A h i
  · exact k22_inR A i

theorem k24_inR (A : Args Ideal) (h : Good A) (j) : InR 100000 (Kv.main_v24 Reg.fns A j) := by
  unfold Kv.main_v24
  refine concatenate_forall (InR 100000) _ _ _ _ ?_ j
  intro p hp i
  simp only [List.mem_cons, List.not_mem_nil, or_false] at hp
  rcases hp with rfl | rfl
  · exact k3_inR A h i
  · exact k22_inR A i

theorem k38 (A : Args Ideal) (h : Good A) : Kv.main_v38 Reg.fns A = Kv.main_v23 Reg.fns A := by
  funext j
  show Scalar.select (IntOp.cmpi .slt (Kv.main_v23 Reg.fns A j) 0#32) _ (Kv.main_v23 Reg.fns A j) = _
  exact wrap_id (k23_inR A h j).1

theorem k46 (A : Args Ideal) (h : Good A) : Kv.main_v46 Reg.fns A = Kv.main_v24 Reg.fns A := by
  funext j
  show Scalar.select (IntOp.cmpi .slt (Kv.main_v24 Reg.fns A j) 0#32) _ (Kv.main_v24 Reg.fns A j) = _
  exact wrap_id (k24_inR A h j).1

theorem k_rowf_wrap (A : Args Ideal) (h : Good A) : Kv.main_v39 Reg.fns A = Kv.main_v103 Reg.fns A := by
  unfold Kv.main_v39 Kv.main_v103
  rw [k38 A h]
theorem k_colf_wrap (A : Args Ideal) (h : Good A) : Kv.main_v47 Reg.fns A = Kv.main_v28 Reg.fns A := by
  unfold Kv.main_v47 Kv.main_v28
  rw [k46 A h]

theorem r34_inR (A : Args Ideal) (h : Good A) (j) : InR 100000 (Rv.main_v34 A j) := by
  rw [← Fwd.colf]; exact k24_inR A h j

theorem r91_inR (A : Args Ideal) (h : Good A) (j) : InR 100000 (Rv.main_v91 A j) := by
  rw [← Fwd.colf']; exact k24_inR A h j

theorem r39_inR (A : Args Ideal) (h : Good A) (i) : InR 100000 (Rv.main_v39 A i) := by
  unfold Rv.main_v39; exact broadcastInDim_forall (InR 100000) _ _ _ (r34_inR A h) i
theorem r96_inR (A : Args Ideal) (h : Good A) (i) : InR 100000 (Rv.main_v96 A i) := by
  unfold Rv.main_v96; exact broadcastInDim_forall (InR 100000) _ _ _ (r91_inR A h) i
theorem r207 (A : Args Ideal) (h : Good A) (j) : Rv.main_v207 A j = 1#1 := by
  unfold Rv.main_v207 Rv.main_v206 Rv.main_v202 Rv.main_v205
  exact mask_one _ _ _ _ _ _ 100000 99999#32 (by decide) (r96_inR A h) (fun _ => rfl) (fun _ => rfl) rfl j

theorem r250 (A : Args Ideal) (h : Good A) (j) : Rv.main_v250 A j = 1#1 := by
  unfold Rv.main_v250 Rv.main_v249 Rv.main_v245 Rv.main_v248
  exact mask_one _ _ _ _ _ _ 100000 99999#32 (by decide) (r39_inR A h) (fun _ => rfl) (fun _ => rfl) rfl j

theorem r_v210 (A : Args Ideal) (h : Good A) : Rv.main_v210 A = Rv.main_v208 A := by
  unfold Rv.main_v210
  exact select_of_ones _ _ _ (r207 A h)
theorem r_v253 (A : Args Ideal) (h : Good A) : Rv.main_v253 A = Rv.main_v251 A := by
  unfold Rv.main_v253
  exact select_of_ones _ _ _ (r250 A h)
end Cert.Proof.Idx

end
-- ==== Proof.EqFA.lean ====
import Idealize.ShloMosaic.PureOps.Ideal
import Idealize.ShloMosaic.Lib.IdealHost

noncomputable section

namespace Cert.Proof.Alg

open Idealize.ShloMosaic
open scoped BigOperators

abbrev Fin' (x : EReal) : Prop := x ≠ ⊤ ∧ x ≠ ⊥

theorem exists_real {x : EReal} (h : x ≠ ⊤ ∧ x ≠ ⊥) : ∃ r : ℝ, x = (r : EReal) := by
  lift x to ℝ using h
  exact ⟨x, rfl⟩

theorem fin_coe (r : ℝ) : (r : EReal) ≠ ⊤ ∧ (r : EReal) ≠ ⊥ := ⟨EReal.coe_ne_top r, EReal.coe_ne_bot r⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_zero : (0 : EReal) ≠ ⊤ ∧ (0 : EReal) ≠ ⊥ := fin_coe 0

theorem fin_add {x y : EReal} (hx : x ≠ ⊤ ∧ x ≠ ⊥) (hy : y ≠ ⊤ ∧ y ≠ ⊥) : x + y ≠ ⊤ ∧ x + y ≠ ⊥ := by
  obtain ⟨a, rfl⟩ := exists_real hx
  obtain ⟨b, rfl⟩ := exists_real hy
  rw [← EReal.coe_add]; exact fin_coe _

theorem fin_mul {x y : EReal} (hx : x ≠ ⊤ ∧ x ≠ ⊥) (hy : y ≠ ⊤ ∧ y ≠ ⊥) : x * y ≠ ⊤ ∧ x * y ≠ ⊥ := by
  obtain ⟨a, rfl⟩ := exists_real hx
  obtain ⟨b, rfl⟩ := exists_real hy
  rw [← EReal.coe_mul]; exact fin_coe _

theorem fin_sum {ι : Type*} (s : Finset ι) (f : ι → EReal) (h : ∀ i, f i ≠ ⊤ ∧ f i ≠ ⊥) :
    (∑ i ∈ s, f i) ≠ ⊤ ∧ (∑ i ∈ s, f i) ≠ ⊥ := by
  choose g hg using fun i => exists_real (h i)
  obtain rfl : f = fun i => (g i : EReal) := funext hg
  rw [← coe_sum]; exact fin_coe _

theorem node {J : Type*} (s t : Finset J) (G1 G2 W A C : J → EReal) (K : EReal)
    (h1 : ∀ j, G1 j ≠ ⊤ ∧ G1 j ≠ ⊥) (h2 : ∀ j, G2 j ≠ ⊤ ∧ G2 j ≠ ⊥) (hW : ∀ j, W j ≠ ⊤ ∧ W j ≠ ⊥)
    (hA : ∀ j, A j ≠ ⊤ ∧ A j ≠ ⊥) (hC : ∀ j, C j ≠ ⊤ ∧ C j ≠ ⊥) (hK : K ≠ ⊤ ∧ K ≠ ⊥) :
    ((0 + ∑ j ∈ s, ((G1 j + G2 j) * W j) * C j) + (0 + ∑ j ∈ t, ((G1 j + G2 j) * W j) * A j)) * K
      = ((0 + ∑ j ∈ t, (A j * W j) * G2 j) + (0 + ∑ j ∈ s, (G2 j * C j) * W j)) * K
        + ((0 + ∑ j ∈ t, (A j * W j) * G1 j) + (0 + ∑ j ∈ s, (G1 j * C j) * W j)) * K := by
  choose g1 hg1 using fun j => exists_real (h1 j)
  choose g2 hg2 using fun j => exists_real (h2 j)
  choose w hw using fun j => exists_real (hW j)
  choose a ha using fun j => exists_real (hA j)
  choose c hc using fun j => exists_real (hC j)
  obtain ⟨k, rfl⟩ := exists_real hK
  obtain rfl : G1 = fun j => (g1 j : EReal) := funext hg1
  obtain rfl : G2 = fun j => (g2 j : EReal) := funext hg2
  obtain rfl : W = fun j => (w j : EReal) := funext hw
  obtain rfl : A = fun j => (a j : EReal) := funext ha
  obtain rfl : C = fun j => (c j : EReal) := funext hc
  simp only [← EReal.coe_add, ← EReal.coe_mul, ← coe_sum, zero_add]
  have es : ∑ j ∈ s, (g1 j + g2 j) * w j * c j = ∑ j ∈ s, g2 j * c j * w j + ∑ j ∈ s, g1 j * c j * w j := by
    rw [← Finset.sum_add_distrib]; exact Finset.sum_congr rfl (fun j _ => by ring)
  have et : ∑ j ∈ t, (g1 j + g2 j) * w j * a j = ∑ j ∈ t, a j * w j * g2 j + ∑ j ∈ t, a j * w j * g1 j := by
    rw [← Finset.sum_add_distrib]; exact Finset.sum_congr rfl (fun j _ => by ring)
  rw [es, et]
  congr 1
  ring

theorem direct {g1 g2 a c : EReal} (h1 : g1 ≠ ⊤ ∧ g1 ≠ ⊥) (h2 : g2 ≠ ⊤ ∧ g2 ≠ ⊥) (ha : a ≠ ⊤ ∧ a ≠ ⊥)
    (hc : c ≠ ⊤ ∧ c ≠ ⊥) : ((g1 + g2) * a) * c = a * (g2 * c) + a * (g1 * c) := by
  obtain ⟨g1, rfl⟩ := exists_real h1
  obtain ⟨g2, rfl⟩ := exists_real h2
  obtain ⟨a, rfl⟩ := exists_real ha
  obtain ⟨c, rfl⟩ := exists_real hc
  simp only [← EReal.coe_add, ← EReal.coe_mul]
  congr 1
  ring

theorem half_lit : Ideal.ofBits .f32 0x3F000000#32 = (((1 : ℝ) / 2 : ℝ) : EReal) := by
  simp [Ideal.ofBits, Ideal.ieee, -EReal.coe_mul]; norm_num

theorem neg_half_lit : Ideal.ofBits .f32 0xBF000000#32 = ((-((1 : ℝ) / 2) : ℝ) : EReal) := by
  simp [Ideal.ofBits, Ideal.ieee, -EReal.coe_mul, -EReal.coe_neg]; norm_num

theorem pull_len {G d l : EReal} (hG : G ≠ ⊤ ∧ G ≠ ⊥) (hd : d ≠ ⊤ ∧ d ≠ ⊥) (hl : l ≠ ⊤ ∧ l ≠ ⊥) (hpos : 0 < l) :
    Ideal.div (G * d) l
      = d * (G * Ideal.div (Ideal.ofBits .f32 0x3F000000#32) l) + (G * Ideal.div (Ideal.ofBits .f32 0x3F000000#32) l) * d := by
  obtain ⟨G, rfl⟩ := exists_real hG
  obtain ⟨d, rfl⟩ := exists_real hd
  obtain ⟨l, rfl⟩ := exists_real hl
  have hl0 : l ≠ 0 := by
    have : (0 : ℝ) < l := by exact_mod_cast hpos
    exact ne_of_gt this
  rw [half_lit, Ideal.div_coe hl0, Ideal.div_coe hl0]
  simp only [← EReal.coe_add, ← EReal.coe_mul]
  congr 1
  field_simp
  ring

theorem mul_div_assoc' {h r d : EReal} (hd : d ≠ ⊤ ∧ d ≠ ⊥) (hd0 : d ≠ 0) :
    Ideal.div (h * r) d = h * Ideal.div r d := by
  obtain ⟨d, rfl⟩ := exists_real hd
  have : d ≠ 0 := by intro e; exact hd0 (by rw [e]; rfl)
  rw [Ideal.div_coe this, Ideal.div_coe this, mul_assoc]

theorem fin_div {x d : EReal} (hx : x ≠ ⊤ ∧ x ≠ ⊥) (hd : d ≠ ⊤ ∧ d ≠ ⊥) (hd0 : d ≠ 0) :
    Ideal.div x d ≠ ⊤ ∧ Ideal.div x d ≠ ⊥ := by
  obtain ⟨d, rfl⟩ := exists_real hd
  have : d ≠ 0 := by intro e; exact hd0 (by rw [e]; rfl)
  rw [Ideal.div_coe this]
  exact fin_mul hx (fin_coe _)

theorem regroup (x2 x1 n2 n1 : EReal) : (x2 + x1) + (n2 + n1) = (x2 + n2) + (x1 + n1) := add_add_add_comm x2 x1 n2 n1

end Cert.Proof.Alg

end
-- ==== Proof.EqFB.lean ====
import proofs.«408045_j39298950758801_3_alg».proof.Proof.EqFA
import Idealize.ShloMosaic.Lib.ValueIdx
import Idealize.ShloMosaic.Lib.IdealHost
import Idealize.ShloMosaic.Lib.Pipeline.Value

noncomputable section

namespace Cert.Proof.Tot

open Idealize.ShloMosaic Idealize.ShloMosaic.ValueIdx
open scoped BigOperators

abbrev zeroV (s : Shape) : FVec Ideal s .f32 := fun _ => (0 : EReal)

section
variable {s si u : Shape} {w : Nat} (dS : ScatterDims s si u) (dG : GatherDims s si u)

theorem gather_apply {α : Type} (x : s.Idx → α) (idx : IVec si w) (j : u.Idx) :
    Host.gather dG x idx j = x (dG.operandIdx j idx) := rfl

theorem scatter_sum (idx : IVec si w) (i : s.Idx) : ∃ S : Finset u.Idx,
    ∀ (x : FVec Ideal s .f32) (upd : FVec Ideal u .f32), Host.scatterAdd dS x idx upd i = x i + ∑ j ∈ S, upd j :=
  ⟨_, fun _ _ => rfl⟩

def totK (g1 g2 wt a c : FVec Ideal u .f32) (kap : FVec Ideal s .f32) (IR IC : IVec si w) : FVec Ideal u .f32 :=
  addf (mulf (mulf (addf g1 g2) a) c)
    (Host.gather dG (mulf (addf (Host.scatterAdd dS (zeroV s) IR (mulf (mulf (addf g1 g2) wt) c))
      (Host.scatterAdd dS (zeroV s) IC (mulf (mulf (addf g1 g2) wt) a))) kap) IC)

def totR (g wt a c : FVec Ideal u .f32) (dpos : IVec s 1) (gam : FVec Ideal s .f32) (IR IC : IVec si w) : FVec Ideal u .f32 :=
  addf (mulf a (mulf g c))
    (Host.gather dG (mulf (select dpos (addf (Host.scatterAdd dS (zeroV s) IC (mulf (mulf a wt) g))
      (Host.scatterAdd dS (zeroV s) IR (mulf (mulf g c) wt))) (zeroV s)) gam) IC)

variable (g1 g2 wt a c : FVec Ideal u .f32) (kap gam : FVec Ideal s .f32) (dpos : IVec s 1) (IR IC : IVec si w)

theorem tot_eq (h1 : ∀ j, Alg.Fin' (g1 j)) (h2 : ∀ j, Alg.Fin' (g2 j)) (hw : ∀ j, Alg.Fin' (wt j))
    (ha : ∀ j, Alg.Fin' (a j)) (hc : ∀ j, Alg.Fin' (c j)) (hk : ∀ n, Alg.Fin' (kap n))
    (hkg : ∀ n, kap n = gam n) (hd : ∀ n, dpos n = 1#1) :
    totK dS dG g1 g2 wt a c kap IR IC
      = addf (totR dS dG g2 wt a c dpos gam IR IC) (totR dS dG g1 wt a c dpos gam IR IC) := by
  funext j
  obtain ⟨SR, hSR⟩ := scatter_sum dS IR (dG.operandIdx j IC)
  obtain ⟨SC, hSC⟩ := scatter_sum dS IC (dG.operandIdx j IC)
  simp only [totK, totR, addf_apply, mulf_apply, select_apply, gather_apply, hSR, hSC, hd, select_one, ← hkg, zeroV]
  exact (congrArg₂ (· + ·) (Alg.direct (h1 j) (h2 j) (ha j) (hc j))
    (Alg.node SR SC g1 g2 wt a c (kap (dG.operandIdx j IC)) h1 h2 hw ha hc (hk _))).trans (Alg.regroup _ _ _ _)

theorem totK_fin (h1 : ∀ j, Alg.Fin' (g1 j)) (h2 : ∀ j, Alg.Fin' (g2 j)) (hw : ∀ j, Alg.Fin' (wt j))
    (ha : ∀ j, Alg.Fin' (a j)) (hc : ∀ j, Alg.Fin' (c j)) (hk : ∀ n, Alg.Fin' (kap n)) (j : u.Idx) :
    Alg.Fin' (totK dS dG g1 g2 wt a c kap IR IC j) := by
  obtain ⟨SR, hSR⟩ := scatter_sum dS IR (dG.operandIdx j IC)
  obtain ⟨SC, hSC⟩ := scatter_sum dS IC (dG.operandIdx j IC)
  simp only [totK, addf_apply, mulf_apply, gather_apply, hSR, hSC, zeroV]
  have hg : ∀ j, Alg.Fin' (g1 j + g2 j) := fun j => Alg.fin_add (h1 j) (h2 j)
  exact Alg.fin_add (Alg.fin_mul (Alg.fin_mul (hg j) (ha j)) (hc j))
    (Alg.fin_mul (Alg.fin_add
      (Alg.fin_add Alg.fin_zero (Alg.fin_sum SR _ fun j => Alg.fin_mul (Alg.fin_mul (hg j) (hw j)) (hc j)))
      (Alg.fin_add Alg.fin_zero (Alg.fin_sum SC _ fun j => Alg.fin_mul (Alg.fin_mul (hg j) (hw j)) (ha j)))) (hk _))

end

section Force
variable {s si u : Shape} {w : Nat} (d : ScatterDims s si u)

theorem hneg_apply {t : Shape} (x : FVec Ideal t .f32) (i : t.Idx) : Host.negf x i = -(x i) := rfl

theorem force_shape (Ir Ic : IVec si w) (r : FVec Ideal u .f32) :
    Host.negf (Host.scatterAdd d (Host.scatterAdd d (zeroV s) Ir r) Ic (Host.negf r))
      = Host.negf (addf (Host.scatterAdd d (zeroV s) Ic (Host.negf r)) (Host.scatterAdd d (zeroV s) Ir r)) := by
  funext i
  obtain ⟨SR, hSR⟩ := scatter_sum d Ir i
  obtain ⟨SC, hSC⟩ := scatter_sum d Ic i
  simp only [hneg_apply, addf_apply, hSR, hSC, zeroV]
  rw [zero_add, zero_add, add_comm]

end Force

section Broadcast

theorem bcast_col {α : Type} {n m : Nat} (hn : n ≠ 1)
    (h : (⟨1, ![n]⟩ : Shape).BroadcastsInDim ⟨2, ![n, m]⟩ ![0]) (v : (⟨1, ![n]⟩ : Shape).Idx → α)
    (i : (⟨2, ![n, m]⟩ : Shape).Idx) : broadcastInDim ⟨2, ![n, m]⟩ ![0] h v i = v (ix1 (i 0)) := by
  refine broadcastInDim_apply _ h v i _ (fun a => ?_)
  match a with
  | ⟨0, _⟩ => exact (if_neg (c := n = 1) hn).symm

theorem bcast_row {α : Type} {n m : Nat} (hn : n ≠ 1)
    (h : (⟨2, ![n, 1]⟩ : Shape).BroadcastsInDim ⟨2, ![n, m]⟩ ![0, 1]) (v : (⟨2, ![n, 1]⟩ : Shape).Idx → α)
    (i : (⟨2, ![n, m]⟩ : Shape).Idx) : broadcastInDim ⟨2, ![n, m]⟩ ![0, 1] h v i = v (ix2 (i 0) 0) := by
  refine broadcastInDim_apply _ h v i _ (fun a => ?_)
  match a with
  | ⟨0, _⟩ => exact (if_neg (c := n = 1) hn).symm
  | ⟨1, _⟩ => exact (if_pos (c := (1 : Nat) = 1) rfl).symm

theorem bcast_mkcol {α : Type} {n : Nat} (hn : n ≠ 1)
    (h : (⟨1, ![n]⟩ : Shape).BroadcastsInDim ⟨2, ![n, 1]⟩ ![0]) (v : (⟨1, ![n]⟩ : Shape).Idx → α)
    (i : (⟨2, ![n, 1]⟩ : Shape).Idx) : broadcastInDim ⟨2, ![n, 1]⟩ ![0] h v i = v (ix1 (i 0)) :=
  bcast_col hn h v i

end Broadcast

end Cert.Proof.Tot

end
-- ==== Proof.EqF.lean ====
import proofs.«408045_j39298950758801_3_alg».proof.Proof.Bwd
import proofs.«408045_j39298950758801_3_alg».proof.Proof.FinG
import proofs.«408045_j39298950758801_3_alg».proof.Proof.IdxFacts
import proofs.«408045_j39298950758801_3_alg».proof.Proof.EqFB

noncomputable section

namespace Cert.Proof

open Idealize.ShloMosaic Idealize.ShloMosaic.ValueIdx

namespace EqF

section
variable [Cert.KernelIdeal.Facts] [Cert.ReferenceIdeal.Facts]

theorem bzero {T : Shape} (h : (⟨0, ![]⟩ : Shape).BroadcastsInDim T ![]) :
    broadcastInDim T ![] h (constant (F := Ideal) ⟨0, ![]⟩ .f32 0x00000000#32) = Tot.zeroV T := by
  funext j
  rw [broadcastInDim_scalar_apply, constant_apply, Ideal.ofBits_zero_f32]

abbrev dS := Cert.KernelIdeal.scatter_S100000_S3300000x1_S3300000_n_0_0_1
abbrev dG := Cert.KernelIdeal.gather_S100000_S3300000x1_S3300000_n_0_n_n_0_1_1

theorem kz154 (A : Args Ideal) : Kv.main_v154 Reg.fns A = Tot.zeroV _ := by
  unfold Kv.main_v154 Kv.main_cst_34; exact bzero _
theorem kz157 (A : Args Ideal) : Kv.main_v157 Reg.fns A = Tot.zeroV _ := by
  unfold Kv.main_v157 Kv.main_cst_35; exact bzero _

def gamK (A : Args Ideal) : FVec Ideal Cert.KernelIdeal.S100000 .f32 :=
  mulf (Kv.main_v163 Reg.fns A) (Host.divf (Kv.main_v32 Reg.fns A) (Kv.main_v29 Reg.fns A))

theorem r104 (A : Args Ideal) : Rv.main_v104 A = gamK A := by
  unfold Rv.main_v104 Rv.main_v102 gamK
  rw [← Fwd.v32' A, ← Fwd.deg' A]
  rfl

theorem r47 (A : Args Ideal) : Rv.main_v47 A = gamK A := by
  unfold Rv.main_v47 Rv.main_v45 gamK
  rw [← Fwd.v32 A, ← Fwd.deg A]
  rfl

theorem k175 (A : Args Ideal) (h : Good A) :
    Kv.main_v175 Reg.fns A = Tot.totK dS dG (Kv.main_v118 Reg.fns A) (Kv.main_v106 Reg.fns A) (Kv.main_v26 Reg.fns A) (Kv.main_v40 Reg.fns A) (Kv.main_v48 Reg.fns A)
      (Kv.main_v166 Reg.fns A) (Kv.main_v39 Reg.fns A) (Kv.main_v47 Reg.fns A) := by
  have e126 : Kv.main_v126 Reg.fns A = Kv.main_v40 Reg.fns A := by unfold Kv.main_v126 Kv.main_v40; rw [Fwd.k125]
  have e152 : Kv.main_v152 Reg.fns A = Kv.main_v40 Reg.fns A := by unfold Kv.main_v152 Kv.main_v40; rw [Fwd.k151]
  have e134 : Kv.main_v134 Reg.fns A = Kv.main_v48 Reg.fns A := by unfold Kv.main_v134 Kv.main_v48; rw [Fwd.k133]
  have e143 : Kv.main_v143 Reg.fns A = Kv.main_v48 Reg.fns A := by unfold Kv.main_v143 Kv.main_v48; rw [Fwd.k142]
  unfold Kv.main_v175 Kv.main_v135 Kv.main_v127 Kv.main_v174 Kv.main_v167 Kv.main_v160 Kv.main_v156 Kv.main_v159
    Kv.main_v144 Kv.main_v153 Kv.main_v136 Kv.main_v145 Kv.main_v119
  rw [e126, e152, e134, e143, Fwd.k155, Fwd.k158, Fwd.k173, ← Idx.k_rowf_wrap A h, ← Idx.k_colf_wrap A h, kz154, kz157]
  rfl

theorem rz192 (A : Args Ideal) : Rv.main_v192 A = Tot.zeroV _ := by
  unfold Rv.main_v192 Rv.main_cst_55; exact bzero _
theorem rz196 (A : Args Ideal) : Rv.main_v196 A = Tot.zeroV _ := by
  unfold Rv.main_v196 Rv.main_cst_56; exact bzero _
theorem rzc10 (A : Args Ideal) : Rv.main_call10_v0 A = Tot.zeroV _ := by
  unfold Rv.main_call10_v0 Rv.main_call10_cst; exact bzero _
theorem rz235 (A : Args Ideal) : Rv.main_v235 A = Tot.zeroV _ := by
  unfold Rv.main_v235 Rv.main_cst_67; exact bzero _
theorem rz239 (A : Args Ideal) : Rv.main_v239 A = Tot.zeroV _ := by
  unfold Rv.main_v239 Rv.main_cst_68; exact bzero _
theorem rzc13 (A : Args Ideal) : Rv.main_call13_v0 A = Tot.zeroV _ := by
  unfold Rv.main_call13_v0 Rv.main_call13_cst; exact bzero _

theorem r211 (A : Args Ideal) (h : Good A) :
    Rv.main_v211 A = Tot.totR dS dG (Kv.main_v106 Reg.fns A) (Kv.main_v26 Reg.fns A) (Kv.main_v40 Reg.fns A) (Kv.main_v48 Reg.fns A) (Kv.main_v31 Reg.fns A) (gamK A)
      (Kv.main_v39 Reg.fns A) (Kv.main_v47 Reg.fns A) := by
  unfold Rv.main_v211
  rw [Idx.r_v210 A h]
  unfold Rv.main_v208 Rv.main_v200 Rv.main_v199 Rv.main_v198 Rv.main_v193 Rv.main_v197 Rv.main_v194 Rv.main_v195
    Rv.main_v191 Rv.main_v190
  rw [← Fwd.v40' A, ← Fwd.v48' A, ← Fwd.v41' A, ← Fwd.wf' A, ← Fwd.v47' A, ← Fwd.v39' A, ← Fwd.v28' A, ← Fwd.v31' A,
    ← Bwd.gn2 A h, ← Idx.k_colf_wrap A h, r104 A, rz192, rz196, rzc10]
  unfold Kv.main_v41
  rfl

theorem r254 (A : Args Ideal) (h : Good A) :
    Rv.main_v254 A = Tot.totR dS dG (Kv.main_v118 Reg.fns A) (Kv.main_v26 Reg.fns A) (Kv.main_v40 Reg.fns A) (Kv.main_v48 Reg.fns A) (Kv.main_v31 Reg.fns A) (gamK A)
      (Kv.main_v39 Reg.fns A) (Kv.main_v47 Reg.fns A) := by
  unfold Rv.main_v254
  rw [Idx.r_v253 A h]
  unfold Rv.main_v251 Rv.main_v243 Rv.main_v242 Rv.main_v241 Rv.main_v236 Rv.main_v240 Rv.main_v237 Rv.main_v238
    Rv.main_v234 Rv.main_v233
  rw [← Fwd.v40 A, ← Fwd.v48 A, ← Fwd.v41 A, ← Fwd.wf A, ← Fwd.v47 A, ← Fwd.v39 A, ← Fwd.v28 A, ← Fwd.v31 A,
    ← Bwd.gn1 A h, ← Idx.k_colf_wrap A h, r47 A, rz235, rz239, rzc13]
  unfold Kv.main_v41
  rfl

structure Reals (A : Args Ideal) : Prop where
  g1 : ∀ j, IsReal (Kv.main_v118 Reg.fns A j)
  g2 : ∀ j, IsReal (Kv.main_v106 Reg.fns A j)
  w : ∀ j, IsReal (Kv.main_v26 Reg.fns A j)
  dinv : ∀ n, IsReal (Kv.main_v33 Reg.fns A n)
  deg : ∀ n, IsReal (Kv.main_v29 Reg.fns A n)
  degpos : ∀ n, (0 : EReal) < Kv.main_v29 Reg.fns A n
  diff : ∀ i, IsReal (Kv.main_v18 Reg.fns A i)
  len : ∀ e, IsReal (Kv.main_v21 Reg.fns A e)
  lenpos : ∀ e, (0 : EReal) < Kv.main_v21 Reg.fns A e

theorem cmp_ogt_pos {x : EReal} (h : 0 < x) : FloatOps.cmpf (F := Ideal) (φ := .f32) .ogt x 0 = 1#1 := by
  show BitVec.ofBool (decide (0 < x)) = 1#1
  rw [decide_eq_true h]; rfl

theorem kz30 (A : Args Ideal) : Kv.main_v30 Reg.fns A = Tot.zeroV _ := by
  unfold Kv.main_v30 Kv.main_cst_5; exact bzero _
theorem kz161 (A : Args Ideal) : Kv.main_v161 Reg.fns A = Tot.zeroV _ := by
  unfold Kv.main_v161 Kv.main_cst_36; exact bzero _

section
variable {A : Args Ideal} (hr : Reals A)
include hr

theorem hd (n) : Kv.main_v31 Reg.fns A n = 1#1 := by
  have hp := hr.degpos n
  unfold Kv.main_v31
  rw [cmpf_apply, kz30]
  generalize Kv.main_v29 Reg.fns A n = x at hp ⊢
  exact cmp_ogt_pos hp

theorem hd' (n) : Kv.main_v162 Reg.fns A n = 1#1 := by
  have hp := hr.degpos n
  unfold Kv.main_v162
  rw [cmpf_apply, kz161]
  generalize Kv.main_v29 Reg.fns A n = x at hp ⊢
  exact cmp_ogt_pos hp

theorem dinv_eq (n) : Kv.main_v33 Reg.fns A n = Kv.main_v32 Reg.fns A n := by
  unfold Kv.main_v33
  rw [select_apply, hd hr n, select_one]

theorem half_fin (n) : Alg.Fin' (Kv.main_v163 Reg.fns A n) := by
  unfold Kv.main_v163 Kv.main_cst_37
  rw [broadcastInDim_scalar_apply, constant_apply, Alg.neg_half_lit]
  exact Alg.fin_coe _

theorem kap_eq (n) : Kv.main_v166 Reg.fns A n = gamK A n := by
  unfold Kv.main_v166
  rw [select_apply, hd' hr n, select_one]
  unfold Kv.main_v165
  rw [hostDivf_apply]
  unfold Kv.main_v164
  rw [mulf_apply, dinv_eq hr n]
  unfold gamK
  rw [mulf_apply, hostDivf_apply]
  exact Alg.mul_div_assoc' (hr.deg n) (ne_of_gt (hr.degpos n))

theorem kap_fin (n) : Alg.Fin' (Kv.main_v166 Reg.fns A n) := by
  rw [kap_eq hr n]
  unfold gamK
  rw [mulf_apply, hostDivf_apply]
  refine Alg.fin_mul (half_fin hr n) (Alg.fin_div ?_ (hr.deg n) (ne_of_gt (hr.degpos n)))
  rw [← dinv_eq hr n]
  exact hr.dinv n

theorem a_fin (j) : Alg.Fin' (Kv.main_v40 Reg.fns A j) := by
  have hx := hr.dinv
  unfold Kv.main_v40
  generalize Kv.main_v33 Reg.fns A = x at hx ⊢
  exact hx _

theorem c_fin (j) : Alg.Fin' (Kv.main_v48 Reg.fns A j) := by
  have hx := hr.dinv
  unfold Kv.main_v48
  generalize Kv.main_v33 Reg.fns A = x at hx ⊢
  exact hx _

theorem tot (h : Good A) : Kv.main_v175 Reg.fns A = addf (Rv.main_v211 A) (Rv.main_v254 A) := by
  rw [k175 A h, r211 A h, r254 A h]
  exact Tot.tot_eq dS dG _ _ _ _ _ _ (gamK A) (Kv.main_v31 Reg.fns A) _ _ hr.g1 hr.g2 hr.w (a_fin hr) (c_fin hr) (kap_fin hr)
    (kap_eq hr) (hd hr)

theorem fin175 (h : Good A) (j) : Alg.Fin' (Kv.main_v175 Reg.fns A j) := by
  rw [k175 A h]
  exact Tot.totK_fin dS dG _ _ _ _ _ _ _ _ hr.g1 hr.g2 hr.w (a_fin hr) (c_fin hr) (kap_fin hr) j

omit hr in
theorem ess_addf {s t : Shape} (off : Fin s.rank → Nat) (h h1 h2 : s.Slices off t) (x y : FVec Ideal s .f32) :
    extractStridedSlice t off (addf x y) h = addf (extractStridedSlice t off x h1) (extractStridedSlice t off y h2) := rfl

theorem s176 (h : Good A) : Kv.main_v176 Reg.fns A = Rv.main_v257 A := by
  unfold Kv.main_v176 Rv.main_v257 Rv.main_v212 Rv.main_v255
  rw [tot hr h]
  generalize Rv.main_v211 A = x
  generalize Rv.main_v254 A = y
  exact ess_addf _ _ _ _ x y

theorem fin176 (h : Good A) (e) : Alg.Fin' (Kv.main_v176 Reg.fns A e) := by
  have hx := fin175 hr h
  unfold Kv.main_v176
  generalize Kv.main_v175 Reg.fns A = x at hx ⊢
  exact hx _

end

theorem r22 (A : Args Ideal) (e) : Rv.main_v22 A e = Ideal.ofBits .f32 0x3F000000#32 := by
  unfold Rv.main_v22 Rv.main_cst_3
  rw [broadcastInDim_scalar_apply, constant_apply]

theorem ne1 : (3200000 : Nat) ≠ 1 := by decide

theorem bcast_two {α : Type} {n m : Nat} (hn : n ≠ 1)
    (h1 : (⟨1, ![n]⟩ : Shape).BroadcastsInDim ⟨2, ![n, 1]⟩ ![0])
    (h2 : (⟨2, ![n, 1]⟩ : Shape).BroadcastsInDim ⟨2, ![n, m]⟩ ![0, 1]) (v : (⟨1, ![n]⟩ : Shape).Idx → α)
    (i : (⟨2, ![n, m]⟩ : Shape).Idx) :
    broadcastInDim ⟨2, ![n, m]⟩ ![0, 1] h2 (broadcastInDim ⟨2, ![n, 1]⟩ ![0] h1 v) i = v (ix1 (i 0)) := by
  rw [Tot.bcast_row hn, Tot.bcast_mkcol hn]
  rfl

theorem kz183 (A : Args Ideal) : Kv.main_v183 Reg.fns A = Tot.zeroV _ := by
  unfold Kv.main_v183 Kv.main_cst_41; exact bzero _
theorem rz264 (A : Args Ideal) : Rv.main_v264 A = Tot.zeroV _ := by
  unfold Rv.main_v264 Rv.main_cst_73; exact bzero _
theorem rz266 (A : Args Ideal) : Rv.main_v266 A = Tot.zeroV _ := by
  unfold Rv.main_v266 Rv.main_cst_74; exact bzero _

abbrev d3 := Cert.KernelIdeal.scatter_S100000x3_S3200000x1_S3200000x3_1_0_0_1

section
variable {A : Args Ideal} (hr : Reals A)
include hr

theorem rq (h : Good A) : Kv.main_v182 Reg.fns A = Rv.main_v262 A := by
  funext i
  have e178 : Kv.main_v178 Reg.fns A i = Kv.main_v176 Reg.fns A (ix1 (i 0)) := by
    unfold Kv.main_v178 Kv.main_v177
    generalize Kv.main_v176 Reg.fns A = v
    exact bcast_two ne1 _ _ v i
  have e181 : Kv.main_v181 Reg.fns A i = Kv.main_v21 Reg.fns A (ix1 (i 0)) := by
    unfold Kv.main_v181 Kv.main_v180
    generalize Kv.main_v21 Reg.fns A = v
    exact bcast_two ne1 _ _ v i
  have e259 : Rv.main_v259 A i = Rv.main_v258 A (ix1 (i 0)) := by
    unfold Rv.main_v259
    generalize Rv.main_v258 A = v
    exact Tot.bcast_col ne1 _ v i
  have e258 : Rv.main_v258 A (ix1 (i 0))
      = Kv.main_v176 Reg.fns A (ix1 (i 0)) * Ideal.div (Ideal.ofBits .f32 0x3F000000#32) (Kv.main_v21 Reg.fns A (ix1 (i 0))) := by
    unfold Rv.main_v258 Rv.main_v23
    rw [mulf_apply, hostDivf_apply, r22, ← s176 hr h, ← Fwd.ea A]
  unfold Kv.main_v182 Rv.main_v262 Rv.main_v260 Rv.main_v261 Kv.main_v179
  rw [hostDivf_apply, addf_apply, mulf_apply, mulf_apply, mulf_apply, e178, e181, e259, e258, ← Fwd.diff A]
  have hG := fin176 hr h (ix1 (i 0))
  have hd := hr.diff i
  have hl := hr.len (ix1 (i 0))
  have hp := hr.lenpos (ix1 (i 0))
  generalize Kv.main_v176 Reg.fns A (ix1 (i 0)) = G at hG ⊢
  generalize Kv.main_v18 Reg.fns A i = d at hd ⊢
  generalize Kv.main_v21 Reg.fns A (ix1 (i 0)) = l at hl hp ⊢
  exact Alg.pull_len hG hd hl hp

theorem force (h : Good A) : Kv.main_v199 Reg.fns A = Rv.main_v269 A := by
  unfold Kv.main_v199 Kv.main_v198 Kv.main_v190 Kv.main_v191 Rv.main_v269 Rv.main_v268 Rv.main_v265 Rv.main_v267 Rv.main_v263
  rw [kz183, rz264, rz266, ← Fwd.v189 A, ← Fwd.v197 A, rq hr h]
  generalize Rv.main_v262 A = r
  generalize Kv.main_v189 Reg.fns A = Ir
  generalize Kv.main_v197 Reg.fns A = Ic
  exact Tot.force_shape d3 Ir Ic r

end

end

end EqF

theorem F_eq [Cert.KernelIdeal.Facts] [Cert.ReferenceIdeal.Facts] (A : Args Ideal) (h : Good A) : Kv.main_v199 Reg.fns A = Rv.main_v269 A := by
  exact EqF.force ⟨Fin.g1 A h, Fin.g2 A h, Fin.real_w A h, Fin.real_dinv A h, Fin.real_deg A h, Fin.deg_pos A h,
    Fin.real_diff A h, Fin.real_len A h, Fin.len_pos A h⟩ h

end Cert.Proof

end
-- ==== Proof.lean ====
import proofs.«408045_j39298950758801_3_alg».proof.Defs
import proofs.«408045_j39298950758801_3_alg».proof.Proof.Gen.Kernel
import proofs.«408045_j39298950758801_3_alg».proof.Proof.Gen.Kernel.Frame
import proofs.«408045_j39298950758801_3_alg».proof.Proof.Gen.KernelIdeal
import proofs.«408045_j39298950758801_3_alg».proof.Proof.Gen.KernelIdeal.Frame
import proofs.«408045_j39298950758801_3_alg».proof.Proof.Gen.ReferenceIdeal
import proofs.«408045_j39298950758801_3_alg».proof.Proof.Gen.Pre_finite_inputs
import proofs.«408045_j39298950758801_3_alg».proof.Proof.RefRun
import proofs.«408045_j39298950758801_3_alg».proof.Proof.KerRun
import proofs.«408045_j39298950758801_3_alg».proof.Proof.PreDecode
import proofs.«408045_j39298950758801_3_alg».proof.Proof.EqE
import proofs.«408045_j39298950758801_3_alg».proof.Proof.EqF
import Idealize.ShloMosaic.Adequacy
import Idealize.ShloMosaic.Init

noncomputable section

namespace Cert.Proof

open Idealize.ShloMosaic Idealize.SL.Sem

theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    refArgs m' c = kerArgs m c := by
  obtain ⟨h0, h1, h2, h3, h4, h5, h6, h7, h8, h9, h10, h11, h12, h13, h14⟩ := h
  unfold refArgs kerArgs
  rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts, by
  letI := Cert.Kernel.Gen.facts
  letI := Cert.KernelIdeal.Gen.facts
  letI := Cert.ReferenceIdeal.Gen.facts
  letI := Cert.Pre_finite_inputs.Gen.facts
  refine ⟨fun m ρ _ => Cert.Kernel.Gen.frame m ρ, fun m ρ _ => Cert.KernelIdeal.Gen.frame m ρ, ?_, trivial, ?_⟩
  · intro m ρ _
    exact (θ_run Cert.ReferenceIdeal.defs _ _).mono (fun _ h c => (h c).2.2) (Ref.run m ρ)
  · intro m ρ m' ρ' hpre hag
    refine ⟨fun c => Kv.main_v91 Reg.fns (kerArgs m c), fun c => Kv.main_v199 Reg.fns (kerArgs m c), Ker.run m ρ, ?_⟩
    refine (θ_run Cert.ReferenceIdeal.defs _ _).mono (fun _ h c => ?_) (Ref.run m' ρ')
    have hA := args_agree m m' c (hag c)
    have hG := good_of_pre m hpre c
    refine ⟨?_, ?_, (h c).2.2⟩
    · rw [(h c).1, hA]; exact (E_eq _ hG).symm
    · rw [(h c).2.1, hA]; exact (F_eq _ hG).symm⟩

end Cert.Proof

end
